-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38)) (m ((c.tc : Thread Cert.Kernel.nD Cert.Kernel.τ).loc Cert.Kernel.main_arg39)) (m ((c.tc : Thread Cert.Kernel.nD Cert.Kernel.τ).loc Cert.Kernel.main_arg40)) (m ((c.tc : Thread Cert.Kernel.nD Cert.Kernel.τ).loc Cert.Kernel.main_arg41))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) (m ((c.tc : Thread Cert.KernelIdeal.nD Cert.KernelIdeal.τ).loc Cert.KernelIdeal.main_arg40)) (m ((c.tc : Thread Cert.KernelIdeal.nD Cert.KernelIdeal.τ).loc Cert.KernelIdeal.main_arg41))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39)) (m ((c.tc : Thread Cert.ReferenceIdeal.nD Cert.ReferenceIdeal.τ).loc Cert.ReferenceIdeal.main_arg40)) (m ((c.tc : Thread Cert.ReferenceIdeal.nD Cert.ReferenceIdeal.τ).loc Cert.ReferenceIdeal.main_arg41))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39)
      ∧ r.2.mem ((c.tc : Thread Cert.Kernel.nD Cert.Kernel.τ).loc Cert.Kernel.main_arg40) = m ((c.tc : Thread Cert.Kernel.nD Cert.Kernel.τ).loc Cert.Kernel.main_arg40)
      ∧ r.2.mem ((c.tc : Thread Cert.Kernel.nD Cert.Kernel.τ).loc Cert.Kernel.main_arg41) = m ((c.tc : Thread Cert.Kernel.nD Cert.Kernel.τ).loc Cert.Kernel.main_arg41))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
      ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
      ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39)
      ∧ r.2.mem ((c.tc : Thread Cert.ReferenceIdeal.nD Cert.ReferenceIdeal.τ).loc Cert.ReferenceIdeal.main_arg40) = m ((c.tc : Thread Cert.ReferenceIdeal.nD Cert.ReferenceIdeal.τ).loc Cert.ReferenceIdeal.main_arg40)
      ∧ r.2.mem ((c.tc : Thread Cert.ReferenceIdeal.nD Cert.ReferenceIdeal.τ).loc Cert.ReferenceIdeal.main_arg41) = m ((c.tc : Thread Cert.ReferenceIdeal.nD Cert.ReferenceIdeal.τ).loc Cert.ReferenceIdeal.main_arg41))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
      ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)) →
    ∃ (v0 : (c : Dev Cert.KernelIdeal.nD) → Buf (Elt Ideal) ((c.tc : Thread Cert.KernelIdeal.nD Cert.KernelIdeal.τ).loc Cert.KernelIdeal.main_v198)) (v1 : (c : Dev Cert.KernelIdeal.nD) → Buf (Elt Ideal) ((c.tc : Thread Cert.KernelIdeal.nD Cert.KernelIdeal.τ).loc Cert.KernelIdeal.main_v104)) (v2 : (c : Dev Cert.KernelIdeal.nD) → Buf (Elt Ideal) ((c.tc : Thread Cert.KernelIdeal.nD Cert.KernelIdeal.τ).loc Cert.KernelIdeal.main_v159)) (v3 : (c : Dev Cert.KernelIdeal.nD) → Buf (Elt Ideal) ((c.tc : Thread Cert.KernelIdeal.nD Cert.KernelIdeal.τ).loc Cert.KernelIdeal.main_v184)) (v4 : (c : Dev Cert.KernelIdeal.nD) → Buf (Elt Ideal) ((c.tc : Thread Cert.KernelIdeal.nD Cert.KernelIdeal.τ).loc Cert.KernelIdeal.main_v193)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v198) = v0 c
          ∧ r.2.mem ((c.tc : Thread Cert.KernelIdeal.nD Cert.KernelIdeal.τ).loc Cert.KernelIdeal.main_v104) = v1 c
          ∧ r.2.mem ((c.tc : Thread Cert.KernelIdeal.nD Cert.KernelIdeal.τ).loc Cert.KernelIdeal.main_v159) = v2 c
          ∧ r.2.mem ((c.tc : Thread Cert.KernelIdeal.nD Cert.KernelIdeal.τ).loc Cert.KernelIdeal.main_v184) = v3 c
          ∧ r.2.mem ((c.tc : Thread Cert.KernelIdeal.nD Cert.KernelIdeal.τ).loc Cert.KernelIdeal.main_v193) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
          ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
          ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v357) = v0 c
          ∧ r.2.mem ((c.tc : Thread Cert.ReferenceIdeal.nD Cert.ReferenceIdeal.τ).loc Cert.ReferenceIdeal.main_v158) = v1 c
          ∧ r.2.mem ((c.tc : Thread Cert.ReferenceIdeal.nD Cert.ReferenceIdeal.τ).loc Cert.ReferenceIdeal.main_v318) = v2 c
          ∧ r.2.mem ((c.tc : Thread Cert.ReferenceIdeal.nD Cert.ReferenceIdeal.τ).loc Cert.ReferenceIdeal.main_v343) = v3 c
          ∧ r.2.mem ((c.tc : Thread Cert.ReferenceIdeal.nD Cert.ReferenceIdeal.τ).loc Cert.ReferenceIdeal.main_v352) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39)
          ∧ r.2.mem ((c.tc : Thread Cert.ReferenceIdeal.nD Cert.ReferenceIdeal.τ).loc Cert.ReferenceIdeal.main_arg40) = m' ((c.tc : Thread Cert.ReferenceIdeal.nD Cert.ReferenceIdeal.τ).loc Cert.ReferenceIdeal.main_arg40)
          ∧ r.2.mem ((c.tc : Thread Cert.ReferenceIdeal.nD Cert.ReferenceIdeal.τ).loc Cert.ReferenceIdeal.main_arg41) = m' ((c.tc : Thread Cert.ReferenceIdeal.nD Cert.ReferenceIdeal.τ).loc Cert.ReferenceIdeal.main_arg41))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S50000x256 : Shape := ⟨2, ![50000, 256]⟩
abbrev S1600000 : Shape := ⟨1, ![1600000]⟩
abbrev S250000 : Shape := ⟨1, ![250000]⟩
abbrev S50000 : Shape := ⟨1, ![50000]⟩
abbrev S3x8 : Shape := ⟨2, ![3, 8]⟩
abbrev S8 : Shape := ⟨1, ![8]⟩
abbrev S8x16 : Shape := ⟨2, ![8, 16]⟩
abbrev S16 : Shape := ⟨1, ![16]⟩
abbrev S16x32 : Shape := ⟨2, ![16, 32]⟩
abbrev S32 : Shape := ⟨1, ![32]⟩
abbrev S32x128 : Shape := ⟨2, ![32, 128]⟩
abbrev S128 : Shape := ⟨1, ![128]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128x128 : Shape := ⟨2, ![128, 128]⟩
abbrev S128x64 : Shape := ⟨2, ![128, 64]⟩
abbrev S64 : Shape := ⟨1, ![64]⟩
abbrev S256x4 : Shape := ⟨2, ![256, 4]⟩
abbrev S4 : Shape := ⟨1, ![4]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S1600000 : S_.BroadcastsInDim S1600000 (![] : Fin 0 → Fin S1600000.rank)
  reducesTo_S1600000_S_d0 : S1600000.ReducesTo [0] S_
  bcast_S_S250000 : S_.BroadcastsInDim S250000 (![] : Fin 0 → Fin S250000.rank)
  reducesTo_S250000_S_d0 : S250000.ReducesTo [0] S_
  bcast_S_S3x8 : S_.BroadcastsInDim S3x8 (![] : Fin 0 → Fin S3x8.rank)
  reducesTo_S3x8_S_d0_1 : S3x8.ReducesTo [0, 1] S_
  bcast_S_S8 : S_.BroadcastsInDim S8 (![] : Fin 0 → Fin S8.rank)
  reducesTo_S8_S_d0 : S8.ReducesTo [0] S_
  bcast_S_S8x16 : S_.BroadcastsInDim S8x16 (![] : Fin 0 → Fin S8x16.rank)
  reducesTo_S8x16_S_d0_1 : S8x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S256x4 : S_.BroadcastsInDim S256x4 (![] : Fin 0 → Fin S256x4.rank)
  reducesTo_S256x4_S_d0_1 : S256x4.ReducesTo [0, 1] S_
  bcast_S_S4 : S_.BroadcastsInDim S4 (![] : Fin 0 → Fin S4.rank)
  reducesTo_S4_S_d0 : S4.ReducesTo [0] S_

variable [Facts]

def fn_part10 {F : FTy → Type} [FloatOps F] (main_arg41 : FVec F S4 .f32) (main_v168 : IVec S_ 1) (main_v169 : FVec F S256x4 .f32) (main_v170 : FVec F S256x4 .f32) : IVec S_ 1 :=
  let main_v171 : IVec S256x4 1 := cmpf .olt main_v169 main_v170
  let main_c_67 : IVec S_ 1 := constantI S_ 1 1#1
  let main_v172 : IVec S_ 1 := (fun x v => Host.reduce IntOp.andi x v reducesTo_S256x4_S_d0_1 h_S_) main_v171 main_c_67
  let main_v173 : IVec S_ 1 := andi main_v168 main_v172
  let main_v174 : FVec F S4 .f32 := Host.absf main_arg41
  let main_cst_68 : FVec F S_ .f32 := constant S_ .f32 0x7F800000#32
  let main_v175 : FVec F S4 .f32 := broadcastInDim S4 ![] bcast_S_S4 main_cst_68
  let main_v176 : IVec S4 1 := cmpf .olt main_v174 main_v175
  let main_c_69 : IVec S_ 1 := constantI S_ 1 1#1
  let main_v177 : IVec S_ 1 := (fun x v => Host.reduce IntOp.andi x v reducesTo_S4_S_d0 h_S_) main_v176 main_c_69
  let main_v178 : IVec S_ 1 := andi main_v173 main_v177
  main_v178

def fn_part9 {F : FTy → Type} [FloatOps F] (main_arg37 : FVec F S128 .f32) (main_arg38 : FVec F S128x64 .f32) (main_arg39 : FVec F S64 .f32) (main_arg40 : FVec F S256x4 .f32) (main_arg41 : FVec F S4 .f32) (main_v153 : IVec S_ 1) : IVec S_ 1 :=
  let main_v154 : FVec F S128 .f32 := Host.absf main_arg37
  let main_cst_60 : FVec F S_ .f32 := constant S_ .f32 0x7F800000#32
  let main_v155 : FVec F S128 .f32 := broadcastInDim S128 ![] bcast_S_S128 main_cst_60
  let main_v156 : IVec S128 1 := cmpf .olt main_v154 main_v155
  let main_c_61 : IVec S_ 1 := constantI S_ 1 1#1
  let main_v157 : IVec S_ 1 := (fun x v => Host.reduce IntOp.andi x v reducesTo_S128_S_d0 h_S_) main_v156 main_c_61
  let main_v158 : IVec S_ 1 := andi main_v153 main_v157
  let main_v159 : FVec F S128x64 .f32 := Host.absf main_arg38
  let main_cst_62 : FVec F S_ .f32 := constant S_ .f32 0x7F800000#32
  let main_v160 : FVec F S128x64 .f32 := broadcastInDim S128x64 ![] bcast_S_S128x64 main_cst_62
  let main_v161 : IVec S128x64 1 := cmpf .olt main_v159 main_v160
  let main_c_63 : IVec S_ 1 := constantI S_ 1 1#1
  let main_v162 : IVec S_ 1 := (fun x v => Host.reduce IntOp.andi x v reducesTo_S128x64_S_d0_1 h_S_) main_v161 main_c_63
  let main_v163 : IVec S_ 1 := andi main_v158 main_v162
  let main_v164 : FVec F S64 .f32 := Host.absf main_arg39
  let main_cst_64 : FVec F S_ .f32 := constant S_ .f32 0x7F800000#32
  let main_v165 : FVec F S64 .f32 := broadcastInDim S64 ![] bcast_S_S64 main_cst_64
  let main_v166 : IVec S64 1 := cmpf .olt main_v164 main_v165
  let main_c_65 : IVec S_ 1 := constantI S_ 1 1#1
  let main_v167 : IVec S_ 1 := (fun x v => Host.reduce IntOp.andi x v reducesTo_S64_S_d0 h_S_) main_v166 main_c_65
  let main_v168 : IVec S_ 1 := andi main_v163 main_v167
  let main_v169 : FVec F S256x4 .f32 := Host.absf main_arg40
  let main_cst_66 : FVec F S_ .f32 := constant S_ .f32 0x7F800000#32
  let main_v170 : FVec F S256x4 .f32 := broadcastInDim S256x4 ![] bcast_S_S256x4 main_cst_66
  fn_part10 (F := F) main_arg41 main_v168 main_v169 main_v170

def fn_part8 {F : FTy → Type} [FloatOps F] (main_arg34 : FVec F S128x64 .f32) (main_arg35 : FVec F S64 .f32) (main_arg36 : FVec F S128x128 .f32) (main_arg37 : FVec F S128 .f32) (main_arg38 : FVec F S128x64 .f32) (main_arg39 : FVec F S64 .f32) (main_arg40 : FVec F S256x4 .f32) (main_arg41 : FVec F S4 .f32) (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  let main_v139 : FVec F S128x64 .f32 := Host.absf main_arg34
  let main_cst_54 : FVec F S_ .f32 := constant S_ .f32 0x7F800000#32
  let main_v140 : FVec F S128x64 .f32 := broadcastInDim S128x64 ![] bcast_S_S128x64 main_cst_54
  let main_v141 : IVec S128x64 1 := cmpf .olt main_v139 main_v140
  let main_c_55 : IVec S_ 1 := constantI S_ 1 1#1
  let main_v142 : IVec S_ 1 := (fun x v => Host.reduce IntOp.andi x v reducesTo_S128x64_S_d0_1 h_S_) main_v141 main_c_55
  let main_v143 : IVec S_ 1 := andi main_v138 main_v142
  let main_v144 : FVec F S64 .f32 := Host.absf main_arg35
  let main_cst_56 : FVec F S_ .f32 := constant S_ .f32 0x7F800000#32
  let main_v145 : FVec F S64 .f32 := broadcastInDim S64 ![] bcast_S_S64 main_cst_56
  let main_v146 : IVec S64 1 := cmpf .olt main_v144 main_v145
  let main_c_57 : IVec S_ 1 := constantI S_ 1 1#1
  let main_v147 : IVec S_ 1 := (fun x v => Host.reduce IntOp.andi x v reducesTo_S64_S_d0 h_S_) main_v146 main_c_57
  let main_v148 : IVec S_ 1 := andi main_v143 main_v147
  let main_v149 : FVec F S128x128 .f32 := Host.absf main_arg36
  let main_cst_58 : FVec F S_ .f32 := constant S_ .f32 0x7F800000#32
  let main_v150 : FVec F S128x128 .f32 := broadcastInDim S128x128 ![] bcast_S_S128x128 main_cst_58
  let main_v151 : IVec S128x128 1 := cmpf .olt main_v149 main_v150
  let main_c_59 : IVec S_ 1 := constantI S_ 1 1#1
  let main_v152 : IVec S_ 1 := (fun x v => Host.reduce IntOp.andi x v reducesTo_S128x128_S_d0_1 h_S_) main_v151 main_c_59
  let main_v153 : IVec S_ 1 := andi main_v148 main_v152
  fn_part9 (F := F) main_arg37 main_arg38 main_arg39 main_arg40 main_arg41 main_v153

def fn_part7 {F : FTy → Type} [FloatOps F] (main_arg31 : FVec F S128 .f32) (main_arg32 : FVec F S128x128 .f32) (main_arg33 : FVec F S128 .f32) (main_arg34 : FVec F S128x64 .f32) (main_arg35 : FVec F S64 .f32) (main_arg36 : FVec F S128x128 .f32) (main_arg37 : FVec F S128 .f32) (main_arg38 : FVec F S128x64 .f32) (main_arg39 : FVec F S64 .f32) (main_arg40 : FVec F S256x4 .f32) (main_arg41 : FVec F S4 .f32) (main_v118 : IVec S_ 1) (main_v119 : FVec F S256x128 .f32) : IVec S_ 1 :=
  let main_cst_46 : FVec F S_ .f32 := constant S_ .f32 0x7F800000#32
  let main_v120 : FVec F S256x128 .f32 := broadcastInDim S256x128 ![] bcast_S_S256x128 main_cst_46
  let main_v121 : IVec S256x128 1 := cmpf .olt main_v119 main_v120
  let main_c_47 : IVec S_ 1 := constantI S_ 1 1#1
  let main_v122 : IVec S_ 1 := (fun x v => Host.reduce IntOp.andi x v reducesTo_S256x128_S_d0_1 h_S_) main_v121 main_c_47
  let main_v123 : IVec S_ 1 := andi main_v118 main_v122
  let main_v124 : FVec F S128 .f32 := Host.absf main_arg31
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128x128 .f32 := Host.absf main_arg32
  let main_cst_50 : FVec F S_ .f32 := constant S_ .f32 0x7F800000#32
  let main_v130 : FVec F S128x128 .f32 := broadcastInDim S128x128 ![] bcast_S_S128x128 main_cst_50
  let main_v131 : IVec S128x128 1 := cmpf .olt main_v129 main_v130
  let main_c_51 : IVec S_ 1 := constantI S_ 1 1#1
  let main_v132 : IVec S_ 1 := (fun x v => Host.reduce IntOp.andi x v reducesTo_S128x128_S_d0_1 h_S_) main_v131 main_c_51
  let main_v133 : IVec S_ 1 := andi main_v128 main_v132
  let main_v134 : FVec F S128 .f32 := Host.absf main_arg33
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_arg34 main_arg35 main_arg36 main_arg37 main_arg38 main_arg39 main_arg40 main_arg41 main_v133 main_v136

def fn_part6 {F : FTy → Type} [FloatOps F] (main_arg27 : FVec F S256 .f32) (main_arg28 : FVec F S256 .f32) (main_arg29 : FVec F S256 .f32) (main_arg30 : FVec F S256x128 .f32) (main_arg31 : FVec F S128 .f32) (main_arg32 : FVec F S128x128 .f32) (main_arg33 : FVec F S128 .f32) (main_arg34 : FVec F S128x64 .f32) (main_arg35 : FVec F S64 .f32) (main_arg36 : FVec F S128x128 .f32) (main_arg37 : FVec F S128 .f32) (main_arg38 : FVec F S128x64 .f32) (main_arg39 : FVec F S64 .f32) (main_arg40 : FVec F S256x4 .f32) (main_arg41 : FVec F S4 .f32) (main_v98 : IVec S_ 1) (main_v101 : IVec S512x256 1) (main_c_39 : IVec S_ 1) : IVec S_ 1 :=
  let main_v102 : IVec S_ 1 := (fun x v => Host.reduce IntOp.andi x v reducesTo_S512x256_S_d0_1 h_S_) main_v101 main_c_39
  let main_v103 : IVec S_ 1 := andi main_v98 main_v102
  let main_v104 : FVec F S256 .f32 := Host.absf main_arg27
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256 .f32 := Host.absf main_arg28
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256 .f32 := Host.absf main_arg29
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256x128 .f32 := Host.absf main_arg30
  fn_part7 (F := F) main_arg31 main_arg32 main_arg33 main_arg34 main_arg35 main_arg36 main_arg37 main_arg38 main_arg39 main_arg40 main_arg41 main_v118 main_v119

def fn_part5 {F : FTy → Type} [FloatOps F] (main_arg24 : FVec F S512 .f32) (main_arg25 : FVec F S512 .f32) (main_arg26 : FVec F S512x256 .f32) (main_arg27 : FVec F S256 .f32) (main_arg28 : FVec F S256 .f32) (main_arg29 : FVec F S256 .f32) (main_arg30 : FVec F S256x128 .f32) (main_arg31 : FVec F S128 .f32) (main_arg32 : FVec F S128x128 .f32) (main_arg33 : FVec F S128 .f32) (main_arg34 : FVec F S128x64 .f32) (main_arg35 : FVec F S64 .f32) (main_arg36 : FVec F S128x128 .f32) (main_arg37 : FVec F S128 .f32) (main_arg38 : FVec F S128x64 .f32) (main_arg39 : FVec F S64 .f32) (main_arg40 : FVec F S256x4 .f32) (main_arg41 : FVec F S4 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512 .f32 := Host.absf main_arg24
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  let main_v94 : FVec F S512 .f32 := Host.absf main_arg25
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  let main_v99 : FVec F S512x256 .f32 := Host.absf main_arg26
  let main_cst_38 : FVec F S_ .f32 := constant S_ .f32 0x7F800000#32
  let main_v100 : FVec F S512x256 .f32 := broadcastInDim S512x256 ![] bcast_S_S512x256 main_cst_38
  let main_v101 : IVec S512x256 1 := cmpf .olt main_v99 main_v100
  let main_c_39 : IVec S_ 1 := constantI S_ 1 1#1
  fn_part6 (F := F) main_arg27 main_arg28 main_arg29 main_arg30 main_arg31 main_arg32 main_arg33 main_arg34 main_arg35 main_arg36 main_arg37 main_arg38 main_arg39 main_arg40 main_arg41 main_v98 main_v101 main_c_39

def fn_part4 {F : FTy → Type} [FloatOps F] (main_arg20 : FVec F S32x128 .f32) (main_arg21 : FVec F S128 .f32) (main_arg22 : FVec F S256x512 .f32) (main_arg23 : FVec F S512 .f32) (main_arg24 : FVec F S512 .f32) (main_arg25 : FVec F S512 .f32) (main_arg26 : FVec F S512x256 .f32) (main_arg27 : FVec F S256 .f32) (main_arg28 : FVec F S256 .f32) (main_arg29 : FVec F S256 .f32) (main_arg30 : FVec F S256x128 .f32) (main_arg31 : FVec F S128 .f32) (main_arg32 : FVec F S128x128 .f32) (main_arg33 : FVec F S128 .f32) (main_arg34 : FVec F S128x64 .f32) (main_arg35 : FVec F S64 .f32) (main_arg36 : FVec F S128x128 .f32) (main_arg37 : FVec F S128 .f32) (main_arg38 : FVec F S128x64 .f32) (main_arg39 : FVec F S64 .f32) (main_arg40 : FVec F S256x4 .f32) (main_arg41 : FVec F S4 .f32) (main_v63 : IVec S_ 1) (main_v67 : IVec S_ 1) : IVec S_ 1 :=
  let main_v68 : IVec S_ 1 := andi main_v63 main_v67
  let main_v69 : FVec F S32x128 .f32 := Host.absf main_arg20
  let main_cst_26 : FVec F S_ .f32 := constant S_ .f32 0x7F800000#32
  let main_v70 : FVec F S32x128 .f32 := broadcastInDim S32x128 ![] bcast_S_S32x128 main_cst_26
  let main_v71 : IVec S32x128 1 := cmpf .olt main_v69 main_v70
  let main_c_27 : IVec S_ 1 := constantI S_ 1 1#1
  let main_v72 : IVec S_ 1 := (fun x v => Host.reduce IntOp.andi x v reducesTo_S32x128_S_d0_1 h_S_) main_v71 main_c_27
  let main_v73 : IVec S_ 1 := andi main_v68 main_v72
  let main_v74 : FVec F S128 .f32 := Host.absf main_arg21
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S256x512 .f32 := Host.absf main_arg22
  let main_cst_30 : FVec F S_ .f32 := constant S_ .f32 0x7F800000#32
  let main_v80 : FVec F S256x512 .f32 := broadcastInDim S256x512 ![] bcast_S_S256x512 main_cst_30
  let main_v81 : IVec S256x512 1 := cmpf .olt main_v79 main_v80
  let main_c_31 : IVec S_ 1 := constantI S_ 1 1#1
  let main_v82 : IVec S_ 1 := (fun x v => Host.reduce IntOp.andi x v reducesTo_S256x512_S_d0_1 h_S_) main_v81 main_c_31
  let main_v83 : IVec S_ 1 := andi main_v78 main_v82
  let main_v84 : FVec F S512 .f32 := Host.absf main_arg23
  let main_cst_32 : FVec F S_ .f32 := constant S_ .f32 0x7F800000#32
  fn_part5 (F := F) main_arg24 main_arg25 main_arg26 main_arg27 main_arg28 main_arg29 main_arg30 main_arg31 main_arg32 main_arg33 main_arg34 main_arg35 main_arg36 main_arg37 main_arg38 main_arg39 main_arg40 main_arg41 main_v83 main_v84 main_cst_32

def fn_part3 {F : FTy → Type} [FloatOps F] (main_arg17 : FVec F S32 .f32) (main_arg18 : FVec F S32 .f32) (main_arg19 : FVec F S32 .f32) (main_arg20 : FVec F S32x128 .f32) (main_arg21 : FVec F S128 .f32) (main_arg22 : FVec F S256x512 .f32) (main_arg23 : FVec F S512 .f32) (main_arg24 : FVec F S512 .f32) (main_arg25 : FVec F S512 .f32) (main_arg26 : FVec F S512x256 .f32) (main_arg27 : FVec F S256 .f32) (main_arg28 : FVec F S256 .f32) (main_arg29 : FVec F S256 .f32) (main_arg30 : FVec F S256x128 .f32) (main_arg31 : FVec F S128 .f32) (main_arg32 : FVec F S128x128 .f32) (main_arg33 : FVec F S128 .f32) (main_arg34 : FVec F S128x64 .f32) (main_arg35 : FVec F S64 .f32) (main_arg36 : FVec F S128x128 .f32) (main_arg37 : FVec F S128 .f32) (main_arg38 : FVec F S128x64 .f32) (main_arg39 : FVec F S64 .f32) (main_arg40 : FVec F S256x4 .f32) (main_arg41 : FVec F S4 .f32) (main_v48 : IVec S_ 1) (main_v49 : FVec F S16x32 .f32) (main_v50 : FVec F S16x32 .f32) : IVec S_ 1 :=
  let main_v51 : IVec S16x32 1 := cmpf .olt main_v49 main_v50
  let main_c_19 : IVec S_ 1 := constantI S_ 1 1#1
  let main_v52 : IVec S_ 1 := (fun x v => Host.reduce IntOp.andi x v reducesTo_S16x32_S_d0_1 h_S_) main_v51 main_c_19
  let main_v53 : IVec S_ 1 := andi main_v48 main_v52
  let main_v54 : FVec F S32 .f32 := Host.absf main_arg17
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32 .f32 := Host.absf main_arg18
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg19
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_v63 main_v67

def fn_part2 {F : FTy → Type} [FloatOps F] (main_arg13 : FVec F S16 .f32) (main_arg14 : FVec F S16 .f32) (main_arg15 : FVec F S16 .f32) (main_arg16 : FVec F S16x32 .f32) (main_arg17 : FVec F S32 .f32) (main_arg18 : FVec F S32 .f32) (main_arg19 : FVec F S32 .f32) (main_arg20 : FVec F S32x128 .f32) (main_arg21 : FVec F S128 .f32) (main_arg22 : FVec F S256x512 .f32) (main_arg23 : FVec F S512 .f32) (main_arg24 : FVec F S512 .f32) (main_arg25 : FVec F S512 .f32) (main_arg26 : FVec F S512x256 .f32) (main_arg27 : FVec F S256 .f32) (main_arg28 : FVec F S256 .f32) (main_arg29 : FVec F S256 .f32) (main_arg30 : FVec F S256x128 .f32) (main_arg31 : FVec F S128 .f32) (main_arg32 : FVec F S128x128 .f32) (main_arg33 : FVec F S128 .f32) (main_arg34 : FVec F S128x64 .f32) (main_arg35 : FVec F S64 .f32) (main_arg36 : FVec F S128x128 .f32) (main_arg37 : FVec F S128 .f32) (main_arg38 : FVec F S128x64 .f32) (main_arg39 : FVec F S64 .f32) (main_arg40 : FVec F S256x4 .f32) (main_arg41 : FVec F S4 .f32) (main_v33 : IVec S_ 1) : IVec S_ 1 :=
  let main_v34 : FVec F S16 .f32 := Host.absf main_arg13
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16 .f32 := Host.absf main_arg14
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16 .f32 := Host.absf main_arg15
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x32 .f32 := Host.absf main_arg16
  let main_cst_18 : FVec F S_ .f32 := constant S_ .f32 0x7F800000#32
  let main_v50 : FVec F S16x32 .f32 := broadcastInDim S16x32 ![] bcast_S_S16x32 main_cst_18
  fn_part3 (F := F) main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_v48 main_v49 main_v50

def fn_part1 {F : FTy → Type} [FloatOps F] (main_arg10 : FVec F S3x8 .f32) (main_arg11 : FVec F S8 .f32) (main_arg12 : FVec F S8x16 .f32) (main_arg13 : FVec F S16 .f32) (main_arg14 : FVec F S16 .f32) (main_arg15 : FVec F S16 .f32) (main_arg16 : FVec F S16x32 .f32) (main_arg17 : FVec F S32 .f32) (main_arg18 : FVec F S32 .f32) (main_arg19 : FVec F S32 .f32) (main_arg20 : FVec F S32x128 .f32) (main_arg21 : FVec F S128 .f32) (main_arg22 : FVec F S256x512 .f32) (main_arg23 : FVec F S512 .f32) (main_arg24 : FVec F S512 .f32) (main_arg25 : FVec F S512 .f32) (main_arg26 : FVec F S512x256 .f32) (main_arg27 : FVec F S256 .f32) (main_arg28 : FVec F S256 .f32) (main_arg29 : FVec F S256 .f32) (main_arg30 : FVec F S256x128 .f32) (main_arg31 : FVec F S128 .f32) (main_arg32 : FVec F S128x128 .f32) (main_arg33 : FVec F S128 .f32) (main_arg34 : FVec F S128x64 .f32) (main_arg35 : FVec F S64 .f32) (main_arg36 : FVec F S128x128 .f32) (main_arg37 : FVec F S128 .f32) (main_arg38 : FVec F S128x64 .f32) (main_arg39 : FVec F S64 .f32) (main_arg40 : FVec F S256x4 .f32) (main_arg41 : FVec F S4 .f32) (main_v13 : IVec S_ 1) (main_v16 : IVec S250000 1) : IVec S_ 1 :=
  let main_c_5 : IVec S_ 1 := constantI S_ 1 1#1
  let main_v17 : IVec S_ 1 := (fun x v => Host.reduce IntOp.andi x v reducesTo_S250000_S_d0 h_S_) main_v16 main_c_5
  let main_v18 : IVec S_ 1 := andi main_v13 main_v17
  let main_v19 : FVec F S3x8 .f32 := Host.absf main_arg10
  let main_cst_6 : FVec F S_ .f32 := constant S_ .f32 0x7F800000#32
  let main_v20 : FVec F S3x8 .f32 := broadcastInDim S3x8 ![] bcast_S_S3x8 main_cst_6
  let main_v21 : IVec S3x8 1 := cmpf .olt main_v19 main_v20
  let main_c_7 : IVec S_ 1 := constantI S_ 1 1#1
  let main_v22 : IVec S_ 1 := (fun x v => Host.reduce IntOp.andi x v reducesTo_S3x8_S_d0_1 h_S_) main_v21 main_c_7
  let main_v23 : IVec S_ 1 := andi main_v18 main_v22
  let main_v24 : FVec F S8 .f32 := Host.absf main_arg11
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S8x16 .f32 := Host.absf main_arg12
  let main_cst_10 : FVec F S_ .f32 := constant S_ .f32 0x7F800000#32
  let main_v30 : FVec F S8x16 .f32 := broadcastInDim S8x16 ![] bcast_S_S8x16 main_cst_10
  let main_v31 : IVec S8x16 1 := cmpf .olt main_v29 main_v30
  let main_c_11 : IVec S_ 1 := constantI S_ 1 1#1
  let main_v32 : IVec S_ 1 := (fun x v => Host.reduce IntOp.andi x v reducesTo_S8x16_S_d0_1 h_S_) main_v31 main_c_11
  let main_v33 : IVec S_ 1 := andi main_v28 main_v32
  fn_part2 (F := F) main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_v33

def fn {F : FTy → Type} [FloatOps F] (main_arg0 : FVec F S50000x3 .f32) (main_arg1 : FVec F S50000x256 .f32) (main_arg2 : FVec F S1600000 .f32) (main_arg3 : FVec F S250000 .f32) (main_arg4 : IVec S1600000 32) (main_arg5 : IVec S1600000 32) (main_arg6 : IVec S250000 32) (main_arg7 : IVec S250000 32) (main_arg8 : IVec S50000 32) (main_arg9 : IVec S50000 32) (main_arg10 : FVec F S3x8 .f32) (main_arg11 : FVec F S8 .f32) (main_arg12 : FVec F S8x16 .f32) (main_arg13 : FVec F S16 .f32) (main_arg14 : FVec F S16 .f32) (main_arg15 : FVec F S16 .f32) (main_arg16 : FVec F S16x32 .f32) (main_arg17 : FVec F S32 .f32) (main_arg18 : FVec F S32 .f32) (main_arg19 : FVec F S32 .f32) (main_arg20 : FVec F S32x128 .f32) (main_arg21 : FVec F S128 .f32) (main_arg22 : FVec F S256x512 .f32) (main_arg23 : FVec F S512 .f32) (main_arg24 : FVec F S512 .f32) (main_arg25 : FVec F S512 .f32) (main_arg26 : FVec F S512x256 .f32) (main_arg27 : FVec F S256 .f32) (main_arg28 : FVec F S256 .f32) (main_arg29 : FVec F S256 .f32) (main_arg30 : FVec F S256x128 .f32) (main_arg31 : FVec F S128 .f32) (main_arg32 : FVec F S128x128 .f32) (main_arg33 : FVec F S128 .f32) (main_arg34 : FVec F S128x64 .f32) (main_arg35 : FVec F S64 .f32) (main_arg36 : FVec F S128x128 .f32) (main_arg37 : FVec F S128 .f32) (main_arg38 : FVec F S128x64 .f32) (main_arg39 : FVec F S64 .f32) (main_arg40 : FVec F S256x4 .f32) (main_arg41 : FVec F S4 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S1600000 .f32 := Host.absf main_arg2
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S250000 .f32 := Host.absf main_arg3
  let main_cst_4 : FVec F S_ .f32 := constant S_ .f32 0x7F800000#32
  let main_v15 : FVec F S250000 .f32 := broadcastInDim S250000 ![] bcast_S_S250000 main_cst_4
  let main_v16 : IVec S250000 1 := cmpf .olt main_v14 main_v15
  fn_part1 (F := F) main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_v13 main_v16
-- ==== Kernel.lean ====
abbrev S50000x3 : Shape := ⟨2, ![50000, 3]⟩
abbrev S50000x256 : Shape := ⟨2, ![50000, 256]⟩
abbrev S1600000 : Shape := ⟨1, ![1600000]⟩
abbrev S250000 : Shape := ⟨1, ![250000]⟩
abbrev S50000 : Shape := ⟨1, ![50000]⟩
abbrev S3x8 : Shape := ⟨2, ![3, 8]⟩
abbrev S8 : Shape := ⟨1, ![8]⟩
abbrev S8x16 : Shape := ⟨2, ![8, 16]⟩
abbrev S16 : Shape := ⟨1, ![16]⟩
abbrev S16x32 : Shape := ⟨2, ![16, 32]⟩
abbrev S32 : Shape := ⟨1, ![32]⟩
abbrev S32x128 : Shape := ⟨2, ![32, 128]⟩
abbrev S128 : Shape := ⟨1, ![128]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128x128 : Shape := ⟨2, ![128, 128]⟩
abbrev S128x64 : Shape := ⟨2, ![128, 64]⟩
abbrev S64 : Shape := ⟨1, ![64]⟩
abbrev S256x4 : Shape := ⟨2, ![256, 4]⟩
abbrev S4 : Shape := ⟨1, ![4]⟩
abbrev S_ : Shape := ⟨0, ![]⟩
abbrev S1600000x1 : Shape := ⟨2, ![1600000, 1]⟩
abbrev S250000x1 : Shape := ⟨2, ![250000, 1]⟩
abbrev S50000x8 : Shape := ⟨2, ![50000, 8]⟩
abbrev S1x8 : Shape := ⟨2, ![1, 8]⟩
abbrev S50000x1 : Shape := ⟨2, ![50000, 1]⟩
abbrev S1600000x8 : Shape := ⟨2, ![1600000, 8]⟩
abbrev S50000x16 : Shape := ⟨2, ![50000, 16]⟩
abbrev S1x16 : Shape := ⟨2, ![1, 16]⟩
abbrev S2000x16 : Shape := ⟨2, ![2000, 16]⟩
abbrev S2000x1 : Shape := ⟨2, ![2000, 1]⟩
abbrev S2000 : Shape := ⟨1, ![2000]⟩
abbrev S1600000x16 : Shape := ⟨2, ![1600000, 16]⟩
abbrev S50000x32 : Shape := ⟨2, ![50000, 32]⟩
abbrev S1x32 : Shape := ⟨2, ![1, 32]⟩
abbrev S2000x32 : Shape := ⟨2, ![2000, 32]⟩
abbrev S8x32 : Shape := ⟨2, ![8, 32]⟩
abbrev S8x1 : Shape := ⟨2, ![8, 1]⟩
abbrev S2000x8 : Shape := ⟨2, ![2000, 8]⟩
abbrev S8x128 : Shape := ⟨2, ![8, 128]⟩
abbrev S1x128 : Shape := ⟨2, ![1, 128]⟩
abbrev S250000x256 : Shape := ⟨2, ![250000, 256]⟩
abbrev S50000x512 : Shape := ⟨2, ![50000, 512]⟩
abbrev S2000x256 : Shape := ⟨2, ![2000, 256]⟩
abbrev S2000x512 : Shape := ⟨2, ![2000, 512]⟩
abbrev S1x512 : Shape := ⟨2, ![1, 512]⟩
abbrev S1000x512 : Shape := ⟨2, ![1000, 512]⟩
abbrev S1000x1 : Shape := ⟨2, ![1000, 1]⟩
abbrev S1000 : Shape := ⟨1, ![1000]⟩
abbrev S1x256 : Shape := ⟨2, ![1, 256]⟩
abbrev S8x256 : Shape := ⟨2, ![8, 256]⟩
abbrev S8x64 : Shape := ⟨2, ![8, 64]⟩
abbrev S1x64 : Shape := ⟨2, ![1, 64]⟩
abbrev S8x4 : Shape := ⟨2, ![8, 4]⟩
abbrev S1x4 : Shape := ⟨2, ![1, 4]⟩

abbrev nBuf : Space → Nat
  | .hbm => 284
  | .vmem => 75
  | .smem => 0
  | _ => 0

abbrev hbmTy0_0 (i : Nat) : BufTy := match i % 128 with
  | 0 => ⟨S50000x3, .f32⟩
  | 1 => ⟨S50000x256, .f32⟩
  | 2 => ⟨S1600000, .f32⟩
  | 3 => ⟨S250000, .f32⟩
  | 4 => ⟨S1600000, .i32⟩
  | 5 => ⟨S1600000, .i32⟩
  | 6 => ⟨S250000, .i32⟩
  | 7 => ⟨S250000, .i32⟩
  | 8 => ⟨S50000, .i32⟩
  | 9 => ⟨S50000, .i32⟩
  | 10 => ⟨S3x8, .f32⟩
  | 11 => ⟨S8, .f32⟩
  | 12 => ⟨S8x16, .f32⟩
  | 13 => ⟨S16, .f32⟩
  | 14 => ⟨S16, .f32⟩
  | 15 => ⟨S16, .f32⟩
  | 16 => ⟨S16x32, .f32⟩
  | 17 => ⟨S32, .f32⟩
  | 18 => ⟨S32, .f32⟩
  | 19 => ⟨S32, .f32⟩
  | 20 => ⟨S32x128, .f32⟩
  | 21 => ⟨S128, .f32⟩
  | 22 => ⟨S256x512, .f32⟩
  | 23 => ⟨S512, .f32⟩
  | 24 => ⟨S512, .f32⟩
  | 25 => ⟨S512, .f32⟩
  | 26 => ⟨S512x256, .f32⟩
  | 27 => ⟨S256, .f32⟩
  | 28 => ⟨S256, .f32⟩
  | 29 => ⟨S256, .f32⟩
  | 30 => ⟨S256x128, .f32⟩
  | 31 => ⟨S128, .f32⟩
  | 32 => ⟨S128x128, .f32⟩
  | 33 => ⟨S128, .f32⟩
  | 34 => ⟨S128x64, .f32⟩
  | 35 => ⟨S64, .f32⟩
  | 36 => ⟨S128x128, .f32⟩
  | 37 => ⟨S128, .f32⟩
  | 38 => ⟨S128x64, .f32⟩
  | 39 => ⟨S64, .f32⟩
  | 40 => ⟨S256x4, .f32⟩
  | 41 => ⟨S4, .f32⟩
  | 42 => ⟨S_, .f32⟩
  | 43 => ⟨S50000, .f32⟩
  | 44 => ⟨S1600000x1, .i32⟩
  | 45 => ⟨S50000, .f32⟩
  | 46 => ⟨S_, .f32⟩
  | 47 => ⟨S50000, .f32⟩
  | 48 => ⟨S50000, .f32⟩
  | 49 => ⟨S_, .f32⟩
  | 50 => ⟨S50000, .f32⟩
  | 51 => ⟨S50000, .i1⟩
  | 52 => ⟨S50000, .f32⟩
  | 53 => ⟨S_, .f32⟩
  | 54 => ⟨S_, .f32⟩
  | 55 => ⟨S50000, .f32⟩
  | 56 => ⟨S50000, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000, .f32⟩
  | 66 => ⟨S1600000, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000, .f32⟩
  | 76 => ⟨S1600000, .f32⟩
  | 77 => ⟨S_, .f32⟩
  | 78 => ⟨S50000, .f32⟩
  | 79 => ⟨S250000x1, .i32⟩
  | 80 => ⟨S50000, .f32⟩
  | 81 => ⟨S_, .f32⟩
  | 82 => ⟨S50000, .f32⟩
  | 83 => ⟨S50000, .f32⟩
  | 84 => ⟨S_, .f32⟩
  | 85 => ⟨S50000, .f32⟩
  | 86 => ⟨S50000, .i1⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S250000, .i32⟩
  | 94 => ⟨S250000, .i1⟩
  | 95 => ⟨S_, .i32⟩
  | 96 => ⟨S250000, .i32⟩
  | 97 => ⟨S250000, .i32⟩
  | 98 => ⟨S250000, .i32⟩
  | 99 => ⟨S250000x1, .i32⟩
  | 100 => ⟨S250000, .f32⟩
  | 101 => ⟨S250000, .f32⟩
  | 102 => ⟨S_, .i32⟩
  | 103 => ⟨S250000, .i32⟩
  | 104 => ⟨S250000, .i1⟩
  | 105 => ⟨S_, .i32⟩
  | 106 => ⟨S250000, .i32⟩
  | 107 => ⟨S250000, .i32⟩
  | 108 => ⟨S250000, .i32⟩
  | 109 => ⟨S250000x1, .i32⟩
  | 110 => ⟨S250000, .f32⟩
  | 111 => ⟨S250000, .f32⟩
  | 112 => ⟨S50000x8, .f32⟩
  | 113 => ⟨S1x8, .f32⟩
  | 114 => ⟨S50000x8, .f32⟩
  | 115 => ⟨S50000x8, .f32⟩
  | 116 => ⟨S_, .f32⟩
  | 117 => ⟨S50000, .f32⟩
  | 118 => ⟨S_, .f32⟩
  | 119 => ⟨S50000, .f32⟩
  | 120 => ⟨S50000, .f32⟩
  | 121 => ⟨S50000x1, .f32⟩
  | 122 => ⟨S50000x8, .f32⟩
  | 123 => ⟨S50000x8, .f32⟩
  | 124 => ⟨S50000x8, .f32⟩
  | 125 => ⟨S_, .f32⟩
  | 126 => ⟨S50000, .f32⟩
  | 127 => ⟨S50000x1, .f32⟩
  | _ => ⟨S50000x3, .f32⟩

abbrev hbmTy0_1 (i : Nat) : BufTy := match i % 128 with
  | 0 => ⟨S50000x8, .f32⟩
  | 1 => ⟨S50000x8, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000x8, .f32⟩
  | 11 => ⟨S1600000x1, .f32⟩
  | 12 => ⟨S1600000x8, .f32⟩
  | 13 => ⟨S1600000x8, .f32⟩
  | 14 => ⟨S_, .f32⟩
  | 15 => ⟨S50000x8, .f32⟩
  | 16 => ⟨S1600000x1, .i32⟩
  | 17 => ⟨S50000x8, .f32⟩
  | 18 => ⟨S50000x16, .f32⟩
  | 19 => ⟨S50000x16, .f32⟩
  | 20 => ⟨S1x16, .f32⟩
  | 21 => ⟨S1x16, .f32⟩
  | 22 => ⟨S1x16, .f32⟩
  | 23 => ⟨S50000x1, .f32⟩
  | 24 => ⟨S50000x16, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x16, .f32⟩
  | 34 => ⟨S1600000x1, .f32⟩
  | 35 => ⟨S1600000x16, .f32⟩
  | 36 => ⟨S1600000x16, .f32⟩
  | 37 => ⟨S_, .f32⟩
  | 38 => ⟨S50000x16, .f32⟩
  | 39 => ⟨S1600000x1, .i32⟩
  | 40 => ⟨S50000x16, .f32⟩
  | 41 => ⟨S50000x32, .f32⟩
  | 42 => ⟨S50000x32, .f32⟩
  | 43 => ⟨S1x32, .f32⟩
  | 44 => ⟨S1x32, .f32⟩
  | 45 => ⟨S1x32, .f32⟩
  | 46 => ⟨S50000x1, .f32⟩
  | 47 => ⟨S50000x32, .f32⟩
  | 48 => ⟨S50000x1, .i32⟩
  | 49 => ⟨S8, .i32⟩
  | 50 => ⟨S1x8, .i32⟩
  | 51 => ⟨S50000x8, .i32⟩
  | 52 => ⟨S50000x8, .i32⟩
  | 53 => ⟨S50000x8, .i1⟩
  | 54 => ⟨S50000x8, .f32⟩
  | 55 => ⟨S8x32, .f32⟩
  | 56 => ⟨S8x1, .f32⟩
  | 57 => ⟨S_, .f32⟩
  | 58 => ⟨S8x1, .f32⟩
  | 59 => ⟨S8x1, .f32⟩
  | 60 => ⟨S8x32, .f32⟩
  | 61 => ⟨S8x32, .f32⟩
  | 62 => ⟨S8x128, .f32⟩
  | 63 => ⟨S1x128, .f32⟩
  | 64 => ⟨S8x128, .f32⟩
  | 65 => ⟨S8x128, .f32⟩
  | 66 => ⟨S_, .i32⟩
  | 67 => ⟨S250000, .i32⟩
  | 68 => ⟨S250000, .i1⟩
  | 69 => ⟨S_, .i32⟩
  | 70 => ⟨S250000, .i32⟩
  | 71 => ⟨S250000, .i32⟩
  | 72 => ⟨S250000, .i32⟩
  | 73 => ⟨S250000x1, .i32⟩
  | 74 => ⟨S250000x256, .f32⟩
  | 75 => ⟨S250000x1, .f32⟩
  | 76 => ⟨S250000x256, .f32⟩
  | 77 => ⟨S250000x256, .f32⟩
  | 78 => ⟨S_, .f32⟩
  | 79 => ⟨S50000x256, .f32⟩
  | 80 => ⟨S250000x1, .i32⟩
  | 81 => ⟨S50000x256, .f32⟩
  | 82 => ⟨S50000x512, .f32⟩
  | 83 => ⟨S50000x512, .f32⟩
  | 84 => ⟨S1x512, .f32⟩
  | 85 => ⟨S1x512, .f32⟩
  | 86 => ⟨S1x512, .f32⟩
  | 87 => ⟨S50000x1, .f32⟩
  | 88 => ⟨S50000x512, .f32⟩
  | 89 => ⟨S50000x256, .f32⟩
  | 90 => ⟨S_, .i32⟩
  | 91 => ⟨S250000, .i32⟩
  | 92 => ⟨S250000, .i1⟩
  | 93 => ⟨S_, .i32⟩
  | 94 => ⟨S250000, .i32⟩
  | 95 => ⟨S250000, .i32⟩
  | 96 => ⟨S250000, .i32⟩
  | 97 => ⟨S250000x1, .i32⟩
  | 98 => ⟨S250000x256, .f32⟩
  | 99 => ⟨S250000x1, .f32⟩
  | 100 => ⟨S250000x256, .f32⟩
  | 101 => ⟨S250000x256, .f32⟩
  | 102 => ⟨S_, .f32⟩
  | 103 => ⟨S50000x256, .f32⟩
  | 104 => ⟨S250000x1, .i32⟩
  | 105 => ⟨S50000x256, .f32⟩
  | 106 => ⟨S1x256, .f32⟩
  | 107 => ⟨S1x256, .f32⟩
  | 108 => ⟨S1x256, .f32⟩
  | 109 => ⟨S50000x1, .f32⟩
  | 110 => ⟨S50000x256, .f32⟩
  | 111 => ⟨S50000x1, .i32⟩
  | 112 => ⟨S8, .i32⟩
  | 113 => ⟨S1x8, .i32⟩
  | 114 => ⟨S50000x8, .i32⟩
  | 115 => ⟨S50000x8, .i32⟩
  | 116 => ⟨S50000x8, .i1⟩
  | 117 => ⟨S50000x8, .f32⟩
  | 118 => ⟨S8x256, .f32⟩
  | 119 => ⟨S8x1, .f32⟩
  | 120 => ⟨S_, .f32⟩
  | 121 => ⟨S8x1, .f32⟩
  | 122 => ⟨S8x1, .f32⟩
  | 123 => ⟨S8x256, .f32⟩
  | 124 => ⟨S8x256, .f32⟩
  | 125 => ⟨S8x128, .f32⟩
  | 126 => ⟨S1x128, .f32⟩
  | 127 => ⟨S8x128, .f32⟩
  | _ => ⟨S50000x3, .f32⟩

abbrev hbmTy0_2 (i : Nat) : BufTy := match i % 128 with
  | 0 => ⟨S8x128, .f32⟩
  | 1 => ⟨S8x128, .f32⟩
  | 2 => ⟨S1x128, .f32⟩
  | 3 => ⟨S8x128, .f32⟩
  | 4 => ⟨S8x128, .f32⟩
  | 5 => ⟨S_, .f32⟩
  | 6 => ⟨S8x128, .f32⟩
  | 7 => ⟨S8x128, .f32⟩
  | 8 => ⟨S8x64, .f32⟩
  | 9 => ⟨S1x64, .f32⟩
  | 10 => ⟨S8x64, .f32⟩
  | 11 => ⟨S8x64, .f32⟩
  | 12 => ⟨S8x128, .f32⟩
  | 13 => ⟨S1x128, .f32⟩
  | 14 => ⟨S8x128, .f32⟩
  | 15 => ⟨S8x128, .f32⟩
  | 16 => ⟨S_, .f32⟩
  | 17 => ⟨S8x128, .f32⟩
  | 18 => ⟨S8x128, .f32⟩
  | 19 => ⟨S8x64, .f32⟩
  | 20 => ⟨S1x64, .f32⟩
  | 21 => ⟨S8x64, .f32⟩
  | 22 => ⟨S8x64, .f32⟩
  | 23 => ⟨S8x256, .f32⟩
  | 24 => ⟨S8x4, .f32⟩
  | 25 => ⟨S1x4, .f32⟩
  | 26 => ⟨S8x4, .f32⟩
  | 27 => ⟨S8x4, .f32⟩
  | _ => ⟨S50000x3, .f32⟩

abbrev hbmTy (i : Nat) : BufTy := match i / 128 with
  | 0 => hbmTy0_0 i
  | 1 => hbmTy0_1 i
  | 2 => hbmTy0_2 i
  | _ => ⟨S50000x3, .f32⟩

abbrev bufTy : (tb : Table) → Fin (tcTables nBuf tb) → BufTy
  | .hbm, ⟨i, _⟩ => hbmTy i
  | .local _ .vmem, ⟨0, _⟩ => ⟨S2000x16, .f32⟩
  | .local _ .vmem, ⟨1, _⟩ => ⟨S2000x16, .f32⟩
  | .local _ .vmem, ⟨2, _⟩ => ⟨S2000x16, .f32⟩
  | .local _ .vmem, ⟨3, _⟩ => ⟨S2000x16, .f32⟩
  | .local _ .vmem, ⟨4, _⟩ => ⟨S2000x1, .f32⟩
  | .local _ .vmem, ⟨5, _⟩ => ⟨S2000x1, .f32⟩
  | .local _ .vmem, ⟨6, _⟩ => ⟨S1x16, .f32⟩
  | .local _ .vmem, ⟨7, _⟩ => ⟨S1x16, .f32⟩
  | .local _ .vmem, ⟨8, _⟩ => ⟨S1x16, .f32⟩
  | .local _ .vmem, ⟨9, _⟩ => ⟨S2000x16, .f32⟩
  | .local _ .vmem, ⟨10, _⟩ => ⟨S2000x16, .f32⟩
  | .local _ .vmem, ⟨11, _⟩ => ⟨S2000x32, .f32⟩
  | .local _ .vmem, ⟨12, _⟩ => ⟨S2000x32, .f32⟩
  | .local _ .vmem, ⟨13, _⟩ => ⟨S2000x32, .f32⟩
  | .local _ .vmem, ⟨14, _⟩ => ⟨S2000x32, .f32⟩
  | .local _ .vmem, ⟨15, _⟩ => ⟨S2000x1, .f32⟩
  | .local _ .vmem, ⟨16, _⟩ => ⟨S2000x1, .f32⟩
  | .local _ .vmem, ⟨17, _⟩ => ⟨S1x32, .f32⟩
  | .local _ .vmem, ⟨18, _⟩ => ⟨S1x32, .f32⟩
  | .local _ .vmem, ⟨19, _⟩ => ⟨S1x32, .f32⟩
  | .local _ .vmem, ⟨20, _⟩ => ⟨S2000x32, .f32⟩
  | .local _ .vmem, ⟨21, _⟩ => ⟨S2000x32, .f32⟩
  | .local _ .vmem, ⟨22, _⟩ => ⟨S2000x32, .f32⟩
  | .local _ .vmem, ⟨23, _⟩ => ⟨S2000x32, .f32⟩
  | .local _ .vmem, ⟨24, _⟩ => ⟨S2000x8, .f32⟩
  | .local _ .vmem, ⟨25, _⟩ => ⟨S2000x8, .f32⟩
  | .local _ .vmem, ⟨26, _⟩ => ⟨S8x32, .f32⟩
  | .local _ .vmem, ⟨27, _⟩ => ⟨S8x1, .f32⟩
  | .local _ .vmem, ⟨28, _⟩ => ⟨S8x32, .f32⟩
  | .local _ .vmem, ⟨29, _⟩ => ⟨S8x1, .f32⟩
  | .local _ .vmem, ⟨30, _⟩ => ⟨S2000x256, .f32⟩
  | .local _ .vmem, ⟨31, _⟩ => ⟨S2000x256, .f32⟩
  | .local _ .vmem, ⟨32, _⟩ => ⟨S256x512, .f32⟩
  | .local _ .vmem, ⟨33, _⟩ => ⟨S2000x512, .f32⟩
  | .local _ .vmem, ⟨34, _⟩ => ⟨S2000x512, .f32⟩
  | .local _ .vmem, ⟨35, _⟩ => ⟨S2000x256, .f32⟩
  | .local _ .vmem, ⟨36, _⟩ => ⟨S2000x256, .f32⟩
  | .local _ .vmem, ⟨37, _⟩ => ⟨S256x512, .f32⟩
  | .local _ .vmem, ⟨38, _⟩ => ⟨S2000x512, .f32⟩
  | .local _ .vmem, ⟨39, _⟩ => ⟨S2000x512, .f32⟩
  | .local _ .vmem, ⟨40, _⟩ => ⟨S1000x512, .f32⟩
  | .local _ .vmem, ⟨41, _⟩ => ⟨S1000x512, .f32⟩
  | .local _ .vmem, ⟨42, _⟩ => ⟨S1000x512, .f32⟩
  | .local _ .vmem, ⟨43, _⟩ => ⟨S1000x512, .f32⟩
  | .local _ .vmem, ⟨44, _⟩ => ⟨S1000x1, .f32⟩
  | .local _ .vmem, ⟨45, _⟩ => ⟨S1000x1, .f32⟩
  | .local _ .vmem, ⟨46, _⟩ => ⟨S1x512, .f32⟩
  | .local _ .vmem, ⟨47, _⟩ => ⟨S1x512, .f32⟩
  | .local _ .vmem, ⟨48, _⟩ => ⟨S1x512, .f32⟩
  | .local _ .vmem, ⟨49, _⟩ => ⟨S1000x512, .f32⟩
  | .local _ .vmem, ⟨50, _⟩ => ⟨S1000x512, .f32⟩
  | .local _ .vmem, ⟨51, _⟩ => ⟨S2000x512, .f32⟩
  | .local _ .vmem, ⟨52, _⟩ => ⟨S2000x512, .f32⟩
  | .local _ .vmem, ⟨53, _⟩ => ⟨S512x256, .f32⟩
  | .local _ .vmem, ⟨54, _⟩ => ⟨S2000x256, .f32⟩
  | .local _ .vmem, ⟨55, _⟩ => ⟨S2000x256, .f32⟩
  | .local _ .vmem, ⟨56, _⟩ => ⟨S2000x256, .f32⟩
  | .local _ .vmem, ⟨57, _⟩ => ⟨S2000x256, .f32⟩
  | .local _ .vmem, ⟨58, _⟩ => ⟨S2000x256, .f32⟩
  | .local _ .vmem, ⟨59, _⟩ => ⟨S2000x256, .f32⟩
  | .local _ .vmem, ⟨60, _⟩ => ⟨S2000x1, .f32⟩
  | .local _ .vmem, ⟨61, _⟩ => ⟨S2000x1, .f32⟩
  | .local _ .vmem, ⟨62, _⟩ => ⟨S1x256, .f32⟩
  | .local _ .vmem, ⟨63, _⟩ => ⟨S1x256, .f32⟩
  | .local _ .vmem, ⟨64, _⟩ => ⟨S1x256, .f32⟩
  | .local _ .vmem, ⟨65, _⟩ => ⟨S2000x256, .f32⟩
  | .local _ .vmem, ⟨66, _⟩ => ⟨S2000x256, .f32⟩
  | .local _ .vmem, ⟨67, _⟩ => ⟨S2000x256, .f32⟩
  | .local _ .vmem, ⟨68, _⟩ => ⟨S2000x256, .f32⟩
  | .local _ .vmem, ⟨69, _⟩ => ⟨S2000x8, .f32⟩
  | .local _ .vmem, ⟨70, _⟩ => ⟨S2000x8, .f32⟩
  | .local _ .vmem, ⟨71, _⟩ => ⟨S8x256, .f32⟩
  | .local _ .vmem, ⟨72, _⟩ => ⟨S8x1, .f32⟩
  | .local _ .vmem, ⟨73, _⟩ => ⟨S8x256, .f32⟩
  | .local _ .vmem, ⟨74, _⟩ => ⟨S8x1, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_cst : Ref sig .tc := ⟨.hbm, 42, rfl⟩
abbrev main_v0 : Ref sig .tc := ⟨.hbm, 43, rfl⟩
abbrev main_v1 : Ref sig .tc := ⟨.hbm, 44, rfl⟩
abbrev main_v2 : Ref sig .tc := ⟨.hbm, 45, rfl⟩
abbrev main_cst_0 : Ref sig .tc := ⟨.hbm, 46, rfl⟩
abbrev main_v3 : Ref sig .tc := ⟨.hbm, 47, rfl⟩
abbrev main_v4 : Ref sig .tc := ⟨.hbm, 48, rfl⟩
abbrev main_cst_1 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_cst_2 : Ref sig .tc := ⟨.hbm, 53, rfl⟩
abbrev main_call0_v0 : Ref sig .tc := ⟨.hbm, 54, rfl⟩
abbrev main_call0_v1 : Ref sig .tc := ⟨.hbm, 55, rfl⟩
abbrev main_v8 : Ref sig .tc := ⟨.hbm, 56, rfl⟩
abbrev main_c : Ref sig .tc := ⟨.hbm, 57, rfl⟩
abbrev main_v9 : Ref sig .tc := ⟨.hbm, 58, rfl⟩
abbrev main_v10 : Ref sig .tc := ⟨.hbm, 59, rfl⟩
abbrev main_c_3 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_c_4 : Ref sig .tc := ⟨.hbm, 67, rfl⟩
abbrev main_v17 : Ref sig .tc := ⟨.hbm, 68, rfl⟩
abbrev main_v18 : Ref sig .tc := ⟨.hbm, 69, rfl⟩
abbrev main_c_5 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_cst_6 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_cst_7 : Ref sig .tc := ⟨.hbm, 81, rfl⟩
abbrev main_v28 : Ref sig .tc := ⟨.hbm, 82, rfl⟩
abbrev main_v29 : Ref sig .tc := ⟨.hbm, 83, rfl⟩
abbrev main_cst_8 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_cst_9 : Ref sig .tc := ⟨.hbm, 88, rfl⟩
abbrev main_call1_v0 : Ref sig .tc := ⟨.hbm, 89, rfl⟩
abbrev main_call1_v1 : Ref sig .tc := ⟨.hbm, 90, rfl⟩
abbrev main_v33 : Ref sig .tc := ⟨.hbm, 91, rfl⟩
abbrev main_c_10 : Ref sig .tc := ⟨.hbm, 92, rfl⟩
abbrev main_v34 : Ref sig .tc := ⟨.hbm, 93, rfl⟩
abbrev main_v35 : Ref sig .tc := ⟨.hbm, 94, rfl⟩
abbrev main_c_11 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_c_12 : Ref sig .tc := ⟨.hbm, 102, rfl⟩
abbrev main_v42 : Ref sig .tc := ⟨.hbm, 103, rfl⟩
abbrev main_v43 : Ref sig .tc := ⟨.hbm, 104, rfl⟩
abbrev main_c_13 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_cst_14 : Ref sig .tc := ⟨.hbm, 116, rfl⟩
abbrev main_v54 : Ref sig .tc := ⟨.hbm, 117, rfl⟩
abbrev main_cst_15 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_cst_16 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_c_17 : Ref sig .tc := ⟨.hbm, 130, rfl⟩
abbrev main_v65 : Ref sig .tc := ⟨.hbm, 131, rfl⟩
abbrev main_v66 : Ref sig .tc := ⟨.hbm, 132, rfl⟩
abbrev main_c_18 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_cst_19 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_c_20 : Ref sig .tc := ⟨.hbm, 153, rfl⟩
abbrev main_v85 : Ref sig .tc := ⟨.hbm, 154, rfl⟩
abbrev main_v86 : Ref sig .tc := ⟨.hbm, 155, rfl⟩
abbrev main_c_21 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_cst_22 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112_0 : Ref sig .tc := ⟨.hbm, 183, rfl⟩
abbrev main_v112_1 : Ref sig .tc := ⟨.hbm, 184, rfl⟩
abbrev main_cst_23 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_c_24 : Ref sig .tc := ⟨.hbm, 194, rfl⟩
abbrev main_v121 : Ref sig .tc := ⟨.hbm, 195, rfl⟩
abbrev main_v122 : Ref sig .tc := ⟨.hbm, 196, rfl⟩
abbrev main_c_25 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_cst_26 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_c_27 : Ref sig .tc := ⟨.hbm, 218, rfl⟩
abbrev main_v142 : Ref sig .tc := ⟨.hbm, 219, rfl⟩
abbrev main_v143 : Ref sig .tc := ⟨.hbm, 220, rfl⟩
abbrev main_c_28 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_cst_29 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167_0 : Ref sig .tc := ⟨.hbm, 246, rfl⟩
abbrev main_v167_1 : Ref sig .tc := ⟨.hbm, 247, rfl⟩
abbrev main_cst_30 : Ref sig .tc := ⟨.hbm, 248, rfl⟩
abbrev main_v168 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_v177 : Ref sig .tc := ⟨.hbm, 258, rfl⟩
abbrev main_v178 : Ref sig .tc := ⟨.hbm, 259, rfl⟩
abbrev main_v179 : Ref sig .tc := ⟨.hbm, 260, rfl⟩
abbrev main_call2_cst : Ref sig .tc := ⟨.hbm, 261, rfl⟩
abbrev main_call2_v0 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_v188 : Ref sig .tc := ⟨.hbm, 271, rfl⟩
abbrev main_call3_cst : Ref sig .tc := ⟨.hbm, 272, rfl⟩
abbrev main_call3_v0 : Ref sig .tc := ⟨.hbm, 273, rfl⟩
abbrev main_v189 : Ref sig .tc := ⟨.hbm, 274, rfl⟩
abbrev main_v190 : Ref sig .tc := ⟨.hbm, 275, rfl⟩
abbrev main_v191 : Ref sig .tc := ⟨.hbm, 276, rfl⟩
abbrev main_v192 : Ref sig .tc := ⟨.hbm, 277, rfl⟩
abbrev main_v193 : Ref sig .tc := ⟨.hbm, 278, rfl⟩
abbrev main_v194 : Ref sig .tc := ⟨.hbm, 279, rfl⟩
abbrev main_v195 : Ref sig .tc := ⟨.hbm, 280, rfl⟩
abbrev main_v196 : Ref sig .tc := ⟨.hbm, 281, rfl⟩
abbrev main_v197 : Ref sig .tc := ⟨.hbm, 282, rfl⟩
abbrev main_v198 : Ref sig .tc := ⟨.hbm, 283, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_scratch0 : Ref sig .tc := ⟨.vmem, 28, rfl⟩
abbrev cc2_scratch1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg2_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg2_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg6_0 : Ref sig .tc := ⟨.vmem, 49, rfl⟩
abbrev cc5_stg6_1 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg2_0 : Ref sig .tc := ⟨.vmem, 54, rfl⟩
abbrev cc6_stg2_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg1_1 : Ref sig .tc := ⟨.vmem, 59, rfl⟩
abbrev cc7_stg2_0 : Ref sig .tc := ⟨.vmem, 60, rfl⟩
abbrev cc7_stg2_1 : Ref sig .tc := ⟨.vmem, 61, rfl⟩
abbrev cc7_stg3_0 : Ref sig .tc := ⟨.vmem, 62, rfl⟩
abbrev cc7_stg4_0 : Ref sig .tc := ⟨.vmem, 63, rfl⟩
abbrev cc7_stg5_0 : Ref sig .tc := ⟨.vmem, 64, rfl⟩
abbrev cc7_stg6_0 : Ref sig .tc := ⟨.vmem, 65, rfl⟩
abbrev cc7_stg6_1 : Ref sig .tc := ⟨.vmem, 66, rfl⟩
abbrev cc8_stg0_0 : Ref sig .tc := ⟨.vmem, 67, rfl⟩
abbrev cc8_stg0_1 : Ref sig .tc := ⟨.vmem, 68, rfl⟩
abbrev cc8_stg1_0 : Ref sig .tc := ⟨.vmem, 69, rfl⟩
abbrev cc8_stg1_1 : Ref sig .tc := ⟨.vmem, 70, rfl⟩
abbrev cc8_stg2_0 : Ref sig .tc := ⟨.vmem, 71, rfl⟩
abbrev cc8_stg3_0 : Ref sig .tc := ⟨.vmem, 72, rfl⟩
abbrev cc8_scratch0 : Ref sig .tc := ⟨.vmem, 73, rfl⟩
abbrev cc8_scratch1 : Ref sig .tc := ⟨.vmem, 74, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem2_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc5_sem3_0 : DmaSem sig := 44
abbrev cc5_sem4_0 : DmaSem sig := 45
abbrev cc5_sem5_0 : DmaSem sig := 46
abbrev cc5_sem6_0 : DmaSem sig := 47
abbrev cc5_sem6_1 : DmaSem sig := 48
abbrev cc6_sem0_0 : DmaSem sig := 49
abbrev cc6_sem0_1 : DmaSem sig := 50
abbrev cc6_sem1_0 : DmaSem sig := 51
abbrev cc6_sem2_0 : DmaSem sig := 52
abbrev cc6_sem2_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem2_1 : DmaSem sig := 59
abbrev cc7_sem3_0 : DmaSem sig := 60
abbrev cc7_sem4_0 : DmaSem sig := 61
abbrev cc7_sem5_0 : DmaSem sig := 62
abbrev cc7_sem6_0 : DmaSem sig := 63
abbrev cc7_sem6_1 : DmaSem sig := 64
abbrev cc8_sem0_0 : DmaSem sig := 65
abbrev cc8_sem0_1 : DmaSem sig := 66
abbrev cc8_sem1_0 : DmaSem sig := 67
abbrev cc8_sem1_1 : DmaSem sig := 68
abbrev cc8_sem2_0 : DmaSem sig := 69
abbrev cc8_sem3_0 : DmaSem sig := 70

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_14 : BitVec 32 := 0#32
  let v22 : BitVec 1 := Scalar.cmpi .ne v21 c0_i32_14
  v22

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x512 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S1000x512 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x256 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S2000x256 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![25], ![false]⟩

def k8_cond2 (i : grid8.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_14 : BitVec 32 := 0#32
  let v22 : BitVec 1 := Scalar.cmpi .ne v21 c0_i32_14
  v22

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S2000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x8 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S8x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S8x1 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

class Facts₀ : Prop where
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S250000_S250000x1_0 : S250000.BroadcastsInDim S250000x1 (![0] : Fin 1 → Fin S250000x1.rank)
  bcast_S_S250000 : S_.BroadcastsInDim S250000 (![] : Fin 0 → Fin S250000.rank)
  bcast_S8_S1x8_1 : S8.BroadcastsInDim S1x8 (![1] : Fin 1 → Fin S1x8.rank)
  bcast_S1x8_S50000x8_0_1 : S1x8.BroadcastsInDim S50000x8 (![0, 1] : Fin 2 → Fin S50000x8.rank)
  reducesTo_S50000x8_S50000_d1 : S50000x8.ReducesTo [1] S50000
  h_S_ : 0 < S_.numel
  bcast_S50000_S50000x1_0 : S50000.BroadcastsInDim S50000x1 (![0] : Fin 1 → Fin S50000x1.rank)
  bcast_S50000x1_S50000x8_0_1 : S50000x1.BroadcastsInDim S50000x8 (![0, 1] : Fin 2 → Fin S50000x8.rank)
  bcast_S1600000x1_S1600000x8_0_1 : S1600000x1.BroadcastsInDim S1600000x8 (![0, 1] : Fin 2 → Fin S1600000x8.rank)
  bcast_S_S50000x8 : S_.BroadcastsInDim S50000x8 (![] : Fin 0 → Fin S50000x8.rank)
  shapeCasts_S16_S1x16 : S16.ShapeCasts S1x16
  shapeCasts_S50000_S50000x1 : S50000.ShapeCasts S50000x1
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x16 : S2000x1.Broadcasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  reduces_S2000x16_S2000 : S2000x16.Reduces [1] S2000
  shapeCasts_S2000_S2000x1 : S2000.ShapeCasts S2000x1
  bcast_S1600000x1_S1600000x16_0_1 : S1600000x1.BroadcastsInDim S1600000x16 (![0, 1] : Fin 2 → Fin S1600000x16.rank)
  bcast_S_S50000x16 : S_.BroadcastsInDim S50000x16 (![] : Fin 0 → Fin S50000x16.rank)
  shapeCasts_S32_S1x32 : S32.ShapeCasts S1x32
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  broadcasts_S2000x1_S2000x32 : S2000x1.Broadcasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  reduces_S2000x32_S2000 : S2000x32.Reduces [1] S2000
  shapeCasts_S8_S1x8 : S8.ShapeCasts S1x8
  inb_S8x32_S8x32_0_0 : ∀ a, (![0, 0] : Fin 2 → Nat) a + S8x32.size a ≤ S8x32.size a
  h_S8x32 : 0 < S8x32.numel
  shapeCasts_S8x32_S8x32 : S8x32.ShapeCasts S8x32
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S2000x8_S2000x8_0_0 : ∀ a, (![0, 0] : Fin 2 → Nat) a + S2000x8.size a ≤ S2000x8.size a
  h_S2000x8 : 0 < S2000x8.numel
  shapeCasts_S2000x8_S2000x8 : S2000x8.ShapeCasts S2000x8
  bcast_S_S8x1 : S_.BroadcastsInDim S8x1 (![] : Fin 0 → Fin S8x1.rank)
  bcast_S8x1_S8x32_0_1 : S8x1.BroadcastsInDim S8x32 (![0, 1] : Fin 2 → Fin S8x32.rank)
  bcast_S128_S1x128_1 : S128.BroadcastsInDim S1x128 (![1] : Fin 1 → Fin S1x128.rank)
  bcast_S1x128_S8x128_0_1 : S1x128.BroadcastsInDim S8x128 (![0, 1] : Fin 2 → Fin S8x128.rank)
  bcast_S250000x1_S250000x256_0_1 : S250000x1.BroadcastsInDim S250000x256 (![0, 1] : Fin 2 → Fin S250000x256.rank)
  bcast_S_S50000x256 : S_.BroadcastsInDim S50000x256 (![] : Fin 0 → Fin S50000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S2000x512_S2000x512_0_0 : ∀ a, (![0, 0] : Fin 2 → Nat) a + S2000x512.size a ≤ S2000x512.size a
  h_S2000x512 : 0 < S2000x512.numel
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x512 : S1000x1.Broadcasts S1000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  reduces_S1000x512_S1000 : S1000x512.Reduces [1] S1000
  shapeCasts_S1000_S1000x1 : S1000.ShapeCasts S1000x1
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  shapeCasts_S256_S1x256 : S256.ShapeCasts S1x256
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  inb_S8x256_S8x256_0_0 : ∀ a, (![0, 0] : Fin 2 → Nat) a + S8x256.size a ≤ S8x256.size a
  h_S8x256 : 0 < S8x256.numel
  shapeCasts_S8x256_S8x256 : S8x256.ShapeCasts S8x256
  bcast_S8x1_S8x256_0_1 : S8x1.BroadcastsInDim S8x256 (![0, 1] : Fin 2 → Fin S8x256.rank)
  bcast_S_S8x128 : S_.BroadcastsInDim S8x128 (![] : Fin 0 → Fin S8x128.rank)
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  concatenates_S8x128_S8x128_S8x256_d1 : Shape.Concatenates [S8x128, S8x128] S8x256 1
  bcast_S4_S1x4_1 : S4.BroadcastsInDim S1x4 (![1] : Fin 1 → Fin S1x4.rank)
  bcast_S1x4_S8x4_0_1 : S1x4.BroadcastsInDim S8x4 (![0, 1] : Fin 2 → Fin S8x4.rank)
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  scatter_S50000_S250000x1_S250000_n_0_0_1_wf : ScatterDims.WF S50000 S250000x1 S250000 [] [0] [0] 1
  gather_S50000_S250000x1_S250000_n_0_n_n_0_1_1_wf : GatherDims.WF S50000 S250000x1 S250000 [] [0] [] [0] [] 1 ![1]
  dot_S50000x3_S3x8_S50000x8_1_0_0_1_n_n_wf : DotDims.WF S50000x3 S3x8 S50000x8 [1] [0] [0] [1] [] []
  gather_S50000x8_S1600000x1_S1600000x8_1_0_n_n_0_1_18_wf : GatherDims.WF S50000x8 S1600000x1 S1600000x8 [1] [0] [] [0] [] 1 ![1, 8]
  scatter_S50000x8_S1600000x1_S1600000x8_1_0_0_1_wf : ScatterDims.WF S50000x8 S1600000x1 S1600000x8 [1] [0] [0] 1
  dot_S50000x8_S8x16_S50000x16_1_0_0_1_n_n_wf : DotDims.WF S50000x8 S8x16 S50000x16 [1] [0] [0] [1] [] []
  gather_S50000x16_S1600000x1_S1600000x16_1_0_n_n_0_1_116_wf : GatherDims.WF S50000x16 S1600000x1 S1600000x16 [1] [0] [] [0] [] 1 ![1, 16]
  scatter_S50000x16_S1600000x1_S1600000x16_1_0_0_1_wf : ScatterDims.WF S50000x16 S1600000x1 S1600000x16 [1] [0] [0] 1
  dot_S50000x16_S16x32_S50000x32_1_0_0_1_n_n_wf : DotDims.WF S50000x16 S16x32 S50000x32 [1] [0] [0] [1] [] []
  dot_S2000x8_S2000x32_S8x32_0_0_1_1_n_n_wf : DotDims.WF S2000x8 S2000x32 S8x32 [0] [0] [1] [1] [] []
  dot_S2000x8_S2000x1_S8x1_0_0_1_1_n_n_wf : DotDims.WF S2000x8 S2000x1 S8x1 [0] [0] [1] [1] [] []
  dot_S8x32_S32x128_S8x128_1_0_0_1_n_n_wf : DotDims.WF S8x32 S32x128 S8x128 [1] [0] [0] [1] [] []
  gather_S50000x256_S250000x1_S250000x256_1_0_n_n_0_1_1256_wf : GatherDims.WF S50000x256 S250000x1 S250000x256 [1] [0] [] [0] [] 1 ![1, 256]
  scatter_S50000x256_S250000x1_S250000x256_1_0_0_1_wf : ScatterDims.WF S50000x256 S250000x1 S250000x256 [1] [0] [0] 1
  dot_S2000x256_S256x512_S2000x512_1_0_0_1_n_n_wf : DotDims.WF S2000x256 S256x512 S2000x512 [1] [0] [0] [1] [] []
  dot_S2000x512_S512x256_S2000x256_1_0_0_1_n_n_wf : DotDims.WF S2000x512 S512x256 S2000x256 [1] [0] [0] [1] [] []
  dot_S2000x8_S2000x256_S8x256_0_0_1_1_n_n_wf : DotDims.WF S2000x8 S2000x256 S8x256 [0] [0] [1] [1] [] []
  dot_S8x256_S256x128_S8x128_1_0_0_1_n_n_wf : DotDims.WF S8x256 S256x128 S8x128 [1] [0] [0] [1] [] []
  dot_S8x128_S128x128_S8x128_1_0_0_1_n_n_wf : DotDims.WF S8x128 S128x128 S8x128 [1] [0] [0] [1] [] []
  dot_S8x128_S128x64_S8x64_1_0_0_1_n_n_wf : DotDims.WF S8x128 S128x64 S8x64 [1] [0] [0] [1] [] []
  dot_S8x256_S256x4_S8x4_1_0_0_1_n_n_wf : DotDims.WF S8x256 S256x4 S8x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x16.size a ≤ S50000x16.size a
  hwx0_0 : ∀ i : grid0.Coords, EltTy.bits .f32 = 32 ∨ (Rect.block (s := S50000x16) S2000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x16.size a ≤ S50000x16.size a
  hwx0_1 : ∀ i : grid0.Coords, EltTy.bits .f32 = 32 ∨ (Rect.block (s := S50000x16) S2000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x16.size a ≤ S50000x16.size a
  hwx0_6 : ∀ i : grid0.Coords, EltTy.bits .f32 = 32 ∨ (Rect.block (s := S50000x16) S2000x16.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S50000x32.size a
  hwx1_0 : ∀ i : grid1.Coords, EltTy.bits .f32 = 32 ∨ (Rect.block (s := S50000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x32.size a ≤ S50000x32.size a
  hwx1_1 : ∀ i : grid1.Coords, EltTy.bits .f32 = 32 ∨ (Rect.block (s := S50000x32) S2000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x32.size a ≤ S50000x32.size a
  hwx1_6 : ∀ i : grid1.Coords, EltTy.bits .f32 = 32 ∨ (Rect.block (s := S50000x32) S2000x32.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S50000x32.size a
  hwx2_0 : ∀ i : grid2.Coords, EltTy.bits .f32 = 32 ∨ (Rect.block (s := S50000x32) S2000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x8.size a ≤ S50000x8.size a
  hwx2_1 : ∀ i : grid2.Coords, EltTy.bits .f32 = 32 ∨ (Rect.block (s := S50000x8) S2000x8.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8x32.size a ≤ S8x32.size a
  hwx2_2 : ∀ i : grid2.Coords, EltTy.bits .f32 = 32 ∨ (Rect.block (s := S8x32) S8x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8x1.size a ≤ S8x1.size a
  hwx2_3 : ∀ i : grid2.Coords, EltTy.bits .f32 = 32 ∨ (Rect.block (s := S8x1) S8x1.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x512.size a ≤ S256x512.size a
  hwx3_1 : ∀ i : grid3.Coords, EltTy.bits .f32 = 32 ∨ (Rect.block (s := S256x512) S256x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x512.size a ≤ S50000x512.size a
  hwx3_2 : ∀ i : grid3.Coords, EltTy.bits .f32 = 32 ∨ (Rect.block (s := S50000x512) S2000x512.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x512.size a ≤ S256x512.size a
  hwx4_1 : ∀ i : grid4.Coords, EltTy.bits .f32 = 32 ∨ (Rect.block (s := S256x512) S256x512.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x512.size a ≤ S50000x512.size a
  hwx4_2 : ∀ i : grid4.Coords, EltTy.bits .f32 = 32 ∨ (Rect.block (s := S50000x512) S2000x512.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x512.size a ≤ S50000x512.size a
  hwx5_0 : ∀ i : grid5.Coords, EltTy.bits .f32 = 32 ∨ (Rect.block (s := S50000x512) S1000x512.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x512.size a ≤ S50000x512.size a
  hwx5_1 : ∀ i : grid5.Coords, EltTy.bits .f32 = 32 ∨ (Rect.block (s := S50000x512) S1000x512.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x1.size a ≤ S50000x1.size a
  hwx5_2 : ∀ i : grid5.Coords, EltTy.bits .f32 = 32 ∨ (Rect.block (s := S50000x1) S1000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x512.size a ≤ S1x512.size a
  hwx5_3 : ∀ i : grid5.Coords, EltTy.bits .f32 = 32 ∨ (Rect.block (s := S1x512) S1x512.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x512.size a ≤ S1x512.size a
  hwx5_4 : ∀ i : grid5.Coords, EltTy.bits .f32 = 32 ∨ (Rect.block (s := S1x512) S1x512.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x512.size a ≤ S1x512.size a
  hwx5_5 : ∀ i : grid5.Coords, EltTy.bits .f32 = 32 ∨ (Rect.block (s := S1x512) S1x512.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1000x512.size a ≤ S50000x512.size a
  hwx5_6 : ∀ i : grid5.Coords, EltTy.bits .f32 = 32 ∨ (Rect.block (s := S50000x512) S1000x512.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x512.size a ≤ S50000x512.size a
  hwx6_0 : ∀ i : grid6.Coords, EltTy.bits .f32 = 32 ∨ (Rect.block (s := S50000x512) S2000x512.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x256.size a ≤ S512x256.size a
  hwx6_1 : ∀ i : grid6.Coords, EltTy.bits .f32 = 32 ∨ (Rect.block (s := S512x256) S512x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x256.size a ≤ S50000x256.size a
  hwx6_2 : ∀ i : grid6.Coords, EltTy.bits .f32 = 32 ∨ (Rect.block (s := S50000x256) S2000x256.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S50000x256.size a
  hwx7_0 : ∀ i : grid7.Coords, EltTy.bits .f32 = 32 ∨ (Rect.block (s := S50000x256) S2000x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x256.size a ≤ S50000x256.size a
  hwx7_1 : ∀ i : grid7.Coords, EltTy.bits .f32 = 32 ∨ (Rect.block (s := S50000x256) S2000x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S50000x1.size a
  hwx7_2 : ∀ i : grid7.Coords, EltTy.bits .f32 = 32 ∨ (Rect.block (s := S50000x1) S2000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x256.size a ≤ S1x256.size a
  hwx7_5 : ∀ i : grid7.Coords, EltTy.bits .f32 = 32 ∨ (Rect.block (s := S1x256) S1x256.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2000x256.size a ≤ S50000x256.size a
  hwx7_6 : ∀ i : grid7.Coords, EltTy.bits .f32 = 32 ∨ (Rect.block (s := S50000x256) S2000x256.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x256.size a ≤ S50000x256.size a
  hwx8_0 : ∀ i : grid8.Coords, EltTy.bits .f32 = 32 ∨ (Rect.block (s := S50000x256) S2000x256.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x8.size a ≤ S50000x8.size a
  hwx8_1 : ∀ i : grid8.Coords, EltTy.bits .f32 = 32 ∨ (Rect.block (s := S50000x8) S2000x8.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S8x256.size a ≤ S8x256.size a
  hwx8_2 : ∀ i : grid8.Coords, EltTy.bits .f32 = 32 ∨ (Rect.block (s := S8x256) S8x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S8x1.size a ≤ S8x1.size a
  hwx8_3 : ∀ i : grid8.Coords, EltTy.bits .f32 = 32 ∨ (Rect.block (s := S8x1) S8x1.size (cc8_transform_3 i) (hinb8_3 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def gather_S50000_S250000x1_S250000_n_0_n_n_0_1_1 : GatherDims S50000 S250000x1 S250000 where
  offsetDims := []
  collapsedSliceDims := [0]
  operandBatchingDims := []
  startIndicesBatchingDims := []
  startIndexMap := [0]
  indexVectorDim := 1
  sliceSizes := ![1]
  wf := gather_S50000_S250000x1_S250000_n_0_n_n_0_1_1_wf
def dot_S50000x3_S3x8_S50000x8_1_0_0_1_n_n : DotDims S50000x3 S3x8 S50000x8 where
  lhsContracting := [1]
  rhsContracting := [0]
  lhsNonContracting := [0]
  rhsNonContracting := [1]
  lhsBatch := []
  rhsBatch := []
  wf := dot_S50000x3_S3x8_S50000x8_1_0_0_1_n_n_wf
def gather_S50000x8_S1600000x1_S1600000x8_1_0_n_n_0_1_18 : GatherDims S50000x8 S1600000x1 S1600000x8 where
  offsetDims := [1]
  collapsedSliceDims := [0]
  operandBatchingDims := []
  startIndicesBatchingDims := []
  startIndexMap := [0]
  indexVectorDim := 1
  sliceSizes := ![1, 8]
  wf := gather_S50000x8_S1600000x1_S1600000x8_1_0_n_n_0_1_18_wf
def scatter_S50000x8_S1600000x1_S1600000x8_1_0_0_1 : ScatterDims S50000x8 S1600000x1 S1600000x8 where
  updateWindowDims := [1]
  insertedWindowDims := [0]
  scatterDimsToOperandDims := [0]
  indexVectorDim := 1
  wf := scatter_S50000x8_S1600000x1_S1600000x8_1_0_0_1_wf
def dot_S50000x8_S8x16_S50000x16_1_0_0_1_n_n : DotDims S50000x8 S8x16 S50000x16 where
  lhsContracting := [1]
  rhsContracting := [0]
  lhsNonContracting := [0]
  rhsNonContracting := [1]
  lhsBatch := []
  rhsBatch := []
  wf := dot_S50000x8_S8x16_S50000x16_1_0_0_1_n_n_wf
def gather_S50000x16_S1600000x1_S1600000x16_1_0_n_n_0_1_116 : GatherDims S50000x16 S1600000x1 S1600000x16 where
  offsetDims := [1]
  collapsedSliceDims := [0]
  operandBatchingDims := []
  startIndicesBatchingDims := []
  startIndexMap := [0]
  indexVectorDim := 1
  sliceSizes := ![1, 16]
  wf := gather_S50000x16_S1600000x1_S1600000x16_1_0_n_n_0_1_116_wf
def scatter_S50000x16_S1600000x1_S1600000x16_1_0_0_1 : ScatterDims S50000x16 S1600000x1 S1600000x16 where
  updateWindowDims := [1]
  insertedWindowDims := [0]
  scatterDimsToOperandDims := [0]
  indexVectorDim := 1
  wf := scatter_S50000x16_S1600000x1_S1600000x16_1_0_0_1_wf
def dot_S50000x16_S16x32_S50000x32_1_0_0_1_n_n : DotDims S50000x16 S16x32 S50000x32 where
  lhsContracting := [1]
  rhsContracting := [0]
  lhsNonContracting := [0]
  rhsNonContracting := [1]
  lhsBatch := []
  rhsBatch := []
  wf := dot_S50000x16_S16x32_S50000x32_1_0_0_1_n_n_wf
def dot_S2000x8_S2000x32_S8x32_0_0_1_1_n_n : DotDims S2000x8 S2000x32 S8x32 where
  lhsContracting := [0]
  rhsContracting := [0]
  lhsNonContracting := [1]
  rhsNonContracting := [1]
  lhsBatch := []
  rhsBatch := []
  wf := dot_S2000x8_S2000x32_S8x32_0_0_1_1_n_n_wf
def dot_S2000x8_S2000x1_S8x1_0_0_1_1_n_n : DotDims S2000x8 S2000x1 S8x1 where
  lhsContracting := [0]
  rhsContracting := [0]
  lhsNonContracting := [1]
  rhsNonContracting := [1]
  lhsBatch := []
  rhsBatch := []
  wf := dot_S2000x8_S2000x1_S8x1_0_0_1_1_n_n_wf
def dot_S8x32_S32x128_S8x128_1_0_0_1_n_n : DotDims S8x32 S32x128 S8x128 where
  lhsContracting := [1]
  rhsContracting := [0]
  lhsNonContracting := [0]
  rhsNonContracting := [1]
  lhsBatch := []
  rhsBatch := []
  wf := dot_S8x32_S32x128_S8x128_1_0_0_1_n_n_wf
def gather_S50000x256_S250000x1_S250000x256_1_0_n_n_0_1_1256 : GatherDims S50000x256 S250000x1 S250000x256 where
  offsetDims := [1]
  collapsedSliceDims := [0]
  operandBatchingDims := []
  startIndicesBatchingDims := []
  startIndexMap := [0]
  indexVectorDim := 1
  sliceSizes := ![1, 256]
  wf := gather_S50000x256_S250000x1_S250000x256_1_0_n_n_0_1_1256_wf
def scatter_S50000x256_S250000x1_S250000x256_1_0_0_1 : ScatterDims S50000x256 S250000x1 S250000x256 where
  updateWindowDims := [1]
  insertedWindowDims := [0]
  scatterDimsToOperandDims := [0]
  indexVectorDim := 1
  wf := scatter_S50000x256_S250000x1_S250000x256_1_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x8_S2000x256_S8x256_0_0_1_1_n_n : DotDims S2000x8 S2000x256 S8x256 where
  lhsContracting := [0]
  rhsContracting := [0]
  lhsNonContracting := [1]
  rhsNonContracting := [1]
  lhsBatch := []
  rhsBatch := []
  wf := dot_S2000x8_S2000x256_S8x256_0_0_1_1_n_n_wf
def dot_S8x256_S256x128_S8x128_1_0_0_1_n_n : DotDims S8x256 S256x128 S8x128 where
  lhsContracting := [1]
  rhsContracting := [0]
  lhsNonContracting := [0]
  rhsNonContracting := [1]
  lhsBatch := []
  rhsBatch := []
  wf := dot_S8x256_S256x128_S8x128_1_0_0_1_n_n_wf
def dot_S8x128_S128x128_S8x128_1_0_0_1_n_n : DotDims S8x128 S128x128 S8x128 where
  lhsContracting := [1]
  rhsContracting := [0]
  lhsNonContracting := [0]
  rhsNonContracting := [1]
  lhsBatch := []
  rhsBatch := []
  wf := dot_S8x128_S128x128_S8x128_1_0_0_1_n_n_wf
def dot_S8x128_S128x64_S8x64_1_0_0_1_n_n : DotDims S8x128 S128x64 S8x64 where
  lhsContracting := [1]
  rhsContracting := [0]
  lhsNonContracting := [0]
  rhsNonContracting := [1]
  lhsBatch := []
  rhsBatch := []
  wf := dot_S8x128_S128x64_S8x64_1_0_0_1_n_n_wf
def dot_S8x256_S256x4_S8x4_1_0_0_1_n_n : DotDims S8x256 S256x4 S8x4 where
  lhsContracting := [1]
  rhsContracting := [0]
  lhsNonContracting := [0]
  rhsNonContracting := [1]
  lhsBatch := []
  rhsBatch := []
  wf := dot_S8x256_S256x4_S8x4_1_0_0_1_n_n_wf

abbrev win0_0 : Pipeline.Window sig grid0 :=
  Pipeline.Window.ofSpec (Memref.whole main_v78) S2000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v79) S2000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v83) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v80) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v81) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v82) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v84) S2000x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v98) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v99) S2000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v103) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v100) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v101) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v102) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v104) S2000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v104) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v111) S2000x8.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v112_0) S8x32.size cc2_transform_2 reads2_2 true true 1 stage2_2 sem2_2
    hrank2 hreads2_2 hinb2_2 nbuf2_2 (Memref.isWhole_whole _) hwx2_2 hstage2_2

abbrev win2_3 : Pipeline.Window sig grid2 :=
  Pipeline.Window.ofSpec (Memref.whole main_v112_1) S8x1.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun i => !(k2_cond2 i == 1#1) | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v133) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg22) S256x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v134) S2000x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg1) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg22) S256x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v135) S2000x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v134) S1000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v135) S1000x512.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v139) S1000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v136) S1x512.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v137) S1x512.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v138) S1x512.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v140) S1000x512.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v140) S2000x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg26) S512x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v141) S2000x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v154) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v141) S2000x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v158) S2000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v155) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v156) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v157) S1x256.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v159) S2000x256.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v159) S2000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v166) S2000x8.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v167_0) S8x256.size cc8_transform_2 reads8_2 true true 1 stage8_2 sem8_2
    hrank8 hreads8_2 hinb8_2 nbuf8_2 (Memref.isWhole_whole _) hwx8_2 hstage8_2

abbrev win8_3 : Pipeline.Window sig grid8 :=
  Pipeline.Window.ofSpec (Memref.whole main_v167_1) S8x1.size cc8_transform_3 reads8_3 true true 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev idle8 : Fin 4 → grid8.Coords → Bool := fun | 0 => fun _ => false | 1 => fun _ => false | 2 => fun i => !(k8_cond2 i == 1#1) | 3 => fun i => !(k8_cond2 i == 1#1) | ⟨_ + 4, h⟩ => absurd h (Nat.not_lt.2 (Nat.le_add_left _ _))

class Facts : Prop extends Facts₀ where

variable [Facts]
-- ==== ReferenceIdeal.lean ====
abbrev S50000x3 : Shape := ⟨2, ![50000, 3]⟩
abbrev S50000x256 : Shape := ⟨2, ![50000, 256]⟩
abbrev S1600000 : Shape := ⟨1, ![1600000]⟩
abbrev S250000 : Shape := ⟨1, ![250000]⟩
abbrev S50000 : Shape := ⟨1, ![50000]⟩
abbrev S3x8 : Shape := ⟨2, ![3, 8]⟩
abbrev S8 : Shape := ⟨1, ![8]⟩
abbrev S8x16 : Shape := ⟨2, ![8, 16]⟩
abbrev S16 : Shape := ⟨1, ![16]⟩
abbrev S16x32 : Shape := ⟨2, ![16, 32]⟩
abbrev S32 : Shape := ⟨1, ![32]⟩
abbrev S32x128 : Shape := ⟨2, ![32, 128]⟩
abbrev S128 : Shape := ⟨1, ![128]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128x128 : Shape := ⟨2, ![128, 128]⟩
abbrev S128x64 : Shape := ⟨2, ![128, 64]⟩
abbrev S64 : Shape := ⟨1, ![64]⟩
abbrev S256x4 : Shape := ⟨2, ![256, 4]⟩
abbrev S4 : Shape := ⟨1, ![4]⟩
abbrev S50000x8 : Shape := ⟨2, ![50000, 8]⟩
abbrev S1x8 : Shape := ⟨2, ![1, 8]⟩
abbrev S_ : Shape := ⟨0, ![]⟩
abbrev S50000x1 : Shape := ⟨2, ![50000, 1]⟩
abbrev S50000x16 : Shape := ⟨2, ![50000, 16]⟩
abbrev S1600000x1 : Shape := ⟨2, ![1600000, 1]⟩
abbrev S1600000x16 : Shape := ⟨2, ![1600000, 16]⟩
abbrev S1x16 : Shape := ⟨2, ![1, 16]⟩
abbrev S50000x32 : Shape := ⟨2, ![50000, 32]⟩
abbrev S1600000x32 : Shape := ⟨2, ![1600000, 32]⟩
abbrev S1x32 : Shape := ⟨2, ![1, 32]⟩
abbrev S8x32 : Shape := ⟨2, ![8, 32]⟩
abbrev S8x1 : Shape := ⟨2, ![8, 1]⟩
abbrev S8x128 : Shape := ⟨2, ![8, 128]⟩
abbrev S1x128 : Shape := ⟨2, ![1, 128]⟩
abbrev S50000x512 : Shape := ⟨2, ![50000, 512]⟩
abbrev S250000x1 : Shape := ⟨2, ![250000, 1]⟩
abbrev S250000x512 : Shape := ⟨2, ![250000, 512]⟩
abbrev S1x512 : Shape := ⟨2, ![1, 512]⟩
abbrev S250000x256 : Shape := ⟨2, ![250000, 256]⟩
abbrev S1x256 : Shape := ⟨2, ![1, 256]⟩
abbrev S8x256 : Shape := ⟨2, ![8, 256]⟩
abbrev S8x64 : Shape := ⟨2, ![8, 64]⟩
abbrev S1x64 : Shape := ⟨2, ![1, 64]⟩
abbrev S8x4 : Shape := ⟨2, ![8, 4]⟩
abbrev S1x4 : Shape := ⟨2, ![1, 4]⟩

abbrev nBuf : Space → Nat
  | .hbm => 495
  | .vmem => 0
  | .smem => 0
  | _ => 0

abbrev hbmTy0_0 (i : Nat) : BufTy := match i % 128 with
  | 0 => ⟨S50000x3, .f32⟩
  | 1 => ⟨S50000x256, .f32⟩
  | 2 => ⟨S1600000, .f32⟩
  | 3 => ⟨S250000, .f32⟩
  | 4 => ⟨S1600000, .i32⟩
  | 5 => ⟨S1600000, .i32⟩
  | 6 => ⟨S250000, .i32⟩
  | 7 => ⟨S250000, .i32⟩
  | 8 => ⟨S50000, .i32⟩
  | 9 => ⟨S50000, .i32⟩
  | 10 => ⟨S3x8, .f32⟩
  | 11 => ⟨S8, .f32⟩
  | 12 => ⟨S8x16, .f32⟩
  | 13 => ⟨S16, .f32⟩
  | 14 => ⟨S16, .f32⟩
  | 15 => ⟨S16, .f32⟩
  | 16 => ⟨S16x32, .f32⟩
  | 17 => ⟨S32, .f32⟩
  | 18 => ⟨S32, .f32⟩
  | 19 => ⟨S32, .f32⟩
  | 20 => ⟨S32x128, .f32⟩
  | 21 => ⟨S128, .f32⟩
  | 22 => ⟨S256x512, .f32⟩
  | 23 => ⟨S512, .f32⟩
  | 24 => ⟨S512, .f32⟩
  | 25 => ⟨S512, .f32⟩
  | 26 => ⟨S512x256, .f32⟩
  | 27 => ⟨S256, .f32⟩
  | 28 => ⟨S256, .f32⟩
  | 29 => ⟨S256, .f32⟩
  | 30 => ⟨S256x128, .f32⟩
  | 31 => ⟨S128, .f32⟩
  | 32 => ⟨S128x128, .f32⟩
  | 33 => ⟨S128, .f32⟩
  | 34 => ⟨S128x64, .f32⟩
  | 35 => ⟨S64, .f32⟩
  | 36 => ⟨S128x128, .f32⟩
  | 37 => ⟨S128, .f32⟩
  | 38 => ⟨S128x64, .f32⟩
  | 39 => ⟨S64, .f32⟩
  | 40 => ⟨S256x4, .f32⟩
  | 41 => ⟨S4, .f32⟩
  | 42 => ⟨S50000x8, .f32⟩
  | 43 => ⟨S1x8, .f32⟩
  | 44 => ⟨S50000x8, .f32⟩
  | 45 => ⟨S50000x8, .f32⟩
  | 46 => ⟨S_, .f32⟩
  | 47 => ⟨S50000, .f32⟩
  | 48 => ⟨S_, .f32⟩
  | 49 => ⟨S50000, .f32⟩
  | 50 => ⟨S50000, .f32⟩
  | 51 => ⟨S50000x1, .f32⟩
  | 52 => ⟨S50000x8, .f32⟩
  | 53 => ⟨S50000x8, .f32⟩
  | 54 => ⟨S50000x8, .f32⟩
  | 55 => ⟨S_, .f32⟩
  | 56 => ⟨S50000, .f32⟩
  | 57 => ⟨S50000x1, .f32⟩
  | 58 => ⟨S50000x8, .f32⟩
  | 59 => ⟨S50000x8, .f32⟩
  | 60 => ⟨S50000x16, .f32⟩
  | 61 => ⟨S_, .f32⟩
  | 62 => ⟨S50000, .f32⟩
  | 63 => ⟨S1600000x1, .i32⟩
  | 64 => ⟨S50000, .f32⟩
  | 65 => ⟨S_, .f32⟩
  | 66 => ⟨S50000, .f32⟩
  | 67 => ⟨S50000, .f32⟩
  | 68 => ⟨S_, .f32⟩
  | 69 => ⟨S50000, .f32⟩
  | 70 => ⟨S50000, .i1⟩
  | 71 => ⟨S50000, .f32⟩
  | 72 => ⟨S_, .f32⟩
  | 73 => ⟨S_, .f32⟩
  | 74 => ⟨S50000, .f32⟩
  | 75 => ⟨S50000, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000, .f32⟩
  | 85 => ⟨S1600000, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000, .f32⟩
  | 95 => ⟨S1600000, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x16, .f32⟩
  | 105 => ⟨S1600000x1, .f32⟩
  | 106 => ⟨S1600000x16, .f32⟩
  | 107 => ⟨S1600000x16, .f32⟩
  | 108 => ⟨S_, .f32⟩
  | 109 => ⟨S50000x16, .f32⟩
  | 110 => ⟨S1600000x1, .i32⟩
  | 111 => ⟨S50000x16, .f32⟩
  | 112 => ⟨S50000, .f32⟩
  | 113 => ⟨S50000x1, .f32⟩
  | 114 => ⟨S50000x16, .f32⟩
  | 115 => ⟨S50000x16, .f32⟩
  | 116 => ⟨S50000x16, .f32⟩
  | 117 => ⟨S1x16, .f32⟩
  | 118 => ⟨S50000x16, .f32⟩
  | 119 => ⟨S50000x16, .f32⟩
  | 120 => ⟨S_, .f32⟩
  | 121 => ⟨S50000x16, .f32⟩
  | 122 => ⟨S50000x16, .f32⟩
  | 123 => ⟨S_, .f32⟩
  | 124 => ⟨S50000, .f32⟩
  | 125 => ⟨S50000x1, .f32⟩
  | 126 => ⟨S_, .f32⟩
  | 127 => ⟨S50000x1, .f32⟩
  | _ => ⟨S50000x3, .f32⟩

abbrev hbmTy0_1 (i : Nat) : BufTy := match i % 128 with
  | 0 => ⟨S50000x1, .f32⟩
  | 1 => ⟨S50000x16, .f32⟩
  | 2 => ⟨S50000x16, .f32⟩
  | 3 => ⟨S50000x16, .f32⟩
  | 4 => ⟨S_, .f32⟩
  | 5 => ⟨S50000, .f32⟩
  | 6 => ⟨S50000x1, .f32⟩
  | 7 => ⟨S_, .f32⟩
  | 8 => ⟨S50000x1, .f32⟩
  | 9 => ⟨S50000x1, .f32⟩
  | 10 => ⟨S50000x16, .f32⟩
  | 11 => ⟨S50000x16, .f32⟩
  | 12 => ⟨S_, .f32⟩
  | 13 => ⟨S50000x1, .f32⟩
  | 14 => ⟨S50000x1, .f32⟩
  | 15 => ⟨S50000x1, .f32⟩
  | 16 => ⟨S50000x16, .f32⟩
  | 17 => ⟨S50000x16, .f32⟩
  | 18 => ⟨S1x16, .f32⟩
  | 19 => ⟨S50000x16, .f32⟩
  | 20 => ⟨S50000x16, .f32⟩
  | 21 => ⟨S1x16, .f32⟩
  | 22 => ⟨S50000x16, .f32⟩
  | 23 => ⟨S50000x16, .f32⟩
  | 24 => ⟨S50000x32, .f32⟩
  | 25 => ⟨S_, .f32⟩
  | 26 => ⟨S50000, .f32⟩
  | 27 => ⟨S1600000x1, .i32⟩
  | 28 => ⟨S50000, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .i1⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000, .f32⟩
  | 59 => ⟨S1600000, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x32, .f32⟩
  | 69 => ⟨S1600000x1, .f32⟩
  | 70 => ⟨S1600000x32, .f32⟩
  | 71 => ⟨S1600000x32, .f32⟩
  | 72 => ⟨S_, .f32⟩
  | 73 => ⟨S50000x32, .f32⟩
  | 74 => ⟨S1600000x1, .i32⟩
  | 75 => ⟨S50000x32, .f32⟩
  | 76 => ⟨S50000, .f32⟩
  | 77 => ⟨S50000x1, .f32⟩
  | 78 => ⟨S50000x32, .f32⟩
  | 79 => ⟨S50000x32, .f32⟩
  | 80 => ⟨S50000x32, .f32⟩
  | 81 => ⟨S1x32, .f32⟩
  | 82 => ⟨S50000x32, .f32⟩
  | 83 => ⟨S50000x32, .f32⟩
  | 84 => ⟨S_, .f32⟩
  | 85 => ⟨S50000x32, .f32⟩
  | 86 => ⟨S50000x32, .f32⟩
  | 87 => ⟨S_, .f32⟩
  | 88 => ⟨S50000, .f32⟩
  | 89 => ⟨S50000x1, .f32⟩
  | 90 => ⟨S_, .f32⟩
  | 91 => ⟨S50000x1, .f32⟩
  | 92 => ⟨S50000x1, .f32⟩
  | 93 => ⟨S50000x32, .f32⟩
  | 94 => ⟨S50000x32, .f32⟩
  | 95 => ⟨S50000x32, .f32⟩
  | 96 => ⟨S_, .f32⟩
  | 97 => ⟨S50000, .f32⟩
  | 98 => ⟨S50000x1, .f32⟩
  | 99 => ⟨S_, .f32⟩
  | 100 => ⟨S50000x1, .f32⟩
  | 101 => ⟨S50000x1, .f32⟩
  | 102 => ⟨S50000x32, .f32⟩
  | 103 => ⟨S50000x32, .f32⟩
  | 104 => ⟨S_, .f32⟩
  | 105 => ⟨S50000x1, .f32⟩
  | 106 => ⟨S50000x1, .f32⟩
  | 107 => ⟨S50000x1, .f32⟩
  | 108 => ⟨S50000x32, .f32⟩
  | 109 => ⟨S50000x32, .f32⟩
  | 110 => ⟨S1x32, .f32⟩
  | 111 => ⟨S50000x32, .f32⟩
  | 112 => ⟨S50000x32, .f32⟩
  | 113 => ⟨S1x32, .f32⟩
  | 114 => ⟨S50000x32, .f32⟩
  | 115 => ⟨S50000x32, .f32⟩
  | 116 => ⟨S_, .f32⟩
  | 117 => ⟨S8x32, .f32⟩
  | 118 => ⟨S50000x1, .i32⟩
  | 119 => ⟨S8x32, .f32⟩
  | 120 => ⟨S_, .f32⟩
  | 121 => ⟨S50000, .f32⟩
  | 122 => ⟨S_, .f32⟩
  | 123 => ⟨S8, .f32⟩
  | 124 => ⟨S50000x1, .i32⟩
  | 125 => ⟨S8, .f32⟩
  | 126 => ⟨S_, .f32⟩
  | 127 => ⟨S8, .f32⟩
  | _ => ⟨S50000x3, .f32⟩

abbrev hbmTy0_2 (i : Nat) : BufTy := match i % 128 with
  | 0 => ⟨S8, .f32⟩
  | 1 => ⟨S8x1, .f32⟩
  | 2 => ⟨S8x32, .f32⟩
  | 3 => ⟨S8x32, .f32⟩
  | 4 => ⟨S8x128, .f32⟩
  | 5 => ⟨S1x128, .f32⟩
  | 6 => ⟨S8x128, .f32⟩
  | 7 => ⟨S8x128, .f32⟩
  | 8 => ⟨S50000x512, .f32⟩
  | 9 => ⟨S_, .f32⟩
  | 10 => ⟨S50000, .f32⟩
  | 11 => ⟨S250000x1, .i32⟩
  | 12 => ⟨S50000, .f32⟩
  | 13 => ⟨S_, .f32⟩
  | 14 => ⟨S50000, .f32⟩
  | 15 => ⟨S50000, .f32⟩
  | 16 => ⟨S_, .f32⟩
  | 17 => ⟨S50000, .f32⟩
  | 18 => ⟨S50000, .i1⟩
  | 19 => ⟨S50000, .f32⟩
  | 20 => ⟨S_, .f32⟩
  | 21 => ⟨S_, .f32⟩
  | 22 => ⟨S50000, .f32⟩
  | 23 => ⟨S50000, .f32⟩
  | 24 => ⟨S_, .i32⟩
  | 25 => ⟨S250000, .i32⟩
  | 26 => ⟨S250000, .i1⟩
  | 27 => ⟨S_, .i32⟩
  | 28 => ⟨S250000, .i32⟩
  | 29 => ⟨S250000, .i32⟩
  | 30 => ⟨S250000, .i32⟩
  | 31 => ⟨S250000x1, .i32⟩
  | 32 => ⟨S250000, .f32⟩
  | 33 => ⟨S250000, .f32⟩
  | 34 => ⟨S_, .i32⟩
  | 35 => ⟨S250000, .i32⟩
  | 36 => ⟨S250000, .i1⟩
  | 37 => ⟨S_, .i32⟩
  | 38 => ⟨S250000, .i32⟩
  | 39 => ⟨S250000, .i32⟩
  | 40 => ⟨S250000, .i32⟩
  | 41 => ⟨S250000x1, .i32⟩
  | 42 => ⟨S250000, .f32⟩
  | 43 => ⟨S250000, .f32⟩
  | 44 => ⟨S_, .i32⟩
  | 45 => ⟨S250000, .i32⟩
  | 46 => ⟨S250000, .i1⟩
  | 47 => ⟨S_, .i32⟩
  | 48 => ⟨S250000, .i32⟩
  | 49 => ⟨S250000, .i32⟩
  | 50 => ⟨S250000, .i32⟩
  | 51 => ⟨S250000x1, .i32⟩
  | 52 => ⟨S250000x512, .f32⟩
  | 53 => ⟨S250000x1, .f32⟩
  | 54 => ⟨S250000x512, .f32⟩
  | 55 => ⟨S250000x512, .f32⟩
  | 56 => ⟨S_, .f32⟩
  | 57 => ⟨S50000x512, .f32⟩
  | 58 => ⟨S250000x1, .i32⟩
  | 59 => ⟨S50000x512, .f32⟩
  | 60 => ⟨S50000, .f32⟩
  | 61 => ⟨S50000x1, .f32⟩
  | 62 => ⟨S50000x512, .f32⟩
  | 63 => ⟨S50000x512, .f32⟩
  | 64 => ⟨S50000x512, .f32⟩
  | 65 => ⟨S1x512, .f32⟩
  | 66 => ⟨S50000x512, .f32⟩
  | 67 => ⟨S50000x512, .f32⟩
  | 68 => ⟨S_, .f32⟩
  | 69 => ⟨S50000x512, .f32⟩
  | 70 => ⟨S50000x512, .f32⟩
  | 71 => ⟨S_, .f32⟩
  | 72 => ⟨S50000, .f32⟩
  | 73 => ⟨S50000x1, .f32⟩
  | 74 => ⟨S_, .f32⟩
  | 75 => ⟨S50000x1, .f32⟩
  | 76 => ⟨S50000x1, .f32⟩
  | 77 => ⟨S50000x512, .f32⟩
  | 78 => ⟨S50000x512, .f32⟩
  | 79 => ⟨S50000x512, .f32⟩
  | 80 => ⟨S_, .f32⟩
  | 81 => ⟨S50000, .f32⟩
  | 82 => ⟨S50000x1, .f32⟩
  | 83 => ⟨S_, .f32⟩
  | 84 => ⟨S50000x1, .f32⟩
  | 85 => ⟨S50000x1, .f32⟩
  | 86 => ⟨S50000x512, .f32⟩
  | 87 => ⟨S50000x512, .f32⟩
  | 88 => ⟨S_, .f32⟩
  | 89 => ⟨S50000x1, .f32⟩
  | 90 => ⟨S50000x1, .f32⟩
  | 91 => ⟨S50000x1, .f32⟩
  | 92 => ⟨S50000x512, .f32⟩
  | 93 => ⟨S50000x512, .f32⟩
  | 94 => ⟨S1x512, .f32⟩
  | 95 => ⟨S50000x512, .f32⟩
  | 96 => ⟨S50000x512, .f32⟩
  | 97 => ⟨S1x512, .f32⟩
  | 98 => ⟨S50000x512, .f32⟩
  | 99 => ⟨S50000x512, .f32⟩
  | 100 => ⟨S50000x256, .f32⟩
  | 101 => ⟨S_, .f32⟩
  | 102 => ⟨S50000, .f32⟩
  | 103 => ⟨S250000x1, .i32⟩
  | 104 => ⟨S50000, .f32⟩
  | 105 => ⟨S_, .f32⟩
  | 106 => ⟨S50000, .f32⟩
  | 107 => ⟨S50000, .f32⟩
  | 108 => ⟨S_, .f32⟩
  | 109 => ⟨S50000, .f32⟩
  | 110 => ⟨S50000, .i1⟩
  | 111 => ⟨S50000, .f32⟩
  | 112 => ⟨S_, .f32⟩
  | 113 => ⟨S_, .f32⟩
  | 114 => ⟨S50000, .f32⟩
  | 115 => ⟨S50000, .f32⟩
  | 116 => ⟨S_, .i32⟩
  | 117 => ⟨S250000, .i32⟩
  | 118 => ⟨S250000, .i1⟩
  | 119 => ⟨S_, .i32⟩
  | 120 => ⟨S250000, .i32⟩
  | 121 => ⟨S250000, .i32⟩
  | 122 => ⟨S250000, .i32⟩
  | 123 => ⟨S250000x1, .i32⟩
  | 124 => ⟨S250000, .f32⟩
  | 125 => ⟨S250000, .f32⟩
  | 126 => ⟨S_, .i32⟩
  | 127 => ⟨S250000, .i32⟩
  | _ => ⟨S50000x3, .f32⟩

abbrev hbmTy0_3 (i : Nat) : BufTy := match i % 128 with
  | 0 => ⟨S250000, .i1⟩
  | 1 => ⟨S_, .i32⟩
  | 2 => ⟨S250000, .i32⟩
  | 3 => ⟨S250000, .i32⟩
  | 4 => ⟨S250000, .i32⟩
  | 5 => ⟨S250000x1, .i32⟩
  | 6 => ⟨S250000, .f32⟩
  | 7 => ⟨S250000, .f32⟩
  | 8 => ⟨S_, .i32⟩
  | 9 => ⟨S250000, .i32⟩
  | 10 => ⟨S250000, .i1⟩
  | 11 => ⟨S_, .i32⟩
  | 12 => ⟨S250000, .i32⟩
  | 13 => ⟨S250000, .i32⟩
  | 14 => ⟨S250000, .i32⟩
  | 15 => ⟨S250000x1, .i32⟩
  | 16 => ⟨S250000x256, .f32⟩
  | 17 => ⟨S250000x1, .f32⟩
  | 18 => ⟨S250000x256, .f32⟩
  | 19 => ⟨S250000x256, .f32⟩
  | 20 => ⟨S_, .f32⟩
  | 21 => ⟨S50000x256, .f32⟩
  | 22 => ⟨S250000x1, .i32⟩
  | 23 => ⟨S50000x256, .f32⟩
  | 24 => ⟨S50000, .f32⟩
  | 25 => ⟨S50000x1, .f32⟩
  | 26 => ⟨S50000x256, .f32⟩
  | 27 => ⟨S50000x256, .f32⟩
  | 28 => ⟨S50000x256, .f32⟩
  | 29 => ⟨S1x256, .f32⟩
  | 30 => ⟨S50000x256, .f32⟩
  | 31 => ⟨S50000x256, .f32⟩
  | 32 => ⟨S_, .f32⟩
  | 33 => ⟨S50000x256, .f32⟩
  | 34 => ⟨S50000x256, .f32⟩
  | 35 => ⟨S_, .f32⟩
  | 36 => ⟨S50000, .f32⟩
  | 37 => ⟨S50000x1, .f32⟩
  | 38 => ⟨S_, .f32⟩
  | 39 => ⟨S50000x1, .f32⟩
  | 40 => ⟨S50000x1, .f32⟩
  | 41 => ⟨S50000x256, .f32⟩
  | 42 => ⟨S50000x256, .f32⟩
  | 43 => ⟨S50000x256, .f32⟩
  | 44 => ⟨S_, .f32⟩
  | 45 => ⟨S50000, .f32⟩
  | 46 => ⟨S50000x1, .f32⟩
  | 47 => ⟨S_, .f32⟩
  | 48 => ⟨S50000x1, .f32⟩
  | 49 => ⟨S50000x1, .f32⟩
  | 50 => ⟨S50000x256, .f32⟩
  | 51 => ⟨S50000x256, .f32⟩
  | 52 => ⟨S_, .f32⟩
  | 53 => ⟨S50000x1, .f32⟩
  | 54 => ⟨S50000x1, .f32⟩
  | 55 => ⟨S50000x1, .f32⟩
  | 56 => ⟨S50000x256, .f32⟩
  | 57 => ⟨S50000x256, .f32⟩
  | 58 => ⟨S1x256, .f32⟩
  | 59 => ⟨S50000x256, .f32⟩
  | 60 => ⟨S50000x256, .f32⟩
  | 61 => ⟨S1x256, .f32⟩
  | 62 => ⟨S50000x256, .f32⟩
  | 63 => ⟨S50000x256, .f32⟩
  | 64 => ⟨S_, .f32⟩
  | 65 => ⟨S8x256, .f32⟩
  | 66 => ⟨S50000x1, .i32⟩
  | 67 => ⟨S8x256, .f32⟩
  | 68 => ⟨S_, .f32⟩
  | 69 => ⟨S50000, .f32⟩
  | 70 => ⟨S_, .f32⟩
  | 71 => ⟨S8, .f32⟩
  | 72 => ⟨S50000x1, .i32⟩
  | 73 => ⟨S8, .f32⟩
  | 74 => ⟨S_, .f32⟩
  | 75 => ⟨S8, .f32⟩
  | 76 => ⟨S8, .f32⟩
  | 77 => ⟨S8x1, .f32⟩
  | 78 => ⟨S8x256, .f32⟩
  | 79 => ⟨S8x256, .f32⟩
  | 80 => ⟨S8x128, .f32⟩
  | 81 => ⟨S1x128, .f32⟩
  | 82 => ⟨S8x128, .f32⟩
  | 83 => ⟨S8x128, .f32⟩
  | 84 => ⟨S8x128, .f32⟩
  | 85 => ⟨S1x128, .f32⟩
  | 86 => ⟨S8x128, .f32⟩
  | 87 => ⟨S8x128, .f32⟩
  | 88 => ⟨S_, .f32⟩
  | 89 => ⟨S8x128, .f32⟩
  | 90 => ⟨S8x128, .f32⟩
  | 91 => ⟨S8x64, .f32⟩
  | 92 => ⟨S1x64, .f32⟩
  | 93 => ⟨S8x64, .f32⟩
  | 94 => ⟨S8x64, .f32⟩
  | 95 => ⟨S8x128, .f32⟩
  | 96 => ⟨S1x128, .f32⟩
  | 97 => ⟨S8x128, .f32⟩
  | 98 => ⟨S8x128, .f32⟩
  | 99 => ⟨S_, .f32⟩
  | 100 => ⟨S8x128, .f32⟩
  | 101 => ⟨S8x128, .f32⟩
  | 102 => ⟨S8x64, .f32⟩
  | 103 => ⟨S1x64, .f32⟩
  | 104 => ⟨S8x64, .f32⟩
  | 105 => ⟨S8x64, .f32⟩
  | 106 => ⟨S8x256, .f32⟩
  | 107 => ⟨S8x4, .f32⟩
  | 108 => ⟨S1x4, .f32⟩
  | 109 => ⟨S8x4, .f32⟩
  | 110 => ⟨S8x4, .f32⟩
  | _ => ⟨S50000x3, .f32⟩

abbrev hbmTy (i : Nat) : BufTy := match i / 128 with
  | 0 => hbmTy0_0 i
  | 1 => hbmTy0_1 i
  | 2 => hbmTy0_2 i
  | 3 => hbmTy0_3 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_v0 : Ref sig .tc := ⟨.hbm, 42, rfl⟩
abbrev main_v1 : Ref sig .tc := ⟨.hbm, 43, rfl⟩
abbrev main_v2 : Ref sig .tc := ⟨.hbm, 44, rfl⟩
abbrev main_v3 : Ref sig .tc := ⟨.hbm, 45, rfl⟩
abbrev main_cst : Ref sig .tc := ⟨.hbm, 46, rfl⟩
abbrev main_v4 : Ref sig .tc := ⟨.hbm, 47, rfl⟩
abbrev main_cst_0 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_1 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_cst_2 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_cst_3 : Ref sig .tc := ⟨.hbm, 65, rfl⟩
abbrev main_v19 : Ref sig .tc := ⟨.hbm, 66, rfl⟩
abbrev main_v20 : Ref sig .tc := ⟨.hbm, 67, rfl⟩
abbrev main_cst_4 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_cst_5 : Ref sig .tc := ⟨.hbm, 72, rfl⟩
abbrev main_call0_v0 : Ref sig .tc := ⟨.hbm, 73, rfl⟩
abbrev main_call0_v1 : Ref sig .tc := ⟨.hbm, 74, rfl⟩
abbrev main_v24 : Ref sig .tc := ⟨.hbm, 75, rfl⟩
abbrev main_c : Ref sig .tc := ⟨.hbm, 76, rfl⟩
abbrev main_v25 : Ref sig .tc := ⟨.hbm, 77, rfl⟩
abbrev main_v26 : Ref sig .tc := ⟨.hbm, 78, rfl⟩
abbrev main_c_6 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_c_7 : Ref sig .tc := ⟨.hbm, 86, rfl⟩
abbrev main_v33 : Ref sig .tc := ⟨.hbm, 87, rfl⟩
abbrev main_v34 : Ref sig .tc := ⟨.hbm, 88, rfl⟩
abbrev main_c_8 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_c_9 : Ref sig .tc := ⟨.hbm, 96, rfl⟩
abbrev main_v41 : Ref sig .tc := ⟨.hbm, 97, rfl⟩
abbrev main_v42 : Ref sig .tc := ⟨.hbm, 98, rfl⟩
abbrev main_c_10 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_cst_11 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_call1_cst : Ref sig .tc := ⟨.hbm, 120, rfl⟩
abbrev main_call1_v0 : Ref sig .tc := ⟨.hbm, 121, rfl⟩
abbrev main_v62 : Ref sig .tc := ⟨.hbm, 122, rfl⟩
abbrev main_cst_12 : Ref sig .tc := ⟨.hbm, 123, rfl⟩
abbrev main_v63 : Ref sig .tc := ⟨.hbm, 124, rfl⟩
abbrev main_v64 : Ref sig .tc := ⟨.hbm, 125, rfl⟩
abbrev main_cst_13 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_14 : Ref sig .tc := ⟨.hbm, 132, rfl⟩
abbrev main_v70 : Ref sig .tc := ⟨.hbm, 133, rfl⟩
abbrev main_v71 : Ref sig .tc := ⟨.hbm, 134, rfl⟩
abbrev main_cst_15 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_cst_16 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_17 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_18 : Ref sig .tc := ⟨.hbm, 157, rfl⟩
abbrev main_v91 : Ref sig .tc := ⟨.hbm, 158, rfl⟩
abbrev main_v92 : Ref sig .tc := ⟨.hbm, 159, rfl⟩
abbrev main_cst_19 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_cst_20 : Ref sig .tc := ⟨.hbm, 164, rfl⟩
abbrev main_call2_v0 : Ref sig .tc := ⟨.hbm, 165, rfl⟩
abbrev main_call2_v1 : Ref sig .tc := ⟨.hbm, 166, rfl⟩
abbrev main_v96 : Ref sig .tc := ⟨.hbm, 167, rfl⟩
abbrev main_c_21 : Ref sig .tc := ⟨.hbm, 168, rfl⟩
abbrev main_v97 : Ref sig .tc := ⟨.hbm, 169, rfl⟩
abbrev main_v98 : Ref sig .tc := ⟨.hbm, 170, rfl⟩
abbrev main_c_22 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_c_23 : Ref sig .tc := ⟨.hbm, 178, rfl⟩
abbrev main_v105 : Ref sig .tc := ⟨.hbm, 179, rfl⟩
abbrev main_v106 : Ref sig .tc := ⟨.hbm, 180, rfl⟩
abbrev main_c_24 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_c_25 : Ref sig .tc := ⟨.hbm, 188, rfl⟩
abbrev main_v113 : Ref sig .tc := ⟨.hbm, 189, rfl⟩
abbrev main_v114 : Ref sig .tc := ⟨.hbm, 190, rfl⟩
abbrev main_c_26 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_cst_27 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_call3_cst : Ref sig .tc := ⟨.hbm, 212, rfl⟩
abbrev main_call3_v0 : Ref sig .tc := ⟨.hbm, 213, rfl⟩
abbrev main_v134 : Ref sig .tc := ⟨.hbm, 214, rfl⟩
abbrev main_cst_28 : Ref sig .tc := ⟨.hbm, 215, rfl⟩
abbrev main_v135 : Ref sig .tc := ⟨.hbm, 216, rfl⟩
abbrev main_v136 : Ref sig .tc := ⟨.hbm, 217, rfl⟩
abbrev main_cst_29 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_cst_30 : Ref sig .tc := ⟨.hbm, 224, rfl⟩
abbrev main_v142 : Ref sig .tc := ⟨.hbm, 225, rfl⟩
abbrev main_v143 : Ref sig .tc := ⟨.hbm, 226, rfl⟩
abbrev main_cst_31 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_cst_32 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_v155 : Ref sig .tc := ⟨.hbm, 240, rfl⟩
abbrev main_v156 : Ref sig .tc := ⟨.hbm, 241, rfl⟩
abbrev main_v157 : Ref sig .tc := ⟨.hbm, 242, rfl⟩
abbrev main_v158 : Ref sig .tc := ⟨.hbm, 243, rfl⟩
abbrev main_cst_33 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_cst_34 : Ref sig .tc := ⟨.hbm, 248, rfl⟩
abbrev main_v162 : Ref sig .tc := ⟨.hbm, 249, rfl⟩
abbrev main_cst_35 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_cst_36 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_v169 : Ref sig .tc := ⟨.hbm, 258, rfl⟩
abbrev main_v170 : Ref sig .tc := ⟨.hbm, 259, rfl⟩
abbrev main_v171 : Ref sig .tc := ⟨.hbm, 260, rfl⟩
abbrev main_v172 : Ref sig .tc := ⟨.hbm, 261, rfl⟩
abbrev main_v173 : Ref sig .tc := ⟨.hbm, 262, rfl⟩
abbrev main_v174 : Ref sig .tc := ⟨.hbm, 263, rfl⟩
abbrev main_v175 : Ref sig .tc := ⟨.hbm, 264, rfl⟩
abbrev main_cst_37 : Ref sig .tc := ⟨.hbm, 265, rfl⟩
abbrev main_v176 : Ref sig .tc := ⟨.hbm, 266, rfl⟩
abbrev main_v177 : Ref sig .tc := ⟨.hbm, 267, rfl⟩
abbrev main_v178 : Ref sig .tc := ⟨.hbm, 268, rfl⟩
abbrev main_cst_38 : Ref sig .tc := ⟨.hbm, 269, rfl⟩
abbrev main_v179 : Ref sig .tc := ⟨.hbm, 270, rfl⟩
abbrev main_v180 : Ref sig .tc := ⟨.hbm, 271, rfl⟩
abbrev main_cst_39 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_cst_40 : Ref sig .tc := ⟨.hbm, 276, rfl⟩
abbrev main_call4_v0 : Ref sig .tc := ⟨.hbm, 277, rfl⟩
abbrev main_call4_v1 : Ref sig .tc := ⟨.hbm, 278, rfl⟩
abbrev main_v184 : Ref sig .tc := ⟨.hbm, 279, rfl⟩
abbrev main_c_41 : Ref sig .tc := ⟨.hbm, 280, rfl⟩
abbrev main_v185 : Ref sig .tc := ⟨.hbm, 281, rfl⟩
abbrev main_v186 : Ref sig .tc := ⟨.hbm, 282, rfl⟩
abbrev main_c_42 : Ref sig .tc := ⟨.hbm, 283, rfl⟩
abbrev main_v187 : Ref sig .tc := ⟨.hbm, 284, rfl⟩
abbrev main_v188 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩
abbrev main_v192 : Ref sig .tc := ⟨.hbm, 289, rfl⟩
abbrev main_c_43 : Ref sig .tc := ⟨.hbm, 290, rfl⟩
abbrev main_v193 : Ref sig .tc := ⟨.hbm, 291, rfl⟩
abbrev main_v194 : Ref sig .tc := ⟨.hbm, 292, rfl⟩
abbrev main_c_44 : Ref sig .tc := ⟨.hbm, 293, rfl⟩
abbrev main_v195 : Ref sig .tc := ⟨.hbm, 294, rfl⟩
abbrev main_v196 : Ref sig .tc := ⟨.hbm, 295, rfl⟩
abbrev main_v197 : Ref sig .tc := ⟨.hbm, 296, rfl⟩
abbrev main_v198 : Ref sig .tc := ⟨.hbm, 297, rfl⟩
abbrev main_v199 : Ref sig .tc := ⟨.hbm, 298, rfl⟩
abbrev main_v200 : Ref sig .tc := ⟨.hbm, 299, rfl⟩
abbrev main_c_45 : Ref sig .tc := ⟨.hbm, 300, rfl⟩
abbrev main_v201 : Ref sig .tc := ⟨.hbm, 301, rfl⟩
abbrev main_v202 : Ref sig .tc := ⟨.hbm, 302, rfl⟩
abbrev main_c_46 : Ref sig .tc := ⟨.hbm, 303, rfl⟩
abbrev main_v203 : Ref sig .tc := ⟨.hbm, 304, rfl⟩
abbrev main_v204 : Ref sig .tc := ⟨.hbm, 305, rfl⟩
abbrev main_v205 : Ref sig .tc := ⟨.hbm, 306, rfl⟩
abbrev main_v206 : Ref sig .tc := ⟨.hbm, 307, rfl⟩
abbrev main_v207 : Ref sig .tc := ⟨.hbm, 308, rfl⟩
abbrev main_v208 : Ref sig .tc := ⟨.hbm, 309, rfl⟩
abbrev main_v209 : Ref sig .tc := ⟨.hbm, 310, rfl⟩
abbrev main_v210 : Ref sig .tc := ⟨.hbm, 311, rfl⟩
abbrev main_cst_47 : Ref sig .tc := ⟨.hbm, 312, rfl⟩
abbrev main_v211 : Ref sig .tc := ⟨.hbm, 313, rfl⟩
abbrev main_v212 : Ref sig .tc := ⟨.hbm, 314, rfl⟩
abbrev main_v213 : Ref sig .tc := ⟨.hbm, 315, rfl⟩
abbrev main_v214 : Ref sig .tc := ⟨.hbm, 316, rfl⟩
abbrev main_v215 : Ref sig .tc := ⟨.hbm, 317, rfl⟩
abbrev main_v216 : Ref sig .tc := ⟨.hbm, 318, rfl⟩
abbrev main_v217 : Ref sig .tc := ⟨.hbm, 319, rfl⟩
abbrev main_v218 : Ref sig .tc := ⟨.hbm, 320, rfl⟩
abbrev main_v219 : Ref sig .tc := ⟨.hbm, 321, rfl⟩
abbrev main_v220 : Ref sig .tc := ⟨.hbm, 322, rfl⟩
abbrev main_v221 : Ref sig .tc := ⟨.hbm, 323, rfl⟩
abbrev main_call5_cst : Ref sig .tc := ⟨.hbm, 324, rfl⟩
abbrev main_call5_v0 : Ref sig .tc := ⟨.hbm, 325, rfl⟩
abbrev main_v222 : Ref sig .tc := ⟨.hbm, 326, rfl⟩
abbrev main_cst_48 : Ref sig .tc := ⟨.hbm, 327, rfl⟩
abbrev main_v223 : Ref sig .tc := ⟨.hbm, 328, rfl⟩
abbrev main_v224 : Ref sig .tc := ⟨.hbm, 329, rfl⟩
abbrev main_cst_49 : Ref sig .tc := ⟨.hbm, 330, rfl⟩
abbrev main_v225 : Ref sig .tc := ⟨.hbm, 331, rfl⟩
abbrev main_v226 : Ref sig .tc := ⟨.hbm, 332, rfl⟩
abbrev main_v227 : Ref sig .tc := ⟨.hbm, 333, rfl⟩
abbrev main_v228 : Ref sig .tc := ⟨.hbm, 334, rfl⟩
abbrev main_v229 : Ref sig .tc := ⟨.hbm, 335, rfl⟩
abbrev main_cst_50 : Ref sig .tc := ⟨.hbm, 336, rfl⟩
abbrev main_v230 : Ref sig .tc := ⟨.hbm, 337, rfl⟩
abbrev main_v231 : Ref sig .tc := ⟨.hbm, 338, rfl⟩
abbrev main_cst_51 : Ref sig .tc := ⟨.hbm, 339, rfl⟩
abbrev main_v232 : Ref sig .tc := ⟨.hbm, 340, rfl⟩
abbrev main_v233 : Ref sig .tc := ⟨.hbm, 341, rfl⟩
abbrev main_v234 : Ref sig .tc := ⟨.hbm, 342, rfl⟩
abbrev main_v235 : Ref sig .tc := ⟨.hbm, 343, rfl⟩
abbrev main_cst_52 : Ref sig .tc := ⟨.hbm, 344, rfl⟩
abbrev main_v236 : Ref sig .tc := ⟨.hbm, 345, rfl⟩
abbrev main_v237 : Ref sig .tc := ⟨.hbm, 346, rfl⟩
abbrev main_v238 : Ref sig .tc := ⟨.hbm, 347, rfl⟩
abbrev main_v239 : Ref sig .tc := ⟨.hbm, 348, rfl⟩
abbrev main_v240 : Ref sig .tc := ⟨.hbm, 349, rfl⟩
abbrev main_v241 : Ref sig .tc := ⟨.hbm, 350, rfl⟩
abbrev main_v242 : Ref sig .tc := ⟨.hbm, 351, rfl⟩
abbrev main_v243 : Ref sig .tc := ⟨.hbm, 352, rfl⟩
abbrev main_v244 : Ref sig .tc := ⟨.hbm, 353, rfl⟩
abbrev main_v245 : Ref sig .tc := ⟨.hbm, 354, rfl⟩
abbrev main_v246 : Ref sig .tc := ⟨.hbm, 355, rfl⟩
abbrev main_v247 : Ref sig .tc := ⟨.hbm, 356, rfl⟩
abbrev main_cst_53 : Ref sig .tc := ⟨.hbm, 357, rfl⟩
abbrev main_v248 : Ref sig .tc := ⟨.hbm, 358, rfl⟩
abbrev main_v249 : Ref sig .tc := ⟨.hbm, 359, rfl⟩
abbrev main_v250 : Ref sig .tc := ⟨.hbm, 360, rfl⟩
abbrev main_cst_54 : Ref sig .tc := ⟨.hbm, 361, rfl⟩
abbrev main_v251 : Ref sig .tc := ⟨.hbm, 362, rfl⟩
abbrev main_v252 : Ref sig .tc := ⟨.hbm, 363, rfl⟩
abbrev main_cst_55 : Ref sig .tc := ⟨.hbm, 364, rfl⟩
abbrev main_v253 : Ref sig .tc := ⟨.hbm, 365, rfl⟩
abbrev main_v254 : Ref sig .tc := ⟨.hbm, 366, rfl⟩
abbrev main_v255 : Ref sig .tc := ⟨.hbm, 367, rfl⟩
abbrev main_cst_56 : Ref sig .tc := ⟨.hbm, 368, rfl⟩
abbrev main_call6_v0 : Ref sig .tc := ⟨.hbm, 369, rfl⟩
abbrev main_call6_v1 : Ref sig .tc := ⟨.hbm, 370, rfl⟩
abbrev main_v256 : Ref sig .tc := ⟨.hbm, 371, rfl⟩
abbrev main_c_57 : Ref sig .tc := ⟨.hbm, 372, rfl⟩
abbrev main_v257 : Ref sig .tc := ⟨.hbm, 373, rfl⟩
abbrev main_v258 : Ref sig .tc := ⟨.hbm, 374, rfl⟩
abbrev main_c_58 : Ref sig .tc := ⟨.hbm, 375, rfl⟩
abbrev main_v259 : Ref sig .tc := ⟨.hbm, 376, rfl⟩
abbrev main_v260 : Ref sig .tc := ⟨.hbm, 377, rfl⟩
abbrev main_v261 : Ref sig .tc := ⟨.hbm, 378, rfl⟩
abbrev main_v262 : Ref sig .tc := ⟨.hbm, 379, rfl⟩
abbrev main_v263 : Ref sig .tc := ⟨.hbm, 380, rfl⟩
abbrev main_v264 : Ref sig .tc := ⟨.hbm, 381, rfl⟩
abbrev main_c_59 : Ref sig .tc := ⟨.hbm, 382, rfl⟩
abbrev main_v265 : Ref sig .tc := ⟨.hbm, 383, rfl⟩
abbrev main_v266 : Ref sig .tc := ⟨.hbm, 384, rfl⟩
abbrev main_c_60 : Ref sig .tc := ⟨.hbm, 385, rfl⟩
abbrev main_v267 : Ref sig .tc := ⟨.hbm, 386, rfl⟩
abbrev main_v268 : Ref sig .tc := ⟨.hbm, 387, rfl⟩
abbrev main_v269 : Ref sig .tc := ⟨.hbm, 388, rfl⟩
abbrev main_v270 : Ref sig .tc := ⟨.hbm, 389, rfl⟩
abbrev main_v271 : Ref sig .tc := ⟨.hbm, 390, rfl⟩
abbrev main_v272 : Ref sig .tc := ⟨.hbm, 391, rfl⟩
abbrev main_c_61 : Ref sig .tc := ⟨.hbm, 392, rfl⟩
abbrev main_v273 : Ref sig .tc := ⟨.hbm, 393, rfl⟩
abbrev main_v274 : Ref sig .tc := ⟨.hbm, 394, rfl⟩
abbrev main_c_62 : Ref sig .tc := ⟨.hbm, 395, rfl⟩
abbrev main_v275 : Ref sig .tc := ⟨.hbm, 396, rfl⟩
abbrev main_v276 : Ref sig .tc := ⟨.hbm, 397, rfl⟩
abbrev main_v277 : Ref sig .tc := ⟨.hbm, 398, rfl⟩
abbrev main_v278 : Ref sig .tc := ⟨.hbm, 399, rfl⟩
abbrev main_v279 : Ref sig .tc := ⟨.hbm, 400, rfl⟩
abbrev main_v280 : Ref sig .tc := ⟨.hbm, 401, rfl⟩
abbrev main_v281 : Ref sig .tc := ⟨.hbm, 402, rfl⟩
abbrev main_v282 : Ref sig .tc := ⟨.hbm, 403, rfl⟩
abbrev main_cst_63 : Ref sig .tc := ⟨.hbm, 404, rfl⟩
abbrev main_v283 : Ref sig .tc := ⟨.hbm, 405, rfl⟩
abbrev main_v284 : Ref sig .tc := ⟨.hbm, 406, rfl⟩
abbrev main_v285 : Ref sig .tc := ⟨.hbm, 407, rfl⟩
abbrev main_v286 : Ref sig .tc := ⟨.hbm, 408, rfl⟩
abbrev main_v287 : Ref sig .tc := ⟨.hbm, 409, rfl⟩
abbrev main_v288 : Ref sig .tc := ⟨.hbm, 410, rfl⟩
abbrev main_v289 : Ref sig .tc := ⟨.hbm, 411, rfl⟩
abbrev main_v290 : Ref sig .tc := ⟨.hbm, 412, rfl⟩
abbrev main_v291 : Ref sig .tc := ⟨.hbm, 413, rfl⟩
abbrev main_v292 : Ref sig .tc := ⟨.hbm, 414, rfl⟩
abbrev main_v293 : Ref sig .tc := ⟨.hbm, 415, rfl⟩
abbrev main_call7_cst : Ref sig .tc := ⟨.hbm, 416, rfl⟩
abbrev main_call7_v0 : Ref sig .tc := ⟨.hbm, 417, rfl⟩
abbrev main_v294 : Ref sig .tc := ⟨.hbm, 418, rfl⟩
abbrev main_cst_64 : Ref sig .tc := ⟨.hbm, 419, rfl⟩
abbrev main_v295 : Ref sig .tc := ⟨.hbm, 420, rfl⟩
abbrev main_v296 : Ref sig .tc := ⟨.hbm, 421, rfl⟩
abbrev main_cst_65 : Ref sig .tc := ⟨.hbm, 422, rfl⟩
abbrev main_v297 : Ref sig .tc := ⟨.hbm, 423, rfl⟩
abbrev main_v298 : Ref sig .tc := ⟨.hbm, 424, rfl⟩
abbrev main_v299 : Ref sig .tc := ⟨.hbm, 425, rfl⟩
abbrev main_v300 : Ref sig .tc := ⟨.hbm, 426, rfl⟩
abbrev main_v301 : Ref sig .tc := ⟨.hbm, 427, rfl⟩
abbrev main_cst_66 : Ref sig .tc := ⟨.hbm, 428, rfl⟩
abbrev main_v302 : Ref sig .tc := ⟨.hbm, 429, rfl⟩
abbrev main_v303 : Ref sig .tc := ⟨.hbm, 430, rfl⟩
abbrev main_cst_67 : Ref sig .tc := ⟨.hbm, 431, rfl⟩
abbrev main_v304 : Ref sig .tc := ⟨.hbm, 432, rfl⟩
abbrev main_v305 : Ref sig .tc := ⟨.hbm, 433, rfl⟩
abbrev main_v306 : Ref sig .tc := ⟨.hbm, 434, rfl⟩
abbrev main_v307 : Ref sig .tc := ⟨.hbm, 435, rfl⟩
abbrev main_cst_68 : Ref sig .tc := ⟨.hbm, 436, rfl⟩
abbrev main_v308 : Ref sig .tc := ⟨.hbm, 437, rfl⟩
abbrev main_v309 : Ref sig .tc := ⟨.hbm, 438, rfl⟩
abbrev main_v310 : Ref sig .tc := ⟨.hbm, 439, rfl⟩
abbrev main_v311 : Ref sig .tc := ⟨.hbm, 440, rfl⟩
abbrev main_v312 : Ref sig .tc := ⟨.hbm, 441, rfl⟩
abbrev main_v313 : Ref sig .tc := ⟨.hbm, 442, rfl⟩
abbrev main_v314 : Ref sig .tc := ⟨.hbm, 443, rfl⟩
abbrev main_v315 : Ref sig .tc := ⟨.hbm, 444, rfl⟩
abbrev main_v316 : Ref sig .tc := ⟨.hbm, 445, rfl⟩
abbrev main_v317 : Ref sig .tc := ⟨.hbm, 446, rfl⟩
abbrev main_v318 : Ref sig .tc := ⟨.hbm, 447, rfl⟩
abbrev main_cst_69 : Ref sig .tc := ⟨.hbm, 448, rfl⟩
abbrev main_v319 : Ref sig .tc := ⟨.hbm, 449, rfl⟩
abbrev main_v320 : Ref sig .tc := ⟨.hbm, 450, rfl⟩
abbrev main_v321 : Ref sig .tc := ⟨.hbm, 451, rfl⟩
abbrev main_cst_70 : Ref sig .tc := ⟨.hbm, 452, rfl⟩
abbrev main_v322 : Ref sig .tc := ⟨.hbm, 453, rfl⟩
abbrev main_cst_71 : Ref sig .tc := ⟨.hbm, 454, rfl⟩
abbrev main_v323 : Ref sig .tc := ⟨.hbm, 455, rfl⟩
abbrev main_v324 : Ref sig .tc := ⟨.hbm, 456, rfl⟩
abbrev main_v325 : Ref sig .tc := ⟨.hbm, 457, rfl⟩
abbrev main_cst_72 : Ref sig .tc := ⟨.hbm, 458, rfl⟩
abbrev main_v326 : Ref sig .tc := ⟨.hbm, 459, rfl⟩
abbrev main_v327 : Ref sig .tc := ⟨.hbm, 460, rfl⟩
abbrev main_v328 : Ref sig .tc := ⟨.hbm, 461, rfl⟩
abbrev main_v329 : Ref sig .tc := ⟨.hbm, 462, rfl⟩
abbrev main_v330 : Ref sig .tc := ⟨.hbm, 463, rfl⟩
abbrev main_v331 : Ref sig .tc := ⟨.hbm, 464, rfl⟩
abbrev main_v332 : Ref sig .tc := ⟨.hbm, 465, rfl⟩
abbrev main_v333 : Ref sig .tc := ⟨.hbm, 466, rfl⟩
abbrev main_v334 : Ref sig .tc := ⟨.hbm, 467, rfl⟩
abbrev main_v335 : Ref sig .tc := ⟨.hbm, 468, rfl⟩
abbrev main_v336 : Ref sig .tc := ⟨.hbm, 469, rfl⟩
abbrev main_v337 : Ref sig .tc := ⟨.hbm, 470, rfl⟩
abbrev main_v338 : Ref sig .tc := ⟨.hbm, 471, rfl⟩
abbrev main_call8_cst : Ref sig .tc := ⟨.hbm, 472, rfl⟩
abbrev main_call8_v0 : Ref sig .tc := ⟨.hbm, 473, rfl⟩
abbrev main_v339 : Ref sig .tc := ⟨.hbm, 474, rfl⟩
abbrev main_v340 : Ref sig .tc := ⟨.hbm, 475, rfl⟩
abbrev main_v341 : Ref sig .tc := ⟨.hbm, 476, rfl⟩
abbrev main_v342 : Ref sig .tc := ⟨.hbm, 477, rfl⟩
abbrev main_v343 : Ref sig .tc := ⟨.hbm, 478, rfl⟩
abbrev main_v344 : Ref sig .tc := ⟨.hbm, 479, rfl⟩
abbrev main_v345 : Ref sig .tc := ⟨.hbm, 480, rfl⟩
abbrev main_v346 : Ref sig .tc := ⟨.hbm, 481, rfl⟩
abbrev main_v347 : Ref sig .tc := ⟨.hbm, 482, rfl⟩
abbrev main_call9_cst : Ref sig .tc := ⟨.hbm, 483, rfl⟩
abbrev main_call9_v0 : Ref sig .tc := ⟨.hbm, 484, rfl⟩
abbrev main_v348 : Ref sig .tc := ⟨.hbm, 485, rfl⟩
abbrev main_v349 : Ref sig .tc := ⟨.hbm, 486, rfl⟩
abbrev main_v350 : Ref sig .tc := ⟨.hbm, 487, rfl⟩
abbrev main_v351 : Ref sig .tc := ⟨.hbm, 488, rfl⟩
abbrev main_v352 : Ref sig .tc := ⟨.hbm, 489, rfl⟩
abbrev main_v353 : Ref sig .tc := ⟨.hbm, 490, rfl⟩
abbrev main_v354 : Ref sig .tc := ⟨.hbm, 491, rfl⟩
abbrev main_v355 : Ref sig .tc := ⟨.hbm, 492, rfl⟩
abbrev main_v356 : Ref sig .tc := ⟨.hbm, 493, rfl⟩
abbrev main_v357 : Ref sig .tc := ⟨.hbm, 494, rfl⟩

abbrev nD : Nat := 1
abbrev τ : Topo := Topo.v7x

variable {F : FTy → Type} [FloatOps F]

class Facts₀ : Prop where
  bcast_S8_S1x8_1 : S8.BroadcastsInDim S1x8 (![1] : Fin 1 → Fin S1x8.rank)
  bcast_S1x8_S50000x8_0_1 : S1x8.BroadcastsInDim S50000x8 (![0, 1] : Fin 2 → Fin S50000x8.rank)
  reducesTo_S50000x8_S50000_d1 : S50000x8.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x8_0_1 : S50000x1.BroadcastsInDim S50000x8 (![0, 1] : Fin 2 → Fin S50000x8.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x16_0_1 : S1600000x1.BroadcastsInDim S1600000x16 (![0, 1] : Fin 2 → Fin S1600000x16.rank)
  bcast_S_S50000x16 : S_.BroadcastsInDim S50000x16 (![] : Fin 0 → Fin S50000x16.rank)
  bcast_S50000x1_S50000x16_0_1 : S50000x1.BroadcastsInDim S50000x16 (![0, 1] : Fin 2 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  bcast_S_S50000x1 : S_.BroadcastsInDim S50000x1 (![] : Fin 0 → Fin S50000x1.rank)
  bcast_S1600000x1_S1600000x32_0_1 : S1600000x1.BroadcastsInDim S1600000x32 (![0, 1] : Fin 2 → Fin S1600000x32.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  reducesTo_S50000x32_S50000_d1 : S50000x32.ReducesTo [1] S50000
  bcast_S_S8x32 : S_.BroadcastsInDim S8x32 (![] : Fin 0 → Fin S8x32.rank)
  bcast_S_S8 : S_.BroadcastsInDim S8 (![] : Fin 0 → Fin S8.rank)
  bcast_S8_S8x1_0 : S8.BroadcastsInDim S8x1 (![0] : Fin 1 → Fin S8x1.rank)
  bcast_S8x1_S8x32_0_1 : S8x1.BroadcastsInDim S8x32 (![0, 1] : Fin 2 → Fin S8x32.rank)
  bcast_S128_S1x128_1 : S128.BroadcastsInDim S1x128 (![1] : Fin 1 → Fin S1x128.rank)
  bcast_S1x128_S8x128_0_1 : S1x128.BroadcastsInDim S8x128 (![0, 1] : Fin 2 → Fin S8x128.rank)
  bcast_S250000_S250000x1_0 : S250000.BroadcastsInDim S250000x1 (![0] : Fin 1 → Fin S250000x1.rank)
  bcast_S_S250000 : S_.BroadcastsInDim S250000 (![] : Fin 0 → Fin S250000.rank)
  bcast_S250000x1_S250000x512_0_1 : S250000x1.BroadcastsInDim S250000x512 (![0, 1] : Fin 2 → Fin S250000x512.rank)
  bcast_S_S50000x512 : S_.BroadcastsInDim S50000x512 (![] : Fin 0 → Fin S50000x512.rank)
  bcast_S50000x1_S50000x512_0_1 : S50000x1.BroadcastsInDim S50000x512 (![0, 1] : Fin 2 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  reducesTo_S50000x512_S50000_d1 : S50000x512.ReducesTo [1] S50000
  bcast_S250000x1_S250000x256_0_1 : S250000x1.BroadcastsInDim S250000x256 (![0, 1] : Fin 2 → Fin S250000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  bcast_S_S8x256 : S_.BroadcastsInDim S8x256 (![] : Fin 0 → Fin S8x256.rank)
  bcast_S8x1_S8x256_0_1 : S8x1.BroadcastsInDim S8x256 (![0, 1] : Fin 2 → Fin S8x256.rank)
  bcast_S_S8x128 : S_.BroadcastsInDim S8x128 (![] : Fin 0 → Fin S8x128.rank)
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  concatenates_S8x128_S8x128_S8x256_d1 : Shape.Concatenates [S8x128, S8x128] S8x256 1
  bcast_S4_S1x4_1 : S4.BroadcastsInDim S1x4 (![1] : Fin 1 → Fin S1x4.rank)
  bcast_S1x4_S8x4_0_1 : S1x4.BroadcastsInDim S8x4 (![0, 1] : Fin 2 → Fin S8x4.rank)
  dot_S50000x3_S3x8_S50000x8_1_0_0_1_n_n_wf : DotDims.WF S50000x3 S3x8 S50000x8 [1] [0] [0] [1] [] []
  dot_S50000x8_S8x16_S50000x16_1_0_0_1_n_n_wf : DotDims.WF S50000x8 S8x16 S50000x16 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x16_S1600000x1_S1600000x16_1_0_n_n_0_1_116_wf : GatherDims.WF S50000x16 S1600000x1 S1600000x16 [1] [0] [] [0] [] 1 ![1, 16]
  scatter_S50000x16_S1600000x1_S1600000x16_1_0_0_1_wf : ScatterDims.WF S50000x16 S1600000x1 S1600000x16 [1] [0] [0] 1
  dot_S50000x16_S16x32_S50000x32_1_0_0_1_n_n_wf : DotDims.WF S50000x16 S16x32 S50000x32 [1] [0] [0] [1] [] []
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1
  scatter_S8x32_S50000x1_S50000x32_1_0_0_1_wf : ScatterDims.WF S8x32 S50000x1 S50000x32 [1] [0] [0] 1
  scatter_S8_S50000x1_S50000_n_0_0_1_wf : ScatterDims.WF S8 S50000x1 S50000 [] [0] [0] 1
  dot_S8x32_S32x128_S8x128_1_0_0_1_n_n_wf : DotDims.WF S8x32 S32x128 S8x128 [1] [0] [0] [1] [] []
  dot_S50000x256_S256x512_S50000x512_1_0_0_1_n_n_wf : DotDims.WF S50000x256 S256x512 S50000x512 [1] [0] [0] [1] [] []
  scatter_S50000_S250000x1_S250000_n_0_0_1_wf : ScatterDims.WF S50000 S250000x1 S250000 [] [0] [0] 1
  gather_S50000_S250000x1_S250000_n_0_n_n_0_1_1_wf : GatherDims.WF S50000 S250000x1 S250000 [] [0] [] [0] [] 1 ![1]
  gather_S50000x512_S250000x1_S250000x512_1_0_n_n_0_1_1512_wf : GatherDims.WF S50000x512 S250000x1 S250000x512 [1] [0] [] [0] [] 1 ![1, 512]
  scatter_S50000x512_S250000x1_S250000x512_1_0_0_1_wf : ScatterDims.WF S50000x512 S250000x1 S250000x512 [1] [0] [0] 1
  dot_S50000x512_S512x256_S50000x256_1_0_0_1_n_n_wf : DotDims.WF S50000x512 S512x256 S50000x256 [1] [0] [0] [1] [] []
  gather_S50000x256_S250000x1_S250000x256_1_0_n_n_0_1_1256_wf : GatherDims.WF S50000x256 S250000x1 S250000x256 [1] [0] [] [0] [] 1 ![1, 256]
  scatter_S50000x256_S250000x1_S250000x256_1_0_0_1_wf : ScatterDims.WF S50000x256 S250000x1 S250000x256 [1] [0] [0] 1
  scatter_S8x256_S50000x1_S50000x256_1_0_0_1_wf : ScatterDims.WF S8x256 S50000x1 S50000x256 [1] [0] [0] 1
  dot_S8x256_S256x128_S8x128_1_0_0_1_n_n_wf : DotDims.WF S8x256 S256x128 S8x128 [1] [0] [0] [1] [] []
  dot_S8x128_S128x128_S8x128_1_0_0_1_n_n_wf : DotDims.WF S8x128 S128x128 S8x128 [1] [0] [0] [1] [] []
  dot_S8x128_S128x64_S8x64_1_0_0_1_n_n_wf : DotDims.WF S8x128 S128x64 S8x64 [1] [0] [0] [1] [] []
  dot_S8x256_S256x4_S8x4_1_0_0_1_n_n_wf : DotDims.WF S8x256 S256x4 S8x4 [1] [0] [0] [1] [] []

variable [Facts₀]

def dot_S50000x3_S3x8_S50000x8_1_0_0_1_n_n : DotDims S50000x3 S3x8 S50000x8 where
  lhsContracting := [1]
  rhsContracting := [0]
  lhsNonContracting := [0]
  rhsNonContracting := [1]
  lhsBatch := []
  rhsBatch := []
  wf := dot_S50000x3_S3x8_S50000x8_1_0_0_1_n_n_wf
def dot_S50000x8_S8x16_S50000x16_1_0_0_1_n_n : DotDims S50000x8 S8x16 S50000x16 where
  lhsContracting := [1]
  rhsContracting := [0]
  lhsNonContracting := [0]
  rhsNonContracting := [1]
  lhsBatch := []
  rhsBatch := []
  wf := dot_S50000x8_S8x16_S50000x16_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x16_S1600000x1_S1600000x16_1_0_n_n_0_1_116 : GatherDims S50000x16 S1600000x1 S1600000x16 where
  offsetDims := [1]
  collapsedSliceDims := [0]
  operandBatchingDims := []
  startIndicesBatchingDims := []
  startIndexMap := [0]
  indexVectorDim := 1
  sliceSizes := ![1, 16]
  wf := gather_S50000x16_S1600000x1_S1600000x16_1_0_n_n_0_1_116_wf
def scatter_S50000x16_S1600000x1_S1600000x16_1_0_0_1 : ScatterDims S50000x16 S1600000x1 S1600000x16 where
  updateWindowDims := [1]
  insertedWindowDims := [0]
  scatterDimsToOperandDims := [0]
  indexVectorDim := 1
  wf := scatter_S50000x16_S1600000x1_S1600000x16_1_0_0_1_wf
def dot_S50000x16_S16x32_S50000x32_1_0_0_1_n_n : DotDims S50000x16 S16x32 S50000x32 where
  lhsContracting := [1]
  rhsContracting := [0]
  lhsNonContracting := [0]
  rhsNonContracting := [1]
  lhsBatch := []
  rhsBatch := []
  wf := dot_S50000x16_S16x32_S50000x32_1_0_0_1_n_n_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def scatter_S8x32_S50000x1_S50000x32_1_0_0_1 : ScatterDims S8x32 S50000x1 S50000x32 where
  updateWindowDims := [1]
  insertedWindowDims := [0]
  scatterDimsToOperandDims := [0]
  indexVectorDim := 1
  wf := scatter_S8x32_S50000x1_S50000x32_1_0_0_1_wf
def scatter_S8_S50000x1_S50000_n_0_0_1 : ScatterDims S8 S50000x1 S50000 where
  updateWindowDims := []
  insertedWindowDims := [0]
  scatterDimsToOperandDims := [0]
  indexVectorDim := 1
  wf := scatter_S8_S50000x1_S50000_n_0_0_1_wf
def dot_S8x32_S32x128_S8x128_1_0_0_1_n_n : DotDims S8x32 S32x128 S8x128 where
  lhsContracting := [1]
  rhsContracting := [0]
  lhsNonContracting := [0]
  rhsNonContracting := [1]
  lhsBatch := []
  rhsBatch := []
  wf := dot_S8x32_S32x128_S8x128_1_0_0_1_n_n_wf
def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf
def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def gather_S50000_S250000x1_S250000_n_0_n_n_0_1_1 : GatherDims S50000 S250000x1 S250000 where
  offsetDims := []
  collapsedSliceDims := [0]
  operandBatchingDims := []
  startIndicesBatchingDims := []
  startIndexMap := [0]
  indexVectorDim := 1
  sliceSizes := ![1]
  wf := gather_S50000_S250000x1_S250000_n_0_n_n_0_1_1_wf
def gather_S50000x512_S250000x1_S250000x512_1_0_n_n_0_1_1512 : GatherDims S50000x512 S250000x1 S250000x512 where
  offsetDims := [1]
  collapsedSliceDims := [0]
  operandBatchingDims := []
  startIndicesBatchingDims := []
  startIndexMap := [0]
  indexVectorDim := 1
  sliceSizes := ![1, 512]
  wf := gather_S50000x512_S250000x1_S250000x512_1_0_n_n_0_1_1512_wf
def scatter_S50000x512_S250000x1_S250000x512_1_0_0_1 : ScatterDims S50000x512 S250000x1 S250000x512 where
  updateWindowDims := [1]
  insertedWindowDims := [0]
  scatterDimsToOperandDims := [0]
  indexVectorDim := 1
  wf := scatter_S50000x512_S250000x1_S250000x512_1_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S250000x1_S250000x256_1_0_n_n_0_1_1256 : GatherDims S50000x256 S250000x1 S250000x256 where
  offsetDims := [1]
  collapsedSliceDims := [0]
  operandBatchingDims := []
  startIndicesBatchingDims := []
  startIndexMap := [0]
  indexVectorDim := 1
  sliceSizes := ![1, 256]
  wf := gather_S50000x256_S250000x1_S250000x256_1_0_n_n_0_1_1256_wf
def scatter_S50000x256_S250000x1_S250000x256_1_0_0_1 : ScatterDims S50000x256 S250000x1 S250000x256 where
  updateWindowDims := [1]
  insertedWindowDims := [0]
  scatterDimsToOperandDims := [0]
  indexVectorDim := 1
  wf := scatter_S50000x256_S250000x1_S250000x256_1_0_0_1_wf
def scatter_S8x256_S50000x1_S50000x256_1_0_0_1 : ScatterDims S8x256 S50000x1 S50000x256 where
  updateWindowDims := [1]
  insertedWindowDims := [0]
  scatterDimsToOperandDims := [0]
  indexVectorDim := 1
  wf := scatter_S8x256_S50000x1_S50000x256_1_0_0_1_wf
def dot_S8x256_S256x128_S8x128_1_0_0_1_n_n : DotDims S8x256 S256x128 S8x128 where
  lhsContracting := [1]
  rhsContracting := [0]
  lhsNonContracting := [0]
  rhsNonContracting := [1]
  lhsBatch := []
  rhsBatch := []
  wf := dot_S8x256_S256x128_S8x128_1_0_0_1_n_n_wf
def dot_S8x128_S128x128_S8x128_1_0_0_1_n_n : DotDims S8x128 S128x128 S8x128 where
  lhsContracting := [1]
  rhsContracting := [0]
  lhsNonContracting := [0]
  rhsNonContracting := [1]
  lhsBatch := []
  rhsBatch := []
  wf := dot_S8x128_S128x128_S8x128_1_0_0_1_n_n_wf
def dot_S8x128_S128x64_S8x64_1_0_0_1_n_n : DotDims S8x128 S128x64 S8x64 where
  lhsContracting := [1]
  rhsContracting := [0]
  lhsNonContracting := [0]
  rhsNonContracting := [1]
  lhsBatch := []
  rhsBatch := []
  wf := dot_S8x128_S128x64_S8x64_1_0_0_1_n_n_wf
def dot_S8x256_S256x4_S8x4_1_0_0_1_n_n : DotDims S8x256 S256x4 S8x4 where
  lhsContracting := [1]
  rhsContracting := [0]
  lhsNonContracting := [0]
  rhsNonContracting := [1]
  lhsBatch := []
  rhsBatch := []
  wf := dot_S8x256_S256x4_S8x4_1_0_0_1_n_n_wf

class Facts : Prop extends Facts₀ where

variable [Facts]
-- ==== Proof.K.Reg0.lean ====
import proofs.«408530_j23158463660766_2_alg».proof.Proof.Gen.Kernel.Launch
import proofs.«408530_j23158463660766_2_alg».proof.Proof.Gen.Kernel.Skeleton
import proofs.«408530_j23158463660766_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x16 := Rect.unit (s := S2000x16) ![0, 0] S2000x16.size inb_S2000x16_S2000x16_0_0
abbrev r0_1 : Rect S2000x1 := Rect.unit (s := S2000x1) ![0, 0] S2000x1.size inb_S2000x1_S2000x1_0_0
abbrev r0_2 : Rect S1x16 := Rect.unit (s := S1x16) ![0, 0] S1x16.size inb_S1x16_S1x16_0_0

def out0_6 (x0 x1 : Vec F S2000x16 .f32) (x2 : Vec F S2000x1 .f32) (x3 x4 x5 : Vec F S1x16 .f32) : Vec F S2000x16 .f32 :=
  View.canon [⟨r0_0, k0_pay1 (k0_pay2 (View.ld x0 r0_0) (View.ld x1 r0_0) (View.ld x2 r0_1) (View.ld x3 r0_2) (View.ld x4 r0_2))
    (k0_pay3 (View.ld x5 r0_2))⟩]

set_option maxHeartbeats 1000000 in
/-- The body loads its six inputs whole and stores one payload over the whole output block, so the output reads that payload. -/
theorem sound_kernel0 (c : Dev nD) {i : grid0.Coords} {arg1 arg2 arg7 : Memref sig .tc .vmem S2000x16 .f32}
    {arg3 : Memref sig .tc .vmem S2000x1 .f32} {arg4 arg5 arg6 : Memref sig .tc .vmem S1x16 .f32}
    {harg1 : arg1.IsWhole} {harg2 : arg2.IsWhole} {harg3 : arg3.IsWhole} {harg4 : arg4.IsWhole}
    {harg5 : arg5.IsWhole} {harg6 : arg6.IsWhole} {harg7 : arg7.IsWhole}
    (x0 x1 : Vec F S2000x16 .f32) (x2 : Vec F S2000x1 .f32) (x3 x4 x5 : Vec F S1x16 .f32) (K : PUnit → sProp 𝕄) :
    iprop(owns c arg1 fullShare x0 ∗ owns c arg2 fullShare x1 ∗ owns c arg3 fullShare x2 ∗ owns c arg4 fullShare x3
        ∗ owns c arg5 fullShare x4 ∗ owns c arg6 fullShare x5 ∗ (∃ d, owns c arg7 fullShare d)
        ∗ (iprop(owns c arg1 fullShare x0 ∗ owns c arg2 fullShare x1 ∗ owns c arg3 fullShare x2 ∗ owns c arg4 fullShare x3
            ∗ owns c arg5 fullShare x4 ∗ owns c arg6 fullShare x5 ∗ owns c arg7 fullShare (out0_6 x0 x1 x2 x3 x4 x5)) -∗ K ⟨⟩))
      ⊢ wp frame (wpE (defs₀ (F := F)) Variants.none c none) Set.univ
          (cc0__gcn_post_kernel i arg1 harg1 arg2 harg2 arg3 harg3 arg4 harg4 arg5 harg5 arg6 harg6 arg7 harg7) K := by
  simp only [cc0__gcn_post_kernel_eq_skeleton]; unfold cc0__gcn_post_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  iexists _; iframe H6; ipureintro
  exact View.read_writes_eq_canon _ _ _ (View.cover_of_tiled _ S2000x16.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

/-- For an input window, before and after the body agree: the body writes no input. -/
theorem before0 (c : Dev nD) (w : Fin cfg0.W) (hw : (cfg0.win w).isOut = false) (t : Fin cfg0.N) (d) :
    (dat0 V c).before w t d = (dat0 V c).after w t := by
  match w, hw with
  | ⟨0, _⟩, _ | ⟨1, _⟩, _ | ⟨2, _⟩, _ | ⟨3, _⟩, _ | ⟨4, _⟩, _ | ⟨5, _⟩, _ =>
    exact (dat0 V c).before_in_eq_fetched _ rfl (fun _ => rfl) (fun _ _ _ => rfl) (fun _ => rfl) t d
  | ⟨6, _⟩, h => cases h

/-- The body's triple at each point, framed by the invariant and the owed tallies. -/
theorem body_obligation0 (c : Dev nD) : BodyObligation (dat0 (F := F) V c) (defs₀ (F := F)) Variants.none () Set.univ := fun t => by
  rw [bigSep_W0, bigSep_W0]
  simp (disch := exact rfl) only [before0 V c]
  rw [show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c (iblk0 V c 0 t) (iblk0 V c 1 t) (iblk0 V c 2 t) (iblk0 V c 3 t) (iblk0 V c 4 t) (iblk0 V c 5 t) _)
  iframe H0 H1 H2 H3 H4 H5
  isplitl [H6]; · iexists _; iexact H6
  iintro ⟨H0, H1, H2, H3, H4, H5, H6⟩
  iframe

end Region0

end Cert.Kernel.Hand
-- ==== Proof.K.Reg1.lean ====
import proofs.«408530_j23158463660766_2_alg».proof.Proof.Gen.Kernel.Launch
import proofs.«408530_j23158463660766_2_alg».proof.Proof.Gen.Kernel.Skeleton
import proofs.«408530_j23158463660766_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x32 := Rect.unit (s := S2000x32) ![0, 0] S2000x32.size inb_S2000x32_S2000x32_0_0
abbrev r1_1 : Rect S2000x1 := Rect.unit (s := S2000x1) ![0, 0] S2000x1.size inb_S2000x1_S2000x1_0_0
abbrev r1_2 : Rect S1x32 := Rect.unit (s := S1x32) ![0, 0] S1x32.size inb_S1x32_S1x32_0_0

def out1_6 (x0 x1 : Vec F S2000x32 .f32) (x2 : Vec F S2000x1 .f32) (x3 x4 x5 : Vec F S1x32 .f32) : Vec F S2000x32 .f32 :=
  View.canon [⟨r1_0, k1_pay1 (k1_pay2 (View.ld x0 r1_0) (View.ld x1 r1_0) (View.ld x2 r1_1) (View.ld x3 r1_2) (View.ld x4 r1_2))
    (k1_pay3 (View.ld x5 r1_2))⟩]

set_option maxHeartbeats 1000000 in
/-- The body loads its six inputs whole and stores one payload over the whole output block, so the output reads that payload. -/
theorem sound_kernel1 (c : Dev nD) {i : grid1.Coords} {arg1 arg2 arg7 : Memref sig .tc .vmem S2000x32 .f32}
    {arg3 : Memref sig .tc .vmem S2000x1 .f32} {arg4 arg5 arg6 : Memref sig .tc .vmem S1x32 .f32}
    {harg1 : arg1.IsWhole} {harg2 : arg2.IsWhole} {harg3 : arg3.IsWhole} {harg4 : arg4.IsWhole}
    {harg5 : arg5.IsWhole} {harg6 : arg6.IsWhole} {harg7 : arg7.IsWhole}
    (x0 x1 : Vec F S2000x32 .f32) (x2 : Vec F S2000x1 .f32) (x3 x4 x5 : Vec F S1x32 .f32) (K : PUnit → sProp 𝕄) :
    iprop(owns c arg1 fullShare x0 ∗ owns c arg2 fullShare x1 ∗ owns c arg3 fullShare x2 ∗ owns c arg4 fullShare x3
        ∗ owns c arg5 fullShare x4 ∗ owns c arg6 fullShare x5 ∗ (∃ d, owns c arg7 fullShare d)
        ∗ (iprop(owns c arg1 fullShare x0 ∗ owns c arg2 fullShare x1 ∗ owns c arg3 fullShare x2 ∗ owns c arg4 fullShare x3
            ∗ owns c arg5 fullShare x4 ∗ owns c arg6 fullShare x5 ∗ owns c arg7 fullShare (out1_6 x0 x1 x2 x3 x4 x5)) -∗ K ⟨⟩))
      ⊢ wp frame (wpE (defs₀ (F := F)) Variants.none c none) Set.univ
          (cc1__gcn_post_kernel i arg1 harg1 arg2 harg2 arg3 harg3 arg4 harg4 arg5 harg5 arg6 harg6 arg7 harg7) K := by
  simp only [cc1__gcn_post_kernel_eq_skeleton]; unfold cc1__gcn_post_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  iexists _; iframe H6; ipureintro
  exact View.read_writes_eq_canon _ _ _ (View.cover_of_tiled _ S2000x32.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

/-- For an input window, before and after the body agree: the body writes no input. -/
theorem before1 (c : Dev nD) (w : Fin cfg1.W) (hw : (cfg1.win w).isOut = false) (t : Fin cfg1.N) (d) :
    (dat1 V c).before w t d = (dat1 V c).after w t := by
  match w, hw with
  | ⟨0, _⟩, _ | ⟨1, _⟩, _ | ⟨2, _⟩, _ | ⟨3, _⟩, _ | ⟨4, _⟩, _ | ⟨5, _⟩, _ =>
    exact (dat1 V c).before_in_eq_fetched _ rfl (fun _ => rfl) (fun _ _ _ => rfl) (fun _ => rfl) t d
  | ⟨6, _⟩, h => cases h

/-- The body's triple at each point, framed by the invariant and the owed tallies. -/
theorem body_obligation1 (c : Dev nD) : BodyObligation (dat1 (F := F) V c) (defs₀ (F := F)) Variants.none () Set.univ := fun t => by
  rw [bigSep_W1, bigSep_W1]
  simp (disch := exact rfl) only [before1 V c]
  rw [show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c (iblk1 V c 0 t) (iblk1 V c 1 t) (iblk1 V c 2 t) (iblk1 V c 3 t) (iblk1 V c 4 t) (iblk1 V c 5 t) _)
  iframe H0 H1 H2 H3 H4 H5
  isplitl [H6]; · iexists _; iexact H6
  iintro ⟨H0, H1, H2, H3, H4, H5, H6⟩
  iframe

end Region1

end Cert.Kernel.Hand
-- ==== Proof.K.Reg2.lean ====
import proofs.«408530_j23158463660766_2_alg».proof.Proof.Gen.Kernel.Skeleton
import proofs.«408530_j23158463660766_2_alg».proof.Proof.Gen.Kernel.Launch
import proofs.«408530_j23158463660766_2_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Tactic
import Idealize.ShloMosaic.Lib.WholeRead
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem off2_zero : (![0, 0] : Fin 2 → ℕ) = fun _ => 0 := by funext a; fin_cases a <;> rfl

section Whole
variable {Val : EltTy → Type} {sg : RefSig} {κ : Kind} {sp : Space} {S : Shape} {e : EltTy}

private theorem readAt_whole_unread {m : Memref sg κ sp S e} (hm : m.IsWhole) {off : Fin S.rank → ℕ} (h : off = fun _ => 0)
    (inb : ∀ a, off a + S.size a ≤ S.size a) (X : S.Idx → Val e) :
    View.readAt Val m.view (Rect.unit off S.size inb).toLoadRect (hm.unread X) = X := by
  funext x
  rw [hm.readAt_unread]
  exact congrFun (View.ld_unit_zero h inb X) x

private theorem read_writes_cons_unit_zero (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f (⟨Rect.unit off S.size inb, w⟩ :: L)) = w := by
  subst h; funext y
  have hy := View.read_writes_cons_emb v f (Rect.whole S) w L y
  rwa [Rect.emb_whole_apply] at hy

end Whole

abbrev cond2_0 (i : grid2.Coords) : Prop :=
  (Scalar.cmpi .ne (Scalar.extui (Scalar.cmpi .eq (BitVec.ofNat 32 (i 0).val) 0#32)) 0#32) = 1#1
abbrev cond2_1 (i : grid2.Coords) : Prop := k2_cond2 i = 1#1

theorem hcond2_0 : ∀ t : Fin cfg2.N, cond2_0 (grid2.coords t) ↔ t.val = 0 :=
  (by decide +kernel : ∀ t : Fin grid2.N, cond2_0 (grid2.coords t) ↔ t.val = 0)
theorem hcond2_1 : ∀ t : Fin cfg2.N, cond2_1 (grid2.coords t) ↔ t.val = 24 :=
  (by decide +kernel : ∀ t : Fin grid2.N, cond2_1 (grid2.coords t) ↔ t.val = 24)

set_option maxHeartbeats 1000000 in
/-- The body at any point: where `cond2_0` holds the accumulators restart from the constants, where `cond2_1` holds they are copied out. -/
theorem run2 (c : Dev nD) (i : grid2.Coords)
    (arg1 : Memref sig .tc .vmem S2000x32 .f32) (harg1 : arg1.IsWhole) (arg2 : Memref sig .tc .vmem S2000x8 .f32) (harg2 : arg2.IsWhole)
    (arg3 : Memref sig .tc .vmem S8x32 .f32) (harg3 : arg3.IsWhole) (arg4 : Memref sig .tc .vmem S8x1 .f32) (harg4 : arg4.IsWhole)
    (arg5 : Memref sig .tc .vmem S8x32 .f32) (harg5 : arg5.IsWhole) (arg6 : Memref sig .tc .vmem S8x1 .f32) (harg6 : arg6.IsWhole)
    (hi : cond2_0 i → ¬cond2_1 i)
    (x : Vec F S2000x32 .f32) (oh : Vec F S2000x8 .f32) (y3 : Vec F S8x32 .f32) (y4 : Vec F S8x1 .f32)
    (a : Vec F S8x32 .f32) (b : Vec F S8x1 .f32) (E : Set ℕ) (K : PUnit → sProp 𝕄) :
    iprop(owns (c : Thread nD τ) arg1 fullShare x ∗ owns (c : Thread nD τ) arg2 fullShare oh
        ∗ owns (c : Thread nD τ) arg3 fullShare y3 ∗ owns (c : Thread nD τ) arg4 fullShare y4
        ∗ owns (c : Thread nD τ) arg5 fullShare a ∗ owns (c : Thread nD τ) arg6 fullShare b
        ∗ (iprop(owns (c : Thread nD τ) arg1 fullShare x ∗ owns (c : Thread nD τ) arg2 fullShare oh
            ∗ owns (c : Thread nD τ) arg3 fullShare (if cond2_1 i then k2_pay4 x oh (if cond2_0 i then k2_pay1 else a) else y3)
            ∗ owns (c : Thread nD τ) arg4 fullShare (if cond2_1 i then k2_pay5 oh (if cond2_0 i then k2_pay2 else b) else y4)
            ∗ owns (c : Thread nD τ) arg5 fullShare (k2_pay4 x oh (if cond2_0 i then k2_pay1 else a))
            ∗ owns (c : Thread nD τ) arg6 fullShare (k2_pay5 oh (if cond2_0 i then k2_pay2 else b))) -∗ K ⟨⟩))
      ⊢ wp frame (wpE (defs₀ (F := F)) Variants.none c none) E (cc2_kernel i arg1 harg1 arg2 harg2 arg3 harg3 arg4 harg4 arg5 harg5 arg6 harg6) K := by
  by_cases hc0 : cond2_0 i <;> by_cases hc1 : cond2_1 i
  · exact absurd hc1 (hi hc0)
  all_goals
    first | rw [if_pos hc0, if_pos hc0] | rw [if_neg hc0, if_neg hc0]
    first | rw [if_pos hc1, if_pos hc1] | rw [if_neg hc1, if_neg hc1]
    simp only [cc2_kernel_eq_skeleton]; unfold cc2_kernel_skel owns
    iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := first | exact hc0 | exact hc1)
    sl_step
    iapply Hk
    isplitl [H1]; iexists _; isplitr; swap; iexact H1; rotate_left
    isplitl [H2]; iexists _; isplitr; swap; iexact H2; rotate_left
    isplitl [H3]; iexists _; isplitr; swap; iexact H3; rotate_left
    isplitl [H4]; iexists _; isplitr; swap; iexact H4; rotate_left
    isplitl [H5]; iexists _; isplitr; swap; iexact H5; rotate_left
    iexists _; isplitr; swap; iexact H6
    all_goals ipureintro
    all_goals first
      | exact Memref.IsWhole.read_unread _ _
      | (sl_unfold_run_names
         simp only [read_writes_cons_unit_zero (S := S8x32) _ _ off2_zero, read_writes_cons_unit_zero (S := S8x1) _ _ off2_zero,
           View.readCov_unit_zero (S := S8x32) _ off2_zero, View.readCov_unit_zero (S := S8x1) _ off2_zero,
           readAt_whole_unread harg1 off2_zero, readAt_whole_unread harg2 off2_zero, readAt_whole_unread harg5 off2_zero, readAt_whole_unread harg6 off2_zero])

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def acc2 (c : Dev nD) : (n : ℕ) → n < cfg2.N → Vec F S8x32 .f32 × Vec F S8x1 .f32
  | 0, hn => (k2_pay4 (iblk2 V c 0 ⟨0, hn⟩) (iblk2 V c 1 ⟨0, hn⟩) k2_pay1, k2_pay5 (iblk2 V c 1 ⟨0, hn⟩) k2_pay2)
  | n + 1, hn => (k2_pay4 (iblk2 V c 0 ⟨n + 1, hn⟩) (iblk2 V c 1 ⟨n + 1, hn⟩) (acc2 c n (Nat.lt_of_succ_lt hn)).1,
      k2_pay5 (iblk2 V c 1 ⟨n + 1, hn⟩) (acc2 c n (Nat.lt_of_succ_lt hn)).2)

/-- What the accumulators hold before position `n`: anything before the first point, afterwards what the point before left. -/
def pre2 (c : Dev nD) (a : Vec F S8x32 .f32) (b : Vec F S8x1 .f32) : (n : ℕ) → n ≤ cfg2.N → Vec F S8x32 .f32 × Vec F S8x1 .f32
  | 0, _ => (a, b)
  | n + 1, hn => acc2 V c n hn

/-- One step of the accumulation from `pre2`, whichever point it is: the first point is where `cond2_0` holds. -/
theorem acc2_eq (c : Dev nD) (a : Vec F S8x32 .f32) (b : Vec F S8x1 .f32) (t : Fin cfg2.N) :
    (acc2 V c t.val t.isLt).1 = k2_pay4 (iblk2 V c 0 t) (iblk2 V c 1 t) (if cond2_0 (grid2.coords t) then k2_pay1 else (pre2 V c a b t.val (Nat.le_of_lt t.isLt)).1)
    ∧ (acc2 V c t.val t.isLt).2 = k2_pay5 (iblk2 V c 1 t) (if cond2_0 (grid2.coords t) then k2_pay2 else (pre2 V c a b t.val (Nat.le_of_lt t.isLt)).2) := by
  obtain ⟨n, hn⟩ := t
  cases n with
  | zero => have h := (hcond2_0 ⟨0, hn⟩).mpr rfl; rw [if_pos h, if_pos h]; exact ⟨rfl, rfl⟩
  | succ n =>
    have h : ¬cond2_0 (grid2.coords ⟨n + 1, hn⟩) := fun h => Nat.succ_ne_zero n ((hcond2_0 _).mp h)
    rw [if_neg h, if_neg h]; exact ⟨rfl, rfl⟩

theorem pre2_succ (c : Dev nD) (a b) (n : ℕ) (h) : pre2 V c a b (n + 1) h = acc2 V c n h := rfl

abbrev scM2_0 : Memref sig .tc .vmem S8x32 .f32 := Memref.whole cc2_scratch0
abbrev scM2_1 : Memref sig .tc .vmem S8x1 .f32 := Memref.whole cc2_scratch1

abbrev rest2 (c : Dev nD) : sProp 𝕄 :=
  Pipeline.scopedRestBut (Ix := Unit) (Name := ℕ) (U := UR sig nD τ) (Lvl := ℕ) (Val := Elt F) spec2 c [cc2_scratch0, cc2_scratch1]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c)
          ∗ (∃ r, prngReg c r)) := by
  unfold Pipeline.ΦA; rw [scopedRest2_split]; simp only [scM2_0, scM2_1, owns_whole]; try rfl

/-- The invariant before position `n`: the two accumulators at `pre2`, everything else it holds at anything. -/
def Phi2 (c : Dev nD) (n : ℕ) (h : n ≤ cfg2.N) : sProp 𝕄 :=
  iprop(∃ a b, iprop(iprop(owns (c : Thread nD τ) scM2_0 fullShare (pre2 V c a b n h).1 ∗ owns (c : Thread nD τ) scM2_1 fullShare (pre2 V c a b n h).2) ∗ rest2 c)
      ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (acc2 V c t.val t.isLt).1
    | ⟨3, _⟩ => (acc2 V c t.val t.isLt).2
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_2 (c : Dev nD) (t : Fin cfg2.N) : (dat2 V c).after 2 t = (acc2 V c t.val t.isLt).1 := by dsimp only [dat2]
theorem after2_3 (c : Dev nD) (t : Fin cfg2.N) : (dat2 V c).after 3 t = (acc2 V c t.val t.isLt).2 := by dsimp only [dat2]

theorem before2_0 (c : Dev nD) (t : Fin cfg2.N) (d) : (dat2 V c).before 0 t d = iblk2 V c 0 t :=
  ((dat2 V c).before_fetched 0 t (fetch2_0 t) d).trans (by unfold Dat.fetched Dat.blockOf iblk2; rw [A_eq2]; try rfl)
theorem before2_1 (c : Dev nD) (t : Fin cfg2.N) (d) : (dat2 V c).before 1 t d = iblk2 V c 1 t :=
  ((dat2 V c).before_fetched 1 t (fetch2_1 t) d).trans (by unfold Dat.fetched Dat.blockOf iblk2; rw [A_eq2]; try rfl)

theorem hcase2 : ∀ t : Fin cfg2.N, cond2_0 (grid2.coords t) → ¬cond2_1 (grid2.coords t) := by decide +kernel
theorem idleAt2 : ∀ t : Fin cfg2.N, ¬cond2_1 (grid2.coords t) → ∀ w : Fin cfg2.W, 2 ≤ w.val →
    cfg2.idle w (grid2.coords t) = true ∧ (cfg2.win w).flush t = false := by decide +kernel
theorem liveAt2 : ∀ t : Fin cfg2.N, cond2_1 (grid2.coords t) → ∀ w : Fin cfg2.W, cfg2.idle w (grid2.coords t) = false := by decide +kernel

/-- What the body leaves for an output window: the accumulator where `cond2_1` holds, else what it was given. -/
theorem leaves2 (c : Dev nD) (t : Fin cfg2.N) (w : Fin cfg2.W) (hw : 2 ≤ w.val) (d) :
    owns (c : Thread nD τ) ((cfg2.win w).stage (cfg2.slots t w)) fullShare
        (if cond2_1 (grid2.coords t) then (dat2 V c).after w t else (dat2 V c).before w t d)
      ⊢ (dat2 V c).leavesExact w t := by
  unfold Dat.leavesExact
  by_cases h : cond2_1 (grid2.coords t)
  · rw [if_pos h, liveAt2 t h w]
  · rw [if_neg h, (idleAt2 t h w hw).1, (idleAt2 t h w hw).2]; iintro H; iexists d; iexact H

abbrev ms2_0 (t : Fin cfg2.N) : Memref sig .tc .vmem S2000x32 .f32 := win2_0.stage (cfg2.slots t 0)
abbrev ms2_1 (t : Fin cfg2.N) : Memref sig .tc .vmem S2000x8 .f32 := win2_1.stage (cfg2.slots t 1)
abbrev ms2_2 (t : Fin cfg2.N) : Memref sig .tc .vmem S8x32 .f32 := win2_2.stage (cfg2.slots t 2)
abbrev ms2_3 (t : Fin cfg2.N) : Memref sig .tc .vmem S8x1 .f32 := win2_3.stage (cfg2.slots t 3)

set_option maxHeartbeats 4800000 in
/-- The body at any point: from the invariant and the windows' buffers to the next invariant and what each window leaves. -/
theorem sound_body2 (c : Dev nD) (t : Fin cfg2.N) :
    iprop((dat2 V c).Φ t.castSucc ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d))
      ∗ (∃ d, owns (c : Thread nD τ) (ms2_3 t) fullShare ((dat2 V c).before 3 t d)))
    ⊢ wp frame (wpE (defs₀ (F := F)) Variants.none c none) Set.univ (bodyAt2 t) (fun _ =>
      iprop((dat2 V c).Φ t.succ ∗ (dat2 V c).owesAt () t.succ
        ∗ owns (c : Thread nD τ) (ms2_0 t) fullShare (iblk2 V c 0 t) ∗ owns (c : Thread nD τ) (ms2_1 t) fullShare (iblk2 V c 1 t)
        ∗ (dat2 V c).leavesExact 2 t ∗ (dat2 V c).leavesExact 3 t)) := by
  simp only [before2_0, before2_1]
  rw [show (dat2 V c).owesAt () t.succ = (dat2 V c).owesAt () t.castSucc from rfl,
    show (dat2 V c).Φ t.castSucc = Phi2 V c t.val (Nat.le_of_lt t.isLt) from rfl,
    show (dat2 V c).Φ t.succ = Phi2 V c (t.val + 1) t.isLt from rfl]
  unfold Phi2; simp only [pre2_succ]
  iintro ⟨⟨%a, %b, ⟨⟨HS0, HS1⟩, HR⟩, Hg⟩, Ho, ⟨%d0, H0⟩, ⟨%d1, H1⟩, ⟨%d2, H2⟩, ⟨%d3, H3⟩⟩
  have e := acc2_eq V c a b t
  iapply (run2 c (grid2.coords t) _ _ _ _ _ _ _ _ _ _ _ _ (hcase2 t) (iblk2 V c 0 t) (iblk2 V c 1 t) _ _ _ _ Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, HS0, HS1⟩
  rw [← e.1, ← e.2]
  isplitl [HS0 HS1 HR Hg]
  · iexists a, b
    isplitl [HS0 HS1 HR]
    · isplitl [HS0 HS1]
      · isplitl [HS0]; · iexact HS0
        iexact HS1
      iexact HR
    iexact Hg
  isplitl [Ho]; · iexact Ho
  isplitl [H0]; · iexact H0
  isplitl [H1]; · iexact H1
  isplitl [H2]; · iapply (leaves2 V c t 2 (by decide) d2); iexact H2
  iapply (leaves2 V c t 3 (by decide) d3); iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = Phi2 V c 0 (Nat.zero_le _) from rfl, PhiA2_eq]; unfold Phi2; simp only [pre2]
  iintro ⟨⟨⟨⟨%a, HS0⟩, ⟨%b, HS1⟩⟩, HR⟩, Hg⟩
  iexists a, b
  isplitl [HS0 HS1 HR]
  · isplitl [HS0 HS1]
    · isplitl [HS0]; · iexact HS0
      iexact HS1
    iexact HR
  iexact Hg

/-- The accumulators' values are forgotten. -/
theorem hout2 (c : Dev nD) : (dat2 V c).Φ (Fin.last cfg2.N) ⊢ Pipeline.ΦA spec2 c := by
  rw [show (dat2 V c).Φ (Fin.last cfg2.N) = Phi2 V c _ (Nat.le_of_lt_succ (Fin.last cfg2.N).isLt) from rfl, PhiA2_eq]; unfold Phi2
  iintro ⟨%a, %b, ⟨⟨HS0, HS1⟩, HR⟩, Hg⟩
  isplitl [HS0 HS1 HR]
  · isplitl [HS0 HS1]
    · isplitl [HS0]
      · iexists _; iexact HS0
      iexists _; iexact HS1
    iexact HR
  iexact Hg

end Cert.Kernel.Hand

end
-- ==== Proof.K.Reg3.lean ====
import proofs.«408530_j23158463660766_2_alg».proof.Proof.Gen.Kernel.Launch
import proofs.«408530_j23158463660766_2_alg».proof.Proof.Gen.Kernel.Skeleton
import proofs.«408530_j23158463660766_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe
open Idealize.SL.RA Idealize.SL.BI Idealize.SL.BI.BIBase Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window w's block at grid point t, read off its array at the contents V.
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x256 := Rect.unit (s := S2000x256) ![0, 0] S2000x256.size inb_S2000x256_S2000x256_0_0
abbrev r3_1 : Rect S256x512 := Rect.unit (s := S256x512) ![0, 0] S256x512.size inb_S256x512_S256x512_0_0
abbrev r3_2 : Rect S2000x512 := Rect.unit (s := S2000x512) ![0, 0] S2000x512.size inb_S2000x512_S2000x512_0_0

-- One store over the whole block, of the product of the two input blocks.
def out3_2 (x0 : Vec F S2000x256 .f32) (x1 : Vec F S256x512 .f32) : Vec F S2000x512 .f32 :=
  View.canon [⟨r3_2, k3_pay1 (View.ld x0 r3_0) (View.ld x1 r3_1)⟩]

-- A single write over the whole block covers it, so the block then reads as that write's payload.
local macro_rules | `(tactic| sl_pure) => `(tactic| exact View.read_writes_eq_canon _ _ _ (View.cover_of_tiled _ S2000x512.size (by rfl)))

set_option maxHeartbeats 1000000 in
-- On whole blocks reading x0 and x1 the body returns both as they were and leaves out3_2 x0 x1 in the third, whatever it held.
theorem sound_kernel3 (c : Dev nD) (E : Set ℕ) (i : grid3.Coords)
    (arg1 : Memref sig .tc .vmem S2000x256 .f32) (harg1 : arg1.IsWhole)
    (arg2 : Memref sig .tc .vmem S256x512 .f32) (harg2 : arg2.IsWhole)
    (arg3 : Memref sig .tc .vmem S2000x512 .f32) (harg3 : arg3.IsWhole)
    (x0 : Vec F S2000x256 .f32) (x1 : Vec F S256x512 .f32) (K : PUnit → sProp 𝕄) :
    iprop((owns (c : Thread nD τ) arg1 fullShare x0 ∗ owns (c : Thread nD τ) arg2 fullShare x1
        ∗ (∃ d, owns (c : Thread nD τ) arg3 fullShare d))
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel owns
  iintro ⟨⟨⟨%f0, %hf0, H0⟩, ⟨%f1, %hf1, H1⟩, %d2, %f2, -, H2⟩, Hk⟩
  subst hf0 hf1
  sl_exec
  sl_step
  iapply Hk
  sl_close

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) :
    (dat3 V c).after 2 t = out3_2 (iblk3 V c 0 t) (iblk3 V c 1 t) := by dsimp only [dat3]

-- The inputs are left as found, so the triple above applies at every point; the invariant and the debt are framed.
theorem body_obligation3 (c : Dev nD) : BodyObligation (dat3 (F := F) V c) (defs₀ (F := F)) Variants.none () Set.univ := fun t => by
  rw [bigSep_W3, bigSep_W3]
  simp only [(dat3 V c).before_in_eq_fetched 0 rfl (fun _ => rfl) (fun _ _ _ => rfl) (fun _ => rfl),
    (dat3 V c).before_in_eq_fetched 1 rfl (fun _ => rfl) (fun _ _ _ => rfl) (fun _ => rfl)]
  show _ ⊢ wp _ _ _ (bodyAt3 t) _
  dsimp only [dat3]
  iintro ⟨HΦ, Ho, ⟨%d0, H0⟩, ⟨%d1, H1⟩, %d2, H2⟩
  iapply (sound_kernel3 c Set.univ _ _ _ _ _ _ _ (iblk3 V c 0 t) (iblk3 V c 1 t) _)
  isplitl [H0 H1 H2]; · sl_close
  iintro ⟨H0, H1, H2⟩
  isplitl [HΦ]; · iexact HΦ
  isplitl [Ho]; · iexact Ho
  sl_close

end Cert.Kernel.Hand
-- ==== Proof.K.Reg4.lean ====
import proofs.«408530_j23158463660766_2_alg».proof.Proof.Gen.Kernel.Launch
import proofs.«408530_j23158463660766_2_alg».proof.Proof.Gen.Kernel.Skeleton
import proofs.«408530_j23158463660766_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe
open Idealize.SL.RA Idealize.SL.BI Idealize.SL.BI.BIBase Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window w's block at grid point t, read off its array at the contents V.
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S2000x256 := Rect.unit (s := S2000x256) ![0, 0] S2000x256.size inb_S2000x256_S2000x256_0_0
abbrev r4_1 : Rect S256x512 := Rect.unit (s := S256x512) ![0, 0] S256x512.size inb_S256x512_S256x512_0_0
abbrev r4_2 : Rect S2000x512 := Rect.unit (s := S2000x512) ![0, 0] S2000x512.size inb_S2000x512_S2000x512_0_0

-- One store over the whole block, of the product of the two input blocks.
def out4_2 (x0 : Vec F S2000x256 .f32) (x1 : Vec F S256x512 .f32) : Vec F S2000x512 .f32 :=
  View.canon [⟨r4_2, k4_pay1 (View.ld x0 r4_0) (View.ld x1 r4_1)⟩]

-- A single write over the whole block covers it, so the block then reads as that write's payload.
local macro_rules | `(tactic| sl_pure) => `(tactic| exact View.read_writes_eq_canon _ _ _ (View.cover_of_tiled _ S2000x512.size (by rfl)))

set_option maxHeartbeats 1000000 in
-- On whole blocks reading x0 and x1 the body returns both as they were and leaves out4_2 x0 x1 in the third, whatever it held.
theorem sound_kernel4 (c : Dev nD) (E : Set ℕ) (i : grid4.Coords)
    (arg1 : Memref sig .tc .vmem S2000x256 .f32) (harg1 : arg1.IsWhole)
    (arg2 : Memref sig .tc .vmem S256x512 .f32) (harg2 : arg2.IsWhole)
    (arg3 : Memref sig .tc .vmem S2000x512 .f32) (harg3 : arg3.IsWhole)
    (x0 : Vec F S2000x256 .f32) (x1 : Vec F S256x512 .f32) (K : PUnit → sProp 𝕄) :
    iprop((owns (c : Thread nD τ) arg1 fullShare x0 ∗ owns (c : Thread nD τ) arg2 fullShare x1
        ∗ (∃ d, owns (c : Thread nD τ) arg3 fullShare d))
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel owns
  iintro ⟨⟨⟨%f0, %hf0, H0⟩, ⟨%f1, %hf1, H1⟩, %d2, %f2, -, H2⟩, Hk⟩
  subst hf0 hf1
  sl_exec
  sl_step
  iapply Hk
  sl_close

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_2 (c : Dev nD) (t : Fin cfg4.N) :
    (dat4 V c).after 2 t = out4_2 (iblk4 V c 0 t) (iblk4 V c 1 t) := by dsimp only [dat4]

-- The inputs are left as found, so the triple above applies at every point; the invariant and the debt are framed.
theorem body_obligation4 (c : Dev nD) : BodyObligation (dat4 (F := F) V c) (defs₀ (F := F)) Variants.none () Set.univ := fun t => by
  rw [bigSep_W4, bigSep_W4]
  simp only [(dat4 V c).before_in_eq_fetched 0 rfl (fun _ => rfl) (fun _ _ _ => rfl) (fun _ => rfl),
    (dat4 V c).before_in_eq_fetched 1 rfl (fun _ => rfl) (fun _ _ _ => rfl) (fun _ => rfl)]
  show _ ⊢ wp _ _ _ (bodyAt4 t) _
  dsimp only [dat4]
  iintro ⟨HΦ, Ho, ⟨%d0, H0⟩, ⟨%d1, H1⟩, %d2, H2⟩
  iapply (sound_kernel4 c Set.univ _ _ _ _ _ _ _ (iblk4 V c 0 t) (iblk4 V c 1 t) _)
  isplitl [H0 H1 H2]; · sl_close
  iintro ⟨H0, H1, H2⟩
  isplitl [HΦ]; · iexact HΦ
  isplitl [Ho]; · iexact Ho
  sl_close

end Cert.Kernel.Hand
-- ==== Proof.K.Reg5.lean ====
import proofs.«408530_j23158463660766_2_alg».proof.Proof.Gen.Kernel.Launch
import proofs.«408530_j23158463660766_2_alg».proof.Proof.Gen.Kernel.Skeleton
import proofs.«408530_j23158463660766_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region5
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S1000x512 := Rect.unit (s := S1000x512) ![0, 0] S1000x512.size inb_S1000x512_S1000x512_0_0
abbrev r5_1 : Rect S1000x1 := Rect.unit (s := S1000x1) ![0, 0] S1000x1.size inb_S1000x1_S1000x1_0_0
abbrev r5_2 : Rect S1x512 := Rect.unit (s := S1x512) ![0, 0] S1x512.size inb_S1x512_S1x512_0_0

def out5_6 (x0 x1 : Vec F S1000x512 .f32) (x2 : Vec F S1000x1 .f32) (x3 x4 x5 : Vec F S1x512 .f32) : Vec F S1000x512 .f32 :=
  View.canon [⟨r5_0, k5_pay1 (k5_pay2 (View.ld x0 r5_0) (View.ld x1 r5_0) (View.ld x2 r5_1) (View.ld x3 r5_2) (View.ld x4 r5_2))
    (k5_pay3 (View.ld x5 r5_2))⟩]

set_option maxHeartbeats 1000000 in
/-- The body loads its six inputs whole and stores one payload over the whole output block, so the output reads that payload. -/
theorem sound_kernel5 (c : Dev nD) {i : grid5.Coords} {arg1 arg2 arg7 : Memref sig .tc .vmem S1000x512 .f32}
    {arg3 : Memref sig .tc .vmem S1000x1 .f32} {arg4 arg5 arg6 : Memref sig .tc .vmem S1x512 .f32}
    {harg1 : arg1.IsWhole} {harg2 : arg2.IsWhole} {harg3 : arg3.IsWhole} {harg4 : arg4.IsWhole}
    {harg5 : arg5.IsWhole} {harg6 : arg6.IsWhole} {harg7 : arg7.IsWhole}
    (x0 x1 : Vec F S1000x512 .f32) (x2 : Vec F S1000x1 .f32) (x3 x4 x5 : Vec F S1x512 .f32) (K : PUnit → sProp 𝕄) :
    iprop(owns c arg1 fullShare x0 ∗ owns c arg2 fullShare x1 ∗ owns c arg3 fullShare x2 ∗ owns c arg4 fullShare x3
        ∗ owns c arg5 fullShare x4 ∗ owns c arg6 fullShare x5 ∗ (∃ d, owns c arg7 fullShare d)
        ∗ (iprop(owns c arg1 fullShare x0 ∗ owns c arg2 fullShare x1 ∗ owns c arg3 fullShare x2 ∗ owns c arg4 fullShare x3
            ∗ owns c arg5 fullShare x4 ∗ owns c arg6 fullShare x5 ∗ owns c arg7 fullShare (out5_6 x0 x1 x2 x3 x4 x5)) -∗ K ⟨⟩))
      ⊢ wp frame (wpE (defs₀ (F := F)) Variants.none c none) Set.univ
          (cc5__gcn_post_kernel i arg1 harg1 arg2 harg2 arg3 harg3 arg4 harg4 arg5 harg5 arg6 harg6 arg7 harg7) K := by
  simp only [cc5__gcn_post_kernel_eq_skeleton]; unfold cc5__gcn_post_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  iexists _; iframe H6; ipureintro
  exact View.read_writes_eq_canon _ _ _ (View.cover_of_tiled _ S1000x512.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_6 (c : Dev nD) (t : Fin cfg5.N) : (dat5 V c).after 6 t
    = out5_6 (iblk5 V c 0 t) (iblk5 V c 1 t) (iblk5 V c 2 t) (iblk5 V c 3 t) (iblk5 V c 4 t) (iblk5 V c 5 t) := by dsimp only [dat5]

/-- For an input window, before and after the body agree: the body writes no input. -/
theorem before5 (c : Dev nD) (w : Fin cfg5.W) (hw : (cfg5.win w).isOut = false) (t : Fin cfg5.N) (d) :
    (dat5 V c).before w t d = (dat5 V c).after w t := by
  match w, hw with
  | ⟨0, _⟩, _ | ⟨1, _⟩, _ | ⟨2, _⟩, _ | ⟨3, _⟩, _ | ⟨4, _⟩, _ | ⟨5, _⟩, _ =>
    exact (dat5 V c).before_in_eq_fetched _ rfl (fun _ => rfl) (fun _ _ _ => rfl) (fun _ => rfl) t d
  | ⟨6, _⟩, h => cases h

/-- The body's triple at each point, framed by the invariant and the owed tallies. -/
theorem body_obligation5 (c : Dev nD) : BodyObligation (dat5 (F := F) V c) (defs₀ (F := F)) Variants.none () Set.univ := fun t => by
  rw [bigSep_W5, bigSep_W5]
  simp (disch := exact rfl) only [before5 V c]
  rw [show (dat5 V c).owesAt () t.succ = (dat5 V c).owesAt () t.castSucc from rfl]
  dsimp only [dat5]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c (iblk5 V c 0 t) (iblk5 V c 1 t) (iblk5 V c 2 t) (iblk5 V c 3 t) (iblk5 V c 4 t) (iblk5 V c 5 t) _)
  iframe H0 H1 H2 H3 H4 H5
  isplitl [H6]; · iexists _; iexact H6
  iintro ⟨H0, H1, H2, H3, H4, H5, H6⟩
  iframe

end Region5

end Cert.Kernel.Hand
-- ==== Proof.K.Reg6.lean ====
import proofs.«408530_j23158463660766_2_alg».proof.Proof.Gen.Kernel.Launch
import proofs.«408530_j23158463660766_2_alg».proof.Proof.Gen.Kernel.Skeleton
import proofs.«408530_j23158463660766_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe
open Idealize.SL.RA Idealize.SL.BI Idealize.SL.BI.BIBase Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window w's block at grid point t, read off its array at the contents V.
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S2000x512 := Rect.unit (s := S2000x512) ![0, 0] S2000x512.size inb_S2000x512_S2000x512_0_0
abbrev r6_1 : Rect S512x256 := Rect.unit (s := S512x256) ![0, 0] S512x256.size inb_S512x256_S512x256_0_0
abbrev r6_2 : Rect S2000x256 := Rect.unit (s := S2000x256) ![0, 0] S2000x256.size inb_S2000x256_S2000x256_0_0

-- One store over the whole block, of the product of the two input blocks.
def out6_2 (x0 : Vec F S2000x512 .f32) (x1 : Vec F S512x256 .f32) : Vec F S2000x256 .f32 :=
  View.canon [⟨r6_2, k6_pay1 (View.ld x0 r6_0) (View.ld x1 r6_1)⟩]

-- A single write over the whole block covers it, so the block then reads as that write's payload.
local macro_rules | `(tactic| sl_pure) => `(tactic| exact View.read_writes_eq_canon _ _ _ (View.cover_of_tiled _ S2000x256.size (by rfl)))

set_option maxHeartbeats 1000000 in
-- On whole blocks reading x0 and x1 the body returns both as they were and leaves out6_2 x0 x1 in the third, whatever it held.
theorem sound_kernel6 (c : Dev nD) (E : Set ℕ) (i : grid6.Coords)
    (arg1 : Memref sig .tc .vmem S2000x512 .f32) (harg1 : arg1.IsWhole)
    (arg2 : Memref sig .tc .vmem S512x256 .f32) (harg2 : arg2.IsWhole)
    (arg3 : Memref sig .tc .vmem S2000x256 .f32) (harg3 : arg3.IsWhole)
    (x0 : Vec F S2000x512 .f32) (x1 : Vec F S512x256 .f32) (K : PUnit → sProp 𝕄) :
    iprop((owns (c : Thread nD τ) arg1 fullShare x0 ∗ owns (c : Thread nD τ) arg2 fullShare x1
        ∗ (∃ d, owns (c : Thread nD τ) arg3 fullShare d))
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel owns
  iintro ⟨⟨⟨%f0, %hf0, H0⟩, ⟨%f1, %hf1, H1⟩, %d2, %f2, -, H2⟩, Hk⟩
  subst hf0 hf1
  sl_exec
  sl_step
  iapply Hk
  sl_close

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_2 (c : Dev nD) (t : Fin cfg6.N) :
    (dat6 V c).after 2 t = out6_2 (iblk6 V c 0 t) (iblk6 V c 1 t) := by dsimp only [dat6]

-- The inputs are left as found, so the triple above applies at every point; the invariant and the debt are framed.
theorem body_obligation6 (c : Dev nD) : BodyObligation (dat6 (F := F) V c) (defs₀ (F := F)) Variants.none () Set.univ := fun t => by
  rw [bigSep_W6, bigSep_W6]
  simp only [(dat6 V c).before_in_eq_fetched 0 rfl (fun _ => rfl) (fun _ _ _ => rfl) (fun _ => rfl),
    (dat6 V c).before_in_eq_fetched 1 rfl (fun _ => rfl) (fun _ _ _ => rfl) (fun _ => rfl)]
  show _ ⊢ wp _ _ _ (bodyAt6 t) _
  dsimp only [dat6]
  iintro ⟨HΦ, Ho, ⟨%d0, H0⟩, ⟨%d1, H1⟩, %d2, H2⟩
  iapply (sound_kernel6 c Set.univ _ _ _ _ _ _ _ (iblk6 V c 0 t) (iblk6 V c 1 t) _)
  isplitl [H0 H1 H2]; · sl_close
  iintro ⟨H0, H1, H2⟩
  isplitl [HΦ]; · iexact HΦ
  isplitl [Ho]; · iexact Ho
  sl_close

end Cert.Kernel.Hand
-- ==== Proof.K.Reg7.lean ====
import proofs.«408530_j23158463660766_2_alg».proof.Proof.Gen.Kernel.Launch
import proofs.«408530_j23158463660766_2_alg».proof.Proof.Gen.Kernel.Skeleton
import proofs.«408530_j23158463660766_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region7
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S2000x256 := Rect.unit (s := S2000x256) ![0, 0] S2000x256.size inb_S2000x256_S2000x256_0_0
abbrev r7_1 : Rect S2000x1 := Rect.unit (s := S2000x1) ![0, 0] S2000x1.size inb_S2000x1_S2000x1_0_0
abbrev r7_2 : Rect S1x256 := Rect.unit (s := S1x256) ![0, 0] S1x256.size inb_S1x256_S1x256_0_0

def out7_6 (x0 x1 : Vec F S2000x256 .f32) (x2 : Vec F S2000x1 .f32) (x3 x4 x5 : Vec F S1x256 .f32) : Vec F S2000x256 .f32 :=
  View.canon [⟨r7_0, k7_pay1 (k7_pay2 (View.ld x0 r7_0) (View.ld x1 r7_0) (View.ld x2 r7_1) (View.ld x3 r7_2) (View.ld x4 r7_2))
    (k7_pay3 (View.ld x5 r7_2))⟩]

set_option maxHeartbeats 1000000 in
/-- The body loads its six inputs whole and stores one payload over the whole output block, so the output reads that payload. -/
theorem sound_kernel7 (c : Dev nD) {i : grid7.Coords} {arg1 arg2 arg7 : Memref sig .tc .vmem S2000x256 .f32}
    {arg3 : Memref sig .tc .vmem S2000x1 .f32} {arg4 arg5 arg6 : Memref sig .tc .vmem S1x256 .f32}
    {harg1 : arg1.IsWhole} {harg2 : arg2.IsWhole} {harg3 : arg3.IsWhole} {harg4 : arg4.IsWhole}
    {harg5 : arg5.IsWhole} {harg6 : arg6.IsWhole} {harg7 : arg7.IsWhole}
    (x0 x1 : Vec F S2000x256 .f32) (x2 : Vec F S2000x1 .f32) (x3 x4 x5 : Vec F S1x256 .f32) (K : PUnit → sProp 𝕄) :
    iprop(owns c arg1 fullShare x0 ∗ owns c arg2 fullShare x1 ∗ owns c arg3 fullShare x2 ∗ owns c arg4 fullShare x3
        ∗ owns c arg5 fullShare x4 ∗ owns c arg6 fullShare x5 ∗ (∃ d, owns c arg7 fullShare d)
        ∗ (iprop(owns c arg1 fullShare x0 ∗ owns c arg2 fullShare x1 ∗ owns c arg3 fullShare x2 ∗ owns c arg4 fullShare x3
            ∗ owns c arg5 fullShare x4 ∗ owns c arg6 fullShare x5 ∗ owns c arg7 fullShare (out7_6 x0 x1 x2 x3 x4 x5)) -∗ K ⟨⟩))
      ⊢ wp frame (wpE (defs₀ (F := F)) Variants.none c none) Set.univ
          (cc7__gcn_post_kernel i arg1 harg1 arg2 harg2 arg3 harg3 arg4 harg4 arg5 harg5 arg6 harg6 arg7 harg7) K := by
  simp only [cc7__gcn_post_kernel_eq_skeleton]; unfold cc7__gcn_post_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  iexists _; iframe H6; ipureintro
  exact View.read_writes_eq_canon _ _ _ (View.cover_of_tiled _ S2000x256.size (by rfl))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_6 (c : Dev nD) (t : Fin cfg7.N) : (dat7 V c).after 6 t
    = out7_6 (iblk7 V c 0 t) (iblk7 V c 1 t) (iblk7 V c 2 t) (iblk7 V c 3 t) (iblk7 V c 4 t) (iblk7 V c 5 t) := by dsimp only [dat7]

/-- For an input window, before and after the body agree: the body writes no input. -/
theorem before7 (c : Dev nD) (w : Fin cfg7.W) (hw : (cfg7.win w).isOut = false) (t : Fin cfg7.N) (d) :
    (dat7 V c).before w t d = (dat7 V c).after w t := by
  match w, hw with
  | ⟨0, _⟩, _ | ⟨1, _⟩, _ | ⟨2, _⟩, _ | ⟨3, _⟩, _ | ⟨4, _⟩, _ | ⟨5, _⟩, _ =>
    exact (dat7 V c).before_in_eq_fetched _ rfl (fun _ => rfl) (fun _ _ _ => rfl) (fun _ => rfl) t d
  | ⟨6, _⟩, h => cases h

/-- The body's triple at each point, framed by the invariant and the owed tallies. -/
theorem body_obligation7 (c : Dev nD) : BodyObligation (dat7 (F := F) V c) (defs₀ (F := F)) Variants.none () Set.univ := fun t => by
  rw [bigSep_W7, bigSep_W7]
  simp (disch := exact rfl) only [before7 V c]
  rw [show (dat7 V c).owesAt () t.succ = (dat7 V c).owesAt () t.castSucc from rfl]
  dsimp only [dat7]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c (iblk7 V c 0 t) (iblk7 V c 1 t) (iblk7 V c 2 t) (iblk7 V c 3 t) (iblk7 V c 4 t) (iblk7 V c 5 t) _)
  iframe H0 H1 H2 H3 H4 H5
  isplitl [H6]; · iexists _; iexact H6
  iintro ⟨H0, H1, H2, H3, H4, H5, H6⟩
  iframe

end Region7

end Cert.Kernel.Hand
-- ==== Proof.K.Reg8.lean ====
import proofs.«408530_j23158463660766_2_alg».proof.Proof.Gen.Kernel.Skeleton
import proofs.«408530_j23158463660766_2_alg».proof.Proof.Gen.Kernel.Launch
import proofs.«408530_j23158463660766_2_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Tactic
import Idealize.ShloMosaic.Lib.WholeRead
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem off2_zero : (![0, 0] : Fin 2 → ℕ) = fun _ => 0 := by funext a; fin_cases a <;> rfl

section Whole
variable {Val : EltTy → Type} {sg : RefSig} {κ : Kind} {sp : Space} {S : Shape} {e : EltTy}

private theorem readAt_whole_unread {m : Memref sg κ sp S e} (hm : m.IsWhole) {off : Fin S.rank → ℕ} (h : off = fun _ => 0)
    (inb : ∀ a, off a + S.size a ≤ S.size a) (X : S.Idx → Val e) :
    View.readAt Val m.view (Rect.unit off S.size inb).toLoadRect (hm.unread X) = X := by
  funext x
  rw [hm.readAt_unread]
  exact congrFun (View.ld_unit_zero h inb X) x

private theorem read_writes_cons_unit_zero (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f (⟨Rect.unit off S.size inb, w⟩ :: L)) = w := by
  subst h; funext y
  have hy := View.read_writes_cons_emb v f (Rect.whole S) w L y
  rwa [Rect.emb_whole_apply] at hy

end Whole

abbrev cond8_0 (i : grid8.Coords) : Prop :=
  (Scalar.cmpi .ne (Scalar.extui (Scalar.cmpi .eq (BitVec.ofNat 32 (i 0).val) 0#32)) 0#32) = 1#1
abbrev cond8_1 (i : grid8.Coords) : Prop := k8_cond2 i = 1#1

theorem hcond8_0 : ∀ t : Fin cfg8.N, cond8_0 (grid8.coords t) ↔ t.val = 0 :=
  (by decide +kernel : ∀ t : Fin grid8.N, cond8_0 (grid8.coords t) ↔ t.val = 0)
theorem hcond8_1 : ∀ t : Fin cfg8.N, cond8_1 (grid8.coords t) ↔ t.val = 24 :=
  (by decide +kernel : ∀ t : Fin grid8.N, cond8_1 (grid8.coords t) ↔ t.val = 24)

set_option maxHeartbeats 1000000 in
/-- The body at any point: where `cond8_0` holds the accumulators restart from the constants, where `cond8_1` holds they are copied out. -/
theorem run8 (c : Dev nD) (i : grid8.Coords)
    (arg1 : Memref sig .tc .vmem S2000x256 .f32) (harg1 : arg1.IsWhole) (arg2 : Memref sig .tc .vmem S2000x8 .f32) (harg2 : arg2.IsWhole)
    (arg3 : Memref sig .tc .vmem S8x256 .f32) (harg3 : arg3.IsWhole) (arg4 : Memref sig .tc .vmem S8x1 .f32) (harg4 : arg4.IsWhole)
    (arg5 : Memref sig .tc .vmem S8x256 .f32) (harg5 : arg5.IsWhole) (arg6 : Memref sig .tc .vmem S8x1 .f32) (harg6 : arg6.IsWhole)
    (hi : cond8_0 i → ¬cond8_1 i)
    (x : Vec F S2000x256 .f32) (oh : Vec F S2000x8 .f32) (y3 : Vec F S8x256 .f32) (y4 : Vec F S8x1 .f32)
    (a : Vec F S8x256 .f32) (b : Vec F S8x1 .f32) (E : Set ℕ) (K : PUnit → sProp 𝕄) :
    iprop(owns (c : Thread nD τ) arg1 fullShare x ∗ owns (c : Thread nD τ) arg2 fullShare oh
        ∗ owns (c : Thread nD τ) arg3 fullShare y3 ∗ owns (c : Thread nD τ) arg4 fullShare y4
        ∗ owns (c : Thread nD τ) arg5 fullShare a ∗ owns (c : Thread nD τ) arg6 fullShare b
        ∗ (iprop(owns (c : Thread nD τ) arg1 fullShare x ∗ owns (c : Thread nD τ) arg2 fullShare oh
            ∗ owns (c : Thread nD τ) arg3 fullShare (if cond8_1 i then k8_pay4 x oh (if cond8_0 i then k8_pay1 else a) else y3)
            ∗ owns (c : Thread nD τ) arg4 fullShare (if cond8_1 i then k8_pay5 oh (if cond8_0 i then k8_pay2 else b) else y4)
            ∗ owns (c : Thread nD τ) arg5 fullShare (k8_pay4 x oh (if cond8_0 i then k8_pay1 else a))
            ∗ owns (c : Thread nD τ) arg6 fullShare (k8_pay5 oh (if cond8_0 i then k8_pay2 else b))) -∗ K ⟨⟩))
      ⊢ wp frame (wpE (defs₀ (F := F)) Variants.none c none) E (cc8_kernel i arg1 harg1 arg2 harg2 arg3 harg3 arg4 harg4 arg5 harg5 arg6 harg6) K := by
  by_cases hc0 : cond8_0 i <;> by_cases hc1 : cond8_1 i
  · exact absurd hc1 (hi hc0)
  all_goals
    first | rw [if_pos hc0, if_pos hc0] | rw [if_neg hc0, if_neg hc0]
    first | rw [if_pos hc1, if_pos hc1] | rw [if_neg hc1, if_neg hc1]
    simp only [cc8_kernel_eq_skeleton]; unfold cc8_kernel_skel owns
    iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := first | exact hc0 | exact hc1)
    sl_step
    iapply Hk
    isplitl [H1]; iexists _; isplitr; swap; iexact H1; rotate_left
    isplitl [H2]; iexists _; isplitr; swap; iexact H2; rotate_left
    isplitl [H3]; iexists _; isplitr; swap; iexact H3; rotate_left
    isplitl [H4]; iexists _; isplitr; swap; iexact H4; rotate_left
    isplitl [H5]; iexists _; isplitr; swap; iexact H5; rotate_left
    iexists _; isplitr; swap; iexact H6
    all_goals ipureintro
    all_goals first
      | exact Memref.IsWhole.read_unread _ _
      | (sl_unfold_run_names
         simp only [read_writes_cons_unit_zero (S := S8x256) _ _ off2_zero, read_writes_cons_unit_zero (S := S8x1) _ _ off2_zero,
           View.readCov_unit_zero (S := S8x256) _ off2_zero, View.readCov_unit_zero (S := S8x1) _ off2_zero,
           readAt_whole_unread harg1 off2_zero, readAt_whole_unread harg2 off2_zero, readAt_whole_unread harg5 off2_zero, readAt_whole_unread harg6 off2_zero])

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def acc8 (c : Dev nD) : (n : ℕ) → n < cfg8.N → Vec F S8x256 .f32 × Vec F S8x1 .f32
  | 0, hn => (k8_pay4 (iblk8 V c 0 ⟨0, hn⟩) (iblk8 V c 1 ⟨0, hn⟩) k8_pay1, k8_pay5 (iblk8 V c 1 ⟨0, hn⟩) k8_pay2)
  | n + 1, hn => (k8_pay4 (iblk8 V c 0 ⟨n + 1, hn⟩) (iblk8 V c 1 ⟨n + 1, hn⟩) (acc8 c n (Nat.lt_of_succ_lt hn)).1,
      k8_pay5 (iblk8 V c 1 ⟨n + 1, hn⟩) (acc8 c n (Nat.lt_of_succ_lt hn)).2)

/-- What the accumulators hold before position `n`: anything before the first point, afterwards what the point before left. -/
def pre8 (c : Dev nD) (a : Vec F S8x256 .f32) (b : Vec F S8x1 .f32) : (n : ℕ) → n ≤ cfg8.N → Vec F S8x256 .f32 × Vec F S8x1 .f32
  | 0, _ => (a, b)
  | n + 1, hn => acc8 V c n hn

/-- One step of the accumulation from `pre8`, whichever point it is: the first point is where `cond8_0` holds. -/
theorem acc8_eq (c : Dev nD) (a : Vec F S8x256 .f32) (b : Vec F S8x1 .f32) (t : Fin cfg8.N) :
    (acc8 V c t.val t.isLt).1 = k8_pay4 (iblk8 V c 0 t) (iblk8 V c 1 t) (if cond8_0 (grid8.coords t) then k8_pay1 else (pre8 V c a b t.val (Nat.le_of_lt t.isLt)).1)
    ∧ (acc8 V c t.val t.isLt).2 = k8_pay5 (iblk8 V c 1 t) (if cond8_0 (grid8.coords t) then k8_pay2 else (pre8 V c a b t.val (Nat.le_of_lt t.isLt)).2) := by
  obtain ⟨n, hn⟩ := t
  cases n with
  | zero => have h := (hcond8_0 ⟨0, hn⟩).mpr rfl; rw [if_pos h, if_pos h]; exact ⟨rfl, rfl⟩
  | succ n =>
    have h : ¬cond8_0 (grid8.coords ⟨n + 1, hn⟩) := fun h => Nat.succ_ne_zero n ((hcond8_0 _).mp h)
    rw [if_neg h, if_neg h]; exact ⟨rfl, rfl⟩

theorem pre8_succ (c : Dev nD) (a b) (n : ℕ) (h) : pre8 V c a b (n + 1) h = acc8 V c n h := rfl

abbrev scM8_0 : Memref sig .tc .vmem S8x256 .f32 := Memref.whole cc8_scratch0
abbrev scM8_1 : Memref sig .tc .vmem S8x1 .f32 := Memref.whole cc8_scratch1

abbrev rest8 (c : Dev nD) : sProp 𝕄 :=
  Pipeline.scopedRestBut (Ix := Unit) (Name := ℕ) (U := UR sig nD τ) (Lvl := ℕ) (Val := Elt F) spec8 c [cc8_scratch0, cc8_scratch1]

theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d)) ∗ rest8 c)
          ∗ (∃ r, prngReg c r)) := by
  unfold Pipeline.ΦA; rw [scopedRest8_split]; simp only [scM8_0, scM8_1, owns_whole]; try rfl

/-- The invariant before position `n`: the two accumulators at `pre8`, everything else it holds at anything. -/
def Phi8 (c : Dev nD) (n : ℕ) (h : n ≤ cfg8.N) : sProp 𝕄 :=
  iprop(∃ a b, iprop(iprop(owns (c : Thread nD τ) scM8_0 fullShare (pre8 V c a b n h).1 ∗ owns (c : Thread nD τ) scM8_1 fullShare (pre8 V c a b n h).2) ∗ rest8 c)
      ∗ (∃ r, prngReg c r))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => (acc8 V c t.val t.isLt).1
    | ⟨3, _⟩ => (acc8 V c t.val t.isLt).2
  Φ t := Phi8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem after8_2 (c : Dev nD) (t : Fin cfg8.N) : (dat8 V c).after 2 t = (acc8 V c t.val t.isLt).1 := by dsimp only [dat8]
theorem after8_3 (c : Dev nD) (t : Fin cfg8.N) : (dat8 V c).after 3 t = (acc8 V c t.val t.isLt).2 := by dsimp only [dat8]

theorem before8_0 (c : Dev nD) (t : Fin cfg8.N) (d) : (dat8 V c).before 0 t d = iblk8 V c 0 t :=
  ((dat8 V c).before_fetched 0 t (fetch8_0 t) d).trans (by unfold Dat.fetched Dat.blockOf iblk8; rw [A_eq8]; try rfl)
theorem before8_1 (c : Dev nD) (t : Fin cfg8.N) (d) : (dat8 V c).before 1 t d = iblk8 V c 1 t :=
  ((dat8 V c).before_fetched 1 t (fetch8_1 t) d).trans (by unfold Dat.fetched Dat.blockOf iblk8; rw [A_eq8]; try rfl)

theorem hcase8 : ∀ t : Fin cfg8.N, cond8_0 (grid8.coords t) → ¬cond8_1 (grid8.coords t) := by decide +kernel
theorem idleAt8 : ∀ t : Fin cfg8.N, ¬cond8_1 (grid8.coords t) → ∀ w : Fin cfg8.W, 2 ≤ w.val →
    cfg8.idle w (grid8.coords t) = true ∧ (cfg8.win w).flush t = false := by decide +kernel
theorem liveAt8 : ∀ t : Fin cfg8.N, cond8_1 (grid8.coords t) → ∀ w : Fin cfg8.W, cfg8.idle w (grid8.coords t) = false := by decide +kernel

/-- What the body leaves for an output window: the accumulator where `cond8_1` holds, else what it was given. -/
theorem leaves8 (c : Dev nD) (t : Fin cfg8.N) (w : Fin cfg8.W) (hw : 2 ≤ w.val) (d) :
    owns (c : Thread nD τ) ((cfg8.win w).stage (cfg8.slots t w)) fullShare
        (if cond8_1 (grid8.coords t) then (dat8 V c).after w t else (dat8 V c).before w t d)
      ⊢ (dat8 V c).leavesExact w t := by
  unfold Dat.leavesExact
  by_cases h : cond8_1 (grid8.coords t)
  · rw [if_pos h, liveAt8 t h w]
  · rw [if_neg h, (idleAt8 t h w hw).1, (idleAt8 t h w hw).2]; iintro H; iexists d; iexact H

abbrev ms8_0 (t : Fin cfg8.N) : Memref sig .tc .vmem S2000x256 .f32 := win8_0.stage (cfg8.slots t 0)
abbrev ms8_1 (t : Fin cfg8.N) : Memref sig .tc .vmem S2000x8 .f32 := win8_1.stage (cfg8.slots t 1)
abbrev ms8_2 (t : Fin cfg8.N) : Memref sig .tc .vmem S8x256 .f32 := win8_2.stage (cfg8.slots t 2)
abbrev ms8_3 (t : Fin cfg8.N) : Memref sig .tc .vmem S8x1 .f32 := win8_3.stage (cfg8.slots t 3)

set_option maxHeartbeats 4800000 in
/-- The body at any point: from the invariant and the windows' buffers to the next invariant and what each window leaves. -/
theorem sound_body8 (c : Dev nD) (t : Fin cfg8.N) :
    iprop((dat8 V c).Φ t.castSucc ∗ (dat8 V c).owesAt () t.castSucc
      ∗ (∃ d, owns (c : Thread nD τ) (ms8_0 t) fullShare ((dat8 V c).before 0 t d))
      ∗ (∃ d, owns (c : Thread nD τ) (ms8_1 t) fullShare ((dat8 V c).before 1 t d))
      ∗ (∃ d, owns (c : Thread nD τ) (ms8_2 t) fullShare ((dat8 V c).before 2 t d))
      ∗ (∃ d, owns (c : Thread nD τ) (ms8_3 t) fullShare ((dat8 V c).before 3 t d)))
    ⊢ wp frame (wpE (defs₀ (F := F)) Variants.none c none) Set.univ (bodyAt8 t) (fun _ =>
      iprop((dat8 V c).Φ t.succ ∗ (dat8 V c).owesAt () t.succ
        ∗ owns (c : Thread nD τ) (ms8_0 t) fullShare (iblk8 V c 0 t) ∗ owns (c : Thread nD τ) (ms8_1 t) fullShare (iblk8 V c 1 t)
        ∗ (dat8 V c).leavesExact 2 t ∗ (dat8 V c).leavesExact 3 t)) := by
  simp only [before8_0, before8_1]
  rw [show (dat8 V c).owesAt () t.succ = (dat8 V c).owesAt () t.castSucc from rfl,
    show (dat8 V c).Φ t.castSucc = Phi8 V c t.val (Nat.le_of_lt t.isLt) from rfl,
    show (dat8 V c).Φ t.succ = Phi8 V c (t.val + 1) t.isLt from rfl]
  unfold Phi8; simp only [pre8_succ]
  iintro ⟨⟨%a, %b, ⟨⟨HS0, HS1⟩, HR⟩, Hg⟩, Ho, ⟨%d0, H0⟩, ⟨%d1, H1⟩, ⟨%d2, H2⟩, ⟨%d3, H3⟩⟩
  have e := acc8_eq V c a b t
  iapply (run8 c (grid8.coords t) _ _ _ _ _ _ _ _ _ _ _ _ (hcase8 t) (iblk8 V c 0 t) (iblk8 V c 1 t) _ _ _ _ Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, HS0, HS1⟩
  rw [← e.1, ← e.2]
  isplitl [HS0 HS1 HR Hg]
  · iexists a, b
    isplitl [HS0 HS1 HR]
    · isplitl [HS0 HS1]
      · isplitl [HS0]; · iexact HS0
        iexact HS1
      iexact HR
    iexact Hg
  isplitl [Ho]; · iexact Ho
  isplitl [H0]; · iexact H0
  isplitl [H1]; · iexact H1
  isplitl [H2]; · iapply (leaves8 V c t 2 (by decide) d2); iexact H2
  iapply (leaves8 V c t 3 (by decide) d3); iexact H3

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := by
  rw [show (dat8 V c).Φ 0 = Phi8 V c 0 (Nat.zero_le _) from rfl, PhiA8_eq]; unfold Phi8; simp only [pre8]
  iintro ⟨⟨⟨⟨%a, HS0⟩, ⟨%b, HS1⟩⟩, HR⟩, Hg⟩
  iexists a, b
  isplitl [HS0 HS1 HR]
  · isplitl [HS0 HS1]
    · isplitl [HS0]; · iexact HS0
      iexact HS1
    iexact HR
  iexact Hg

/-- The accumulators' values are forgotten. -/
theorem hout8 (c : Dev nD) : (dat8 V c).Φ (Fin.last cfg8.N) ⊢ Pipeline.ΦA spec8 c := by
  rw [show (dat8 V c).Φ (Fin.last cfg8.N) = Phi8 V c _ (Nat.le_of_lt_succ (Fin.last cfg8.N).isLt) from rfl, PhiA8_eq]; unfold Phi8
  iintro ⟨%a, %b, ⟨⟨HS0, HS1⟩, HR⟩, Hg⟩
  isplitl [HS0 HS1 HR]
  · isplitl [HS0 HS1]
    · isplitl [HS0]
      · iexists _; iexact HS0
      iexists _; iexact HS1
    iexact HR
  iexact Hg

end Cert.Kernel.Hand

end
-- ==== Proof.K.Run.lean ====
import proofs.«408530_j23158463660766_2_alg».proof.Proof.Gen.Kernel.Regions
import proofs.«408530_j23158463660766_2_alg».proof.Proof.K.Reg0
import proofs.«408530_j23158463660766_2_alg».proof.Proof.K.Reg1
import proofs.«408530_j23158463660766_2_alg».proof.Proof.K.Reg2
import proofs.«408530_j23158463660766_2_alg».proof.Proof.K.Reg3
import proofs.«408530_j23158463660766_2_alg».proof.Proof.K.Reg4
import proofs.«408530_j23158463660766_2_alg».proof.Proof.K.Reg5
import proofs.«408530_j23158463660766_2_alg».proof.Proof.K.Reg6
import proofs.«408530_j23158463660766_2_alg».proof.Proof.K.Reg7
import proofs.«408530_j23158463660766_2_alg».proof.Proof.K.Reg8
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An input window's array keeps its entry contents, and a buffer that is no array of the region is not touched. -/
theorem withArrays_keep {cfg : Cfg sig Λ₀} {c : Dev nD} (dat : Dat τ (Elt F) Unit ℕ (UR sig nD τ) ℕ cfg c)
    (hinj : Function.Injective (Pipeline.arrRef cfg.spec)) (W : Valuation τ sig (Elt F))
    (hA : ∀ w, dat.A w = W (Proc.devRef .tc (Pipeline.arrRef cfg.spec w))) {O : List (Ref sig .tc)}
    (hO : ∀ w, (cfg.win w).isOut = true → Pipeline.arrRef cfg.spec w ∈ O) {r : Ref sig .tc} (hr : r ∉ O) :
    Pipeline.withArrays cfg.spec c W (fun w => dat.arrAt w cfg.N) (Proc.devRef .tc r) = W (Proc.devRef .tc r) := by
  by_cases h : ∃ w, Pipeline.arrRef cfg.spec w = r
  · obtain ⟨w, rfl⟩ := h
    rw [Pipeline.withArrays_arr cfg.spec hinj]
    cases hio : (cfg.win w).isOut with
    | false => exact (dat.arrAt_in w hio _).trans (hA w)
    | true => exact absurd (hO w hio) hr
  · exact Pipeline.withArrays_of_ne cfg.spec c W _ r fun w e => h ⟨w, e⟩

abbrev W0 (c : Dev nD) : Valuation τ sig (Elt F) := fun b => m (c, b)
abbrev W1 (c : Dev nD) : Valuation τ sig (Elt F) := StableHlo.after hostOps0 (W0 m c)
theorem W1_keep (c : Dev nD) (r : Ref sig .tc) (h : r ∉ hostOps0_W) :
    W1 m c (Proc.devRef .tc r) = W0 m c (Proc.devRef .tc r) :=
  StableHlo.after_of_writes_sub hostOps0 _ hostOps0_writes h
abbrev W2 (c : Dev nD) : Valuation τ sig (Elt F) := StableHlo.after hostOps0_1 (W1 m c)
theorem W2_keep (c : Dev nD) (r : Ref sig .tc) (h : r ∉ hostOps0_1_W) :
    W2 m c (Proc.devRef .tc r) = W1 m c (Proc.devRef .tc r) :=
  StableHlo.after_of_writes_sub hostOps0_1 _ hostOps0_1_writes h
abbrev W3 (c : Dev nD) : Valuation τ sig (Elt F) := StableHlo.after hostOps0_2 (W2 m c)
theorem W3_keep (c : Dev nD) (r : Ref sig .tc) (h : r ∉ hostOps0_2_W) :
    W3 m c (Proc.devRef .tc r) = W2 m c (Proc.devRef .tc r) :=
  StableHlo.after_of_writes_sub hostOps0_2 _ hostOps0_2_writes h
abbrev W4 (c : Dev nD) : Valuation τ sig (Elt F) := StableHlo.after hostOps0_3 (W3 m c)
theorem W4_keep (c : Dev nD) (r : Ref sig .tc) (h : r ∉ hostOps0_3_W) :
    W4 m c (Proc.devRef .tc r) = W3 m c (Proc.devRef .tc r) :=
  StableHlo.after_of_writes_sub hostOps0_3 _ hostOps0_3_writes h
abbrev W5 (c : Dev nD) : Valuation τ sig (Elt F) := StableHlo.after hostOps0_4 (W4 m c)
theorem W5_keep (c : Dev nD) (r : Ref sig .tc) (h : r ∉ hostOps0_4_W) :
    W5 m c (Proc.devRef .tc r) = W4 m c (Proc.devRef .tc r) :=
  StableHlo.after_of_writes_sub hostOps0_4 _ hostOps0_4_writes h
abbrev B5 (c : Dev nD) (b : Ref sig .tc) : Buf (Elt F) ((c : Thread nD τ).loc b) := W5 m c b
def W6 (c : Dev nD) : Valuation τ sig (Elt F) :=
  Pipeline.withArrays spec0 c (W5 m c) fun w => (dat0 (B5 m) c).arrAt w cfg0.N
theorem W6_arr (c : Dev nD) (w : Fin cfg0.W) :
    W6 m c (Proc.devRef .tc (Pipeline.arrRef spec0 w)) = (dat0 (B5 m) c).arrAt w cfg0.N :=
  Pipeline.withArrays_arr spec0 launch0.win.arr_inj c _ _ w
theorem W6_keep (c : Dev nD) (r : Ref sig .tc) (h : r ∉ ([main_v84] : List (Ref sig .tc))) :
    W6 m c (Proc.devRef .tc r) = W5 m c (Proc.devRef .tc r) :=
  withArrays_keep (dat0 (B5 m) c) launch0.win.arr_inj _ (A_eq0 (B5 m) c) (by decide) h
abbrev W7 (c : Dev nD) : Valuation τ sig (Elt F) := StableHlo.after hostOps1 (W6 m c)
theorem W7_keep (c : Dev nD) (r : Ref sig .tc) (h : r ∉ hostOps1_W) :
    W7 m c (Proc.devRef .tc r) = W6 m c (Proc.devRef .tc r) :=
  StableHlo.after_of_writes_sub hostOps1 _ hostOps1_writes h
abbrev B7 (c : Dev nD) (b : Ref sig .tc) : Buf (Elt F) ((c : Thread nD τ).loc b) := W7 m c b
def W8 (c : Dev nD) : Valuation τ sig (Elt F) :=
  Pipeline.withArrays spec1 c (W7 m c) fun w => (dat1 (B7 m) c).arrAt w cfg1.N
theorem W8_arr (c : Dev nD) (w : Fin cfg1.W) :
    W8 m c (Proc.devRef .tc (Pipeline.arrRef spec1 w)) = (dat1 (B7 m) c).arrAt w cfg1.N :=
  Pipeline.withArrays_arr spec1 launch1.win.arr_inj c _ _ w
theorem W8_keep (c : Dev nD) (r : Ref sig .tc) (h : r ∉ ([main_v104] : List (Ref sig .tc))) :
    W8 m c (Proc.devRef .tc r) = W7 m c (Proc.devRef .tc r) :=
  withArrays_keep (dat1 (B7 m) c) launch1.win.arr_inj _ (A_eq1 (B7 m) c) (by decide) h
abbrev W9 (c : Dev nD) : Valuation τ sig (Elt F) := StableHlo.after hostOps2 (W8 m c)
theorem W9_keep (c : Dev nD) (r : Ref sig .tc) (h : r ∉ hostOps2_W) :
    W9 m c (Proc.devRef .tc r) = W8 m c (Proc.devRef .tc r) :=
  StableHlo.after_of_writes_sub hostOps2 _ hostOps2_writes h
abbrev B9 (c : Dev nD) (b : Ref sig .tc) : Buf (Elt F) ((c : Thread nD τ).loc b) := W9 m c b
def W10 (c : Dev nD) : Valuation τ sig (Elt F) :=
  Pipeline.withArrays spec2 c (W9 m c) fun w => (dat2 (B9 m) c).arrAt w cfg2.N
theorem W10_arr (c : Dev nD) (w : Fin cfg2.W) :
    W10 m c (Proc.devRef .tc (Pipeline.arrRef spec2 w)) = (dat2 (B9 m) c).arrAt w cfg2.N :=
  Pipeline.withArrays_arr spec2 launch2.win.arr_inj c _ _ w
theorem W10_keep (c : Dev nD) (r : Ref sig .tc) (h : r ∉ ([main_v112_0, main_v112_1] : List (Ref sig .tc))) :
    W10 m c (Proc.devRef .tc r) = W9 m c (Proc.devRef .tc r) :=
  withArrays_keep (dat2 (B9 m) c) launch2.win.arr_inj _ (A_eq2 (B9 m) c) (by decide) h
abbrev W11 (c : Dev nD) : Valuation τ sig (Elt F) := StableHlo.after hostOps3 (W10 m c)
theorem W11_keep (c : Dev nD) (r : Ref sig .tc) (h : r ∉ hostOps3_W) :
    W11 m c (Proc.devRef .tc r) = W10 m c (Proc.devRef .tc r) :=
  StableHlo.after_of_writes_sub hostOps3 _ hostOps3_writes h
abbrev B11 (c : Dev nD) (b : Ref sig .tc) : Buf (Elt F) ((c : Thread nD τ).loc b) := W11 m c b
def W12 (c : Dev nD) : Valuation τ sig (Elt F) :=
  Pipeline.withArrays spec3 c (W11 m c) fun w => (dat3 (B11 m) c).arrAt w cfg3.N
theorem W12_arr (c : Dev nD) (w : Fin cfg3.W) :
    W12 m c (Proc.devRef .tc (Pipeline.arrRef spec3 w)) = (dat3 (B11 m) c).arrAt w cfg3.N :=
  Pipeline.withArrays_arr spec3 launch3.win.arr_inj c _ _ w
theorem W12_keep (c : Dev nD) (r : Ref sig .tc) (h : r ∉ ([main_v134] : List (Ref sig .tc))) :
    W12 m c (Proc.devRef .tc r) = W11 m c (Proc.devRef .tc r) :=
  withArrays_keep (dat3 (B11 m) c) launch3.win.arr_inj _ (A_eq3 (B11 m) c) (by decide) h
abbrev B12 (c : Dev nD) (b : Ref sig .tc) : Buf (Elt F) ((c : Thread nD τ).loc b) := W12 m c b
def W13 (c : Dev nD) : Valuation τ sig (Elt F) :=
  Pipeline.withArrays spec4 c (W12 m c) fun w => (dat4 (B12 m) c).arrAt w cfg4.N
theorem W13_arr (c : Dev nD) (w : Fin cfg4.W) :
    W13 m c (Proc.devRef .tc (Pipeline.arrRef spec4 w)) = (dat4 (B12 m) c).arrAt w cfg4.N :=
  Pipeline.withArrays_arr spec4 launch4.win.arr_inj c _ _ w
theorem W13_keep (c : Dev nD) (r : Ref sig .tc) (h : r ∉ ([main_v135] : List (Ref sig .tc))) :
    W13 m c (Proc.devRef .tc r) = W12 m c (Proc.devRef .tc r) :=
  withArrays_keep (dat4 (B12 m) c) launch4.win.arr_inj _ (A_eq4 (B12 m) c) (by decide) h
abbrev W14 (c : Dev nD) : Valuation τ sig (Elt F) := StableHlo.after hostOps5 (W13 m c)
theorem W14_keep (c : Dev nD) (r : Ref sig .tc) (h : r ∉ hostOps5_W) :
    W14 m c (Proc.devRef .tc r) = W13 m c (Proc.devRef .tc r) :=
  StableHlo.after_of_writes_sub hostOps5 _ hostOps5_writes h
abbrev B14 (c : Dev nD) (b : Ref sig .tc) : Buf (Elt F) ((c : Thread nD τ).loc b) := W14 m c b
def W15 (c : Dev nD) : Valuation τ sig (Elt F) :=
  Pipeline.withArrays spec5 c (W14 m c) fun w => (dat5 (B14 m) c).arrAt w cfg5.N
theorem W15_arr (c : Dev nD) (w : Fin cfg5.W) :
    W15 m c (Proc.devRef .tc (Pipeline.arrRef spec5 w)) = (dat5 (B14 m) c).arrAt w cfg5.N :=
  Pipeline.withArrays_arr spec5 launch5.win.arr_inj c _ _ w
theorem W15_keep (c : Dev nD) (r : Ref sig .tc) (h : r ∉ ([main_v140] : List (Ref sig .tc))) :
    W15 m c (Proc.devRef .tc r) = W14 m c (Proc.devRef .tc r) :=
  withArrays_keep (dat5 (B14 m) c) launch5.win.arr_inj _ (A_eq5 (B14 m) c) (by decide) h
abbrev B15 (c : Dev nD) (b : Ref sig .tc) : Buf (Elt F) ((c : Thread nD τ).loc b) := W15 m c b
def W16 (c : Dev nD) : Valuation τ sig (Elt F) :=
  Pipeline.withArrays spec6 c (W15 m c) fun w => (dat6 (B15 m) c).arrAt w cfg6.N
theorem W16_arr (c : Dev nD) (w : Fin cfg6.W) :
    W16 m c (Proc.devRef .tc (Pipeline.arrRef spec6 w)) = (dat6 (B15 m) c).arrAt w cfg6.N :=
  Pipeline.withArrays_arr spec6 launch6.win.arr_inj c _ _ w
theorem W16_keep (c : Dev nD) (r : Ref sig .tc) (h : r ∉ ([main_v141] : List (Ref sig .tc))) :
    W16 m c (Proc.devRef .tc r) = W15 m c (Proc.devRef .tc r) :=
  withArrays_keep (dat6 (B15 m) c) launch6.win.arr_inj _ (A_eq6 (B15 m) c) (by decide) h
abbrev W17 (c : Dev nD) : Valuation τ sig (Elt F) := StableHlo.after hostOps7 (W16 m c)
theorem W17_keep (c : Dev nD) (r : Ref sig .tc) (h : r ∉ hostOps7_W) :
    W17 m c (Proc.devRef .tc r) = W16 m c (Proc.devRef .tc r) :=
  StableHlo.after_of_writes_sub hostOps7 _ hostOps7_writes h
abbrev B17 (c : Dev nD) (b : Ref sig .tc) : Buf (Elt F) ((c : Thread nD τ).loc b) := W17 m c b
def W18 (c : Dev nD) : Valuation τ sig (Elt F) :=
  Pipeline.withArrays spec7 c (W17 m c) fun w => (dat7 (B17 m) c).arrAt w cfg7.N
theorem W18_arr (c : Dev nD) (w : Fin cfg7.W) :
    W18 m c (Proc.devRef .tc (Pipeline.arrRef spec7 w)) = (dat7 (B17 m) c).arrAt w cfg7.N :=
  Pipeline.withArrays_arr spec7 launch7.win.arr_inj c _ _ w
theorem W18_keep (c : Dev nD) (r : Ref sig .tc) (h : r ∉ ([main_v159] : List (Ref sig .tc))) :
    W18 m c (Proc.devRef .tc r) = W17 m c (Proc.devRef .tc r) :=
  withArrays_keep (dat7 (B17 m) c) launch7.win.arr_inj _ (A_eq7 (B17 m) c) (by decide) h
abbrev W19 (c : Dev nD) : Valuation τ sig (Elt F) := StableHlo.after hostOps8 (W18 m c)
theorem W19_keep (c : Dev nD) (r : Ref sig .tc) (h : r ∉ hostOps8_W) :
    W19 m c (Proc.devRef .tc r) = W18 m c (Proc.devRef .tc r) :=
  StableHlo.after_of_writes_sub hostOps8 _ hostOps8_writes h
abbrev B19 (c : Dev nD) (b : Ref sig .tc) : Buf (Elt F) ((c : Thread nD τ).loc b) := W19 m c b
def W20 (c : Dev nD) : Valuation τ sig (Elt F) :=
  Pipeline.withArrays spec8 c (W19 m c) fun w => (dat8 (B19 m) c).arrAt w cfg8.N
theorem W20_arr (c : Dev nD) (w : Fin cfg8.W) :
    W20 m c (Proc.devRef .tc (Pipeline.arrRef spec8 w)) = (dat8 (B19 m) c).arrAt w cfg8.N :=
  Pipeline.withArrays_arr spec8 launch8.win.arr_inj c _ _ w
theorem W20_keep (c : Dev nD) (r : Ref sig .tc) (h : r ∉ ([main_v167_0, main_v167_1] : List (Ref sig .tc))) :
    W20 m c (Proc.devRef .tc r) = W19 m c (Proc.devRef .tc r) :=
  withArrays_keep (dat8 (B19 m) c) launch8.win.arr_inj _ (A_eq8 (B19 m) c) (by decide) h
abbrev W21 (c : Dev nD) : Valuation τ sig (Elt F) := StableHlo.after hostOps9 (W20 m c)
theorem W21_keep (c : Dev nD) (r : Ref sig .tc) (h : r ∉ hostOps9_W) :
    W21 m c (Proc.devRef .tc r) = W20 m c (Proc.devRef .tc r) :=
  StableHlo.after_of_writes_sub hostOps9 _ hostOps9_writes h
abbrev W22 (c : Dev nD) : Valuation τ sig (Elt F) := StableHlo.after hostOps9_1 (W21 m c)
theorem W22_keep (c : Dev nD) (r : Ref sig .tc) (h : r ∉ hostOps9_1_W) :
    W22 m c (Proc.devRef .tc r) = W21 m c (Proc.devRef .tc r) :=
  StableHlo.after_of_writes_sub hostOps9_1 _ hostOps9_1_writes h
abbrev W23 (c : Dev nD) : Valuation τ sig (Elt F) := StableHlo.after hostOps9_2 (W22 m c)
theorem W23_keep (c : Dev nD) (r : Ref sig .tc) (h : r ∉ hostOps9_2_W) :
    W23 m c (Proc.devRef .tc r) = W22 m c (Proc.devRef .tc r) :=
  StableHlo.after_of_writes_sub hostOps9_2 _ hostOps9_2_writes h
abbrev W24 (c : Dev nD) : Valuation τ sig (Elt F) := StableHlo.after hostOps9_3 (W23 m c)
theorem W24_keep (c : Dev nD) (r : Ref sig .tc) (h : r ∉ hostOps9_3_W) :
    W24 m c (Proc.devRef .tc r) = W23 m c (Proc.devRef .tc r) :=
  StableHlo.after_of_writes_sub hostOps9_3 _ hostOps9_3_writes h
abbrev W25 (c : Dev nD) : Valuation τ sig (Elt F) := StableHlo.after hostOps9_4 (W24 m c)
theorem W25_keep (c : Dev nD) (r : Ref sig .tc) (h : r ∉ hostOps9_4_W) :
    W25 m c (Proc.devRef .tc r) = W24 m c (Proc.devRef .tc r) :=
  StableHlo.after_of_writes_sub hostOps9_4 _ hostOps9_4_writes h

/-- A buffer that no item of @main writes ends as launched: one step back per item. -/
theorem W25_kept (c : Dev nD) (r : Ref sig .tc) :
    r ∉ hostOps0_W ++ hostOps0_1_W ++ hostOps0_2_W ++ hostOps0_3_W ++ hostOps0_4_W ++ [main_v84] ++ hostOps1_W ++ [main_v104]
        ++ hostOps2_W ++ [main_v112_0, main_v112_1] ++ hostOps3_W ++ [main_v134] ++ [main_v135] ++ hostOps5_W ++ [main_v140]
        ++ [main_v141] ++ hostOps7_W ++ [main_v159] ++ hostOps8_W ++ [main_v167_0, main_v167_1] ++ hostOps9_W ++ hostOps9_1_W
        ++ hostOps9_2_W ++ hostOps9_3_W ++ hostOps9_4_W →
      W25 m c (Proc.devRef .tc r) = m ((c : Thread nD τ).loc r) := by
  simp only [List.mem_append, not_or, and_imp]
  intro h0 h1 h2 h3 h4 h5 h6 h7 h8 h9 h10 h11 h12 h13 h14 h15 h16 h17 h18 h19 h20 h21 h22 h23 h24
  exact (W25_keep m c r h24).trans <|
    (W24_keep m c r h23).trans <|
    (W23_keep m c r h22).trans <|
    (W22_keep m c r h21).trans <|
    (W21_keep m c r h20).trans <|
    (W20_keep m c r h19).trans <|
    (W19_keep m c r h18).trans <|
    (W18_keep m c r h17).trans <|
    (W17_keep m c r h16).trans <|
    (W16_keep m c r h15).trans <|
    (W15_keep m c r h14).trans <|
    (W14_keep m c r h13).trans <|
    (W13_keep m c r h12).trans <|
    (W12_keep m c r h11).trans <|
    (W11_keep m c r h10).trans <|
    (W10_keep m c r h9).trans <|
    (W9_keep m c r h8).trans <|
    (W8_keep m c r h7).trans <|
    (W7_keep m c r h6).trans <|
    (W6_keep m c r h5).trans <|
    (W5_keep m c r h4).trans <|
    (W4_keep m c r h3).trans <|
    (W3_keep m c r h2).trans <|
    (W2_keep m c r h1).trans <|
    (W1_keep m c r h0)

def pdats : (p : Fin 9) → (c : Dev nD) → Dat τ (Elt F) Unit ℕ (UR sig nD τ) ℕ (Pipeline.pin (pcfgs (F := F)) adm p) c
  | ⟨0, _⟩ => dat0 (B5 m)
  | ⟨1, _⟩ => dat1 (B7 m)
  | ⟨2, _⟩ => dat2 (B9 m)
  | ⟨3, _⟩ => dat3 (B11 m)
  | ⟨4, _⟩ => dat4 (B12 m)
  | ⟨5, _⟩ => dat5 (B14 m)
  | ⟨6, _⟩ => dat6 (B15 m)
  | ⟨7, _⟩ => dat7 (B17 m)
  | ⟨8, _⟩ => dat8 (B19 m)

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

local notation "𝔠" => Pipeline.pin (pcfgs (F := F)) adm

/-- What region `p` leaves: its arrays at the proof data's last point, every other buffer as entered. -/
abbrev exitW (p : Fin 9) (Win : Dev nD → Valuation τ sig (Elt F)) (c : Dev nD) : Valuation τ sig (Elt F) :=
  Pipeline.withArrays (𝔠 p).spec c (Win c) fun w => (pdats m p c).arrAt w (𝔠 p).N

set_option backward.isDefEq.respectTransparency.types false in
/-- Region `p` as a segment from the contents `Win` to `exitW`. -/
def regOf (p : Fin 9) (hl : Pipeline.LaunchFacts (nD := nD) (τ := τ) 𝔠 p) (Win : Dev nD → Valuation τ sig (Elt F))
    (hbody : ∀ c, BodyObligation (pdats m p c) (defs₀ (F := F)) Variants.none () Set.univ)
    (hA : ∀ c w, (pdats m p c).A w = Win c (Proc.devRef .tc (Pipeline.arrRef (𝔠 p).spec w)))
    (hΦin : ∀ c, (Pipeline.ΦA (𝔠 p).spec c : sProp 𝕄) ⊢ (pdats m p c).Φ 0 := by exact fun _ => .rfl)
    (hΦout : ∀ c, (pdats m p c).Φ (Fin.last (𝔠 p).N) ⊢ (Pipeline.ΦA (𝔠 p).spec c : sProp 𝕄) := by exact fun _ => .rfl)
    (hq : ∀ c w, (pdats m p c).q w = fullShare := by exact fun _ _ => rfl)
    (howed : ∀ c t, (pdats m p c).owed t = 0 := by exact fun _ _ => rfl)
    (hrec : ∀ c, (pdats m p c).recorded 0 = Set.univ := by exact fun _ => rfl) :
    Pipeline.RegionSeg (pcfgs (F := F)) adm (pdats m) () defs₀ 𝒱₀ L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (exitW m p Win c) ∗ R c)
  X c := iprop(∃ r, prngReg c r)
  Y c := iprop(∃ r, prngReg c r)
  Z c := Pipeline.unscopedRest (Ix := Unit) (Name := ℕ) (U := UR sig nD τ) (Lvl := ℕ) (𝔠 p).spec c (fun b => Win c b)
  hentry c := by
    rw [Pipeline.ownSems0_none]
    have hsplit := Pipeline.arrays_of_unscopedBufs (p := p) (pcfgs (F := F)) adm (pdats m) hl.win hl.arr_whole c
      ((pdats m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl (by rw [hrec c]; exact Set.mem_univ x)
      iexact HO
    isplitl [Hp]; · iexact Hp
    iexact Hrest
  hin c := by
    refine .trans ?_ (hΦin c)
    unfold Pipeline.ΦA
    iintro ⟨Hp, -, Hr⟩
    isplitl [Hr]; · iexact Hr
    iexact Hp
  hout c := by
    rw [Pipeline.ownSems0_none]
    refine (hΦout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c (pdats m) ((pdats m p c).share_full (hq c))
      (fun b => Win c b) (fun b => exitW m p Win c b) ((pdats m p c).arrAt · (𝔠 p).N)
      (fun w => (Pipeline.withArrays_arr _ hl.win.arr_inj c (Win c) (fun w => (pdats m p c).arrAt w (𝔠 p).N) w).symm)
      (fun b hb => Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (regOf m 0 launch0 (W5 m) (body_obligation0 (B5 m)) (A_eq0 (B5 m))),
    .host (hseg hostOps1 hostOps1_sub hostOps1_fresh (W6 m)),
    .region (regOf m 1 launch1 (W7 m) (body_obligation1 (B7 m)) (A_eq1 (B7 m))),
    .host (hseg hostOps2 hostOps2_sub hostOps2_fresh (W8 m)),
    .region (regOf m 2 launch2 (W9 m) (body_obligation2 (B9 m)) (A_eq2 (B9 m)) (hin2 (B9 m)) (hout2 (B9 m))),
    .host (hseg hostOps3 hostOps3_sub hostOps3_fresh (W10 m)),
    .region (regOf m 3 launch3 (W11 m) (body_obligation3 (B11 m)) (A_eq3 (B11 m))),
    .region (regOf m 4 launch4 (W12 m) (body_obligation4 (B12 m)) (A_eq4 (B12 m))),
    .host (hseg hostOps5 hostOps5_sub hostOps5_fresh (W13 m)),
    .region (regOf m 5 launch5 (W14 m) (body_obligation5 (B14 m)) (A_eq5 (B14 m))),
    .region (regOf m 6 launch6 (W15 m) (body_obligation6 (B15 m)) (A_eq6 (B15 m))),
    .host (hseg hostOps7 hostOps7_sub hostOps7_fresh (W16 m)),
    .region (regOf m 7 launch7 (W17 m) (body_obligation7 (B17 m)) (A_eq7 (B17 m))),
    .host (hseg hostOps8 hostOps8_sub hostOps8_fresh (W18 m)),
    .region (regOf m 8 launch8 (W19 m) (body_obligation8 (B19 m)) (A_eq8 (B19 m)) (hin8 (B19 m)) (hout8 (B19 m))),
    .host (hseg hostOps9 hostOps9_sub hostOps9_fresh (W20 m)),
    .host (hseg hostOps9_1 hostOps9_1_sub hostOps9_1_fresh (W21 m)),
    .host (hseg hostOps9_2 hostOps9_2_sub hostOps9_2_fresh (W22 m)),
    .host (hseg hostOps9_3 hostOps9_3_sub hostOps9_3_fresh (W23 m)),
    .host (hseg hostOps9_4 hostOps9_4_sub hostOps9_4_fresh (W24 m)) ]

theorem main_run (c : Dev nD) : main (F := F) c = Pipeline.Seg.run (segs m) := (main_chain c).trans (by chain_rfl)

set_option backward.isDefEq.respectTransparency.types false in
/-- Every weakly fair execution of @main ends, with each argument array as launched and the results at `W25`. -/
theorem run (ρ : Dev nD → PrngReg) : θ_run defs (onTc (τ := τ) (main (F := F))) ⟨m, fun _ => 0, ρ⟩ (fun r => ∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41))
      ∧ r.2.mem ((c.tc : Thread nD τ).loc main_v198) = W25 m c (Proc.devRef .tc main_v198)
      ∧ r.2.mem ((c.tc : Thread nD τ).loc main_v104) = W25 m c (Proc.devRef .tc main_v104)
      ∧ r.2.mem ((c.tc : Thread nD τ).loc main_v159) = W25 m c (Proc.devRef .tc main_v159)
      ∧ r.2.mem ((c.tc : Thread nD τ).loc main_v184) = W25 m c (Proc.devRef .tc main_v184)
      ∧ r.2.mem ((c.tc : Thread nD τ).loc main_v193) = W25 m c (Proc.devRef .tc main_v193)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W25 m c) ∗ ∃ r, prngReg c r))
    (hch := by
      iterate 25 refine ⟨fun _ => .rfl, ?_⟩
      exact fun _ => Laws.sep_assoc.2)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m c b)
    (hfin := fun c s' => by
      iintro ⟨⟨Hh, -⟩, HSI⟩
      unfold StableHlo.held
      imodintro
      iapply (pointsTo_read_all (Pipeline.ucRefs τ sig) (fun b => (((c : Thread nD τ)).1, b)) (W25 m c) s')
      isplitl [Hh] <;> iassumption)
    (hQ := fun s h c =>
      ⟨by and_intros <;> exact (h c _ (mem_uc _ (by decide))).trans (W25_kept m c _ (by decide)),
        h c _ (mem_uc _ (by decide)), h c _ (mem_uc _ (by decide)), h c _ (mem_uc _ (by decide)),
        h c _ (mem_uc _ (by decide)), h c _ (mem_uc _ (by decide))⟩)

end Cert.Kernel.Hand

end
-- ==== Proof.K.FrameK.lean ====
import proofs.«408530_j23158463660766_2_alg».proof.Defs
import proofs.«408530_j23158463660766_2_alg».proof.Proof.Gen.Pre_finite_inputs
import proofs.«408530_j23158463660766_2_alg».proof.Proof.K.Run

noncomputable section

namespace Cert.Proof

open Idealize.ShloMosaic

/-- The frame is the first conjunct of the run's post; the precondition on the inputs is not used. -/
theorem frame_p : Cert.frame_Kernel (hKernel := Cert.Kernel.Gen.facts)
    (hPre_finite_inputs := Cert.Pre_finite_inputs.Gen.facts) :=
  fun m ρ _ => (θ_run Cert.Kernel.defs _ _).mono (fun r h c => (h c).1) (Cert.Kernel.Hand.run (F := Bits) m ρ)

end Cert.Proof
-- ==== Proof.KI.Reg0.lean ====
import proofs.«408530_j23158463660766_2_alg».proof.Proof.Gen.KernelIdeal.Launch
import proofs.«408530_j23158463660766_2_alg».proof.Proof.Gen.KernelIdeal.Skeleton
import proofs.«408530_j23158463660766_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x16 := Rect.unit (s := S2000x16) ![0, 0] S2000x16.size inb_S2000x16_S2000x16_0_0
abbrev r0_1 : Rect S2000x1 := Rect.unit (s := S2000x1) ![0, 0] S2000x1.size inb_S2000x1_S2000x1_0_0
abbrev r0_2 : Rect S1x16 := Rect.unit (s := S1x16) ![0, 0] S1x16.size inb_S1x16_S1x16_0_0

def out0_6 (x0 x1 : Vec F S2000x16 .f32) (x2 : Vec F S2000x1 .f32) (x3 x4 x5 : Vec F S1x16 .f32) : Vec F S2000x16 .f32 :=
  View.canon [⟨r0_0, k0_pay1 (k0_pay2 (View.ld x0 r0_0) (View.ld x1 r0_0) (View.ld x2 r0_1) (View.ld x3 r0_2) (View.ld x4 r0_2))
    (k0_pay3 (View.ld x5 r0_2))⟩]

set_option maxHeartbeats 1000000 in
/-- The body loads its six inputs whole and stores one payload over the whole output block, so the output reads that payload. -/
theorem sound_kernel0 (c : Dev nD) {i : grid0.Coords} {arg1 arg2 arg7 : Memref sig .tc .vmem S2000x16 .f32}
    {arg3 : Memref sig .tc .vmem S2000x1 .f32} {arg4 arg5 arg6 : Memref sig .tc .vmem S1x16 .f32}
    {harg1 : arg1.IsWhole} {harg2 : arg2.IsWhole} {harg3 : arg3.IsWhole} {harg4 : arg4.IsWhole}
    {harg5 : arg5.IsWhole} {harg6 : arg6.IsWhole} {harg7 : arg7.IsWhole}
    (x0 x1 : Vec F S2000x16 .f32) (x2 : Vec F S2000x1 .f32) (x3 x4 x5 : Vec F S1x16 .f32) (K : PUnit → sProp 𝕄) :
    iprop(owns c arg1 fullShare x0 ∗ owns c arg2 fullShare x1 ∗ owns c arg3 fullShare x2 ∗ owns c arg4 fullShare x3
        ∗ owns c arg5 fullShare x4 ∗ owns c arg6 fullShare x5 ∗ (∃ d, owns c arg7 fullShare d)
        ∗ (iprop(owns c arg1 fullShare x0 ∗ owns c arg2 fullShare x1 ∗ owns c arg3 fullShare x2 ∗ owns c arg4 fullShare x3
            ∗ owns c arg5 fullShare x4 ∗ owns c arg6 fullShare x5 ∗ owns c arg7 fullShare (out0_6 x0 x1 x2 x3 x4 x5)) -∗ K ⟨⟩))
      ⊢ wp frame (wpE (defs₀ (F := F)) Variants.none c none) Set.univ
          (cc0__gcn_post_kernel i arg1 harg1 arg2 harg2 arg3 harg3 arg4 harg4 arg5 harg5 arg6 harg6 arg7 harg7) K := by
  simp only [cc0__gcn_post_kernel_eq_skeleton]; unfold cc0__gcn_post_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  iexists _; iframe H6; ipureintro
  exact View.read_writes_eq_canon _ _ _ (View.cover_of_tiled _ S2000x16.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

/-- For an input window, before and after the body agree: the body writes no input. -/
theorem before0 (c : Dev nD) (w : Fin cfg0.W) (hw : (cfg0.win w).isOut = false) (t : Fin cfg0.N) (d) :
    (dat0 V c).before w t d = (dat0 V c).after w t := by
  match w, hw with
  | ⟨0, _⟩, _ | ⟨1, _⟩, _ | ⟨2, _⟩, _ | ⟨3, _⟩, _ | ⟨4, _⟩, _ | ⟨5, _⟩, _ =>
    exact (dat0 V c).before_in_eq_fetched _ rfl (fun _ => rfl) (fun _ _ _ => rfl) (fun _ => rfl) t d
  | ⟨6, _⟩, h => cases h

/-- The body's triple at each point, framed by the invariant and the owed tallies. -/
theorem body_obligation0 (c : Dev nD) : BodyObligation (dat0 (F := F) V c) (defs₀ (F := F)) Variants.none () Set.univ := fun t => by
  rw [bigSep_W0, bigSep_W0]
  simp (disch := exact rfl) only [before0 V c]
  rw [show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c (iblk0 V c 0 t) (iblk0 V c 1 t) (iblk0 V c 2 t) (iblk0 V c 3 t) (iblk0 V c 4 t) (iblk0 V c 5 t) _)
  iframe H0 H1 H2 H3 H4 H5
  isplitl [H6]; · iexists _; iexact H6
  iintro ⟨H0, H1, H2, H3, H4, H5, H6⟩
  iframe

end Region0

end Cert.KernelIdeal.Hand
-- ==== Proof.KI.Reg1.lean ====
import proofs.«408530_j23158463660766_2_alg».proof.Proof.Gen.KernelIdeal.Launch
import proofs.«408530_j23158463660766_2_alg».proof.Proof.Gen.KernelIdeal.Skeleton
import proofs.«408530_j23158463660766_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x32 := Rect.unit (s := S2000x32) ![0, 0] S2000x32.size inb_S2000x32_S2000x32_0_0
abbrev r1_1 : Rect S2000x1 := Rect.unit (s := S2000x1) ![0, 0] S2000x1.size inb_S2000x1_S2000x1_0_0
abbrev r1_2 : Rect S1x32 := Rect.unit (s := S1x32) ![0, 0] S1x32.size inb_S1x32_S1x32_0_0

def out1_6 (x0 x1 : Vec F S2000x32 .f32) (x2 : Vec F S2000x1 .f32) (x3 x4 x5 : Vec F S1x32 .f32) : Vec F S2000x32 .f32 :=
  View.canon [⟨r1_0, k1_pay1 (k1_pay2 (View.ld x0 r1_0) (View.ld x1 r1_0) (View.ld x2 r1_1) (View.ld x3 r1_2) (View.ld x4 r1_2))
    (k1_pay3 (View.ld x5 r1_2))⟩]

set_option maxHeartbeats 1000000 in
/-- The body loads its six inputs whole and stores one payload over the whole output block, so the output reads that payload. -/
theorem sound_kernel1 (c : Dev nD) {i : grid1.Coords} {arg1 arg2 arg7 : Memref sig .tc .vmem S2000x32 .f32}
    {arg3 : Memref sig .tc .vmem S2000x1 .f32} {arg4 arg5 arg6 : Memref sig .tc .vmem S1x32 .f32}
    {harg1 : arg1.IsWhole} {harg2 : arg2.IsWhole} {harg3 : arg3.IsWhole} {harg4 : arg4.IsWhole}
    {harg5 : arg5.IsWhole} {harg6 : arg6.IsWhole} {harg7 : arg7.IsWhole}
    (x0 x1 : Vec F S2000x32 .f32) (x2 : Vec F S2000x1 .f32) (x3 x4 x5 : Vec F S1x32 .f32) (K : PUnit → sProp 𝕄) :
    iprop(owns c arg1 fullShare x0 ∗ owns c arg2 fullShare x1 ∗ owns c arg3 fullShare x2 ∗ owns c arg4 fullShare x3
        ∗ owns c arg5 fullShare x4 ∗ owns c arg6 fullShare x5 ∗ (∃ d, owns c arg7 fullShare d)
        ∗ (iprop(owns c arg1 fullShare x0 ∗ owns c arg2 fullShare x1 ∗ owns c arg3 fullShare x2 ∗ owns c arg4 fullShare x3
            ∗ owns c arg5 fullShare x4 ∗ owns c arg6 fullShare x5 ∗ owns c arg7 fullShare (out1_6 x0 x1 x2 x3 x4 x5)) -∗ K ⟨⟩))
      ⊢ wp frame (wpE (defs₀ (F := F)) Variants.none c none) Set.univ
          (cc1__gcn_post_kernel i arg1 harg1 arg2 harg2 arg3 harg3 arg4 harg4 arg5 harg5 arg6 harg6 arg7 harg7) K := by
  simp only [cc1__gcn_post_kernel_eq_skeleton]; unfold cc1__gcn_post_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  iexists _; iframe H6; ipureintro
  exact View.read_writes_eq_canon _ _ _ (View.cover_of_tiled _ S2000x32.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

/-- For an input window, before and after the body agree: the body writes no input. -/
theorem before1 (c : Dev nD) (w : Fin cfg1.W) (hw : (cfg1.win w).isOut = false) (t : Fin cfg1.N) (d) :
    (dat1 V c).before w t d = (dat1 V c).after w t := by
  match w, hw with
  | ⟨0, _⟩, _ | ⟨1, _⟩, _ | ⟨2, _⟩, _ | ⟨3, _⟩, _ | ⟨4, _⟩, _ | ⟨5, _⟩, _ =>
    exact (dat1 V c).before_in_eq_fetched _ rfl (fun _ => rfl) (fun _ _ _ => rfl) (fun _ => rfl) t d
  | ⟨6, _⟩, h => cases h

/-- The body's triple at each point, framed by the invariant and the owed tallies. -/
theorem body_obligation1 (c : Dev nD) : BodyObligation (dat1 (F := F) V c) (defs₀ (F := F)) Variants.none () Set.univ := fun t => by
  rw [bigSep_W1, bigSep_W1]
  simp (disch := exact rfl) only [before1 V c]
  rw [show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c (iblk1 V c 0 t) (iblk1 V c 1 t) (iblk1 V c 2 t) (iblk1 V c 3 t) (iblk1 V c 4 t) (iblk1 V c 5 t) _)
  iframe H0 H1 H2 H3 H4 H5
  isplitl [H6]; · iexists _; iexact H6
  iintro ⟨H0, H1, H2, H3, H4, H5, H6⟩
  iframe

end Region1

end Cert.KernelIdeal.Hand
-- ==== Proof.KI.Reg2.lean ====
import proofs.«408530_j23158463660766_2_alg».proof.Proof.Gen.KernelIdeal.Skeleton
import proofs.«408530_j23158463660766_2_alg».proof.Proof.Gen.KernelIdeal.Launch
import proofs.«408530_j23158463660766_2_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Tactic
import Idealize.ShloMosaic.Lib.WholeRead
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem off2_zero : (![0, 0] : Fin 2 → ℕ) = fun _ => 0 := by funext a; fin_cases a <;> rfl

section Whole
variable {Val : EltTy → Type} {sg : RefSig} {κ : Kind} {sp : Space} {S : Shape} {e : EltTy}

private theorem readAt_whole_unread {m : Memref sg κ sp S e} (hm : m.IsWhole) {off : Fin S.rank → ℕ} (h : off = fun _ => 0)
    (inb : ∀ a, off a + S.size a ≤ S.size a) (X : S.Idx → Val e) :
    View.readAt Val m.view (Rect.unit off S.size inb).toLoadRect (hm.unread X) = X := by
  funext x
  rw [hm.readAt_unread]
  exact congrFun (View.ld_unit_zero h inb X) x

private theorem read_writes_cons_unit_zero (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f (⟨Rect.unit off S.size inb, w⟩ :: L)) = w := by
  subst h; funext y
  have hy := View.read_writes_cons_emb v f (Rect.whole S) w L y
  rwa [Rect.emb_whole_apply] at hy

end Whole

abbrev cond2_0 (i : grid2.Coords) : Prop :=
  (Scalar.cmpi .ne (Scalar.extui (Scalar.cmpi .eq (BitVec.ofNat 32 (i 0).val) 0#32)) 0#32) = 1#1
abbrev cond2_1 (i : grid2.Coords) : Prop := k2_cond2 i = 1#1

theorem hcond2_0 : ∀ t : Fin cfg2.N, cond2_0 (grid2.coords t) ↔ t.val = 0 :=
  (by decide +kernel : ∀ t : Fin grid2.N, cond2_0 (grid2.coords t) ↔ t.val = 0)
theorem hcond2_1 : ∀ t : Fin cfg2.N, cond2_1 (grid2.coords t) ↔ t.val = 24 :=
  (by decide +kernel : ∀ t : Fin grid2.N, cond2_1 (grid2.coords t) ↔ t.val = 24)

set_option maxHeartbeats 1000000 in
/-- The body at any point: where `cond2_0` holds the accumulators restart from the constants, where `cond2_1` holds they are copied out. -/
theorem run2 (c : Dev nD) (i : grid2.Coords)
    (arg1 : Memref sig .tc .vmem S2000x32 .f32) (harg1 : arg1.IsWhole) (arg2 : Memref sig .tc .vmem S2000x8 .f32) (harg2 : arg2.IsWhole)
    (arg3 : Memref sig .tc .vmem S8x32 .f32) (harg3 : arg3.IsWhole) (arg4 : Memref sig .tc .vmem S8x1 .f32) (harg4 : arg4.IsWhole)
    (arg5 : Memref sig .tc .vmem S8x32 .f32) (harg5 : arg5.IsWhole) (arg6 : Memref sig .tc .vmem S8x1 .f32) (harg6 : arg6.IsWhole)
    (hi : cond2_0 i → ¬cond2_1 i)
    (x : Vec F S2000x32 .f32) (oh : Vec F S2000x8 .f32) (y3 : Vec F S8x32 .f32) (y4 : Vec F S8x1 .f32)
    (a : Vec F S8x32 .f32) (b : Vec F S8x1 .f32) (E : Set ℕ) (K : PUnit → sProp 𝕄) :
    iprop(owns (c : Thread nD τ) arg1 fullShare x ∗ owns (c : Thread nD τ) arg2 fullShare oh
        ∗ owns (c : Thread nD τ) arg3 fullShare y3 ∗ owns (c : Thread nD τ) arg4 fullShare y4
        ∗ owns (c : Thread nD τ) arg5 fullShare a ∗ owns (c : Thread nD τ) arg6 fullShare b
        ∗ (iprop(owns (c : Thread nD τ) arg1 fullShare x ∗ owns (c : Thread nD τ) arg2 fullShare oh
            ∗ owns (c : Thread nD τ) arg3 fullShare (if cond2_1 i then k2_pay4 x oh (if cond2_0 i then k2_pay1 else a) else y3)
            ∗ owns (c : Thread nD τ) arg4 fullShare (if cond2_1 i then k2_pay5 oh (if cond2_0 i then k2_pay2 else b) else y4)
            ∗ owns (c : Thread nD τ) arg5 fullShare (k2_pay4 x oh (if cond2_0 i then k2_pay1 else a))
            ∗ owns (c : Thread nD τ) arg6 fullShare (k2_pay5 oh (if cond2_0 i then k2_pay2 else b))) -∗ K ⟨⟩))
      ⊢ wp frame (wpE (defs₀ (F := F)) Variants.none c none) E (cc2_kernel i arg1 harg1 arg2 harg2 arg3 harg3 arg4 harg4 arg5 harg5 arg6 harg6) K := by
  by_cases hc0 : cond2_0 i <;> by_cases hc1 : cond2_1 i
  · exact absurd hc1 (hi hc0)
  all_goals
    first | rw [if_pos hc0, if_pos hc0] | rw [if_neg hc0, if_neg hc0]
    first | rw [if_pos hc1, if_pos hc1] | rw [if_neg hc1, if_neg hc1]
    simp only [cc2_kernel_eq_skeleton]; unfold cc2_kernel_skel owns
    iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := first | exact hc0 | exact hc1)
    sl_step
    iapply Hk
    isplitl [H1]; iexists _; isplitr; swap; iexact H1; rotate_left
    isplitl [H2]; iexists _; isplitr; swap; iexact H2; rotate_left
    isplitl [H3]; iexists _; isplitr; swap; iexact H3; rotate_left
    isplitl [H4]; iexists _; isplitr; swap; iexact H4; rotate_left
    isplitl [H5]; iexists _; isplitr; swap; iexact H5; rotate_left
    iexists _; isplitr; swap; iexact H6
    all_goals ipureintro
    all_goals first
      | exact Memref.IsWhole.read_unread _ _
      | (sl_unfold_run_names
         simp only [read_writes_cons_unit_zero (S := S8x32) _ _ off2_zero, read_writes_cons_unit_zero (S := S8x1) _ _ off2_zero,
           View.readCov_unit_zero (S := S8x32) _ off2_zero, View.readCov_unit_zero (S := S8x1) _ off2_zero,
           readAt_whole_unread harg1 off2_zero, readAt_whole_unread harg2 off2_zero, readAt_whole_unread harg5 off2_zero, readAt_whole_unread harg6 off2_zero])

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def acc2 (c : Dev nD) : (n : ℕ) → n < cfg2.N → Vec F S8x32 .f32 × Vec F S8x1 .f32
  | 0, hn => (k2_pay4 (iblk2 V c 0 ⟨0, hn⟩) (iblk2 V c 1 ⟨0, hn⟩) k2_pay1, k2_pay5 (iblk2 V c 1 ⟨0, hn⟩) k2_pay2)
  | n + 1, hn => (k2_pay4 (iblk2 V c 0 ⟨n + 1, hn⟩) (iblk2 V c 1 ⟨n + 1, hn⟩) (acc2 c n (Nat.lt_of_succ_lt hn)).1,
      k2_pay5 (iblk2 V c 1 ⟨n + 1, hn⟩) (acc2 c n (Nat.lt_of_succ_lt hn)).2)

/-- What the accumulators hold before position `n`: anything before the first point, afterwards what the point before left. -/
def pre2 (c : Dev nD) (a : Vec F S8x32 .f32) (b : Vec F S8x1 .f32) : (n : ℕ) → n ≤ cfg2.N → Vec F S8x32 .f32 × Vec F S8x1 .f32
  | 0, _ => (a, b)
  | n + 1, hn => acc2 V c n hn

/-- One step of the accumulation from `pre2`, whichever point it is: the first point is where `cond2_0` holds. -/
theorem acc2_eq (c : Dev nD) (a : Vec F S8x32 .f32) (b : Vec F S8x1 .f32) (t : Fin cfg2.N) :
    (acc2 V c t.val t.isLt).1 = k2_pay4 (iblk2 V c 0 t) (iblk2 V c 1 t) (if cond2_0 (grid2.coords t) then k2_pay1 else (pre2 V c a b t.val (Nat.le_of_lt t.isLt)).1)
    ∧ (acc2 V c t.val t.isLt).2 = k2_pay5 (iblk2 V c 1 t) (if cond2_0 (grid2.coords t) then k2_pay2 else (pre2 V c a b t.val (Nat.le_of_lt t.isLt)).2) := by
  obtain ⟨n, hn⟩ := t
  cases n with
  | zero => have h := (hcond2_0 ⟨0, hn⟩).mpr rfl; rw [if_pos h, if_pos h]; exact ⟨rfl, rfl⟩
  | succ n =>
    have h : ¬cond2_0 (grid2.coords ⟨n + 1, hn⟩) := fun h => Nat.succ_ne_zero n ((hcond2_0 _).mp h)
    rw [if_neg h, if_neg h]; exact ⟨rfl, rfl⟩

theorem pre2_succ (c : Dev nD) (a b) (n : ℕ) (h) : pre2 V c a b (n + 1) h = acc2 V c n h := rfl

abbrev scM2_0 : Memref sig .tc .vmem S8x32 .f32 := Memref.whole cc2_scratch0
abbrev scM2_1 : Memref sig .tc .vmem S8x1 .f32 := Memref.whole cc2_scratch1

abbrev rest2 (c : Dev nD) : sProp 𝕄 :=
  Pipeline.scopedRestBut (Ix := Unit) (Name := ℕ) (U := UR sig nD τ) (Lvl := ℕ) (Val := Elt F) spec2 c [cc2_scratch0, cc2_scratch1]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c)
          ∗ (∃ r, prngReg c r)) := by
  unfold Pipeline.ΦA; rw [scopedRest2_split]; simp only [scM2_0, scM2_1, owns_whole]; try rfl

/-- The invariant before position `n`: the two accumulators at `pre2`, everything else it holds at anything. -/
def Phi2 (c : Dev nD) (n : ℕ) (h : n ≤ cfg2.N) : sProp 𝕄 :=
  iprop(∃ a b, iprop(iprop(owns (c : Thread nD τ) scM2_0 fullShare (pre2 V c a b n h).1 ∗ owns (c : Thread nD τ) scM2_1 fullShare (pre2 V c a b n h).2) ∗ rest2 c)
      ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (acc2 V c t.val t.isLt).1
    | ⟨3, _⟩ => (acc2 V c t.val t.isLt).2
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_2 (c : Dev nD) (t : Fin cfg2.N) : (dat2 V c).after 2 t = (acc2 V c t.val t.isLt).1 := by dsimp only [dat2]
theorem after2_3 (c : Dev nD) (t : Fin cfg2.N) : (dat2 V c).after 3 t = (acc2 V c t.val t.isLt).2 := by dsimp only [dat2]

theorem before2_0 (c : Dev nD) (t : Fin cfg2.N) (d) : (dat2 V c).before 0 t d = iblk2 V c 0 t :=
  ((dat2 V c).before_fetched 0 t (fetch2_0 t) d).trans (by unfold Dat.fetched Dat.blockOf iblk2; rw [A_eq2]; try rfl)
theorem before2_1 (c : Dev nD) (t : Fin cfg2.N) (d) : (dat2 V c).before 1 t d = iblk2 V c 1 t :=
  ((dat2 V c).before_fetched 1 t (fetch2_1 t) d).trans (by unfold Dat.fetched Dat.blockOf iblk2; rw [A_eq2]; try rfl)

theorem hcase2 : ∀ t : Fin cfg2.N, cond2_0 (grid2.coords t) → ¬cond2_1 (grid2.coords t) := by decide +kernel
theorem idleAt2 : ∀ t : Fin cfg2.N, ¬cond2_1 (grid2.coords t) → ∀ w : Fin cfg2.W, 2 ≤ w.val →
    cfg2.idle w (grid2.coords t) = true ∧ (cfg2.win w).flush t = false := by decide +kernel
theorem liveAt2 : ∀ t : Fin cfg2.N, cond2_1 (grid2.coords t) → ∀ w : Fin cfg2.W, cfg2.idle w (grid2.coords t) = false := by decide +kernel

/-- What the body leaves for an output window: the accumulator where `cond2_1` holds, else what it was given. -/
theorem leaves2 (c : Dev nD) (t : Fin cfg2.N) (w : Fin cfg2.W) (hw : 2 ≤ w.val) (d) :
    owns (c : Thread nD τ) ((cfg2.win w).stage (cfg2.slots t w)) fullShare
        (if cond2_1 (grid2.coords t) then (dat2 V c).after w t else (dat2 V c).before w t d)
      ⊢ (dat2 V c).leavesExact w t := by
  unfold Dat.leavesExact
  by_cases h : cond2_1 (grid2.coords t)
  · rw [if_pos h, liveAt2 t h w]
  · rw [if_neg h, (idleAt2 t h w hw).1, (idleAt2 t h w hw).2]; iintro H; iexists d; iexact H

abbrev ms2_0 (t : Fin cfg2.N) : Memref sig .tc .vmem S2000x32 .f32 := win2_0.stage (cfg2.slots t 0)
abbrev ms2_1 (t : Fin cfg2.N) : Memref sig .tc .vmem S2000x8 .f32 := win2_1.stage (cfg2.slots t 1)
abbrev ms2_2 (t : Fin cfg2.N) : Memref sig .tc .vmem S8x32 .f32 := win2_2.stage (cfg2.slots t 2)
abbrev ms2_3 (t : Fin cfg2.N) : Memref sig .tc .vmem S8x1 .f32 := win2_3.stage (cfg2.slots t 3)

set_option maxHeartbeats 4800000 in
/-- The body at any point: from the invariant and the windows' buffers to the next invariant and what each window leaves. -/
theorem sound_body2 (c : Dev nD) (t : Fin cfg2.N) :
    iprop((dat2 V c).Φ t.castSucc ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d))
      ∗ (∃ d, owns (c : Thread nD τ) (ms2_3 t) fullShare ((dat2 V c).before 3 t d)))
    ⊢ wp frame (wpE (defs₀ (F := F)) Variants.none c none) Set.univ (bodyAt2 t) (fun _ =>
      iprop((dat2 V c).Φ t.succ ∗ (dat2 V c).owesAt () t.succ
        ∗ owns (c : Thread nD τ) (ms2_0 t) fullShare (iblk2 V c 0 t) ∗ owns (c : Thread nD τ) (ms2_1 t) fullShare (iblk2 V c 1 t)
        ∗ (dat2 V c).leavesExact 2 t ∗ (dat2 V c).leavesExact 3 t)) := by
  simp only [before2_0, before2_1]
  rw [show (dat2 V c).owesAt () t.succ = (dat2 V c).owesAt () t.castSucc from rfl,
    show (dat2 V c).Φ t.castSucc = Phi2 V c t.val (Nat.le_of_lt t.isLt) from rfl,
    show (dat2 V c).Φ t.succ = Phi2 V c (t.val + 1) t.isLt from rfl]
  unfold Phi2; simp only [pre2_succ]
  iintro ⟨⟨%a, %b, ⟨⟨HS0, HS1⟩, HR⟩, Hg⟩, Ho, ⟨%d0, H0⟩, ⟨%d1, H1⟩, ⟨%d2, H2⟩, ⟨%d3, H3⟩⟩
  have e := acc2_eq V c a b t
  iapply (run2 c (grid2.coords t) _ _ _ _ _ _ _ _ _ _ _ _ (hcase2 t) (iblk2 V c 0 t) (iblk2 V c 1 t) _ _ _ _ Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, HS0, HS1⟩
  rw [← e.1, ← e.2]
  isplitl [HS0 HS1 HR Hg]
  · iexists a, b
    isplitl [HS0 HS1 HR]
    · isplitl [HS0 HS1]
      · isplitl [HS0]; · iexact HS0
        iexact HS1
      iexact HR
    iexact Hg
  isplitl [Ho]; · iexact Ho
  isplitl [H0]; · iexact H0
  isplitl [H1]; · iexact H1
  isplitl [H2]; · iapply (leaves2 V c t 2 (by decide) d2); iexact H2
  iapply (leaves2 V c t 3 (by decide) d3); iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = Phi2 V c 0 (Nat.zero_le _) from rfl, PhiA2_eq]; unfold Phi2; simp only [pre2]
  iintro ⟨⟨⟨⟨%a, HS0⟩, ⟨%b, HS1⟩⟩, HR⟩, Hg⟩
  iexists a, b
  isplitl [HS0 HS1 HR]
  · isplitl [HS0 HS1]
    · isplitl [HS0]; · iexact HS0
      iexact HS1
    iexact HR
  iexact Hg

/-- The accumulators' values are forgotten. -/
theorem hout2 (c : Dev nD) : (dat2 V c).Φ (Fin.last cfg2.N) ⊢ Pipeline.ΦA spec2 c := by
  rw [show (dat2 V c).Φ (Fin.last cfg2.N) = Phi2 V c _ (Nat.le_of_lt_succ (Fin.last cfg2.N).isLt) from rfl, PhiA2_eq]; unfold Phi2
  iintro ⟨%a, %b, ⟨⟨HS0, HS1⟩, HR⟩, Hg⟩
  isplitl [HS0 HS1 HR]
  · isplitl [HS0 HS1]
    · isplitl [HS0]
      · iexists _; iexact HS0
      iexists _; iexact HS1
    iexact HR
  iexact Hg

end Cert.KernelIdeal.Hand

end
-- ==== Proof.KI.Reg3.lean ====
import proofs.«408530_j23158463660766_2_alg».proof.Proof.Gen.KernelIdeal.Launch
import proofs.«408530_j23158463660766_2_alg».proof.Proof.Gen.KernelIdeal.Skeleton
import proofs.«408530_j23158463660766_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL.RA Idealize.SL.BI Idealize.SL.BI.BIBase Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window w's block at grid point t, read off its array at the contents V.
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x256 := Rect.unit (s := S2000x256) ![0, 0] S2000x256.size inb_S2000x256_S2000x256_0_0
abbrev r3_1 : Rect S256x512 := Rect.unit (s := S256x512) ![0, 0] S256x512.size inb_S256x512_S256x512_0_0
abbrev r3_2 : Rect S2000x512 := Rect.unit (s := S2000x512) ![0, 0] S2000x512.size inb_S2000x512_S2000x512_0_0

-- One store over the whole block, of the product of the two input blocks.
def out3_2 (x0 : Vec F S2000x256 .f32) (x1 : Vec F S256x512 .f32) : Vec F S2000x512 .f32 :=
  View.canon [⟨r3_2, k3_pay1 (View.ld x0 r3_0) (View.ld x1 r3_1)⟩]

-- A single write over the whole block covers it, so the block then reads as that write's payload.
local macro_rules | `(tactic| sl_pure) => `(tactic| exact View.read_writes_eq_canon _ _ _ (View.cover_of_tiled _ S2000x512.size (by rfl)))

set_option maxHeartbeats 1000000 in
-- On whole blocks reading x0 and x1 the body returns both as they were and leaves out3_2 x0 x1 in the third, whatever it held.
theorem sound_kernel3 (c : Dev nD) (E : Set ℕ) (i : grid3.Coords)
    (arg1 : Memref sig .tc .vmem S2000x256 .f32) (harg1 : arg1.IsWhole)
    (arg2 : Memref sig .tc .vmem S256x512 .f32) (harg2 : arg2.IsWhole)
    (arg3 : Memref sig .tc .vmem S2000x512 .f32) (harg3 : arg3.IsWhole)
    (x0 : Vec F S2000x256 .f32) (x1 : Vec F S256x512 .f32) (K : PUnit → sProp 𝕄) :
    iprop((owns (c : Thread nD τ) arg1 fullShare x0 ∗ owns (c : Thread nD τ) arg2 fullShare x1
        ∗ (∃ d, owns (c : Thread nD τ) arg3 fullShare d))
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel owns
  iintro ⟨⟨⟨%f0, %hf0, H0⟩, ⟨%f1, %hf1, H1⟩, %d2, %f2, -, H2⟩, Hk⟩
  subst hf0 hf1
  sl_exec
  sl_step
  iapply Hk
  sl_close

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) :
    (dat3 V c).after 2 t = out3_2 (iblk3 V c 0 t) (iblk3 V c 1 t) := by dsimp only [dat3]

-- The inputs are left as found, so the triple above applies at every point; the invariant and the debt are framed.
theorem body_obligation3 (c : Dev nD) : BodyObligation (dat3 (F := F) V c) (defs₀ (F := F)) Variants.none () Set.univ := fun t => by
  rw [bigSep_W3, bigSep_W3]
  simp only [(dat3 V c).before_in_eq_fetched 0 rfl (fun _ => rfl) (fun _ _ _ => rfl) (fun _ => rfl),
    (dat3 V c).before_in_eq_fetched 1 rfl (fun _ => rfl) (fun _ _ _ => rfl) (fun _ => rfl)]
  show _ ⊢ wp _ _ _ (bodyAt3 t) _
  dsimp only [dat3]
  iintro ⟨HΦ, Ho, ⟨%d0, H0⟩, ⟨%d1, H1⟩, %d2, H2⟩
  iapply (sound_kernel3 c Set.univ _ _ _ _ _ _ _ (iblk3 V c 0 t) (iblk3 V c 1 t) _)
  isplitl [H0 H1 H2]; · sl_close
  iintro ⟨H0, H1, H2⟩
  isplitl [HΦ]; · iexact HΦ
  isplitl [Ho]; · iexact Ho
  sl_close

end Cert.KernelIdeal.Hand
-- ==== Proof.KI.Reg4.lean ====
import proofs.«408530_j23158463660766_2_alg».proof.Proof.Gen.KernelIdeal.Launch
import proofs.«408530_j23158463660766_2_alg».proof.Proof.Gen.KernelIdeal.Skeleton
import proofs.«408530_j23158463660766_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL.RA Idealize.SL.BI Idealize.SL.BI.BIBase Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window w's block at grid point t, read off its array at the contents V.
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S2000x256 := Rect.unit (s := S2000x256) ![0, 0] S2000x256.size inb_S2000x256_S2000x256_0_0
abbrev r4_1 : Rect S256x512 := Rect.unit (s := S256x512) ![0, 0] S256x512.size inb_S256x512_S256x512_0_0
abbrev r4_2 : Rect S2000x512 := Rect.unit (s := S2000x512) ![0, 0] S2000x512.size inb_S2000x512_S2000x512_0_0

-- One store over the whole block, of the product of the two input blocks.
def out4_2 (x0 : Vec F S2000x256 .f32) (x1 : Vec F S256x512 .f32) : Vec F S2000x512 .f32 :=
  View.canon [⟨r4_2, k4_pay1 (View.ld x0 r4_0) (View.ld x1 r4_1)⟩]

-- A single write over the whole block covers it, so the block then reads as that write's payload.
local macro_rules | `(tactic| sl_pure) => `(tactic| exact View.read_writes_eq_canon _ _ _ (View.cover_of_tiled _ S2000x512.size (by rfl)))

set_option maxHeartbeats 1000000 in
-- On whole blocks reading x0 and x1 the body returns both as they were and leaves out4_2 x0 x1 in the third, whatever it held.
theorem sound_kernel4 (c : Dev nD) (E : Set ℕ) (i : grid4.Coords)
    (arg1 : Memref sig .tc .vmem S2000x256 .f32) (harg1 : arg1.IsWhole)
    (arg2 : Memref sig .tc .vmem S256x512 .f32) (harg2 : arg2.IsWhole)
    (arg3 : Memref sig .tc .vmem S2000x512 .f32) (harg3 : arg3.IsWhole)
    (x0 : Vec F S2000x256 .f32) (x1 : Vec F S256x512 .f32) (K : PUnit → sProp 𝕄) :
    iprop((owns (c : Thread nD τ) arg1 fullShare x0 ∗ owns (c : Thread nD τ) arg2 fullShare x1
        ∗ (∃ d, owns (c : Thread nD τ) arg3 fullShare d))
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel owns
  iintro ⟨⟨⟨%f0, %hf0, H0⟩, ⟨%f1, %hf1, H1⟩, %d2, %f2, -, H2⟩, Hk⟩
  subst hf0 hf1
  sl_exec
  sl_step
  iapply Hk
  sl_close

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_2 (c : Dev nD) (t : Fin cfg4.N) :
    (dat4 V c).after 2 t = out4_2 (iblk4 V c 0 t) (iblk4 V c 1 t) := by dsimp only [dat4]

-- The inputs are left as found, so the triple above applies at every point; the invariant and the debt are framed.
theorem body_obligation4 (c : Dev nD) : BodyObligation (dat4 (F := F) V c) (defs₀ (F := F)) Variants.none () Set.univ := fun t => by
  rw [bigSep_W4, bigSep_W4]
  simp only [(dat4 V c).before_in_eq_fetched 0 rfl (fun _ => rfl) (fun _ _ _ => rfl) (fun _ => rfl),
    (dat4 V c).before_in_eq_fetched 1 rfl (fun _ => rfl) (fun _ _ _ => rfl) (fun _ => rfl)]
  show _ ⊢ wp _ _ _ (bodyAt4 t) _
  dsimp only [dat4]
  iintro ⟨HΦ, Ho, ⟨%d0, H0⟩, ⟨%d1, H1⟩, %d2, H2⟩
  iapply (sound_kernel4 c Set.univ _ _ _ _ _ _ _ (iblk4 V c 0 t) (iblk4 V c 1 t) _)
  isplitl [H0 H1 H2]; · sl_close
  iintro ⟨H0, H1, H2⟩
  isplitl [HΦ]; · iexact HΦ
  isplitl [Ho]; · iexact Ho
  sl_close

end Cert.KernelIdeal.Hand
-- ==== Proof.KI.Reg5.lean ====
import proofs.«408530_j23158463660766_2_alg».proof.Proof.Gen.KernelIdeal.Launch
import proofs.«408530_j23158463660766_2_alg».proof.Proof.Gen.KernelIdeal.Skeleton
import proofs.«408530_j23158463660766_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region5
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S1000x512 := Rect.unit (s := S1000x512) ![0, 0] S1000x512.size inb_S1000x512_S1000x512_0_0
abbrev r5_1 : Rect S1000x1 := Rect.unit (s := S1000x1) ![0, 0] S1000x1.size inb_S1000x1_S1000x1_0_0
abbrev r5_2 : Rect S1x512 := Rect.unit (s := S1x512) ![0, 0] S1x512.size inb_S1x512_S1x512_0_0

def out5_6 (x0 x1 : Vec F S1000x512 .f32) (x2 : Vec F S1000x1 .f32) (x3 x4 x5 : Vec F S1x512 .f32) : Vec F S1000x512 .f32 :=
  View.canon [⟨r5_0, k5_pay1 (k5_pay2 (View.ld x0 r5_0) (View.ld x1 r5_0) (View.ld x2 r5_1) (View.ld x3 r5_2) (View.ld x4 r5_2))
    (k5_pay3 (View.ld x5 r5_2))⟩]

set_option maxHeartbeats 1000000 in
/-- The body loads its six inputs whole and stores one payload over the whole output block, so the output reads that payload. -/
theorem sound_kernel5 (c : Dev nD) {i : grid5.Coords} {arg1 arg2 arg7 : Memref sig .tc .vmem S1000x512 .f32}
    {arg3 : Memref sig .tc .vmem S1000x1 .f32} {arg4 arg5 arg6 : Memref sig .tc .vmem S1x512 .f32}
    {harg1 : arg1.IsWhole} {harg2 : arg2.IsWhole} {harg3 : arg3.IsWhole} {harg4 : arg4.IsWhole}
    {harg5 : arg5.IsWhole} {harg6 : arg6.IsWhole} {harg7 : arg7.IsWhole}
    (x0 x1 : Vec F S1000x512 .f32) (x2 : Vec F S1000x1 .f32) (x3 x4 x5 : Vec F S1x512 .f32) (K : PUnit → sProp 𝕄) :
    iprop(owns c arg1 fullShare x0 ∗ owns c arg2 fullShare x1 ∗ owns c arg3 fullShare x2 ∗ owns c arg4 fullShare x3
        ∗ owns c arg5 fullShare x4 ∗ owns c arg6 fullShare x5 ∗ (∃ d, owns c arg7 fullShare d)
        ∗ (iprop(owns c arg1 fullShare x0 ∗ owns c arg2 fullShare x1 ∗ owns c arg3 fullShare x2 ∗ owns c arg4 fullShare x3
            ∗ owns c arg5 fullShare x4 ∗ owns c arg6 fullShare x5 ∗ owns c arg7 fullShare (out5_6 x0 x1 x2 x3 x4 x5)) -∗ K ⟨⟩))
      ⊢ wp frame (wpE (defs₀ (F := F)) Variants.none c none) Set.univ
          (cc5__gcn_post_kernel i arg1 harg1 arg2 harg2 arg3 harg3 arg4 harg4 arg5 harg5 arg6 harg6 arg7 harg7) K := by
  simp only [cc5__gcn_post_kernel_eq_skeleton]; unfold cc5__gcn_post_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  iexists _; iframe H6; ipureintro
  exact View.read_writes_eq_canon _ _ _ (View.cover_of_tiled _ S1000x512.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_6 (c : Dev nD) (t : Fin cfg5.N) : (dat5 V c).after 6 t
    = out5_6 (iblk5 V c 0 t) (iblk5 V c 1 t) (iblk5 V c 2 t) (iblk5 V c 3 t) (iblk5 V c 4 t) (iblk5 V c 5 t) := by dsimp only [dat5]

/-- For an input window, before and after the body agree: the body writes no input. -/
theorem before5 (c : Dev nD) (w : Fin cfg5.W) (hw : (cfg5.win w).isOut = false) (t : Fin cfg5.N) (d) :
    (dat5 V c).before w t d = (dat5 V c).after w t := by
  match w, hw with
  | ⟨0, _⟩, _ | ⟨1, _⟩, _ | ⟨2, _⟩, _ | ⟨3, _⟩, _ | ⟨4, _⟩, _ | ⟨5, _⟩, _ =>
    exact (dat5 V c).before_in_eq_fetched _ rfl (fun _ => rfl) (fun _ _ _ => rfl) (fun _ => rfl) t d
  | ⟨6, _⟩, h => cases h

/-- The body's triple at each point, framed by the invariant and the owed tallies. -/
theorem body_obligation5 (c : Dev nD) : BodyObligation (dat5 (F := F) V c) (defs₀ (F := F)) Variants.none () Set.univ := fun t => by
  rw [bigSep_W5, bigSep_W5]
  simp (disch := exact rfl) only [before5 V c]
  rw [show (dat5 V c).owesAt () t.succ = (dat5 V c).owesAt () t.castSucc from rfl]
  dsimp only [dat5]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c (iblk5 V c 0 t) (iblk5 V c 1 t) (iblk5 V c 2 t) (iblk5 V c 3 t) (iblk5 V c 4 t) (iblk5 V c 5 t) _)
  iframe H0 H1 H2 H3 H4 H5
  isplitl [H6]; · iexists _; iexact H6
  iintro ⟨H0, H1, H2, H3, H4, H5, H6⟩
  iframe

end Region5

end Cert.KernelIdeal.Hand
-- ==== Proof.KI.Reg6.lean ====
import proofs.«408530_j23158463660766_2_alg».proof.Proof.Gen.KernelIdeal.Launch
import proofs.«408530_j23158463660766_2_alg».proof.Proof.Gen.KernelIdeal.Skeleton
import proofs.«408530_j23158463660766_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL.RA Idealize.SL.BI Idealize.SL.BI.BIBase Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window w's block at grid point t, read off its array at the contents V.
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S2000x512 := Rect.unit (s := S2000x512) ![0, 0] S2000x512.size inb_S2000x512_S2000x512_0_0
abbrev r6_1 : Rect S512x256 := Rect.unit (s := S512x256) ![0, 0] S512x256.size inb_S512x256_S512x256_0_0
abbrev r6_2 : Rect S2000x256 := Rect.unit (s := S2000x256) ![0, 0] S2000x256.size inb_S2000x256_S2000x256_0_0

-- One store over the whole block, of the product of the two input blocks.
def out6_2 (x0 : Vec F S2000x512 .f32) (x1 : Vec F S512x256 .f32) : Vec F S2000x256 .f32 :=
  View.canon [⟨r6_2, k6_pay1 (View.ld x0 r6_0) (View.ld x1 r6_1)⟩]

-- A single write over the whole block covers it, so the block then reads as that write's payload.
local macro_rules | `(tactic| sl_pure) => `(tactic| exact View.read_writes_eq_canon _ _ _ (View.cover_of_tiled _ S2000x256.size (by rfl)))

set_option maxHeartbeats 1000000 in
-- On whole blocks reading x0 and x1 the body returns both as they were and leaves out6_2 x0 x1 in the third, whatever it held.
theorem sound_kernel6 (c : Dev nD) (E : Set ℕ) (i : grid6.Coords)
    (arg1 : Memref sig .tc .vmem S2000x512 .f32) (harg1 : arg1.IsWhole)
    (arg2 : Memref sig .tc .vmem S512x256 .f32) (harg2 : arg2.IsWhole)
    (arg3 : Memref sig .tc .vmem S2000x256 .f32) (harg3 : arg3.IsWhole)
    (x0 : Vec F S2000x512 .f32) (x1 : Vec F S512x256 .f32) (K : PUnit → sProp 𝕄) :
    iprop((owns (c : Thread nD τ) arg1 fullShare x0 ∗ owns (c : Thread nD τ) arg2 fullShare x1
        ∗ (∃ d, owns (c : Thread nD τ) arg3 fullShare d))
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel owns
  iintro ⟨⟨⟨%f0, %hf0, H0⟩, ⟨%f1, %hf1, H1⟩, %d2, %f2, -, H2⟩, Hk⟩
  subst hf0 hf1
  sl_exec
  sl_step
  iapply Hk
  sl_close

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_2 (c : Dev nD) (t : Fin cfg6.N) :
    (dat6 V c).after 2 t = out6_2 (iblk6 V c 0 t) (iblk6 V c 1 t) := by dsimp only [dat6]

-- The inputs are left as found, so the triple above applies at every point; the invariant and the debt are framed.
theorem body_obligation6 (c : Dev nD) : BodyObligation (dat6 (F := F) V c) (defs₀ (F := F)) Variants.none () Set.univ := fun t => by
  rw [bigSep_W6, bigSep_W6]
  simp only [(dat6 V c).before_in_eq_fetched 0 rfl (fun _ => rfl) (fun _ _ _ => rfl) (fun _ => rfl),
    (dat6 V c).before_in_eq_fetched 1 rfl (fun _ => rfl) (fun _ _ _ => rfl) (fun _ => rfl)]
  show _ ⊢ wp _ _ _ (bodyAt6 t) _
  dsimp only [dat6]
  iintro ⟨HΦ, Ho, ⟨%d0, H0⟩, ⟨%d1, H1⟩, %d2, H2⟩
  iapply (sound_kernel6 c Set.univ _ _ _ _ _ _ _ (iblk6 V c 0 t) (iblk6 V c 1 t) _)
  isplitl [H0 H1 H2]; · sl_close
  iintro ⟨H0, H1, H2⟩
  isplitl [HΦ]; · iexact HΦ
  isplitl [Ho]; · iexact Ho
  sl_close

end Cert.KernelIdeal.Hand
-- ==== Proof.KI.Reg7.lean ====
import proofs.«408530_j23158463660766_2_alg».proof.Proof.Gen.KernelIdeal.Launch
import proofs.«408530_j23158463660766_2_alg».proof.Proof.Gen.KernelIdeal.Skeleton
import proofs.«408530_j23158463660766_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Region7
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S2000x256 := Rect.unit (s := S2000x256) ![0, 0] S2000x256.size inb_S2000x256_S2000x256_0_0
abbrev r7_1 : Rect S2000x1 := Rect.unit (s := S2000x1) ![0, 0] S2000x1.size inb_S2000x1_S2000x1_0_0
abbrev r7_2 : Rect S1x256 := Rect.unit (s := S1x256) ![0, 0] S1x256.size inb_S1x256_S1x256_0_0

def out7_6 (x0 x1 : Vec F S2000x256 .f32) (x2 : Vec F S2000x1 .f32) (x3 x4 x5 : Vec F S1x256 .f32) : Vec F S2000x256 .f32 :=
  View.canon [⟨r7_0, k7_pay1 (k7_pay2 (View.ld x0 r7_0) (View.ld x1 r7_0) (View.ld x2 r7_1) (View.ld x3 r7_2) (View.ld x4 r7_2))
    (k7_pay3 (View.ld x5 r7_2))⟩]

set_option maxHeartbeats 1000000 in
/-- The body loads its six inputs whole and stores one payload over the whole output block, so the output reads that payload. -/
theorem sound_kernel7 (c : Dev nD) {i : grid7.Coords} {arg1 arg2 arg7 : Memref sig .tc .vmem S2000x256 .f32}
    {arg3 : Memref sig .tc .vmem S2000x1 .f32} {arg4 arg5 arg6 : Memref sig .tc .vmem S1x256 .f32}
    {harg1 : arg1.IsWhole} {harg2 : arg2.IsWhole} {harg3 : arg3.IsWhole} {harg4 : arg4.IsWhole}
    {harg5 : arg5.IsWhole} {harg6 : arg6.IsWhole} {harg7 : arg7.IsWhole}
    (x0 x1 : Vec F S2000x256 .f32) (x2 : Vec F S2000x1 .f32) (x3 x4 x5 : Vec F S1x256 .f32) (K : PUnit → sProp 𝕄) :
    iprop(owns c arg1 fullShare x0 ∗ owns c arg2 fullShare x1 ∗ owns c arg3 fullShare x2 ∗ owns c arg4 fullShare x3
        ∗ owns c arg5 fullShare x4 ∗ owns c arg6 fullShare x5 ∗ (∃ d, owns c arg7 fullShare d)
        ∗ (iprop(owns c arg1 fullShare x0 ∗ owns c arg2 fullShare x1 ∗ owns c arg3 fullShare x2 ∗ owns c arg4 fullShare x3
            ∗ owns c arg5 fullShare x4 ∗ owns c arg6 fullShare x5 ∗ owns c arg7 fullShare (out7_6 x0 x1 x2 x3 x4 x5)) -∗ K ⟨⟩))
      ⊢ wp frame (wpE (defs₀ (F := F)) Variants.none c none) Set.univ
          (cc7__gcn_post_kernel i arg1 harg1 arg2 harg2 arg3 harg3 arg4 harg4 arg5 harg5 arg6 harg6 arg7 harg7) K := by
  simp only [cc7__gcn_post_kernel_eq_skeleton]; unfold cc7__gcn_post_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  iexists _; iframe H6; ipureintro
  exact View.read_writes_eq_canon _ _ _ (View.cover_of_tiled _ S2000x256.size (by rfl))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_6 (c : Dev nD) (t : Fin cfg7.N) : (dat7 V c).after 6 t
    = out7_6 (iblk7 V c 0 t) (iblk7 V c 1 t) (iblk7 V c 2 t) (iblk7 V c 3 t) (iblk7 V c 4 t) (iblk7 V c 5 t) := by dsimp only [dat7]

/-- For an input window, before and after the body agree: the body writes no input. -/
theorem before7 (c : Dev nD) (w : Fin cfg7.W) (hw : (cfg7.win w).isOut = false) (t : Fin cfg7.N) (d) :
    (dat7 V c).before w t d = (dat7 V c).after w t := by
  match w, hw with
  | ⟨0, _⟩, _ | ⟨1, _⟩, _ | ⟨2, _⟩, _ | ⟨3, _⟩, _ | ⟨4, _⟩, _ | ⟨5, _⟩, _ =>
    exact (dat7 V c).before_in_eq_fetched _ rfl (fun _ => rfl) (fun _ _ _ => rfl) (fun _ => rfl) t d
  | ⟨6, _⟩, h => cases h

/-- The body's triple at each point, framed by the invariant and the owed tallies. -/
theorem body_obligation7 (c : Dev nD) : BodyObligation (dat7 (F := F) V c) (defs₀ (F := F)) Variants.none () Set.univ := fun t => by
  rw [bigSep_W7, bigSep_W7]
  simp (disch := exact rfl) only [before7 V c]
  rw [show (dat7 V c).owesAt () t.succ = (dat7 V c).owesAt () t.castSucc from rfl]
  dsimp only [dat7]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c (iblk7 V c 0 t) (iblk7 V c 1 t) (iblk7 V c 2 t) (iblk7 V c 3 t) (iblk7 V c 4 t) (iblk7 V c 5 t) _)
  iframe H0 H1 H2 H3 H4 H5
  isplitl [H6]; · iexists _; iexact H6
  iintro ⟨H0, H1, H2, H3, H4, H5, H6⟩
  iframe

end Region7

end Cert.KernelIdeal.Hand
-- ==== Proof.KI.Reg8.lean ====
import proofs.«408530_j23158463660766_2_alg».proof.Proof.Gen.KernelIdeal.Skeleton
import proofs.«408530_j23158463660766_2_alg».proof.Proof.Gen.KernelIdeal.Launch
import proofs.«408530_j23158463660766_2_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Tactic
import Idealize.ShloMosaic.Lib.WholeRead
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem off2_zero : (![0, 0] : Fin 2 → ℕ) = fun _ => 0 := by funext a; fin_cases a <;> rfl

section Whole
variable {Val : EltTy → Type} {sg : RefSig} {κ : Kind} {sp : Space} {S : Shape} {e : EltTy}

private theorem readAt_whole_unread {m : Memref sg κ sp S e} (hm : m.IsWhole) {off : Fin S.rank → ℕ} (h : off = fun _ => 0)
    (inb : ∀ a, off a + S.size a ≤ S.size a) (X : S.Idx → Val e) :
    View.readAt Val m.view (Rect.unit off S.size inb).toLoadRect (hm.unread X) = X := by
  funext x
  rw [hm.readAt_unread]
  exact congrFun (View.ld_unit_zero h inb X) x

private theorem read_writes_cons_unit_zero (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f (⟨Rect.unit off S.size inb, w⟩ :: L)) = w := by
  subst h; funext y
  have hy := View.read_writes_cons_emb v f (Rect.whole S) w L y
  rwa [Rect.emb_whole_apply] at hy

end Whole

abbrev cond8_0 (i : grid8.Coords) : Prop :=
  (Scalar.cmpi .ne (Scalar.extui (Scalar.cmpi .eq (BitVec.ofNat 32 (i 0).val) 0#32)) 0#32) = 1#1
abbrev cond8_1 (i : grid8.Coords) : Prop := k8_cond2 i = 1#1

theorem hcond8_0 : ∀ t : Fin cfg8.N, cond8_0 (grid8.coords t) ↔ t.val = 0 :=
  (by decide +kernel : ∀ t : Fin grid8.N, cond8_0 (grid8.coords t) ↔ t.val = 0)
theorem hcond8_1 : ∀ t : Fin cfg8.N, cond8_1 (grid8.coords t) ↔ t.val = 24 :=
  (by decide +kernel : ∀ t : Fin grid8.N, cond8_1 (grid8.coords t) ↔ t.val = 24)

set_option maxHeartbeats 1000000 in
/-- The body at any point: where `cond8_0` holds the accumulators restart from the constants, where `cond8_1` holds they are copied out. -/
theorem run8 (c : Dev nD) (i : grid8.Coords)
    (arg1 : Memref sig .tc .vmem S2000x256 .f32) (harg1 : arg1.IsWhole) (arg2 : Memref sig .tc .vmem S2000x8 .f32) (harg2 : arg2.IsWhole)
    (arg3 : Memref sig .tc .vmem S8x256 .f32) (harg3 : arg3.IsWhole) (arg4 : Memref sig .tc .vmem S8x1 .f32) (harg4 : arg4.IsWhole)
    (arg5 : Memref sig .tc .vmem S8x256 .f32) (harg5 : arg5.IsWhole) (arg6 : Memref sig .tc .vmem S8x1 .f32) (harg6 : arg6.IsWhole)
    (hi : cond8_0 i → ¬cond8_1 i)
    (x : Vec F S2000x256 .f32) (oh : Vec F S2000x8 .f32) (y3 : Vec F S8x256 .f32) (y4 : Vec F S8x1 .f32)
    (a : Vec F S8x256 .f32) (b : Vec F S8x1 .f32) (E : Set ℕ) (K : PUnit → sProp 𝕄) :
    iprop(owns (c : Thread nD τ) arg1 fullShare x ∗ owns (c : Thread nD τ) arg2 fullShare oh
        ∗ owns (c : Thread nD τ) arg3 fullShare y3 ∗ owns (c : Thread nD τ) arg4 fullShare y4
        ∗ owns (c : Thread nD τ) arg5 fullShare a ∗ owns (c : Thread nD τ) arg6 fullShare b
        ∗ (iprop(owns (c : Thread nD τ) arg1 fullShare x ∗ owns (c : Thread nD τ) arg2 fullShare oh
            ∗ owns (c : Thread nD τ) arg3 fullShare (if cond8_1 i then k8_pay4 x oh (if cond8_0 i then k8_pay1 else a) else y3)
            ∗ owns (c : Thread nD τ) arg4 fullShare (if cond8_1 i then k8_pay5 oh (if cond8_0 i then k8_pay2 else b) else y4)
            ∗ owns (c : Thread nD τ) arg5 fullShare (k8_pay4 x oh (if cond8_0 i then k8_pay1 else a))
            ∗ owns (c : Thread nD τ) arg6 fullShare (k8_pay5 oh (if cond8_0 i then k8_pay2 else b))) -∗ K ⟨⟩))
      ⊢ wp frame (wpE (defs₀ (F := F)) Variants.none c none) E (cc8_kernel i arg1 harg1 arg2 harg2 arg3 harg3 arg4 harg4 arg5 harg5 arg6 harg6) K := by
  by_cases hc0 : cond8_0 i <;> by_cases hc1 : cond8_1 i
  · exact absurd hc1 (hi hc0)
  all_goals
    first | rw [if_pos hc0, if_pos hc0] | rw [if_neg hc0, if_neg hc0]
    first | rw [if_pos hc1, if_pos hc1] | rw [if_neg hc1, if_neg hc1]
    simp only [cc8_kernel_eq_skeleton]; unfold cc8_kernel_skel owns
    iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := first | exact hc0 | exact hc1)
    sl_step
    iapply Hk
    isplitl [H1]; iexists _; isplitr; swap; iexact H1; rotate_left
    isplitl [H2]; iexists _; isplitr; swap; iexact H2; rotate_left
    isplitl [H3]; iexists _; isplitr; swap; iexact H3; rotate_left
    isplitl [H4]; iexists _; isplitr; swap; iexact H4; rotate_left
    isplitl [H5]; iexists _; isplitr; swap; iexact H5; rotate_left
    iexists _; isplitr; swap; iexact H6
    all_goals ipureintro
    all_goals first
      | exact Memref.IsWhole.read_unread _ _
      | (sl_unfold_run_names
         simp only [read_writes_cons_unit_zero (S := S8x256) _ _ off2_zero, read_writes_cons_unit_zero (S := S8x1) _ _ off2_zero,
           View.readCov_unit_zero (S := S8x256) _ off2_zero, View.readCov_unit_zero (S := S8x1) _ off2_zero,
           readAt_whole_unread harg1 off2_zero, readAt_whole_unread harg2 off2_zero, readAt_whole_unread harg5 off2_zero, readAt_whole_unread harg6 off2_zero])

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def acc8 (c : Dev nD) : (n : ℕ) → n < cfg8.N → Vec F S8x256 .f32 × Vec F S8x1 .f32
  | 0, hn => (k8_pay4 (iblk8 V c 0 ⟨0, hn⟩) (iblk8 V c 1 ⟨0, hn⟩) k8_pay1, k8_pay5 (iblk8 V c 1 ⟨0, hn⟩) k8_pay2)
  | n + 1, hn => (k8_pay4 (iblk8 V c 0 ⟨n + 1, hn⟩) (iblk8 V c 1 ⟨n + 1, hn⟩) (acc8 c n (Nat.lt_of_succ_lt hn)).1,
      k8_pay5 (iblk8 V c 1 ⟨n + 1, hn⟩) (acc8 c n (Nat.lt_of_succ_lt hn)).2)

/-- What the accumulators hold before position `n`: anything before the first point, afterwards what the point before left. -/
def pre8 (c : Dev nD) (a : Vec F S8x256 .f32) (b : Vec F S8x1 .f32) : (n : ℕ) → n ≤ cfg8.N → Vec F S8x256 .f32 × Vec F S8x1 .f32
  | 0, _ => (a, b)
  | n + 1, hn => acc8 V c n hn

/-- One step of the accumulation from `pre8`, whichever point it is: the first point is where `cond8_0` holds. -/
theorem acc8_eq (c : Dev nD) (a : Vec F S8x256 .f32) (b : Vec F S8x1 .f32) (t : Fin cfg8.N) :
    (acc8 V c t.val t.isLt).1 = k8_pay4 (iblk8 V c 0 t) (iblk8 V c 1 t) (if cond8_0 (grid8.coords t) then k8_pay1 else (pre8 V c a b t.val (Nat.le_of_lt t.isLt)).1)
    ∧ (acc8 V c t.val t.isLt).2 = k8_pay5 (iblk8 V c 1 t) (if cond8_0 (grid8.coords t) then k8_pay2 else (pre8 V c a b t.val (Nat.le_of_lt t.isLt)).2) := by
  obtain ⟨n, hn⟩ := t
  cases n with
  | zero => have h := (hcond8_0 ⟨0, hn⟩).mpr rfl; rw [if_pos h, if_pos h]; exact ⟨rfl, rfl⟩
  | succ n =>
    have h : ¬cond8_0 (grid8.coords ⟨n + 1, hn⟩) := fun h => Nat.succ_ne_zero n ((hcond8_0 _).mp h)
    rw [if_neg h, if_neg h]; exact ⟨rfl, rfl⟩

theorem pre8_succ (c : Dev nD) (a b) (n : ℕ) (h) : pre8 V c a b (n + 1) h = acc8 V c n h := rfl

abbrev scM8_0 : Memref sig .tc .vmem S8x256 .f32 := Memref.whole cc8_scratch0
abbrev scM8_1 : Memref sig .tc .vmem S8x1 .f32 := Memref.whole cc8_scratch1

abbrev rest8 (c : Dev nD) : sProp 𝕄 :=
  Pipeline.scopedRestBut (Ix := Unit) (Name := ℕ) (U := UR sig nD τ) (Lvl := ℕ) (Val := Elt F) spec8 c [cc8_scratch0, cc8_scratch1]

theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d)) ∗ rest8 c)
          ∗ (∃ r, prngReg c r)) := by
  unfold Pipeline.ΦA; rw [scopedRest8_split]; simp only [scM8_0, scM8_1, owns_whole]; try rfl

/-- The invariant before position `n`: the two accumulators at `pre8`, everything else it holds at anything. -/
def Phi8 (c : Dev nD) (n : ℕ) (h : n ≤ cfg8.N) : sProp 𝕄 :=
  iprop(∃ a b, iprop(iprop(owns (c : Thread nD τ) scM8_0 fullShare (pre8 V c a b n h).1 ∗ owns (c : Thread nD τ) scM8_1 fullShare (pre8 V c a b n h).2) ∗ rest8 c)
      ∗ (∃ r, prngReg c r))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => (acc8 V c t.val t.isLt).1
    | ⟨3, _⟩ => (acc8 V c t.val t.isLt).2
  Φ t := Phi8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem after8_2 (c : Dev nD) (t : Fin cfg8.N) : (dat8 V c).after 2 t = (acc8 V c t.val t.isLt).1 := by dsimp only [dat8]
theorem after8_3 (c : Dev nD) (t : Fin cfg8.N) : (dat8 V c).after 3 t = (acc8 V c t.val t.isLt).2 := by dsimp only [dat8]

theorem before8_0 (c : Dev nD) (t : Fin cfg8.N) (d) : (dat8 V c).before 0 t d = iblk8 V c 0 t :=
  ((dat8 V c).before_fetched 0 t (fetch8_0 t) d).trans (by unfold Dat.fetched Dat.blockOf iblk8; rw [A_eq8]; try rfl)
theorem before8_1 (c : Dev nD) (t : Fin cfg8.N) (d) : (dat8 V c).before 1 t d = iblk8 V c 1 t :=
  ((dat8 V c).before_fetched 1 t (fetch8_1 t) d).trans (by unfold Dat.fetched Dat.blockOf iblk8; rw [A_eq8]; try rfl)

theorem hcase8 : ∀ t : Fin cfg8.N, cond8_0 (grid8.coords t) → ¬cond8_1 (grid8.coords t) := by decide +kernel
theorem idleAt8 : ∀ t : Fin cfg8.N, ¬cond8_1 (grid8.coords t) → ∀ w : Fin cfg8.W, 2 ≤ w.val →
    cfg8.idle w (grid8.coords t) = true ∧ (cfg8.win w).flush t = false := by decide +kernel
theorem liveAt8 : ∀ t : Fin cfg8.N, cond8_1 (grid8.coords t) → ∀ w : Fin cfg8.W, cfg8.idle w (grid8.coords t) = false := by decide +kernel

/-- What the body leaves for an output window: the accumulator where `cond8_1` holds, else what it was given. -/
theorem leaves8 (c : Dev nD) (t : Fin cfg8.N) (w : Fin cfg8.W) (hw : 2 ≤ w.val) (d) :
    owns (c : Thread nD τ) ((cfg8.win w).stage (cfg8.slots t w)) fullShare
        (if cond8_1 (grid8.coords t) then (dat8 V c).after w t else (dat8 V c).before w t d)
      ⊢ (dat8 V c).leavesExact w t := by
  unfold Dat.leavesExact
  by_cases h : cond8_1 (grid8.coords t)
  · rw [if_pos h, liveAt8 t h w]
  · rw [if_neg h, (idleAt8 t h w hw).1, (idleAt8 t h w hw).2]; iintro H; iexists d; iexact H

abbrev ms8_0 (t : Fin cfg8.N) : Memref sig .tc .vmem S2000x256 .f32 := win8_0.stage (cfg8.slots t 0)
abbrev ms8_1 (t : Fin cfg8.N) : Memref sig .tc .vmem S2000x8 .f32 := win8_1.stage (cfg8.slots t 1)
abbrev ms8_2 (t : Fin cfg8.N) : Memref sig .tc .vmem S8x256 .f32 := win8_2.stage (cfg8.slots t 2)
abbrev ms8_3 (t : Fin cfg8.N) : Memref sig .tc .vmem S8x1 .f32 := win8_3.stage (cfg8.slots t 3)

set_option maxHeartbeats 4800000 in
/-- The body at any point: from the invariant and the windows' buffers to the next invariant and what each window leaves. -/
theorem sound_body8 (c : Dev nD) (t : Fin cfg8.N) :
    iprop((dat8 V c).Φ t.castSucc ∗ (dat8 V c).owesAt () t.castSucc
      ∗ (∃ d, owns (c : Thread nD τ) (ms8_0 t) fullShare ((dat8 V c).before 0 t d))
      ∗ (∃ d, owns (c : Thread nD τ) (ms8_1 t) fullShare ((dat8 V c).before 1 t d))
      ∗ (∃ d, owns (c : Thread nD τ) (ms8_2 t) fullShare ((dat8 V c).before 2 t d))
      ∗ (∃ d, owns (c : Thread nD τ) (ms8_3 t) fullShare ((dat8 V c).before 3 t d)))
    ⊢ wp frame (wpE (defs₀ (F := F)) Variants.none c none) Set.univ (bodyAt8 t) (fun _ =>
      iprop((dat8 V c).Φ t.succ ∗ (dat8 V c).owesAt () t.succ
        ∗ owns (c : Thread nD τ) (ms8_0 t) fullShare (iblk8 V c 0 t) ∗ owns (c : Thread nD τ) (ms8_1 t) fullShare (iblk8 V c 1 t)
        ∗ (dat8 V c).leavesExact 2 t ∗ (dat8 V c).leavesExact 3 t)) := by
  simp only [before8_0, before8_1]
  rw [show (dat8 V c).owesAt () t.succ = (dat8 V c).owesAt () t.castSucc from rfl,
    show (dat8 V c).Φ t.castSucc = Phi8 V c t.val (Nat.le_of_lt t.isLt) from rfl,
    show (dat8 V c).Φ t.succ = Phi8 V c (t.val + 1) t.isLt from rfl]
  unfold Phi8; simp only [pre8_succ]
  iintro ⟨⟨%a, %b, ⟨⟨HS0, HS1⟩, HR⟩, Hg⟩, Ho, ⟨%d0, H0⟩, ⟨%d1, H1⟩, ⟨%d2, H2⟩, ⟨%d3, H3⟩⟩
  have e := acc8_eq V c a b t
  iapply (run8 c (grid8.coords t) _ _ _ _ _ _ _ _ _ _ _ _ (hcase8 t) (iblk8 V c 0 t) (iblk8 V c 1 t) _ _ _ _ Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, HS0, HS1⟩
  rw [← e.1, ← e.2]
  isplitl [HS0 HS1 HR Hg]
  · iexists a, b
    isplitl [HS0 HS1 HR]
    · isplitl [HS0 HS1]
      · isplitl [HS0]; · iexact HS0
        iexact HS1
      iexact HR
    iexact Hg
  isplitl [Ho]; · iexact Ho
  isplitl [H0]; · iexact H0
  isplitl [H1]; · iexact H1
  isplitl [H2]; · iapply (leaves8 V c t 2 (by decide) d2); iexact H2
  iapply (leaves8 V c t 3 (by decide) d3); iexact H3

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := by
  rw [show (dat8 V c).Φ 0 = Phi8 V c 0 (Nat.zero_le _) from rfl, PhiA8_eq]; unfold Phi8; simp only [pre8]
  iintro ⟨⟨⟨⟨%a, HS0⟩, ⟨%b, HS1⟩⟩, HR⟩, Hg⟩
  iexists a, b
  isplitl [HS0 HS1 HR]
  · isplitl [HS0 HS1]
    · isplitl [HS0]; · iexact HS0
      iexact HS1
    iexact HR
  iexact Hg

/-- The accumulators' values are forgotten. -/
theorem hout8 (c : Dev nD) : (dat8 V c).Φ (Fin.last cfg8.N) ⊢ Pipeline.ΦA spec8 c := by
  rw [show (dat8 V c).Φ (Fin.last cfg8.N) = Phi8 V c _ (Nat.le_of_lt_succ (Fin.last cfg8.N).isLt) from rfl, PhiA8_eq]; unfold Phi8
  iintro ⟨%a, %b, ⟨⟨HS0, HS1⟩, HR⟩, Hg⟩
  isplitl [HS0 HS1 HR]
  · isplitl [HS0 HS1]
    · isplitl [HS0]
      · iexists _; iexact HS0
      iexists _; iexact HS1
    iexact HR
  iexact Hg

end Cert.KernelIdeal.Hand

end
-- ==== Proof.KI.Run.lean ====
import proofs.«408530_j23158463660766_2_alg».proof.Proof.Gen.KernelIdeal.Regions
import proofs.«408530_j23158463660766_2_alg».proof.Proof.KI.Reg0
import proofs.«408530_j23158463660766_2_alg».proof.Proof.KI.Reg1
import proofs.«408530_j23158463660766_2_alg».proof.Proof.KI.Reg2
import proofs.«408530_j23158463660766_2_alg».proof.Proof.KI.Reg3
import proofs.«408530_j23158463660766_2_alg».proof.Proof.KI.Reg4
import proofs.«408530_j23158463660766_2_alg».proof.Proof.KI.Reg5
import proofs.«408530_j23158463660766_2_alg».proof.Proof.KI.Reg6
import proofs.«408530_j23158463660766_2_alg».proof.Proof.KI.Reg7
import proofs.«408530_j23158463660766_2_alg».proof.Proof.KI.Reg8
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An input window's array keeps its entry contents, and a buffer that is no array of the region is not touched. -/
theorem withArrays_keep {cfg : Cfg sig Λ₀} {c : Dev nD} (dat : Dat τ (Elt F) Unit ℕ (UR sig nD τ) ℕ cfg c)
    (hinj : Function.Injective (Pipeline.arrRef cfg.spec)) (W : Valuation τ sig (Elt F))
    (hA : ∀ w, dat.A w = W (Proc.devRef .tc (Pipeline.arrRef cfg.spec w))) {O : List (Ref sig .tc)}
    (hO : ∀ w, (cfg.win w).isOut = true → Pipeline.arrRef cfg.spec w ∈ O) {r : Ref sig .tc} (hr : r ∉ O) :
    Pipeline.withArrays cfg.spec c W (fun w => dat.arrAt w cfg.N) (Proc.devRef .tc r) = W (Proc.devRef .tc r) := by
  by_cases h : ∃ w, Pipeline.arrRef cfg.spec w = r
  · obtain ⟨w, rfl⟩ := h
    rw [Pipeline.withArrays_arr cfg.spec hinj]
    cases hio : (cfg.win w).isOut with
    | false => exact (dat.arrAt_in w hio _).trans (hA w)
    | true => exact absurd (hO w hio) hr
  · exact Pipeline.withArrays_of_ne cfg.spec c W _ r fun w e => h ⟨w, e⟩

abbrev W0 (c : Dev nD) : Valuation τ sig (Elt F) := fun b => m (c, b)
abbrev W1 (c : Dev nD) : Valuation τ sig (Elt F) := StableHlo.after hostOps0 (W0 m c)
theorem W1_keep (c : Dev nD) (r : Ref sig .tc) (h : r ∉ hostOps0_W) :
    W1 m c (Proc.devRef .tc r) = W0 m c (Proc.devRef .tc r) :=
  StableHlo.after_of_writes_sub hostOps0 _ hostOps0_writes h
abbrev W2 (c : Dev nD) : Valuation τ sig (Elt F) := StableHlo.after hostOps0_1 (W1 m c)
theorem W2_keep (c : Dev nD) (r : Ref sig .tc) (h : r ∉ hostOps0_1_W) :
    W2 m c (Proc.devRef .tc r) = W1 m c (Proc.devRef .tc r) :=
  StableHlo.after_of_writes_sub hostOps0_1 _ hostOps0_1_writes h
abbrev W3 (c : Dev nD) : Valuation τ sig (Elt F) := StableHlo.after hostOps0_2 (W2 m c)
theorem W3_keep (c : Dev nD) (r : Ref sig .tc) (h : r ∉ hostOps0_2_W) :
    W3 m c (Proc.devRef .tc r) = W2 m c (Proc.devRef .tc r) :=
  StableHlo.after_of_writes_sub hostOps0_2 _ hostOps0_2_writes h
abbrev W4 (c : Dev nD) : Valuation τ sig (Elt F) := StableHlo.after hostOps0_3 (W3 m c)
theorem W4_keep (c : Dev nD) (r : Ref sig .tc) (h : r ∉ hostOps0_3_W) :
    W4 m c (Proc.devRef .tc r) = W3 m c (Proc.devRef .tc r) :=
  StableHlo.after_of_writes_sub hostOps0_3 _ hostOps0_3_writes h
abbrev W5 (c : Dev nD) : Valuation τ sig (Elt F) := StableHlo.after hostOps0_4 (W4 m c)
theorem W5_keep (c : Dev nD) (r : Ref sig .tc) (h : r ∉ hostOps0_4_W) :
    W5 m c (Proc.devRef .tc r) = W4 m c (Proc.devRef .tc r) :=
  StableHlo.after_of_writes_sub hostOps0_4 _ hostOps0_4_writes h
abbrev B5 (c : Dev nD) (b : Ref sig .tc) : Buf (Elt F) ((c : Thread nD τ).loc b) := W5 m c b
def W6 (c : Dev nD) : Valuation τ sig (Elt F) :=
  Pipeline.withArrays spec0 c (W5 m c) fun w => (dat0 (B5 m) c).arrAt w cfg0.N
theorem W6_arr (c : Dev nD) (w : Fin cfg0.W) :
    W6 m c (Proc.devRef .tc (Pipeline.arrRef spec0 w)) = (dat0 (B5 m) c).arrAt w cfg0.N :=
  Pipeline.withArrays_arr spec0 launch0.win.arr_inj c _ _ w
theorem W6_keep (c : Dev nD) (r : Ref sig .tc) (h : r ∉ ([main_v84] : List (Ref sig .tc))) :
    W6 m c (Proc.devRef .tc r) = W5 m c (Proc.devRef .tc r) :=
  withArrays_keep (dat0 (B5 m) c) launch0.win.arr_inj _ (A_eq0 (B5 m) c) (by decide) h
abbrev W7 (c : Dev nD) : Valuation τ sig (Elt F) := StableHlo.after hostOps1 (W6 m c)
theorem W7_keep (c : Dev nD) (r : Ref sig .tc) (h : r ∉ hostOps1_W) :
    W7 m c (Proc.devRef .tc r) = W6 m c (Proc.devRef .tc r) :=
  StableHlo.after_of_writes_sub hostOps1 _ hostOps1_writes h
abbrev B7 (c : Dev nD) (b : Ref sig .tc) : Buf (Elt F) ((c : Thread nD τ).loc b) := W7 m c b
def W8 (c : Dev nD) : Valuation τ sig (Elt F) :=
  Pipeline.withArrays spec1 c (W7 m c) fun w => (dat1 (B7 m) c).arrAt w cfg1.N
theorem W8_arr (c : Dev nD) (w : Fin cfg1.W) :
    W8 m c (Proc.devRef .tc (Pipeline.arrRef spec1 w)) = (dat1 (B7 m) c).arrAt w cfg1.N :=
  Pipeline.withArrays_arr spec1 launch1.win.arr_inj c _ _ w
theorem W8_keep (c : Dev nD) (r : Ref sig .tc) (h : r ∉ ([main_v104] : List (Ref sig .tc))) :
    W8 m c (Proc.devRef .tc r) = W7 m c (Proc.devRef .tc r) :=
  withArrays_keep (dat1 (B7 m) c) launch1.win.arr_inj _ (A_eq1 (B7 m) c) (by decide) h
abbrev W9 (c : Dev nD) : Valuation τ sig (Elt F) := StableHlo.after hostOps2 (W8 m c)
theorem W9_keep (c : Dev nD) (r : Ref sig .tc) (h : r ∉ hostOps2_W) :
    W9 m c (Proc.devRef .tc r) = W8 m c (Proc.devRef .tc r) :=
  StableHlo.after_of_writes_sub hostOps2 _ hostOps2_writes h
abbrev B9 (c : Dev nD) (b : Ref sig .tc) : Buf (Elt F) ((c : Thread nD τ).loc b) := W9 m c b
def W10 (c : Dev nD) : Valuation τ sig (Elt F) :=
  Pipeline.withArrays spec2 c (W9 m c) fun w => (dat2 (B9 m) c).arrAt w cfg2.N
theorem W10_arr (c : Dev nD) (w : Fin cfg2.W) :
    W10 m c (Proc.devRef .tc (Pipeline.arrRef spec2 w)) = (dat2 (B9 m) c).arrAt w cfg2.N :=
  Pipeline.withArrays_arr spec2 launch2.win.arr_inj c _ _ w
theorem W10_keep (c : Dev nD) (r : Ref sig .tc) (h : r ∉ ([main_v112_0, main_v112_1] : List (Ref sig .tc))) :
    W10 m c (Proc.devRef .tc r) = W9 m c (Proc.devRef .tc r) :=
  withArrays_keep (dat2 (B9 m) c) launch2.win.arr_inj _ (A_eq2 (B9 m) c) (by decide) h
abbrev W11 (c : Dev nD) : Valuation τ sig (Elt F) := StableHlo.after hostOps3 (W10 m c)
theorem W11_keep (c : Dev nD) (r : Ref sig .tc) (h : r ∉ hostOps3_W) :
    W11 m c (Proc.devRef .tc r) = W10 m c (Proc.devRef .tc r) :=
  StableHlo.after_of_writes_sub hostOps3 _ hostOps3_writes h
abbrev B11 (c : Dev nD) (b : Ref sig .tc) : Buf (Elt F) ((c : Thread nD τ).loc b) := W11 m c b
def W12 (c : Dev nD) : Valuation τ sig (Elt F) :=
  Pipeline.withArrays spec3 c (W11 m c) fun w => (dat3 (B11 m) c).arrAt w cfg3.N
theorem W12_arr (c : Dev nD) (w : Fin cfg3.W) :
    W12 m c (Proc.devRef .tc (Pipeline.arrRef spec3 w)) = (dat3 (B11 m) c).arrAt w cfg3.N :=
  Pipeline.withArrays_arr spec3 launch3.win.arr_inj c _ _ w
theorem W12_keep (c : Dev nD) (r : Ref sig .tc) (h : r ∉ ([main_v134] : List (Ref sig .tc))) :
    W12 m c (Proc.devRef .tc r) = W11 m c (Proc.devRef .tc r) :=
  withArrays_keep (dat3 (B11 m) c) launch3.win.arr_inj _ (A_eq3 (B11 m) c) (by decide) h
abbrev B12 (c : Dev nD) (b : Ref sig .tc) : Buf (Elt F) ((c : Thread nD τ).loc b) := W12 m c b
def W13 (c : Dev nD) : Valuation τ sig (Elt F) :=
  Pipeline.withArrays spec4 c (W12 m c) fun w => (dat4 (B12 m) c).arrAt w cfg4.N
theorem W13_arr (c : Dev nD) (w : Fin cfg4.W) :
    W13 m c (Proc.devRef .tc (Pipeline.arrRef spec4 w)) = (dat4 (B12 m) c).arrAt w cfg4.N :=
  Pipeline.withArrays_arr spec4 launch4.win.arr_inj c _ _ w
theorem W13_keep (c : Dev nD) (r : Ref sig .tc) (h : r ∉ ([main_v135] : List (Ref sig .tc))) :
    W13 m c (Proc.devRef .tc r) = W12 m c (Proc.devRef .tc r) :=
  withArrays_keep (dat4 (B12 m) c) launch4.win.arr_inj _ (A_eq4 (B12 m) c) (by decide) h
abbrev W14 (c : Dev nD) : Valuation τ sig (Elt F) := StableHlo.after hostOps5 (W13 m c)
theorem W14_keep (c : Dev nD) (r : Ref sig .tc) (h : r ∉ hostOps5_W) :
    W14 m c (Proc.devRef .tc r) = W13 m c (Proc.devRef .tc r) :=
  StableHlo.after_of_writes_sub hostOps5 _ hostOps5_writes h
abbrev B14 (c : Dev nD) (b : Ref sig .tc) : Buf (Elt F) ((c : Thread nD τ).loc b) := W14 m c b
def W15 (c : Dev nD) : Valuation τ sig (Elt F) :=
  Pipeline.withArrays spec5 c (W14 m c) fun w => (dat5 (B14 m) c).arrAt w cfg5.N
theorem W15_arr (c : Dev nD) (w : Fin cfg5.W) :
    W15 m c (Proc.devRef .tc (Pipeline.arrRef spec5 w)) = (dat5 (B14 m) c).arrAt w cfg5.N :=
  Pipeline.withArrays_arr spec5 launch5.win.arr_inj c _ _ w
theorem W15_keep (c : Dev nD) (r : Ref sig .tc) (h : r ∉ ([main_v140] : List (Ref sig .tc))) :
    W15 m c (Proc.devRef .tc r) = W14 m c (Proc.devRef .tc r) :=
  withArrays_keep (dat5 (B14 m) c) launch5.win.arr_inj _ (A_eq5 (B14 m) c) (by decide) h
abbrev B15 (c : Dev nD) (b : Ref sig .tc) : Buf (Elt F) ((c : Thread nD τ).loc b) := W15 m c b
def W16 (c : Dev nD) : Valuation τ sig (Elt F) :=
  Pipeline.withArrays spec6 c (W15 m c) fun w => (dat6 (B15 m) c).arrAt w cfg6.N
theorem W16_arr (c : Dev nD) (w : Fin cfg6.W) :
    W16 m c (Proc.devRef .tc (Pipeline.arrRef spec6 w)) = (dat6 (B15 m) c).arrAt w cfg6.N :=
  Pipeline.withArrays_arr spec6 launch6.win.arr_inj c _ _ w
theorem W16_keep (c : Dev nD) (r : Ref sig .tc) (h : r ∉ ([main_v141] : List (Ref sig .tc))) :
    W16 m c (Proc.devRef .tc r) = W15 m c (Proc.devRef .tc r) :=
  withArrays_keep (dat6 (B15 m) c) launch6.win.arr_inj _ (A_eq6 (B15 m) c) (by decide) h
abbrev W17 (c : Dev nD) : Valuation τ sig (Elt F) := StableHlo.after hostOps7 (W16 m c)
theorem W17_keep (c : Dev nD) (r : Ref sig .tc) (h : r ∉ hostOps7_W) :
    W17 m c (Proc.devRef .tc r) = W16 m c (Proc.devRef .tc r) :=
  StableHlo.after_of_writes_sub hostOps7 _ hostOps7_writes h
abbrev B17 (c : Dev nD) (b : Ref sig .tc) : Buf (Elt F) ((c : Thread nD τ).loc b) := W17 m c b
def W18 (c : Dev nD) : Valuation τ sig (Elt F) :=
  Pipeline.withArrays spec7 c (W17 m c) fun w => (dat7 (B17 m) c).arrAt w cfg7.N
theorem W18_arr (c : Dev nD) (w : Fin cfg7.W) :
    W18 m c (Proc.devRef .tc (Pipeline.arrRef spec7 w)) = (dat7 (B17 m) c).arrAt w cfg7.N :=
  Pipeline.withArrays_arr spec7 launch7.win.arr_inj c _ _ w
theorem W18_keep (c : Dev nD) (r : Ref sig .tc) (h : r ∉ ([main_v159] : List (Ref sig .tc))) :
    W18 m c (Proc.devRef .tc r) = W17 m c (Proc.devRef .tc r) :=
  withArrays_keep (dat7 (B17 m) c) launch7.win.arr_inj _ (A_eq7 (B17 m) c) (by decide) h
abbrev W19 (c : Dev nD) : Valuation τ sig (Elt F) := StableHlo.after hostOps8 (W18 m c)
theorem W19_keep (c : Dev nD) (r : Ref sig .tc) (h : r ∉ hostOps8_W) :
    W19 m c (Proc.devRef .tc r) = W18 m c (Proc.devRef .tc r) :=
  StableHlo.after_of_writes_sub hostOps8 _ hostOps8_writes h
abbrev B19 (c : Dev nD) (b : Ref sig .tc) : Buf (Elt F) ((c : Thread nD τ).loc b) := W19 m c b
def W20 (c : Dev nD) : Valuation τ sig (Elt F) :=
  Pipeline.withArrays spec8 c (W19 m c) fun w => (dat8 (B19 m) c).arrAt w cfg8.N
theorem W20_arr (c : Dev nD) (w : Fin cfg8.W) :
    W20 m c (Proc.devRef .tc (Pipeline.arrRef spec8 w)) = (dat8 (B19 m) c).arrAt w cfg8.N :=
  Pipeline.withArrays_arr spec8 launch8.win.arr_inj c _ _ w
theorem W20_keep (c : Dev nD) (r : Ref sig .tc) (h : r ∉ ([main_v167_0, main_v167_1] : List (Ref sig .tc))) :
    W20 m c (Proc.devRef .tc r) = W19 m c (Proc.devRef .tc r) :=
  withArrays_keep (dat8 (B19 m) c) launch8.win.arr_inj _ (A_eq8 (B19 m) c) (by decide) h
abbrev W21 (c : Dev nD) : Valuation τ sig (Elt F) := StableHlo.after hostOps9 (W20 m c)
theorem W21_keep (c : Dev nD) (r : Ref sig .tc) (h : r ∉ hostOps9_W) :
    W21 m c (Proc.devRef .tc r) = W20 m c (Proc.devRef .tc r) :=
  StableHlo.after_of_writes_sub hostOps9 _ hostOps9_writes h
abbrev W22 (c : Dev nD) : Valuation τ sig (Elt F) := StableHlo.after hostOps9_1 (W21 m c)
theorem W22_keep (c : Dev nD) (r : Ref sig .tc) (h : r ∉ hostOps9_1_W) :
    W22 m c (Proc.devRef .tc r) = W21 m c (Proc.devRef .tc r) :=
  StableHlo.after_of_writes_sub hostOps9_1 _ hostOps9_1_writes h
abbrev W23 (c : Dev nD) : Valuation τ sig (Elt F) := StableHlo.after hostOps9_2 (W22 m c)
theorem W23_keep (c : Dev nD) (r : Ref sig .tc) (h : r ∉ hostOps9_2_W) :
    W23 m c (Proc.devRef .tc r) = W22 m c (Proc.devRef .tc r) :=
  StableHlo.after_of_writes_sub hostOps9_2 _ hostOps9_2_writes h
abbrev W24 (c : Dev nD) : Valuation τ sig (Elt F) := StableHlo.after hostOps9_3 (W23 m c)
theorem W24_keep (c : Dev nD) (r : Ref sig .tc) (h : r ∉ hostOps9_3_W) :
    W24 m c (Proc.devRef .tc r) = W23 m c (Proc.devRef .tc r) :=
  StableHlo.after_of_writes_sub hostOps9_3 _ hostOps9_3_writes h
abbrev W25 (c : Dev nD) : Valuation τ sig (Elt F) := StableHlo.after hostOps9_4 (W24 m c)
theorem W25_keep (c : Dev nD) (r : Ref sig .tc) (h : r ∉ hostOps9_4_W) :
    W25 m c (Proc.devRef .tc r) = W24 m c (Proc.devRef .tc r) :=
  StableHlo.after_of_writes_sub hostOps9_4 _ hostOps9_4_writes h

/-- A buffer that no item of @main writes ends as launched: one step back per item. -/
theorem W25_kept (c : Dev nD) (r : Ref sig .tc) :
    r ∉ hostOps0_W ++ hostOps0_1_W ++ hostOps0_2_W ++ hostOps0_3_W ++ hostOps0_4_W ++ [main_v84] ++ hostOps1_W ++ [main_v104]
        ++ hostOps2_W ++ [main_v112_0, main_v112_1] ++ hostOps3_W ++ [main_v134] ++ [main_v135] ++ hostOps5_W ++ [main_v140]
        ++ [main_v141] ++ hostOps7_W ++ [main_v159] ++ hostOps8_W ++ [main_v167_0, main_v167_1] ++ hostOps9_W ++ hostOps9_1_W
        ++ hostOps9_2_W ++ hostOps9_3_W ++ hostOps9_4_W →
      W25 m c (Proc.devRef .tc r) = m ((c : Thread nD τ).loc r) := by
  simp only [List.mem_append, not_or, and_imp]
  intro h0 h1 h2 h3 h4 h5 h6 h7 h8 h9 h10 h11 h12 h13 h14 h15 h16 h17 h18 h19 h20 h21 h22 h23 h24
  exact (W25_keep m c r h24).trans <|
    (W24_keep m c r h23).trans <|
    (W23_keep m c r h22).trans <|
    (W22_keep m c r h21).trans <|
    (W21_keep m c r h20).trans <|
    (W20_keep m c r h19).trans <|
    (W19_keep m c r h18).trans <|
    (W18_keep m c r h17).trans <|
    (W17_keep m c r h16).trans <|
    (W16_keep m c r h15).trans <|
    (W15_keep m c r h14).trans <|
    (W14_keep m c r h13).trans <|
    (W13_keep m c r h12).trans <|
    (W12_keep m c r h11).trans <|
    (W11_keep m c r h10).trans <|
    (W10_keep m c r h9).trans <|
    (W9_keep m c r h8).trans <|
    (W8_keep m c r h7).trans <|
    (W7_keep m c r h6).trans <|
    (W6_keep m c r h5).trans <|
    (W5_keep m c r h4).trans <|
    (W4_keep m c r h3).trans <|
    (W3_keep m c r h2).trans <|
    (W2_keep m c r h1).trans <|
    (W1_keep m c r h0)

def pdats : (p : Fin 9) → (c : Dev nD) → Dat τ (Elt F) Unit ℕ (UR sig nD τ) ℕ (Pipeline.pin (pcfgs (F := F)) adm p) c
  | ⟨0, _⟩ => dat0 (B5 m)
  | ⟨1, _⟩ => dat1 (B7 m)
  | ⟨2, _⟩ => dat2 (B9 m)
  | ⟨3, _⟩ => dat3 (B11 m)
  | ⟨4, _⟩ => dat4 (B12 m)
  | ⟨5, _⟩ => dat5 (B14 m)
  | ⟨6, _⟩ => dat6 (B15 m)
  | ⟨7, _⟩ => dat7 (B17 m)
  | ⟨8, _⟩ => dat8 (B19 m)

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

local notation "𝔠" => Pipeline.pin (pcfgs (F := F)) adm

/-- What region `p` leaves: its arrays at the proof data's last point, every other buffer as entered. -/
abbrev exitW (p : Fin 9) (Win : Dev nD → Valuation τ sig (Elt F)) (c : Dev nD) : Valuation τ sig (Elt F) :=
  Pipeline.withArrays (𝔠 p).spec c (Win c) fun w => (pdats m p c).arrAt w (𝔠 p).N

set_option backward.isDefEq.respectTransparency.types false in
/-- Region `p` as a segment from the contents `Win` to `exitW`. -/
def regOf (p : Fin 9) (hl : Pipeline.LaunchFacts (nD := nD) (τ := τ) 𝔠 p) (Win : Dev nD → Valuation τ sig (Elt F))
    (hbody : ∀ c, BodyObligation (pdats m p c) (defs₀ (F := F)) Variants.none () Set.univ)
    (hA : ∀ c w, (pdats m p c).A w = Win c (Proc.devRef .tc (Pipeline.arrRef (𝔠 p).spec w)))
    (hΦin : ∀ c, (Pipeline.ΦA (𝔠 p).spec c : sProp 𝕄) ⊢ (pdats m p c).Φ 0 := by exact fun _ => .rfl)
    (hΦout : ∀ c, (pdats m p c).Φ (Fin.last (𝔠 p).N) ⊢ (Pipeline.ΦA (𝔠 p).spec c : sProp 𝕄) := by exact fun _ => .rfl)
    (hq : ∀ c w, (pdats m p c).q w = fullShare := by exact fun _ _ => rfl)
    (howed : ∀ c t, (pdats m p c).owed t = 0 := by exact fun _ _ => rfl)
    (hrec : ∀ c, (pdats m p c).recorded 0 = Set.univ := by exact fun _ => rfl) :
    Pipeline.RegionSeg (pcfgs (F := F)) adm (pdats m) () defs₀ 𝒱₀ L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (exitW m p Win c) ∗ R c)
  X c := iprop(∃ r, prngReg c r)
  Y c := iprop(∃ r, prngReg c r)
  Z c := Pipeline.unscopedRest (Ix := Unit) (Name := ℕ) (U := UR sig nD τ) (Lvl := ℕ) (𝔠 p).spec c (fun b => Win c b)
  hentry c := by
    rw [Pipeline.ownSems0_none]
    have hsplit := Pipeline.arrays_of_unscopedBufs (p := p) (pcfgs (F := F)) adm (pdats m) hl.win hl.arr_whole c
      ((pdats m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl (by rw [hrec c]; exact Set.mem_univ x)
      iexact HO
    isplitl [Hp]; · iexact Hp
    iexact Hrest
  hin c := by
    refine .trans ?_ (hΦin c)
    unfold Pipeline.ΦA
    iintro ⟨Hp, -, Hr⟩
    isplitl [Hr]; · iexact Hr
    iexact Hp
  hout c := by
    rw [Pipeline.ownSems0_none]
    refine (hΦout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c (pdats m) ((pdats m p c).share_full (hq c))
      (fun b => Win c b) (fun b => exitW m p Win c b) ((pdats m p c).arrAt · (𝔠 p).N)
      (fun w => (Pipeline.withArrays_arr _ hl.win.arr_inj c (Win c) (fun w => (pdats m p c).arrAt w (𝔠 p).N) w).symm)
      (fun b hb => Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (regOf m 0 launch0 (W5 m) (body_obligation0 (B5 m)) (A_eq0 (B5 m))),
    .host (hseg hostOps1 hostOps1_sub hostOps1_fresh (W6 m)),
    .region (regOf m 1 launch1 (W7 m) (body_obligation1 (B7 m)) (A_eq1 (B7 m))),
    .host (hseg hostOps2 hostOps2_sub hostOps2_fresh (W8 m)),
    .region (regOf m 2 launch2 (W9 m) (body_obligation2 (B9 m)) (A_eq2 (B9 m)) (hin2 (B9 m)) (hout2 (B9 m))),
    .host (hseg hostOps3 hostOps3_sub hostOps3_fresh (W10 m)),
    .region (regOf m 3 launch3 (W11 m) (body_obligation3 (B11 m)) (A_eq3 (B11 m))),
    .region (regOf m 4 launch4 (W12 m) (body_obligation4 (B12 m)) (A_eq4 (B12 m))),
    .host (hseg hostOps5 hostOps5_sub hostOps5_fresh (W13 m)),
    .region (regOf m 5 launch5 (W14 m) (body_obligation5 (B14 m)) (A_eq5 (B14 m))),
    .region (regOf m 6 launch6 (W15 m) (body_obligation6 (B15 m)) (A_eq6 (B15 m))),
    .host (hseg hostOps7 hostOps7_sub hostOps7_fresh (W16 m)),
    .region (regOf m 7 launch7 (W17 m) (body_obligation7 (B17 m)) (A_eq7 (B17 m))),
    .host (hseg hostOps8 hostOps8_sub hostOps8_fresh (W18 m)),
    .region (regOf m 8 launch8 (W19 m) (body_obligation8 (B19 m)) (A_eq8 (B19 m)) (hin8 (B19 m)) (hout8 (B19 m))),
    .host (hseg hostOps9 hostOps9_sub hostOps9_fresh (W20 m)),
    .host (hseg hostOps9_1 hostOps9_1_sub hostOps9_1_fresh (W21 m)),
    .host (hseg hostOps9_2 hostOps9_2_sub hostOps9_2_fresh (W22 m)),
    .host (hseg hostOps9_3 hostOps9_3_sub hostOps9_3_fresh (W23 m)),
    .host (hseg hostOps9_4 hostOps9_4_sub hostOps9_4_fresh (W24 m)) ]

theorem main_run (c : Dev nD) : main (F := F) c = Pipeline.Seg.run (segs m) := (main_chain c).trans (by chain_rfl)

set_option backward.isDefEq.respectTransparency.types false in
/-- Every weakly fair execution of @main ends, with each argument array as launched and the results at `W25`. -/
theorem run (ρ : Dev nD → PrngReg) : θ_run defs (onTc (τ := τ) (main (F := F))) ⟨m, fun _ => 0, ρ⟩ (fun r => ∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41))
      ∧ r.2.mem ((c.tc : Thread nD τ).loc main_v198) = W25 m c (Proc.devRef .tc main_v198)
      ∧ r.2.mem ((c.tc : Thread nD τ).loc main_v104) = W25 m c (Proc.devRef .tc main_v104)
      ∧ r.2.mem ((c.tc : Thread nD τ).loc main_v159) = W25 m c (Proc.devRef .tc main_v159)
      ∧ r.2.mem ((c.tc : Thread nD τ).loc main_v184) = W25 m c (Proc.devRef .tc main_v184)
      ∧ r.2.mem ((c.tc : Thread nD τ).loc main_v193) = W25 m c (Proc.devRef .tc main_v193)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W25 m c) ∗ ∃ r, prngReg c r))
    (hch := by
      iterate 25 refine ⟨fun _ => .rfl, ?_⟩
      exact fun _ => Laws.sep_assoc.2)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m c b)
    (hfin := fun c s' => by
      iintro ⟨⟨Hh, -⟩, HSI⟩
      unfold StableHlo.held
      imodintro
      iapply (pointsTo_read_all (Pipeline.ucRefs τ sig) (fun b => (((c : Thread nD τ)).1, b)) (W25 m c) s')
      isplitl [Hh] <;> iassumption)
    (hQ := fun s h c =>
      ⟨by and_intros <;> exact (h c _ (mem_uc _ (by decide))).trans (W25_kept m c _ (by decide)),
        h c _ (mem_uc _ (by decide)), h c _ (mem_uc _ (by decide)), h c _ (mem_uc _ (by decide)),
        h c _ (mem_uc _ (by decide)), h c _ (mem_uc _ (by decide))⟩)

end Cert.KernelIdeal.Hand

end
-- ==== Proof.KI.FrameKI.lean ====
import proofs.«408530_j23158463660766_2_alg».proof.Defs
import proofs.«408530_j23158463660766_2_alg».proof.Proof.Gen.Pre_finite_inputs
import proofs.«408530_j23158463660766_2_alg».proof.Proof.KI.Run

noncomputable section

namespace Cert.Proof

open Idealize.ShloMosaic

/-- The frame is the first conjunct of the run's post; the precondition on the inputs is not used. -/
theorem frame_pi : Cert.frame_KernelIdeal (hKernelIdeal := Cert.KernelIdeal.Gen.facts)
    (hPre_finite_inputs := Cert.Pre_finite_inputs.Gen.facts) :=
  fun m ρ _ => (θ_run Cert.KernelIdeal.defs _ _).mono (fun r h c => (h c).1) (Cert.KernelIdeal.Hand.run (F := Ideal) m ρ)

end Cert.Proof
-- ==== Proof.Ref.Ops0.lean ====
import proofs.«408530_j23158463660766_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 1000000 in
abbrev ops0 : List (HloOp τ sig (Elt F)) :=
  [ binary main_arg0 main_arg10 main_v0 (fun l r => Host.dotGeneral dot_S50000x3_S3x8_S50000x8_1_0_0_1_n_n none l r),
    unary main_arg11 main_v1 (broadcastInDim S1x8 ![1] bcast_S8_S1x8_1),
    unary main_v1 main_v2 (broadcastInDim S50000x8 ![0, 1] bcast_S1x8_S50000x8_0_1),
    binary main_v0 main_v2 main_v3 addf,
    nullary main_cst (constant S_ .f32 0xFF800000#32),
    binary main_v3 main_cst main_v4 (fun x v => Host.reduce FloatOps.maximumf x v reducesTo_S50000x8_S50000_d1 h_S_),
    nullary main_cst_0 (constant S_ .f32 0xFF800000#32),
    unary main_cst_0 main_v5 (broadcastInDim S50000 ![] bcast_S_S50000),
    binary main_v5 main_v4 main_v6 maximumf,
    unary main_v6 main_v7 (broadcastInDim S50000x1 ![0] bcast_S50000_S50000x1_0),
    unary main_v7 main_v8 (broadcastInDim S50000x8 ![0, 1] bcast_S50000x1_S50000x8_0_1),
    binary main_v3 main_v8 main_v9 subf,
    unary main_v9 main_v10 Host.exp,
    nullary main_cst_1 (constant S_ .f32 0x00000000#32),
    binary main_v10 main_cst_1 main_v11 (fun x v => Host.reduceAdd x v reducesTo_S50000x8_S50000_d1 h_S_),
    unary main_v11 main_v12 (broadcastInDim S50000x1 ![0] bcast_S50000_S50000x1_0),
    unary main_v12 main_v13 (broadcastInDim S50000x8 ![0, 1] bcast_S50000x1_S50000x8_0_1),
    binary main_v10 main_v13 main_v14 Host.divf,
    binary main_v14 main_arg12 main_v15 (fun l r => Host.dotGeneral dot_S50000x8_S8x16_S50000x16_1_0_0_1_n_n none l r),
    nullary main_cst_2 (constant S_ .f32 0x00000000#32),
    unary main_cst_2 main_v16 (broadcastInDim S50000 ![] bcast_S_S50000),
    unary main_arg5 main_v17 (broadcastInDim S1600000x1 ![0] bcast_S1600000_S1600000x1_0),
    ternary main_v16 main_v17 main_arg2 main_v18 (fun x i u => Host.scatterAdd scatter_S50000_S1600000x1_S1600000_n_0_0_1 x i u),
    nullary main_cst_3 (constant S_ .f32 0x3F800000#32),
    unary main_cst_3 main_v19 (broadcastInDim S50000 ![] bcast_S_S50000),
    binary main_v18 main_v19 main_v20 addf,
    nullary main_cst_4 (constant S_ .f32 0x00000000#32),
    unary main_cst_4 main_v21 (broadcastInDim S50000 ![] bcast_S_S50000),
    binary main_v20 main_v21 main_v22 (cmpf .ogt),
    unary main_v20 main_v23 Host.rsqrt,
    nullary main_cst_5 (constant S_ .f32 0x00000000#32),
    TRef.unary (TRef.of (T := ⟨S_, .f32⟩) main_cst_5) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v22) (TRef.of (T := ⟨S50000, .f32⟩) main_v23) (TRef.of (T := ⟨S50000, .f32⟩) main_call0_v1) (TRef.of (T := ⟨S50000, .f32⟩) main_v24) select,
    nullary main_c (constantI S_ 32 0#32),
    unary main_c main_v25 (broadcastInDim S1600000 ![] bcast_S_S1600000),
    binary main_arg4 main_v25 main_v26 (cmpi .slt),
    nullary main_c_6 (constantI S_ 32 50000#32),
    unary main_c_6 main_v27 (broadcastInDim S1600000 ![] bcast_S_S1600000),
    binary main_arg4 main_v27 main_v28 addi,
    ternary main_v26 main_v28 main_arg4 main_v29 select,
    unary main_v29 main_v30 (broadcastInDim S1600000x1 ![0] bcast_S1600000_S1600000x1_0),
    binary main_v24 main_v30 main_v31 (fun x i => Host.gather gather_S50000_S1600000x1_S1600000_n_0_n_n_0_1_1 x i),
    binary main_v31 main_arg2 main_v32 mulf,
    nullary main_c_7 (constantI S_ 32 0#32),
    unary main_c_7 main_v33 (broadcastInDim S1600000 ![] bcast_S_S1600000),
    binary main_arg5 main_v33 main_v34 (cmpi .slt),
    nullary main_c_8 (constantI S_ 32 50000#32),
    unary main_c_8 main_v35 (broadcastInDim S1600000 ![] bcast_S_S1600000),
    binary main_arg5 main_v35 main_v36 addi,
    ternary main_v34 main_v36 main_arg5 main_v37 select,
    unary main_v37 main_v38 (broadcastInDim S1600000x1 ![0] bcast_S1600000_S1600000x1_0),
    binary main_v24 main_v38 main_v39 (fun x i => Host.gather gather_S50000_S1600000x1_S1600000_n_0_n_n_0_1_1 x i),
    binary main_v32 main_v39 main_v40 mulf,
    nullary main_c_9 (constantI S_ 32 0#32),
    unary main_c_9 main_v41 (broadcastInDim S1600000 ![] bcast_S_S1600000),
    binary main_arg4 main_v41 main_v42 (cmpi .slt),
    nullary main_c_10 (constantI S_ 32 50000#32),
    unary main_c_10 main_v43 (broadcastInDim S1600000 ![] bcast_S_S1600000),
    binary main_arg4 main_v43 main_v44 addi,
    ternary main_v42 main_v44 main_arg4 main_v45 select,
    unary main_v45 main_v46 (broadcastInDim S1600000x1 ![0] bcast_S1600000_S1600000x1_0) ]

set_option maxRecDepth 8192 in
set_option maxHeartbeats 4000000 in
theorem main_part0_eq (d : Dev nD) : main_part0 (F := F) d = seq ops0 := rfl

set_option maxRecDepth 8192 in
set_option maxHeartbeats 1000000 in
theorem ops0_sub : (ops0 : List (HloOp τ sig (Elt F))).Forall fun op => op.bufs ⊆ tcRefs τ sig := by
  simp only [List.Forall]
  repeat' constructor
  all_goals with_reducible first | exact unary_bufs_sub .. | exact binary_bufs_sub .. | exact nullary_bufs_sub .. | exact ternary_bufs_sub ..

set_option maxRecDepth 8192 in
set_option maxHeartbeats 1000000 in
theorem ops0_fresh : (ops0 : List (HloOp τ sig (Elt F))).Forall fun op => op.fresh = ∅ := by
  simp only [List.Forall]; repeat' constructor

abbrev ops0_W : List (Ref sig .tc) := [main_v0, main_v1, main_v2, main_v3, main_cst, main_v4, main_cst_0, main_v5, main_v6, main_v7, main_v8, main_v9, main_v10, main_cst_1, main_v11, main_v12, main_v13, main_v14, main_v15, main_cst_2, main_v16, main_v17, main_v18, main_cst_3, main_v19, main_v20, main_cst_4, main_v21, main_v22, main_v23, main_cst_5, main_call0_v0, main_call0_v1, main_v24, main_c, main_v25, main_v26, main_c_6, main_v27, main_v28, main_v29, main_v30, main_v31, main_v32, main_c_7, main_v33, main_v34, main_c_8, main_v35, main_v36, main_v37, main_v38, main_v39, main_v40, main_c_9, main_v41, main_v42, main_c_10, main_v43, main_v44, main_v45, main_v46]

set_option maxRecDepth 8192 in
set_option maxHeartbeats 4000000 in
theorem ops0_writes : (ops0 : List (HloOp τ sig (Elt F))).Forall fun op =>
    op.writes ⊆ (ops0_W.map (Proc.devRef (τ := τ) .tc)).toFinset := by
  simp only [List.Forall]
  repeat' constructor
  all_goals
    simp only [nullary_writes, unary_writes, binary_writes, ternary_writes, Finset.singleton_subset_iff, List.mem_toFinset]
    exact List.mem_map_of_mem (by decide)

end Cert.ReferenceIdeal.Hand

end
-- ==== Proof.Ref.Ops1.lean ====
import proofs.«408530_j23158463660766_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 1000000 in
abbrev ops1 : List (HloOp τ sig (Elt F)) :=
  [ binary main_v15 main_v46 main_v47 (fun x i => Host.gather gather_S50000x16_S1600000x1_S1600000x16_1_0_n_n_0_1_116 x i),
    unary main_v40 main_v48 (broadcastInDim S1600000x1 ![0] bcast_S1600000_S1600000x1_0),
    unary main_v48 main_v49 (broadcastInDim S1600000x16 ![0, 1] bcast_S1600000x1_S1600000x16_0_1),
    binary main_v47 main_v49 main_v50 mulf,
    nullary main_cst_11 (constant S_ .f32 0x00000000#32),
    unary main_cst_11 main_v51 (broadcastInDim S50000x16 ![] bcast_S_S50000x16),
    unary main_arg5 main_v52 (broadcastInDim S1600000x1 ![0] bcast_S1600000_S1600000x1_0),
    ternary main_v51 main_v52 main_v50 main_v53 (fun x i u => Host.scatterAdd scatter_S50000x16_S1600000x1_S1600000x16_1_0_0_1 x i u),
    binary main_v24 main_v24 main_v54 mulf,
    unary main_v54 main_v55 (broadcastInDim S50000x1 ![0] bcast_S50000_S50000x1_0),
    unary main_v55 main_v56 (broadcastInDim S50000x16 ![0, 1] bcast_S50000x1_S50000x16_0_1),
    binary main_v15 main_v56 main_v57 mulf,
    binary main_v53 main_v57 main_v58 addf,
    unary main_arg13 main_v59 (broadcastInDim S1x16 ![1] bcast_S16_S1x16_1),
    unary main_v59 main_v60 (broadcastInDim S50000x16 ![0, 1] bcast_S1x16_S50000x16_0_1),
    binary main_v58 main_v60 main_v61 addf,
    TRef.nullary (TRef.of (T := ⟨S_, .f32⟩) main_call1_cst) (constant S_ .f32 0x00000000#32),
    TRef.unary (TRef.of (T := ⟨S_, .f32⟩) main_call1_cst) (TRef.of (T := ⟨S50000x16, .f32⟩) main_call1_v0) (broadcastInDim S50000x16 ![] bcast_S_S50000x16),
    TRef.binary (TRef.of (T := ⟨S50000x16, .f32⟩) main_v61) (TRef.of (T := ⟨S50000x16, .f32⟩) main_call1_v0) (TRef.of (T := ⟨S50000x16, .f32⟩) main_v62) maximumf,
    nullary main_cst_12 (constant S_ .f32 0x00000000#32),
    binary main_v62 main_cst_12 main_v63 (fun x v => Host.reduceAdd x v reducesTo_S50000x16_S50000_d1 h_S_),
    unary main_v63 main_v64 (broadcastInDim S50000x1 ![0] bcast_S50000_S50000x1_0),
    nullary main_cst_13 (constant S_ .f32 0x41800000#32),
    unary main_cst_13 main_v65 (broadcastInDim S50000x1 ![] bcast_S_S50000x1),
    binary main_v64 main_v65 main_v66 Host.divf,
    unary main_v66 main_v67 (broadcastInDim S50000x16 ![0, 1] bcast_S50000x1_S50000x16_0_1),
    binary main_v62 main_v67 main_v68 subf,
    binary main_v68 main_v68 main_v69 mulf,
    nullary main_cst_14 (constant S_ .f32 0x00000000#32),
    binary main_v69 main_cst_14 main_v70 (fun x v => Host.reduceAdd x v reducesTo_S50000x16_S50000_d1 h_S_),
    unary main_v70 main_v71 (broadcastInDim S50000x1 ![0] bcast_S50000_S50000x1_0),
    nullary main_cst_15 (constant S_ .f32 0x41800000#32),
    unary main_cst_15 main_v72 (broadcastInDim S50000x1 ![] bcast_S_S50000x1),
    binary main_v71 main_v72 main_v73 Host.divf,
    unary main_v66 main_v74 (broadcastInDim S50000x16 ![0, 1] bcast_S50000x1_S50000x16_0_1),
    binary main_v62 main_v74 main_v75 subf,
    nullary main_cst_16 (constant S_ .f32 0x3727C5AC#32),
    unary main_cst_16 main_v76 (broadcastInDim S50000x1 ![] bcast_S_S50000x1),
    binary main_v73 main_v76 main_v77 addf,
    unary main_v77 main_v78 Host.rsqrt,
    unary main_v78 main_v79 (broadcastInDim S50000x16 ![0, 1] bcast_S50000x1_S50000x16_0_1),
    binary main_v75 main_v79 main_v80 mulf,
    unary main_arg14 main_v81 (broadcastInDim S1x16 ![1] bcast_S16_S1x16_1),
    unary main_v81 main_v82 (broadcastInDim S50000x16 ![0, 1] bcast_S1x16_S50000x16_0_1),
    binary main_v80 main_v82 main_v83 mulf,
    unary main_arg15 main_v84 (broadcastInDim S1x16 ![1] bcast_S16_S1x16_1),
    unary main_v84 main_v85 (broadcastInDim S50000x16 ![0, 1] bcast_S1x16_S50000x16_0_1),
    binary main_v83 main_v85 main_v86 addf,
    binary main_v86 main_arg16 main_v87 (fun l r => Host.dotGeneral dot_S50000x16_S16x32_S50000x32_1_0_0_1_n_n none l r),
    nullary main_cst_17 (constant S_ .f32 0x00000000#32),
    unary main_cst_17 main_v88 (broadcastInDim S50000 ![] bcast_S_S50000),
    unary main_arg5 main_v89 (broadcastInDim S1600000x1 ![0] bcast_S1600000_S1600000x1_0),
    ternary main_v88 main_v89 main_arg2 main_v90 (fun x i u => Host.scatterAdd scatter_S50000_S1600000x1_S1600000_n_0_0_1 x i u),
    nullary main_cst_18 (constant S_ .f32 0x3F800000#32),
    unary main_cst_18 main_v91 (broadcastInDim S50000 ![] bcast_S_S50000),
    binary main_v90 main_v91 main_v92 addf,
    nullary main_cst_19 (constant S_ .f32 0x00000000#32),
    unary main_cst_19 main_v93 (broadcastInDim S50000 ![] bcast_S_S50000),
    binary main_v92 main_v93 main_v94 (cmpf .ogt),
    unary main_v92 main_v95 Host.rsqrt,
    nullary main_cst_20 (constant S_ .f32 0x00000000#32),
    TRef.unary (TRef.of (T := ⟨S_, .f32⟩) main_cst_20) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v94) (TRef.of (T := ⟨S50000, .f32⟩) main_v95) (TRef.of (T := ⟨S50000, .f32⟩) main_call2_v1) (TRef.of (T := ⟨S50000, .f32⟩) main_v96) select ]

set_option maxRecDepth 8192 in
set_option maxHeartbeats 4000000 in
theorem main_part1_eq (d : Dev nD) : main_part1 (F := F) d = seq ops1 := rfl

set_option maxRecDepth 8192 in
set_option maxHeartbeats 1000000 in
theorem ops1_sub : (ops1 : List (HloOp τ sig (Elt F))).Forall fun op => op.bufs ⊆ tcRefs τ sig := by
  simp only [List.Forall]
  repeat' constructor
  all_goals with_reducible first | exact unary_bufs_sub .. | exact binary_bufs_sub .. | exact nullary_bufs_sub .. | exact ternary_bufs_sub ..

set_option maxRecDepth 8192 in
set_option maxHeartbeats 1000000 in
theorem ops1_fresh : (ops1 : List (HloOp τ sig (Elt F))).Forall fun op => op.fresh = ∅ := by
  simp only [List.Forall]; repeat' constructor

abbrev ops1_W : List (Ref sig .tc) := [main_v47, main_v48, main_v49, main_v50, main_cst_11, main_v51, main_v52, main_v53, main_v54, main_v55, main_v56, main_v57, main_v58, main_v59, main_v60, main_v61, main_call1_cst, main_call1_v0, main_v62, main_cst_12, main_v63, main_v64, main_cst_13, main_v65, main_v66, main_v67, main_v68, main_v69, main_cst_14, main_v70, main_v71, main_cst_15, main_v72, main_v73, main_v74, main_v75, main_cst_16, main_v76, main_v77, main_v78, main_v79, main_v80, main_v81, main_v82, main_v83, main_v84, main_v85, main_v86, main_v87, main_cst_17, main_v88, main_v89, main_v90, main_cst_18, main_v91, main_v92, main_cst_19, main_v93, main_v94, main_v95, main_cst_20, main_call2_v0, main_call2_v1, main_v96]

set_option maxRecDepth 8192 in
set_option maxHeartbeats 4000000 in
theorem ops1_writes : (ops1 : List (HloOp τ sig (Elt F))).Forall fun op =>
    op.writes ⊆ (ops1_W.map (Proc.devRef (τ := τ) .tc)).toFinset := by
  simp only [List.Forall]
  repeat' constructor
  all_goals
    simp only [nullary_writes, unary_writes, binary_writes, ternary_writes, Finset.singleton_subset_iff, List.mem_toFinset]
    exact List.mem_map_of_mem (by decide)

end Cert.ReferenceIdeal.Hand

end
-- ==== Proof.Ref.Ops2.lean ====
import proofs.«408530_j23158463660766_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 1000000 in
abbrev ops2 : List (HloOp τ sig (Elt F)) :=
  [ nullary main_c_21 (constantI S_ 32 0#32),
    unary main_c_21 main_v97 (broadcastInDim S1600000 ![] bcast_S_S1600000),
    binary main_arg4 main_v97 main_v98 (cmpi .slt),
    nullary main_c_22 (constantI S_ 32 50000#32),
    unary main_c_22 main_v99 (broadcastInDim S1600000 ![] bcast_S_S1600000),
    binary main_arg4 main_v99 main_v100 addi,
    ternary main_v98 main_v100 main_arg4 main_v101 select,
    unary main_v101 main_v102 (broadcastInDim S1600000x1 ![0] bcast_S1600000_S1600000x1_0),
    binary main_v96 main_v102 main_v103 (fun x i => Host.gather gather_S50000_S1600000x1_S1600000_n_0_n_n_0_1_1 x i),
    binary main_v103 main_arg2 main_v104 mulf,
    nullary main_c_23 (constantI S_ 32 0#32),
    unary main_c_23 main_v105 (broadcastInDim S1600000 ![] bcast_S_S1600000),
    binary main_arg5 main_v105 main_v106 (cmpi .slt),
    nullary main_c_24 (constantI S_ 32 50000#32),
    unary main_c_24 main_v107 (broadcastInDim S1600000 ![] bcast_S_S1600000),
    binary main_arg5 main_v107 main_v108 addi,
    ternary main_v106 main_v108 main_arg5 main_v109 select,
    unary main_v109 main_v110 (broadcastInDim S1600000x1 ![0] bcast_S1600000_S1600000x1_0),
    binary main_v96 main_v110 main_v111 (fun x i => Host.gather gather_S50000_S1600000x1_S1600000_n_0_n_n_0_1_1 x i),
    binary main_v104 main_v111 main_v112 mulf,
    nullary main_c_25 (constantI S_ 32 0#32),
    unary main_c_25 main_v113 (broadcastInDim S1600000 ![] bcast_S_S1600000),
    binary main_arg4 main_v113 main_v114 (cmpi .slt),
    nullary main_c_26 (constantI S_ 32 50000#32),
    unary main_c_26 main_v115 (broadcastInDim S1600000 ![] bcast_S_S1600000),
    binary main_arg4 main_v115 main_v116 addi,
    ternary main_v114 main_v116 main_arg4 main_v117 select,
    unary main_v117 main_v118 (broadcastInDim S1600000x1 ![0] bcast_S1600000_S1600000x1_0),
    binary main_v87 main_v118 main_v119 (fun x i => Host.gather gather_S50000x32_S1600000x1_S1600000x32_1_0_n_n_0_1_132 x i),
    unary main_v112 main_v120 (broadcastInDim S1600000x1 ![0] bcast_S1600000_S1600000x1_0),
    unary main_v120 main_v121 (broadcastInDim S1600000x32 ![0, 1] bcast_S1600000x1_S1600000x32_0_1),
    binary main_v119 main_v121 main_v122 mulf,
    nullary main_cst_27 (constant S_ .f32 0x00000000#32),
    unary main_cst_27 main_v123 (broadcastInDim S50000x32 ![] bcast_S_S50000x32),
    unary main_arg5 main_v124 (broadcastInDim S1600000x1 ![0] bcast_S1600000_S1600000x1_0),
    ternary main_v123 main_v124 main_v122 main_v125 (fun x i u => Host.scatterAdd scatter_S50000x32_S1600000x1_S1600000x32_1_0_0_1 x i u),
    binary main_v96 main_v96 main_v126 mulf,
    unary main_v126 main_v127 (broadcastInDim S50000x1 ![0] bcast_S50000_S50000x1_0),
    unary main_v127 main_v128 (broadcastInDim S50000x32 ![0, 1] bcast_S50000x1_S50000x32_0_1),
    binary main_v87 main_v128 main_v129 mulf,
    binary main_v125 main_v129 main_v130 addf,
    unary main_arg17 main_v131 (broadcastInDim S1x32 ![1] bcast_S32_S1x32_1),
    unary main_v131 main_v132 (broadcastInDim S50000x32 ![0, 1] bcast_S1x32_S50000x32_0_1),
    binary main_v130 main_v132 main_v133 addf,
    TRef.nullary (TRef.of (T := ⟨S_, .f32⟩) main_call3_cst) (constant S_ .f32 0x00000000#32),
    TRef.unary (TRef.of (T := ⟨S_, .f32⟩) main_call3_cst) (TRef.of (T := ⟨S50000x32, .f32⟩) main_call3_v0) (broadcastInDim S50000x32 ![] bcast_S_S50000x32),
    TRef.binary (TRef.of (T := ⟨S50000x32, .f32⟩) main_v133) (TRef.of (T := ⟨S50000x32, .f32⟩) main_call3_v0) (TRef.of (T := ⟨S50000x32, .f32⟩) main_v134) maximumf,
    nullary main_cst_28 (constant S_ .f32 0x00000000#32),
    binary main_v134 main_cst_28 main_v135 (fun x v => Host.reduceAdd x v reducesTo_S50000x32_S50000_d1 h_S_),
    unary main_v135 main_v136 (broadcastInDim S50000x1 ![0] bcast_S50000_S50000x1_0),
    nullary main_cst_29 (constant S_ .f32 0x42000000#32),
    unary main_cst_29 main_v137 (broadcastInDim S50000x1 ![] bcast_S_S50000x1),
    binary main_v136 main_v137 main_v138 Host.divf,
    unary main_v138 main_v139 (broadcastInDim S50000x32 ![0, 1] bcast_S50000x1_S50000x32_0_1),
    binary main_v134 main_v139 main_v140 subf,
    binary main_v140 main_v140 main_v141 mulf,
    nullary main_cst_30 (constant S_ .f32 0x00000000#32),
    binary main_v141 main_cst_30 main_v142 (fun x v => Host.reduceAdd x v reducesTo_S50000x32_S50000_d1 h_S_),
    unary main_v142 main_v143 (broadcastInDim S50000x1 ![0] bcast_S50000_S50000x1_0),
    nullary main_cst_31 (constant S_ .f32 0x42000000#32),
    unary main_cst_31 main_v144 (broadcastInDim S50000x1 ![] bcast_S_S50000x1),
    binary main_v143 main_v144 main_v145 Host.divf ]

set_option maxRecDepth 8192 in
set_option maxHeartbeats 4000000 in
theorem main_part2_eq (d : Dev nD) : main_part2 (F := F) d = seq ops2 := rfl

set_option maxRecDepth 8192 in
set_option maxHeartbeats 1000000 in
theorem ops2_sub : (ops2 : List (HloOp τ sig (Elt F))).Forall fun op => op.bufs ⊆ tcRefs τ sig := by
  simp only [List.Forall]
  repeat' constructor
  all_goals with_reducible first | exact unary_bufs_sub .. | exact binary_bufs_sub .. | exact nullary_bufs_sub .. | exact ternary_bufs_sub ..

set_option maxRecDepth 8192 in
set_option maxHeartbeats 1000000 in
theorem ops2_fresh : (ops2 : List (HloOp τ sig (Elt F))).Forall fun op => op.fresh = ∅ := by
  simp only [List.Forall]; repeat' constructor

abbrev ops2_W : List (Ref sig .tc) := [main_c_21, main_v97, main_v98, main_c_22, main_v99, main_v100, main_v101, main_v102, main_v103, main_v104, main_c_23, main_v105, main_v106, main_c_24, main_v107, main_v108, main_v109, main_v110, main_v111, main_v112, main_c_25, main_v113, main_v114, main_c_26, main_v115, main_v116, main_v117, main_v118, main_v119, main_v120, main_v121, main_v122, main_cst_27, main_v123, main_v124, main_v125, main_v126, main_v127, main_v128, main_v129, main_v130, main_v131, main_v132, main_v133, main_call3_cst, main_call3_v0, main_v134, main_cst_28, main_v135, main_v136, main_cst_29, main_v137, main_v138, main_v139, main_v140, main_v141, main_cst_30, main_v142, main_v143, main_cst_31, main_v144, main_v145]

set_option maxRecDepth 8192 in
set_option maxHeartbeats 4000000 in
theorem ops2_writes : (ops2 : List (HloOp τ sig (Elt F))).Forall fun op =>
    op.writes ⊆ (ops2_W.map (Proc.devRef (τ := τ) .tc)).toFinset := by
  simp only [List.Forall]
  repeat' constructor
  all_goals
    simp only [nullary_writes, unary_writes, binary_writes, ternary_writes, Finset.singleton_subset_iff, List.mem_toFinset]
    exact List.mem_map_of_mem (by decide)

end Cert.ReferenceIdeal.Hand

end
-- ==== Proof.Ref.Ops3.lean ====
import proofs.«408530_j23158463660766_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 1000000 in
abbrev ops3 : List (HloOp τ sig (Elt F)) :=
  [ unary main_v138 main_v146 (broadcastInDim S50000x32 ![0, 1] bcast_S50000x1_S50000x32_0_1),
    binary main_v134 main_v146 main_v147 subf,
    nullary main_cst_32 (constant S_ .f32 0x3727C5AC#32),
    unary main_cst_32 main_v148 (broadcastInDim S50000x1 ![] bcast_S_S50000x1),
    binary main_v145 main_v148 main_v149 addf,
    unary main_v149 main_v150 Host.rsqrt,
    unary main_v150 main_v151 (broadcastInDim S50000x32 ![0, 1] bcast_S50000x1_S50000x32_0_1),
    binary main_v147 main_v151 main_v152 mulf,
    unary main_arg18 main_v153 (broadcastInDim S1x32 ![1] bcast_S32_S1x32_1),
    unary main_v153 main_v154 (broadcastInDim S50000x32 ![0, 1] bcast_S1x32_S50000x32_0_1),
    binary main_v152 main_v154 main_v155 mulf,
    unary main_arg19 main_v156 (broadcastInDim S1x32 ![1] bcast_S32_S1x32_1),
    unary main_v156 main_v157 (broadcastInDim S50000x32 ![0, 1] bcast_S1x32_S50000x32_0_1),
    binary main_v155 main_v157 main_v158 addf,
    nullary main_cst_33 (constant S_ .f32 0x00000000#32),
    unary main_cst_33 main_v159 (broadcastInDim S8x32 ![] bcast_S_S8x32),
    unary main_arg8 main_v160 (broadcastInDim S50000x1 ![0] bcast_S50000_S50000x1_0),
    ternary main_v159 main_v160 main_v158 main_v161 (fun x i u => Host.scatterAdd scatter_S8x32_S50000x1_S50000x32_1_0_0_1 x i u),
    nullary main_cst_34 (constant S_ .f32 0x3F800000#32),
    unary main_cst_34 main_v162 (broadcastInDim S50000 ![] bcast_S_S50000),
    nullary main_cst_35 (constant S_ .f32 0x00000000#32),
    unary main_cst_35 main_v163 (broadcastInDim S8 ![] bcast_S_S8),
    unary main_arg8 main_v164 (broadcastInDim S50000x1 ![0] bcast_S50000_S50000x1_0),
    ternary main_v163 main_v164 main_v162 main_v165 (fun x i u => Host.scatterAdd scatter_S8_S50000x1_S50000_n_0_0_1 x i u),
    nullary main_cst_36 (constant S_ .f32 0x3F800000#32),
    unary main_cst_36 main_v166 (broadcastInDim S8 ![] bcast_S_S8),
    binary main_v165 main_v166 main_v167 maximumf,
    unary main_v167 main_v168 (broadcastInDim S8x1 ![0] bcast_S8_S8x1_0),
    unary main_v168 main_v169 (broadcastInDim S8x32 ![0, 1] bcast_S8x1_S8x32_0_1),
    binary main_v161 main_v169 main_v170 Host.divf,
    binary main_v170 main_arg20 main_v171 (fun l r => Host.dotGeneral dot_S8x32_S32x128_S8x128_1_0_0_1_n_n none l r),
    unary main_arg21 main_v172 (broadcastInDim S1x128 ![1] bcast_S128_S1x128_1),
    unary main_v172 main_v173 (broadcastInDim S8x128 ![0, 1] bcast_S1x128_S8x128_0_1),
    binary main_v171 main_v173 main_v174 addf,
    binary main_arg1 main_arg22 main_v175 (fun l r => Host.dotGeneral dot_S50000x256_S256x512_S50000x512_1_0_0_1_n_n none l r),
    nullary main_cst_37 (constant S_ .f32 0x00000000#32),
    unary main_cst_37 main_v176 (broadcastInDim S50000 ![] bcast_S_S50000),
    unary main_arg7 main_v177 (broadcastInDim S250000x1 ![0] bcast_S250000_S250000x1_0),
    ternary main_v176 main_v177 main_arg3 main_v178 (fun x i u => Host.scatterAdd scatter_S50000_S250000x1_S250000_n_0_0_1 x i u),
    nullary main_cst_38 (constant S_ .f32 0x3F800000#32),
    unary main_cst_38 main_v179 (broadcastInDim S50000 ![] bcast_S_S50000),
    binary main_v178 main_v179 main_v180 addf,
    nullary main_cst_39 (constant S_ .f32 0x00000000#32),
    unary main_cst_39 main_v181 (broadcastInDim S50000 ![] bcast_S_S50000),
    binary main_v180 main_v181 main_v182 (cmpf .ogt),
    unary main_v180 main_v183 Host.rsqrt,
    nullary main_cst_40 (constant S_ .f32 0x00000000#32),
    TRef.unary (TRef.of (T := ⟨S_, .f32⟩) main_cst_40) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.ternary (TRef.of (T := ⟨S50000, .i1⟩) main_v182) (TRef.of (T := ⟨S50000, .f32⟩) main_v183) (TRef.of (T := ⟨S50000, .f32⟩) main_call4_v1) (TRef.of (T := ⟨S50000, .f32⟩) main_v184) select,
    nullary main_c_41 (constantI S_ 32 0#32),
    unary main_c_41 main_v185 (broadcastInDim S250000 ![] bcast_S_S250000),
    binary main_arg6 main_v185 main_v186 (cmpi .slt),
    nullary main_c_42 (constantI S_ 32 50000#32),
    unary main_c_42 main_v187 (broadcastInDim S250000 ![] bcast_S_S250000),
    binary main_arg6 main_v187 main_v188 addi,
    ternary main_v186 main_v188 main_arg6 main_v189 select,
    unary main_v189 main_v190 (broadcastInDim S250000x1 ![0] bcast_S250000_S250000x1_0),
    binary main_v184 main_v190 main_v191 (fun x i => Host.gather gather_S50000_S250000x1_S250000_n_0_n_n_0_1_1 x i),
    binary main_v191 main_arg3 main_v192 mulf,
    nullary main_c_43 (constantI S_ 32 0#32),
    unary main_c_43 main_v193 (broadcastInDim S250000 ![] bcast_S_S250000) ]

set_option maxRecDepth 8192 in
set_option maxHeartbeats 4000000 in
theorem main_part3_eq (d : Dev nD) : main_part3 (F := F) d = seq ops3 := rfl

set_option maxRecDepth 8192 in
set_option maxHeartbeats 1000000 in
theorem ops3_sub : (ops3 : List (HloOp τ sig (Elt F))).Forall fun op => op.bufs ⊆ tcRefs τ sig := by
  simp only [List.Forall]
  repeat' constructor
  all_goals with_reducible first | exact unary_bufs_sub .. | exact binary_bufs_sub .. | exact nullary_bufs_sub .. | exact ternary_bufs_sub ..

set_option maxRecDepth 8192 in
set_option maxHeartbeats 1000000 in
theorem ops3_fresh : (ops3 : List (HloOp τ sig (Elt F))).Forall fun op => op.fresh = ∅ := by
  simp only [List.Forall]; repeat' constructor

abbrev ops3_W : List (Ref sig .tc) := [main_v146, main_v147, main_cst_32, main_v148, main_v149, main_v150, main_v151, main_v152, main_v153, main_v154, main_v155, main_v156, main_v157, main_v158, main_cst_33, main_v159, main_v160, main_v161, main_cst_34, main_v162, main_cst_35, main_v163, main_v164, main_v165, main_cst_36, main_v166, main_v167, main_v168, main_v169, main_v170, main_v171, main_v172, main_v173, main_v174, main_v175, main_cst_37, main_v176, main_v177, main_v178, main_cst_38, main_v179, main_v180, main_cst_39, main_v181, main_v182, main_v183, main_cst_40, main_call4_v0, main_call4_v1, main_v184, main_c_41, main_v185, main_v186, main_c_42, main_v187, main_v188, main_v189, main_v190, main_v191, main_v192, main_c_43, main_v193]

set_option maxRecDepth 8192 in
set_option maxHeartbeats 4000000 in
theorem ops3_writes : (ops3 : List (HloOp τ sig (Elt F))).Forall fun op =>
    op.writes ⊆ (ops3_W.map (Proc.devRef (τ := τ) .tc)).toFinset := by
  simp only [List.Forall]
  repeat' constructor
  all_goals
    simp only [nullary_writes, unary_writes, binary_writes, ternary_writes, Finset.singleton_subset_iff, List.mem_toFinset]
    exact List.mem_map_of_mem (by decide)

end Cert.ReferenceIdeal.Hand

end
-- ==== Proof.Ref.Ops4.lean ====
import proofs.«408530_j23158463660766_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 1000000 in
abbrev ops4 : List (HloOp τ sig (Elt F)) :=
  [ binary main_arg7 main_v193 main_v194 (cmpi .slt),
    nullary main_c_44 (constantI S_ 32 50000#32),
    unary main_c_44 main_v195 (broadcastInDim S250000 ![] bcast_S_S250000),
    binary main_arg7 main_v195 main_v196 addi,
    ternary main_v194 main_v196 main_arg7 main_v197 select,
    unary main_v197 main_v198 (broadcastInDim S250000x1 ![0] bcast_S250000_S250000x1_0),
    binary main_v184 main_v198 main_v199 (fun x i => Host.gather gather_S50000_S250000x1_S250000_n_0_n_n_0_1_1 x i),
    binary main_v192 main_v199 main_v200 mulf,
    nullary main_c_45 (constantI S_ 32 0#32),
    unary main_c_45 main_v201 (broadcastInDim S250000 ![] bcast_S_S250000),
    binary main_arg6 main_v201 main_v202 (cmpi .slt),
    nullary main_c_46 (constantI S_ 32 50000#32),
    unary main_c_46 main_v203 (broadcastInDim S250000 ![] bcast_S_S250000),
    binary main_arg6 main_v203 main_v204 addi,
    ternary main_v202 main_v204 main_arg6 main_v205 select,
    unary main_v205 main_v206 (broadcastInDim S250000x1 ![0] bcast_S250000_S250000x1_0),
    binary main_v175 main_v206 main_v207 (fun x i => Host.gather gather_S50000x512_S250000x1_S250000x512_1_0_n_n_0_1_1512 x i),
    unary main_v200 main_v208 (broadcastInDim S250000x1 ![0] bcast_S250000_S250000x1_0),
    unary main_v208 main_v209 (broadcastInDim S250000x512 ![0, 1] bcast_S250000x1_S250000x512_0_1),
    binary main_v207 main_v209 main_v210 mulf,
    nullary main_cst_47 (constant S_ .f32 0x00000000#32),
    unary main_cst_47 main_v211 (broadcastInDim S50000x512 ![] bcast_S_S50000x512),
    unary main_arg7 main_v212 (broadcastInDim S250000x1 ![0] bcast_S250000_S250000x1_0),
    ternary main_v211 main_v212 main_v210 main_v213 (fun x i u => Host.scatterAdd scatter_S50000x512_S250000x1_S250000x512_1_0_0_1 x i u),
    binary main_v184 main_v184 main_v214 mulf,
    unary main_v214 main_v215 (broadcastInDim S50000x1 ![0] bcast_S50000_S50000x1_0),
    unary main_v215 main_v216 (broadcastInDim S50000x512 ![0, 1] bcast_S50000x1_S50000x512_0_1),
    binary main_v175 main_v216 main_v217 mulf,
    binary main_v213 main_v217 main_v218 addf,
    unary main_arg23 main_v219 (broadcastInDim S1x512 ![1] bcast_S512_S1x512_1),
    unary main_v219 main_v220 (broadcastInDim S50000x512 ![0, 1] bcast_S1x512_S50000x512_0_1),
    binary main_v218 main_v220 main_v221 addf,
    TRef.nullary (TRef.of (T := ⟨S_, .f32⟩) main_call5_cst) (constant S_ .f32 0x00000000#32),
    TRef.unary (TRef.of (T := ⟨S_, .f32⟩) main_call5_cst) (TRef.of (T := ⟨S50000x512, .f32⟩) main_call5_v0) (broadcastInDim S50000x512 ![] bcast_S_S50000x512),
    TRef.binary (TRef.of (T := ⟨S50000x512, .f32⟩) main_v221) (TRef.of (T := ⟨S50000x512, .f32⟩) main_call5_v0) (TRef.of (T := ⟨S50000x512, .f32⟩) main_v222) maximumf,
    nullary main_cst_48 (constant S_ .f32 0x00000000#32),
    binary main_v222 main_cst_48 main_v223 (fun x v => Host.reduceAdd x v reducesTo_S50000x512_S50000_d1 h_S_),
    unary main_v223 main_v224 (broadcastInDim S50000x1 ![0] bcast_S50000_S50000x1_0),
    nullary main_cst_49 (constant S_ .f32 0x44000000#32),
    unary main_cst_49 main_v225 (broadcastInDim S50000x1 ![] bcast_S_S50000x1),
    binary main_v224 main_v225 main_v226 Host.divf,
    unary main_v226 main_v227 (broadcastInDim S50000x512 ![0, 1] bcast_S50000x1_S50000x512_0_1),
    binary main_v222 main_v227 main_v228 subf,
    binary main_v228 main_v228 main_v229 mulf,
    nullary main_cst_50 (constant S_ .f32 0x00000000#32),
    binary main_v229 main_cst_50 main_v230 (fun x v => Host.reduceAdd x v reducesTo_S50000x512_S50000_d1 h_S_),
    unary main_v230 main_v231 (broadcastInDim S50000x1 ![0] bcast_S50000_S50000x1_0),
    nullary main_cst_51 (constant S_ .f32 0x44000000#32),
    unary main_cst_51 main_v232 (broadcastInDim S50000x1 ![] bcast_S_S50000x1),
    binary main_v231 main_v232 main_v233 Host.divf,
    unary main_v226 main_v234 (broadcastInDim S50000x512 ![0, 1] bcast_S50000x1_S50000x512_0_1),
    binary main_v222 main_v234 main_v235 subf,
    nullary main_cst_52 (constant S_ .f32 0x3727C5AC#32),
    unary main_cst_52 main_v236 (broadcastInDim S50000x1 ![] bcast_S_S50000x1),
    binary main_v233 main_v236 main_v237 addf,
    unary main_v237 main_v238 Host.rsqrt,
    unary main_v238 main_v239 (broadcastInDim S50000x512 ![0, 1] bcast_S50000x1_S50000x512_0_1),
    binary main_v235 main_v239 main_v240 mulf,
    unary main_arg24 main_v241 (broadcastInDim S1x512 ![1] bcast_S512_S1x512_1),
    unary main_v241 main_v242 (broadcastInDim S50000x512 ![0, 1] bcast_S1x512_S50000x512_0_1),
    binary main_v240 main_v242 main_v243 mulf,
    unary main_arg25 main_v244 (broadcastInDim S1x512 ![1] bcast_S512_S1x512_1) ]

set_option maxRecDepth 8192 in
set_option maxHeartbeats 4000000 in
theorem main_part4_eq (d : Dev nD) : main_part4 (F := F) d = seq ops4 := rfl

set_option maxRecDepth 8192 in
set_option maxHeartbeats 1000000 in
theorem ops4_sub : (ops4 : List (HloOp τ sig (Elt F))).Forall fun op => op.bufs ⊆ tcRefs τ sig := by
  simp only [List.Forall]
  repeat' constructor
  all_goals with_reducible first | exact unary_bufs_sub .. | exact binary_bufs_sub .. | exact nullary_bufs_sub .. | exact ternary_bufs_sub ..

set_option maxRecDepth 8192 in
set_option maxHeartbeats 1000000 in
theorem ops4_fresh : (ops4 : List (HloOp τ sig (Elt F))).Forall fun op => op.fresh = ∅ := by
  simp only [List.Forall]; repeat' constructor

abbrev ops4_W : List (Ref sig .tc) := [main_v194, main_c_44, main_v195, main_v196, main_v197, main_v198, main_v199, main_v200, main_c_45, main_v201, main_v202, main_c_46, main_v203, main_v204, main_v205, main_v206, main_v207, main_v208, main_v209, main_v210, main_cst_47, main_v211, main_v212, main_v213, main_v214, main_v215, main_v216, main_v217, main_v218, main_v219, main_v220, main_v221, main_call5_cst, main_call5_v0, main_v222, main_cst_48, main_v223, main_v224, main_cst_49, main_v225, main_v226, main_v227, main_v228, main_v229, main_cst_50, main_v230, main_v231, main_cst_51, main_v232, main_v233, main_v234, main_v235, main_cst_52, main_v236, main_v237, main_v238, main_v239, main_v240, main_v241, main_v242, main_v243, main_v244]

set_option maxRecDepth 8192 in
set_option maxHeartbeats 4000000 in
theorem ops4_writes : (ops4 : List (HloOp τ sig (Elt F))).Forall fun op =>
    op.writes ⊆ (ops4_W.map (Proc.devRef (τ := τ) .tc)).toFinset := by
  simp only [List.Forall]
  repeat' constructor
  all_goals
    simp only [nullary_writes, unary_writes, binary_writes, ternary_writes, Finset.singleton_subset_iff, List.mem_toFinset]
    exact List.mem_map_of_mem (by decide)

end Cert.ReferenceIdeal.Hand

end
-- ==== Proof.Ref.Ops5.lean ====
import proofs.«408530_j23158463660766_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 1000000 in
abbrev ops5 : List (HloOp τ sig (Elt F)) :=
  [ unary main_v244 main_v245 (broadcastInDim S50000x512 ![0, 1] bcast_S1x512_S50000x512_0_1),
    binary main_v243 main_v245 main_v246 addf,
    binary main_v246 main_arg26 main_v247 (fun l r => Host.dotGeneral dot_S50000x512_S512x256_S50000x256_1_0_0_1_n_n none l r),
    nullary main_cst_53 (constant S_ .f32 0x00000000#32),
    unary main_cst_53 main_v248 (broadcastInDim S50000 ![] bcast_S_S50000),
    unary main_arg7 main_v249 (broadcastInDim S250000x1 ![0] bcast_S250000_S250000x1_0),
    ternary main_v248 main_v249 main_arg3 main_v250 (fun x i u => Host.scatterAdd scatter_S50000_S250000x1_S250000_n_0_0_1 x i u),
    nullary main_cst_54 (constant S_ .f32 0x3F800000#32),
    unary main_cst_54 main_v251 (broadcastInDim S50000 ![] bcast_S_S50000),
    binary main_v250 main_v251 main_v252 addf,
    nullary main_cst_55 (constant S_ .f32 0x00000000#32),
    unary main_cst_55 main_v253 (broadcastInDim S50000 ![] bcast_S_S50000),
    binary main_v252 main_v253 main_v254 (cmpf .ogt),
    unary main_v252 main_v255 Host.rsqrt,
    nullary main_cst_56 (constant S_ .f32 0x00000000#32),
    TRef.unary (TRef.of (T := ⟨S_, .f32⟩) main_cst_56) (TRef.of (T := ⟨S_, .f32⟩) main_call6_v0) id,
    TRef.unary (TRef.of (T := ⟨S_, .f32⟩) main_call6_v0) (TRef.of (T := ⟨S50000, .f32⟩) main_call6_v1) (broadcastInDim S50000 ![] bcast_S_S50000),
    TRef.ternary (TRef.of (T := ⟨S50000, .i1⟩) main_v254) (TRef.of (T := ⟨S50000, .f32⟩) main_v255) (TRef.of (T := ⟨S50000, .f32⟩) main_call6_v1) (TRef.of (T := ⟨S50000, .f32⟩) main_v256) select,
    nullary main_c_57 (constantI S_ 32 0#32),
    unary main_c_57 main_v257 (broadcastInDim S250000 ![] bcast_S_S250000),
    binary main_arg6 main_v257 main_v258 (cmpi .slt),
    nullary main_c_58 (constantI S_ 32 50000#32),
    unary main_c_58 main_v259 (broadcastInDim S250000 ![] bcast_S_S250000),
    binary main_arg6 main_v259 main_v260 addi,
    ternary main_v258 main_v260 main_arg6 main_v261 select,
    unary main_v261 main_v262 (broadcastInDim S250000x1 ![0] bcast_S250000_S250000x1_0),
    binary main_v256 main_v262 main_v263 (fun x i => Host.gather gather_S50000_S250000x1_S250000_n_0_n_n_0_1_1 x i),
    binary main_v263 main_arg3 main_v264 mulf,
    nullary main_c_59 (constantI S_ 32 0#32),
    unary main_c_59 main_v265 (broadcastInDim S250000 ![] bcast_S_S250000),
    binary main_arg7 main_v265 main_v266 (cmpi .slt),
    nullary main_c_60 (constantI S_ 32 50000#32),
    unary main_c_60 main_v267 (broadcastInDim S250000 ![] bcast_S_S250000),
    binary main_arg7 main_v267 main_v268 addi,
    ternary main_v266 main_v268 main_arg7 main_v269 select,
    unary main_v269 main_v270 (broadcastInDim S250000x1 ![0] bcast_S250000_S250000x1_0),
    binary main_v256 main_v270 main_v271 (fun x i => Host.gather gather_S50000_S250000x1_S250000_n_0_n_n_0_1_1 x i),
    binary main_v264 main_v271 main_v272 mulf,
    nullary main_c_61 (constantI S_ 32 0#32),
    unary main_c_61 main_v273 (broadcastInDim S250000 ![] bcast_S_S250000),
    binary main_arg6 main_v273 main_v274 (cmpi .slt),
    nullary main_c_62 (constantI S_ 32 50000#32),
    unary main_c_62 main_v275 (broadcastInDim S250000 ![] bcast_S_S250000),
    binary main_arg6 main_v275 main_v276 addi,
    ternary main_v274 main_v276 main_arg6 main_v277 select,
    unary main_v277 main_v278 (broadcastInDim S250000x1 ![0] bcast_S250000_S250000x1_0),
    binary main_v247 main_v278 main_v279 (fun x i => Host.gather gather_S50000x256_S250000x1_S250000x256_1_0_n_n_0_1_1256 x i),
    unary main_v272 main_v280 (broadcastInDim S250000x1 ![0] bcast_S250000_S250000x1_0),
    unary main_v280 main_v281 (broadcastInDim S250000x256 ![0, 1] bcast_S250000x1_S250000x256_0_1),
    binary main_v279 main_v281 main_v282 mulf,
    nullary main_cst_63 (constant S_ .f32 0x00000000#32),
    unary main_cst_63 main_v283 (broadcastInDim S50000x256 ![] bcast_S_S50000x256),
    unary main_arg7 main_v284 (broadcastInDim S250000x1 ![0] bcast_S250000_S250000x1_0),
    ternary main_v283 main_v284 main_v282 main_v285 (fun x i u => Host.scatterAdd scatter_S50000x256_S250000x1_S250000x256_1_0_0_1 x i u),
    binary main_v256 main_v256 main_v286 mulf,
    unary main_v286 main_v287 (broadcastInDim S50000x1 ![0] bcast_S50000_S50000x1_0),
    unary main_v287 main_v288 (broadcastInDim S50000x256 ![0, 1] bcast_S50000x1_S50000x256_0_1),
    binary main_v247 main_v288 main_v289 mulf,
    binary main_v285 main_v289 main_v290 addf,
    unary main_arg27 main_v291 (broadcastInDim S1x256 ![1] bcast_S256_S1x256_1),
    unary main_v291 main_v292 (broadcastInDim S50000x256 ![0, 1] bcast_S1x256_S50000x256_0_1),
    binary main_v290 main_v292 main_v293 addf ]

set_option maxRecDepth 8192 in
set_option maxHeartbeats 4000000 in
theorem main_part5_eq (d : Dev nD) : main_part5 (F := F) d = seq ops5 := rfl

set_option maxRecDepth 8192 in
set_option maxHeartbeats 1000000 in
theorem ops5_sub : (ops5 : List (HloOp τ sig (Elt F))).Forall fun op => op.bufs ⊆ tcRefs τ sig := by
  simp only [List.Forall]
  repeat' constructor
  all_goals with_reducible first | exact unary_bufs_sub .. | exact binary_bufs_sub .. | exact nullary_bufs_sub .. | exact ternary_bufs_sub ..

set_option maxRecDepth 8192 in
set_option maxHeartbeats 1000000 in
theorem ops5_fresh : (ops5 : List (HloOp τ sig (Elt F))).Forall fun op => op.fresh = ∅ := by
  simp only [List.Forall]; repeat' constructor

abbrev ops5_W : List (Ref sig .tc) := [main_v245, main_v246, main_v247, main_cst_53, main_v248, main_v249, main_v250, main_cst_54, main_v251, main_v252, main_cst_55, main_v253, main_v254, main_v255, main_cst_56, main_call6_v0, main_call6_v1, main_v256, main_c_57, main_v257, main_v258, main_c_58, main_v259, main_v260, main_v261, main_v262, main_v263, main_v264, main_c_59, main_v265, main_v266, main_c_60, main_v267, main_v268, main_v269, main_v270, main_v271, main_v272, main_c_61, main_v273, main_v274, main_c_62, main_v275, main_v276, main_v277, main_v278, main_v279, main_v280, main_v281, main_v282, main_cst_63, main_v283, main_v284, main_v285, main_v286, main_v287, main_v288, main_v289, main_v290, main_v291, main_v292, main_v293]

set_option maxRecDepth 8192 in
set_option maxHeartbeats 4000000 in
theorem ops5_writes : (ops5 : List (HloOp τ sig (Elt F))).Forall fun op =>
    op.writes ⊆ (ops5_W.map (Proc.devRef (τ := τ) .tc)).toFinset := by
  simp only [List.Forall]
  repeat' constructor
  all_goals
    simp only [nullary_writes, unary_writes, binary_writes, ternary_writes, Finset.singleton_subset_iff, List.mem_toFinset]
    exact List.mem_map_of_mem (by decide)

end Cert.ReferenceIdeal.Hand

end
-- ==== Proof.Ref.Ops6.lean ====
import proofs.«408530_j23158463660766_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 1000000 in
abbrev ops6 : List (HloOp τ sig (Elt F)) :=
  [ TRef.nullary (TRef.of (T := ⟨S_, .f32⟩) main_call7_cst) (constant S_ .f32 0x00000000#32),
    TRef.unary (TRef.of (T := ⟨S_, .f32⟩) main_call7_cst) (TRef.of (T := ⟨S50000x256, .f32⟩) main_call7_v0) (broadcastInDim S50000x256 ![] bcast_S_S50000x256),
    TRef.binary (TRef.of (T := ⟨S50000x256, .f32⟩) main_v293) (TRef.of (T := ⟨S50000x256, .f32⟩) main_call7_v0) (TRef.of (T := ⟨S50000x256, .f32⟩) main_v294) maximumf,
    nullary main_cst_64 (constant S_ .f32 0x00000000#32),
    binary main_v294 main_cst_64 main_v295 (fun x v => Host.reduceAdd x v reducesTo_S50000x256_S50000_d1 h_S_),
    unary main_v295 main_v296 (broadcastInDim S50000x1 ![0] bcast_S50000_S50000x1_0),
    nullary main_cst_65 (constant S_ .f32 0x43800000#32),
    unary main_cst_65 main_v297 (broadcastInDim S50000x1 ![] bcast_S_S50000x1),
    binary main_v296 main_v297 main_v298 Host.divf,
    unary main_v298 main_v299 (broadcastInDim S50000x256 ![0, 1] bcast_S50000x1_S50000x256_0_1),
    binary main_v294 main_v299 main_v300 subf,
    binary main_v300 main_v300 main_v301 mulf,
    nullary main_cst_66 (constant S_ .f32 0x00000000#32),
    binary main_v301 main_cst_66 main_v302 (fun x v => Host.reduceAdd x v reducesTo_S50000x256_S50000_d1 h_S_),
    unary main_v302 main_v303 (broadcastInDim S50000x1 ![0] bcast_S50000_S50000x1_0),
    nullary main_cst_67 (constant S_ .f32 0x43800000#32),
    unary main_cst_67 main_v304 (broadcastInDim S50000x1 ![] bcast_S_S50000x1),
    binary main_v303 main_v304 main_v305 Host.divf,
    unary main_v298 main_v306 (broadcastInDim S50000x256 ![0, 1] bcast_S50000x1_S50000x256_0_1),
    binary main_v294 main_v306 main_v307 subf,
    nullary main_cst_68 (constant S_ .f32 0x3727C5AC#32),
    unary main_cst_68 main_v308 (broadcastInDim S50000x1 ![] bcast_S_S50000x1),
    binary main_v305 main_v308 main_v309 addf,
    unary main_v309 main_v310 Host.rsqrt,
    unary main_v310 main_v311 (broadcastInDim S50000x256 ![0, 1] bcast_S50000x1_S50000x256_0_1),
    binary main_v307 main_v311 main_v312 mulf,
    unary main_arg28 main_v313 (broadcastInDim S1x256 ![1] bcast_S256_S1x256_1),
    unary main_v313 main_v314 (broadcastInDim S50000x256 ![0, 1] bcast_S1x256_S50000x256_0_1),
    binary main_v312 main_v314 main_v315 mulf,
    unary main_arg29 main_v316 (broadcastInDim S1x256 ![1] bcast_S256_S1x256_1),
    unary main_v316 main_v317 (broadcastInDim S50000x256 ![0, 1] bcast_S1x256_S50000x256_0_1),
    binary main_v315 main_v317 main_v318 addf,
    nullary main_cst_69 (constant S_ .f32 0x00000000#32),
    unary main_cst_69 main_v319 (broadcastInDim S8x256 ![] bcast_S_S8x256),
    unary main_arg9 main_v320 (broadcastInDim S50000x1 ![0] bcast_S50000_S50000x1_0),
    ternary main_v319 main_v320 main_v318 main_v321 (fun x i u => Host.scatterAdd scatter_S8x256_S50000x1_S50000x256_1_0_0_1 x i u),
    nullary main_cst_70 (constant S_ .f32 0x3F800000#32),
    unary main_cst_70 main_v322 (broadcastInDim S50000 ![] bcast_S_S50000),
    nullary main_cst_71 (constant S_ .f32 0x00000000#32),
    unary main_cst_71 main_v323 (broadcastInDim S8 ![] bcast_S_S8),
    unary main_arg9 main_v324 (broadcastInDim S50000x1 ![0] bcast_S50000_S50000x1_0),
    ternary main_v323 main_v324 main_v322 main_v325 (fun x i u => Host.scatterAdd scatter_S8_S50000x1_S50000_n_0_0_1 x i u),
    nullary main_cst_72 (constant S_ .f32 0x3F800000#32),
    unary main_cst_72 main_v326 (broadcastInDim S8 ![] bcast_S_S8),
    binary main_v325 main_v326 main_v327 maximumf,
    unary main_v327 main_v328 (broadcastInDim S8x1 ![0] bcast_S8_S8x1_0),
    unary main_v328 main_v329 (broadcastInDim S8x256 ![0, 1] bcast_S8x1_S8x256_0_1),
    binary main_v321 main_v329 main_v330 Host.divf,
    binary main_v330 main_arg30 main_v331 (fun l r => Host.dotGeneral dot_S8x256_S256x128_S8x128_1_0_0_1_n_n none l r),
    unary main_arg31 main_v332 (broadcastInDim S1x128 ![1] bcast_S128_S1x128_1),
    unary main_v332 main_v333 (broadcastInDim S8x128 ![0, 1] bcast_S1x128_S8x128_0_1),
    binary main_v331 main_v333 main_v334 addf,
    binary main_v174 main_arg32 main_v335 (fun l r => Host.dotGeneral dot_S8x128_S128x128_S8x128_1_0_0_1_n_n none l r),
    unary main_arg33 main_v336 (broadcastInDim S1x128 ![1] bcast_S128_S1x128_1),
    unary main_v336 main_v337 (broadcastInDim S8x128 ![0, 1] bcast_S1x128_S8x128_0_1),
    binary main_v335 main_v337 main_v338 addf,
    TRef.nullary (TRef.of (T := ⟨S_, .f32⟩) main_call8_cst) (constant S_ .f32 0x00000000#32),
    TRef.unary (TRef.of (T := ⟨S_, .f32⟩) main_call8_cst) (TRef.of (T := ⟨S8x128, .f32⟩) main_call8_v0) (broadcastInDim S8x128 ![] bcast_S_S8x128),
    TRef.binary (TRef.of (T := ⟨S8x128, .f32⟩) main_v338) (TRef.of (T := ⟨S8x128, .f32⟩) main_call8_v0) (TRef.of (T := ⟨S8x128, .f32⟩) main_v339) maximumf,
    binary main_v339 main_arg34 main_v340 (fun l r => Host.dotGeneral dot_S8x128_S128x64_S8x64_1_0_0_1_n_n none l r),
    unary main_arg35 main_v341 (broadcastInDim S1x64 ![1] bcast_S64_S1x64_1),
    unary main_v341 main_v342 (broadcastInDim S8x64 ![0, 1] bcast_S1x64_S8x64_0_1),
    binary main_v340 main_v342 main_v343 addf,
    binary main_v334 main_arg36 main_v344 (fun l r => Host.dotGeneral dot_S8x128_S128x128_S8x128_1_0_0_1_n_n none l r) ]

set_option maxRecDepth 8192 in
set_option maxHeartbeats 4000000 in
theorem main_part6_eq (d : Dev nD) : main_part6 (F := F) d = seq ops6 := rfl

set_option maxRecDepth 8192 in
set_option maxHeartbeats 1000000 in
theorem ops6_sub : (ops6 : List (HloOp τ sig (Elt F))).Forall fun op => op.bufs ⊆ tcRefs τ sig := by
  simp only [List.Forall]
  repeat' constructor
  all_goals with_reducible first | exact unary_bufs_sub .. | exact binary_bufs_sub .. | exact nullary_bufs_sub .. | exact ternary_bufs_sub ..

set_option maxRecDepth 8192 in
set_option maxHeartbeats 1000000 in
theorem ops6_fresh : (ops6 : List (HloOp τ sig (Elt F))).Forall fun op => op.fresh = ∅ := by
  simp only [List.Forall]; repeat' constructor

abbrev ops6_W : List (Ref sig .tc) := [main_call7_cst, main_call7_v0, main_v294, main_cst_64, main_v295, main_v296, main_cst_65, main_v297, main_v298, main_v299, main_v300, main_v301, main_cst_66, main_v302, main_v303, main_cst_67, main_v304, main_v305, main_v306, main_v307, main_cst_68, main_v308, main_v309, main_v310, main_v311, main_v312, main_v313, main_v314, main_v315, main_v316, main_v317, main_v318, main_cst_69, main_v319, main_v320, main_v321, main_cst_70, main_v322, main_cst_71, main_v323, main_v324, main_v325, main_cst_72, main_v326, main_v327, main_v328, main_v329, main_v330, main_v331, main_v332, main_v333, main_v334, main_v335, main_v336, main_v337, main_v338, main_call8_cst, main_call8_v0, main_v339, main_v340, main_v341, main_v342, main_v343, main_v344]

set_option maxRecDepth 8192 in
set_option maxHeartbeats 4000000 in
theorem ops6_writes : (ops6 : List (HloOp τ sig (Elt F))).Forall fun op =>
    op.writes ⊆ (ops6_W.map (Proc.devRef (τ := τ) .tc)).toFinset := by
  simp only [List.Forall]
  repeat' constructor
  all_goals
    simp only [nullary_writes, unary_writes, binary_writes, ternary_writes, Finset.singleton_subset_iff, List.mem_toFinset]
    exact List.mem_map_of_mem (by decide)

end Cert.ReferenceIdeal.Hand

end
-- ==== Proof.Ref.Ops7.lean ====
import proofs.«408530_j23158463660766_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 1000000 in
abbrev ops7 : List (HloOp τ sig (Elt F)) :=
  [ unary main_arg37 main_v345 (broadcastInDim S1x128 ![1] bcast_S128_S1x128_1),
    unary main_v345 main_v346 (broadcastInDim S8x128 ![0, 1] bcast_S1x128_S8x128_0_1),
    binary main_v344 main_v346 main_v347 addf,
    TRef.nullary (TRef.of (T := ⟨S_, .f32⟩) main_call9_cst) (constant S_ .f32 0x00000000#32),
    TRef.unary (TRef.of (T := ⟨S_, .f32⟩) main_call9_cst) (TRef.of (T := ⟨S8x128, .f32⟩) main_call9_v0) (broadcastInDim S8x128 ![] bcast_S_S8x128),
    TRef.binary (TRef.of (T := ⟨S8x128, .f32⟩) main_v347) (TRef.of (T := ⟨S8x128, .f32⟩) main_call9_v0) (TRef.of (T := ⟨S8x128, .f32⟩) main_v348) maximumf,
    binary main_v348 main_arg38 main_v349 (fun l r => Host.dotGeneral dot_S8x128_S128x64_S8x64_1_0_0_1_n_n none l r),
    unary main_arg39 main_v350 (broadcastInDim S1x64 ![1] bcast_S64_S1x64_1),
    unary main_v350 main_v351 (broadcastInDim S8x64 ![0, 1] bcast_S1x64_S8x64_0_1),
    binary main_v349 main_v351 main_v352 addf,
    binary main_v174 main_v334 main_v353 (fun a b => concatenate S8x256 1 [⟨S8x128, a⟩, ⟨S8x128, b⟩] concatenates_S8x128_S8x128_S8x256_d1),
    binary main_v353 main_arg40 main_v354 (fun l r => Host.dotGeneral dot_S8x256_S256x4_S8x4_1_0_0_1_n_n none l r),
    unary main_arg41 main_v355 (broadcastInDim S1x4 ![1] bcast_S4_S1x4_1),
    unary main_v355 main_v356 (broadcastInDim S8x4 ![0, 1] bcast_S1x4_S8x4_0_1),
    binary main_v354 main_v356 main_v357 addf ]

set_option maxRecDepth 8192 in
set_option maxHeartbeats 4000000 in
theorem main_part7_eq (d : Dev nD) : main_part7 (F := F) d = seq ops7 := rfl

set_option maxRecDepth 8192 in
set_option maxHeartbeats 1000000 in
theorem ops7_sub : (ops7 : List (HloOp τ sig (Elt F))).Forall fun op => op.bufs ⊆ tcRefs τ sig := by
  simp only [List.Forall]
  repeat' constructor
  all_goals with_reducible first | exact unary_bufs_sub .. | exact binary_bufs_sub .. | exact nullary_bufs_sub .. | exact ternary_bufs_sub ..

set_option maxRecDepth 8192 in
set_option maxHeartbeats 1000000 in
theorem ops7_fresh : (ops7 : List (HloOp τ sig (Elt F))).Forall fun op => op.fresh = ∅ := by
  simp only [List.Forall]; repeat' constructor

abbrev ops7_W : List (Ref sig .tc) := [main_v345, main_v346, main_v347, main_call9_cst, main_call9_v0, main_v348, main_v349, main_v350, main_v351, main_v352, main_v353, main_v354, main_v355, main_v356, main_v357]

set_option maxRecDepth 8192 in
set_option maxHeartbeats 4000000 in
theorem ops7_writes : (ops7 : List (HloOp τ sig (Elt F))).Forall fun op =>
    op.writes ⊆ (ops7_W.map (Proc.devRef (τ := τ) .tc)).toFinset := by
  simp only [List.Forall]
  repeat' constructor
  all_goals
    simp only [nullary_writes, unary_writes, binary_writes, ternary_writes, Finset.singleton_subset_iff, List.mem_toFinset]
    exact List.mem_map_of_mem (by decide)

end Cert.ReferenceIdeal.Hand

end
-- ==== Proof.Ref.Args.lean ====
import proofs.«408530_j23158463660766_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30, main_arg31, main_arg32, main_arg33, main_arg34, main_arg35, main_arg36, main_arg37, main_arg38, main_arg39, main_arg40, main_arg41]

def ArgsAt (V0 W : Valuation τ sig (Elt F)) : Prop :=
  ∀ r ∈ argRefs, W (Proc.devRef .tc r) = V0 (Proc.devRef .tc r)

theorem ArgsAt.refl (V0 : Valuation τ sig (Elt F)) : ArgsAt V0 V0 := fun _ _ => rfl

-- A line whose written references exclude the arguments leaves each of them alone.
theorem ArgsAt.after {V0 W : Valuation τ sig (Elt F)} (h : ArgsAt V0 W) (l : List (HloOp τ sig (Elt F)))
    {Wl : List (Ref sig .tc)}
    (hw : l.Forall fun op => op.writes ⊆ (Wl.map (Proc.devRef (τ := τ) .tc)).toFinset)
    (hd : ∀ r ∈ argRefs, r ∉ Wl) : ArgsAt V0 (after l W) :=
  fun r hr => (after_of_writes_sub l W hw (hd r hr)).trans (h r hr)

theorem kept_stage {W : Valuation τ sig (Elt F)} {l : List (HloOp τ sig (Elt F))} {Wl : List (Ref sig .tc)}
    (hw : l.Forall fun op => op.writes ⊆ (Wl.map (Proc.devRef (τ := τ) .tc)).toFinset)
    {r : Ref sig .tc} (hr : r ∉ Wl) {v : (Proc.devRef (τ := τ) .tc r).ty.Contents (Elt F)}
    (h : W (Proc.devRef .tc r) = v) : after l W (Proc.devRef .tc r) = v :=
  (after_of_writes_sub l W hw hr).trans h

end Cert.ReferenceIdeal.Hand

end
-- ==== Proof.Ref.Run.lean ====
import proofs.«408530_j23158463660766_2_alg».proof.Proof.Ref.Ops0
import proofs.«408530_j23158463660766_2_alg».proof.Proof.Ref.Ops1
import proofs.«408530_j23158463660766_2_alg».proof.Proof.Ref.Ops2
import proofs.«408530_j23158463660766_2_alg».proof.Proof.Ref.Ops3
import proofs.«408530_j23158463660766_2_alg».proof.Proof.Ref.Ops4
import proofs.«408530_j23158463660766_2_alg».proof.Proof.Ref.Ops5
import proofs.«408530_j23158463660766_2_alg».proof.Proof.Ref.Ops6
import proofs.«408530_j23158463660766_2_alg».proof.Proof.Ref.Ops7
import proofs.«408530_j23158463660766_2_alg».proof.Proof.Ref.Args
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  ops0 ++ (ops1 ++ (ops2 ++ (ops3 ++ (ops4 ++ (ops5 ++ (ops6 ++ (ops7)))))))

theorem main_eq (d : Dev nD) : main (F := F) d = seq ops := by
  simp only [ops, seq_append, ← main_part0_eq d, ← main_part1_eq d, ← main_part2_eq d, ← main_part3_eq d, ← main_part4_eq d, ← main_part5_eq d, ← main_part6_eq d, ← main_part7_eq d]
  rfl

theorem scopedRefs_eq : (Finset.univ.filter fun b : Ref sig .tc => b.isScoped) = ∅ := by decide
theorem scopedSems_eq : (Finset.univ.filter fun sm : SemLoc sig => sm.isScoped .tc) = ∅ := by decide

-- A property of each window's operations is one of the whole line's: the line is the windows appended.
theorem ops_sub : (ops : List (HloOp τ sig (Elt F))).Forall fun op => op.bufs ⊆ tcRefs τ sig := by
  simp only [ops, List.forall_append]
  exact ⟨ops0_sub, ops1_sub, ops2_sub, ops3_sub, ops4_sub, ops5_sub, ops6_sub, ops7_sub⟩

theorem ops_fresh : ∀ op ∈ (ops : List (HloOp τ sig (Elt F))), op.fresh = ∅ := List.forall_iff_forall_mem.mp <| by
  simp only [ops, List.forall_append]
  exact ⟨ops0_fresh, ops1_fresh, ops2_fresh, ops3_fresh, ops4_fresh, ops5_fresh, ops6_fresh, ops7_fresh⟩

theorem after_ops (V : Valuation τ sig (Elt F)) :
    after ops V = after ops7 (after ops6 (after ops5 (after ops4 (after ops3 (after ops2 (after ops1 (after ops0 (V)))))))) := by
  simp only [ops, StableHlo.after_append]

-- Each window in turn leaves alone a reference outside the list of those it writes.
theorem after_ops_kept (r : Ref sig .tc) (V : Valuation τ sig (Elt F))
    (h0 : r ∉ ops0_W := by decide)
    (h1 : r ∉ ops1_W := by decide)
    (h2 : r ∉ ops2_W := by decide)
    (h3 : r ∉ ops3_W := by decide)
    (h4 : r ∉ ops4_W := by decide)
    (h5 : r ∉ ops5_W := by decide)
    (h6 : r ∉ ops6_W := by decide)
    (h7 : r ∉ ops7_W := by decide) :
    after ops V (Proc.devRef .tc r) = V (Proc.devRef .tc r) := by
  rw [after_ops, after_of_writes_sub _ _ ops7_writes h7, after_of_writes_sub _ _ ops6_writes h6,
    after_of_writes_sub _ _ ops5_writes h5, after_of_writes_sub _ _ ops4_writes h4,
    after_of_writes_sub _ _ ops3_writes h3, after_of_writes_sub _ _ ops2_writes h2,
    after_of_writes_sub _ _ ops1_writes h1, after_of_writes_sub _ _ ops0_writes h0]

-- No window writes an argument of the program, so the whole line keeps every argument.
theorem args_kept (r : Ref sig .tc) (hr : r ∈ argRefs) (V : Valuation τ sig (Elt F)) :
    after ops V (Proc.devRef .tc r) = V (Proc.devRef .tc r) :=
  have k (W : List (Ref sig .tc)) (h : ∀ a ∈ argRefs, a ∉ W := by decide) : r ∉ W := h r hr
  after_ops_kept r V (k ops0_W) (k ops1_W) (k ops2_W) (k ops3_W) (k ops4_W) (k ops5_W) (k ops6_W) (k ops7_W)

theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.Hand

end
-- ==== Proof.Ref.Frame.lean ====
import proofs.«408530_j23158463660766_2_alg».proof.Defs
import proofs.«408530_j23158463660766_2_alg».proof.Proof.Ref.Run

noncomputable section

namespace Cert.ReferenceIdeal.Hand

open Cert.ReferenceIdeal Idealize.ShloMosaic Idealize.SL.Sem Idealize.ShloMosaic.StableHlo

-- The claim's conjunction over the arguments is the statement for every member of their list.
theorem frame [hPre_finite_inputs : Cert.Pre_finite_inputs.Facts] :
    Cert.frame_ReferenceIdeal (hReferenceIdeal := Cert.ReferenceIdeal.Gen.facts) :=
  fun m ρ _ =>
    (θ_run Cert.ReferenceIdeal.defs _ _).mono
      (fun s h c => (List.forall_iff_forall_mem (l := argRefs)
          (p := fun b => s.2.mem ((c.tc : Thread nD τ).loc b) = m ((c.tc : Thread nD τ).loc b))).mpr
        fun b hb => (h c b).trans (args_kept b hb _))
      (run (F := Ideal) m ρ)

end Cert.ReferenceIdeal.Hand

end
-- ==== Proof.KI.HostValA.lean ====
import proofs.«408530_j23158463660766_2_alg».proof.Proof.Gen.KernelIdeal.Launch
import Idealize.ShloMosaic.Lib.StableHlo.Run

set_option maxRecDepth 1948

noncomputable section

namespace Cert.KernelIdeal.Hand

open Idealize.ShloMosaic Idealize.ShloMosaic.TcCoe
open Cert.KernelIdeal Cert.KernelIdeal.Gen

variable {F : FTy → Type} [FloatOps F]

def zeroN : FVec F S50000 .f32 := broadcastInDim S50000 ![] bcast_S_S50000 (constant S_ .f32 0x00000000#32)

def oneN : FVec F S50000 .f32 := broadcastInDim S50000 ![] bcast_S_S50000 (constant S_ .f32 0x3F800000#32)

def degC (dst : IVec S1600000 32) (ew : FVec F S1600000 .f32) : FVec F S50000 .f32 :=
  addf (Host.scatterAdd scatter_S50000_S1600000x1_S1600000_n_0_0_1 zeroN
          (broadcastInDim S1600000x1 ![0] bcast_S1600000_S1600000x1_0 dst) ew) oneN

def degF (dst : IVec S250000 32) (ew : FVec F S250000 .f32) : FVec F S50000 .f32 :=
  addf (Host.scatterAdd scatter_S50000_S250000x1_S250000_n_0_0_1 zeroN
          (broadcastInDim S250000x1 ![0] bcast_S250000_S250000x1_0 dst) ew) oneN

def whereN (c : IVec S50000 1) (a : FVec F S50000 .f32) (z : FVec F S_ .f32) : FVec F S50000 .f32 :=
  select c a (broadcastInDim S50000 ![] bcast_S_S50000 z)

def disOf (deg : FVec F S50000 .f32) : FVec F S50000 .f32 :=
  whereN (cmpf .ogt deg zeroN) (Host.rsqrt deg) (constant S_ .f32 0x00000000#32)

def colC (a : IVec S1600000 32) : IVec S1600000x1 32 :=
  broadcastInDim S1600000x1 ![0] bcast_S1600000_S1600000x1_0
    (select (cmpi .slt a (broadcastInDim S1600000 ![] bcast_S_S1600000 (constantI S_ 32 0#32)))
      (addi a (broadcastInDim S1600000 ![] bcast_S_S1600000 (constantI S_ 32 50000#32))) a)

def colF (a : IVec S250000 32) : IVec S250000x1 32 :=
  broadcastInDim S250000x1 ![0] bcast_S250000_S250000x1_0
    (select (cmpi .slt a (broadcastInDim S250000 ![] bcast_S_S250000 (constantI S_ 32 0#32)))
      (addi a (broadcastInDim S250000 ![] bcast_S_S250000 (constantI S_ 32 50000#32))) a)

def normC (dis : FVec F S50000 .f32) (src dst : IVec S1600000 32) (ew : FVec F S1600000 .f32) : FVec F S1600000 .f32 :=
  mulf (mulf (Host.gather gather_S50000_S1600000x1_S1600000_n_0_n_n_0_1_1 dis (colC src)) ew)
    (Host.gather gather_S50000_S1600000x1_S1600000_n_0_n_n_0_1_1 dis (colC dst))

def normF (dis : FVec F S50000 .f32) (src dst : IVec S250000 32) (ew : FVec F S250000 .f32) : FVec F S250000 .f32 :=
  mulf (mulf (Host.gather gather_S50000_S250000x1_S250000_n_0_n_n_0_1_1 dis (colF src)) ew)
    (Host.gather gather_S50000_S250000x1_S250000_n_0_n_n_0_1_1 dis (colF dst))

variable (W : Valuation τ sig (Elt F))

theorem host0_01_v8 :
    StableHlo.after (hostOps0_1 (F := F)) (StableHlo.after (hostOps0 (F := F)) W) (Proc.devRef .tc main_v8)
      = disOf (degC (W main_arg5) (W main_arg2)) := by
  after_results <;> rfl

theorem host0_2_v24 :
    StableHlo.after (hostOps0_2 (F := F)) W (Proc.devRef .tc main_v24)
      = normC (W main_v8) (W main_arg4) (W main_arg5) (W main_arg2) := by
  after_results_simp <;> rfl

theorem host0_2_v31 :
    StableHlo.after (hostOps0_2 (F := F)) W (Proc.devRef .tc main_v31)
      = cmpf .ogt (degF (W main_arg7) (W main_arg3)) (zeroN (F := F)) := by
  after_results_simp <;> rfl

theorem host0_2_v32 :
    StableHlo.after (hostOps0_2 (F := F)) W (Proc.devRef .tc main_v32)
      = Host.rsqrt (degF (W main_arg7) (W main_arg3)) := by
  after_results_simp <;> rfl

theorem host0_2_cst_9 :
    StableHlo.after (hostOps0_2 (F := F)) W (Proc.devRef .tc main_cst_9) = constant (F := F) S_ .f32 0x00000000#32 := by
  after_results_simp <;> rfl

theorem host0_3_v33 :
    StableHlo.after (hostOps0_3 (F := F)) W (Proc.devRef .tc main_v33)
      = whereN (W main_v31) (W main_v32) (W main_cst_9) := by
  after_results <;> rfl

end Cert.KernelIdeal.Hand
-- ==== Proof.KI.HostValB.lean ====
import proofs.«408530_j23158463660766_2_alg».proof.Proof.KI.HostValA
set_option maxRecDepth 1948

noncomputable section

namespace Cert.KernelIdeal.Hand

open Idealize.ShloMosaic Idealize.ShloMosaic.TcCoe
open Cert.KernelIdeal Cert.KernelIdeal.Gen

variable {F : FTy → Type} [FloatOps F]

def biasN8 (b : FVec F S8 .f32) : FVec F S50000x8 .f32 :=
  broadcastInDim S50000x8 ![0, 1] bcast_S1x8_S50000x8_0_1 (broadcastInDim S1x8 ![1] bcast_S8_S1x8_1 b)

def linIn (x : FVec F S50000x3 .f32) (Wt : FVec F S3x8 .f32) (b : FVec F S8 .f32) : FVec F S50000x8 .f32 :=
  addf (Host.dotGeneral dot_S50000x3_S3x8_S50000x8_1_0_0_1_n_n none x Wt) (biasN8 b)

def colsN8 (v : FVec F S50000 .f32) : FVec F S50000x8 .f32 :=
  broadcastInDim S50000x8 ![0, 1] bcast_S50000x1_S50000x8_0_1 (broadcastInDim S50000x1 ![0] bcast_S50000_S50000x1_0 v)

def rowMax8 (z : FVec F S50000x8 .f32) : FVec F S50000 .f32 :=
  maximumf (broadcastInDim S50000 ![] bcast_S_S50000 (constant S_ .f32 0xFF800000#32))
    (Host.reduce FloatOps.maximumf z (constant S_ .f32 0xFF800000#32) reducesTo_S50000x8_S50000_d1 h_S_)

def expShift8 (z : FVec F S50000x8 .f32) : FVec F S50000x8 .f32 :=
  Host.exp (subf z (colsN8 (rowMax8 z)))

def rowSum8 (e : FVec F S50000x8 .f32) : FVec F S50000 .f32 :=
  Host.reduceAdd e (constant S_ .f32 0x00000000#32) reducesTo_S50000x8_S50000_d1 h_S_

def softmax8 (z : FVec F S50000x8 .f32) : FVec F S50000x8 .f32 :=
  Host.divf (expShift8 z) (colsN8 (rowSum8 (expShift8 z)))

def rowsC8 (x : FVec F S50000x8 .f32) (src : IVec S1600000 32) (norm : FVec F S1600000 .f32) : FVec F S1600000x8 .f32 :=
  mulf (Host.gather gather_S50000x8_S1600000x1_S1600000x8_1_0_n_n_0_1_18 x (colC src))
    (broadcastInDim S1600000x8 ![0, 1] bcast_S1600000x1_S1600000x8_0_1
      (broadcastInDim S1600000x1 ![0] bcast_S1600000_S1600000x1_0 norm))

def scatC8 (dst : IVec S1600000 32) (upd : FVec F S1600000x8 .f32) : FVec F S50000x8 .f32 :=
  Host.scatterAdd scatter_S50000x8_S1600000x1_S1600000x8_1_0_0_1
    (broadcastInDim S50000x8 ![] bcast_S_S50000x8 (constant S_ .f32 0x00000000#32))
    (broadcastInDim S1600000x1 ![0] bcast_S1600000_S1600000x1_0 dst) upd

def aggC8 (x : FVec F S50000x8 .f32) (src dst : IVec S1600000 32) (norm : FVec F S1600000 .f32) : FVec F S50000x8 .f32 :=
  scatC8 dst (rowsC8 x src norm)

def lin8x16 (x : FVec F S50000x8 .f32) (Wt : FVec F S8x16 .f32) : FVec F S50000x16 .f32 :=
  Host.dotGeneral dot_S50000x8_S8x16_S50000x16_1_0_0_1_n_n none x Wt

variable (W : Valuation τ sig (Elt F))

theorem host0_4_v49 :
    StableHlo.after (hostOps0_4 (F := F)) W (Proc.devRef .tc main_v49)
      = normF (W main_v33) (W main_arg6) (W main_arg7) (W main_arg3) := by
  after_results_simp <;> rfl

theorem host0_4_v79 :
    StableHlo.after (hostOps0_4 (F := F)) W (Proc.devRef .tc main_v79)
      = lin8x16 (softmax8 (linIn (W main_arg0) (W main_arg10) (W main_arg11))) (W main_arg12) := by
  after_results_simp <;> rfl

set_option maxHeartbeats 4000000 in

theorem host0_4_v78 :
    StableHlo.after (hostOps0_4 (F := F)) W (Proc.devRef .tc main_v78)
      = lin8x16 (aggC8 (softmax8 (linIn (W main_arg0) (W main_arg10) (W main_arg11)))
          (W main_arg4) (W main_arg5) (W main_v24)) (W main_arg12) := by
  after_results_simp <;> rfl

theorem host0_4_v80 :
    StableHlo.after (hostOps0_4 (F := F)) W (Proc.devRef .tc main_v80)
      = shapeCast S1x16 (W main_arg13) shapeCasts_S16_S1x16 := by
  after_results_simp <;> rfl

theorem host0_4_v81 :
    StableHlo.after (hostOps0_4 (F := F)) W (Proc.devRef .tc main_v81)
      = shapeCast S1x16 (W main_arg14) shapeCasts_S16_S1x16 := by
  after_results_simp <;> rfl

theorem host0_4_v82 :
    StableHlo.after (hostOps0_4 (F := F)) W (Proc.devRef .tc main_v82)
      = shapeCast S1x16 (W main_arg15) shapeCasts_S16_S1x16 := by
  after_results_simp <;> rfl

theorem host0_4_v83 :
    StableHlo.after (hostOps0_4 (F := F)) W (Proc.devRef .tc main_v83)
      = shapeCast S50000x1 (W main_v8) shapeCasts_S50000_S50000x1 := by
  after_results_simp <;> rfl

end Cert.KernelIdeal.Hand
-- ==== Proof.KI.HostValC.lean ====
import proofs.«408530_j23158463660766_2_alg».proof.Proof.KI.HostValA
set_option maxRecDepth 1948

noncomputable section

namespace Cert.KernelIdeal.Hand

open Idealize.ShloMosaic Idealize.ShloMosaic.TcCoe
open Cert.KernelIdeal Cert.KernelIdeal.Gen

variable {F : FTy → Type} [FloatOps F]

def rowsC16 (x : FVec F S50000x16 .f32) (src : IVec S1600000 32) (norm : FVec F S1600000 .f32) : FVec F S1600000x16 .f32 :=
  mulf (Host.gather gather_S50000x16_S1600000x1_S1600000x16_1_0_n_n_0_1_116 x (colC src))
    (broadcastInDim S1600000x16 ![0, 1] bcast_S1600000x1_S1600000x16_0_1
      (broadcastInDim S1600000x1 ![0] bcast_S1600000_S1600000x1_0 norm))

def scatC16 (dst : IVec S1600000 32) (upd : FVec F S1600000x16 .f32) : FVec F S50000x16 .f32 :=
  Host.scatterAdd scatter_S50000x16_S1600000x1_S1600000x16_1_0_0_1
    (broadcastInDim S50000x16 ![] bcast_S_S50000x16 (constant S_ .f32 0x00000000#32))
    (broadcastInDim S1600000x1 ![0] bcast_S1600000_S1600000x1_0 dst) upd

def aggC16 (x : FVec F S50000x16 .f32) (src dst : IVec S1600000 32) (norm : FVec F S1600000 .f32) : FVec F S50000x16 .f32 :=
  scatC16 dst (rowsC16 x src norm)

def lin16x32 (x : FVec F S50000x16 .f32) (Wt : FVec F S16x32 .f32) : FVec F S50000x32 .f32 :=
  Host.dotGeneral dot_S50000x16_S16x32_S50000x32_1_0_0_1_n_n none x Wt

def rowsF256 (x : FVec F S50000x256 .f32) (src : IVec S250000 32) (norm : FVec F S250000 .f32) : FVec F S250000x256 .f32 :=
  mulf (Host.gather gather_S50000x256_S250000x1_S250000x256_1_0_n_n_0_1_1256 x (colF src))
    (broadcastInDim S250000x256 ![0, 1] bcast_S250000x1_S250000x256_0_1
      (broadcastInDim S250000x1 ![0] bcast_S250000_S250000x1_0 norm))

def scatF256 (dst : IVec S250000 32) (upd : FVec F S250000x256 .f32) : FVec F S50000x256 .f32 :=
  Host.scatterAdd scatter_S50000x256_S250000x1_S250000x256_1_0_0_1
    (broadcastInDim S50000x256 ![] bcast_S_S50000x256 (constant S_ .f32 0x00000000#32))
    (broadcastInDim S250000x1 ![0] bcast_S250000_S250000x1_0 dst) upd

def aggF256 (x : FVec F S50000x256 .f32) (src dst : IVec S250000 32) (norm : FVec F S250000 .f32) : FVec F S50000x256 .f32 :=
  scatF256 dst (rowsF256 x src norm)

def onehot8 (batch : IVec S50000 32) : FVec F S50000x8 .f32 :=
  uitofp .f32
    (cmpi .eq (broadcastInDim S50000x8 ![0, 1] bcast_S50000x1_S50000x8_0_1 (shapeCast S50000x1 batch shapeCasts_S50000_S50000x1))
      (broadcastInDim S50000x8 ![0, 1] bcast_S1x8_S50000x8_0_1 (shapeCast S1x8 (iotaInDim S8 32 0) shapeCasts_S8_S1x8)))

def cnt1 (c : FVec F S8x1 .f32) : FVec F S8x1 .f32 :=
  maximumf c (broadcastInDim S8x1 ![] bcast_S_S8x1 (constant S_ .f32 0x3F800000#32))

def poolMean32 (s : FVec F S8x32 .f32) (c : FVec F S8x1 .f32) : FVec F S8x32 .f32 :=
  Host.divf s (broadcastInDim S8x32 ![0, 1] bcast_S8x1_S8x32_0_1 (cnt1 c))

def poolMean256 (s : FVec F S8x256 .f32) (c : FVec F S8x1 .f32) : FVec F S8x256 .f32 :=
  Host.divf s (broadcastInDim S8x256 ![0, 1] bcast_S8x1_S8x256_0_1 (cnt1 c))

def bias8x128 (b : FVec F S128 .f32) : FVec F S8x128 .f32 :=
  broadcastInDim S8x128 ![0, 1] bcast_S1x128_S8x128_0_1 (broadcastInDim S1x128 ![1] bcast_S128_S1x128_1 b)

def bias8x64 (b : FVec F S64 .f32) : FVec F S8x64 .f32 :=
  broadcastInDim S8x64 ![0, 1] bcast_S1x64_S8x64_0_1 (broadcastInDim S1x64 ![1] bcast_S64_S1x64_1 b)

def headC (s : FVec F S8x32 .f32) (c : FVec F S8x1 .f32) (Wt : FVec F S32x128 .f32) (b : FVec F S128 .f32) : FVec F S8x128 .f32 :=
  addf (Host.dotGeneral dot_S8x32_S32x128_S8x128_1_0_0_1_n_n none (poolMean32 s c) Wt) (bias8x128 b)

def headF (s : FVec F S8x256 .f32) (c : FVec F S8x1 .f32) (Wt : FVec F S256x128 .f32) (b : FVec F S128 .f32) : FVec F S8x128 .f32 :=
  addf (Host.dotGeneral dot_S8x256_S256x128_S8x128_1_0_0_1_n_n none (poolMean256 s c) Wt) (bias8x128 b)

def lin128 (x : FVec F S8x128 .f32) (Wt : FVec F S128x128 .f32) (b : FVec F S128 .f32) : FVec F S8x128 .f32 :=
  addf (Host.dotGeneral dot_S8x128_S128x128_S8x128_1_0_0_1_n_n none x Wt) (bias8x128 b)

def lin64 (x : FVec F S8x128 .f32) (Wt : FVec F S128x64 .f32) (b : FVec F S64 .f32) : FVec F S8x64 .f32 :=
  addf (Host.dotGeneral dot_S8x128_S128x64_S8x64_1_0_0_1_n_n none x Wt) (bias8x64 b)

def relu8x128 (x : FVec F S8x128 .f32) : FVec F S8x128 .f32 :=
  maximumf x (broadcastInDim S8x128 ![] bcast_S_S8x128 (constant S_ .f32 0x00000000#32))

def mlpHead (x : FVec F S8x128 .f32) (W1 : FVec F S128x128 .f32) (b1 : FVec F S128 .f32) (W2 : FVec F S128x64 .f32)
    (b2 : FVec F S64 .f32) : FVec F S8x64 .f32 :=
  lin64 (relu8x128 (lin128 x W1 b1)) W2 b2

def outLin (cg fg : FVec F S8x128 .f32) (Wt : FVec F S256x4 .f32) (b : FVec F S4 .f32) : FVec F S8x4 .f32 :=
  addf (Host.dotGeneral dot_S8x256_S256x4_S8x4_1_0_0_1_n_n none
      (concatenate S8x256 1 [⟨S8x128, cg⟩, ⟨S8x128, fg⟩] concatenates_S8x128_S8x128_S8x256_d1) Wt)
    (broadcastInDim S8x4 ![0, 1] bcast_S1x4_S8x4_0_1 (broadcastInDim S1x4 ![1] bcast_S4_S1x4_1 b))

variable (W : Valuation τ sig (Elt F))

theorem host1_v98 :
    StableHlo.after (hostOps1 (F := F)) W (Proc.devRef .tc main_v98)
      = lin16x32 (aggC16 (W main_v84) (W main_arg4) (W main_arg5) (W main_v24)) (W main_arg16) := by
  after_results_simp <;> rfl

theorem host1_v99 :
    StableHlo.after (hostOps1 (F := F)) W (Proc.devRef .tc main_v99) = lin16x32 (W main_v84) (W main_arg16) := by
  after_results_simp <;> rfl

theorem host1_v100 :
    StableHlo.after (hostOps1 (F := F)) W (Proc.devRef .tc main_v100) = shapeCast S1x32 (W main_arg17) shapeCasts_S32_S1x32 := by
  after_results_simp <;> rfl

theorem host1_v101 :
    StableHlo.after (hostOps1 (F := F)) W (Proc.devRef .tc main_v101) = shapeCast S1x32 (W main_arg18) shapeCasts_S32_S1x32 := by
  after_results_simp <;> rfl

theorem host1_v102 :
    StableHlo.after (hostOps1 (F := F)) W (Proc.devRef .tc main_v102) = shapeCast S1x32 (W main_arg19) shapeCasts_S32_S1x32 := by
  after_results_simp <;> rfl

theorem host1_v103 :
    StableHlo.after (hostOps1 (F := F)) W (Proc.devRef .tc main_v103) = shapeCast S50000x1 (W main_v8) shapeCasts_S50000_S50000x1 := by
  after_results_simp <;> rfl

theorem host2_v111 :
    StableHlo.after (hostOps2 (F := F)) W (Proc.devRef .tc main_v111) = onehot8 (F := F) (W main_arg8) := by
  after_results <;> rfl

theorem host3_v120 :
    StableHlo.after (hostOps3 (F := F)) W (Proc.devRef .tc main_v120)
      = headC (W main_v112_0) (W main_v112_1) (W main_arg20) (W main_arg21) := by
  after_results_simp <;> rfl

theorem host3_v133 :
    StableHlo.after (hostOps3 (F := F)) W (Proc.devRef .tc main_v133)
      = aggF256 (W main_arg1) (W main_arg6) (W main_arg7) (W main_v49) := by
  after_results_simp <;> rfl

theorem host5_v136 :
    StableHlo.after (hostOps5 (F := F)) W (Proc.devRef .tc main_v136) = shapeCast S1x512 (W main_arg23) shapeCasts_S512_S1x512 := by
  after_results <;> rfl

theorem host5_v137 :
    StableHlo.after (hostOps5 (F := F)) W (Proc.devRef .tc main_v137) = shapeCast S1x512 (W main_arg24) shapeCasts_S512_S1x512 := by
  after_results <;> rfl

theorem host5_v138 :
    StableHlo.after (hostOps5 (F := F)) W (Proc.devRef .tc main_v138) = shapeCast S1x512 (W main_arg25) shapeCasts_S512_S1x512 := by
  after_results <;> rfl

theorem host5_v139 :
    StableHlo.after (hostOps5 (F := F)) W (Proc.devRef .tc main_v139) = shapeCast S50000x1 (W main_v33) shapeCasts_S50000_S50000x1 := by
  after_results <;> rfl

theorem host7_v154 :
    StableHlo.after (hostOps7 (F := F)) W (Proc.devRef .tc main_v154)
      = aggF256 (W main_v141) (W main_arg6) (W main_arg7) (W main_v49) := by
  after_results_simp <;> rfl

theorem host7_v155 :
    StableHlo.after (hostOps7 (F := F)) W (Proc.devRef .tc main_v155) = shapeCast S1x256 (W main_arg27) shapeCasts_S256_S1x256 := by
  after_results_simp <;> rfl

theorem host7_v156 :
    StableHlo.after (hostOps7 (F := F)) W (Proc.devRef .tc main_v156) = shapeCast S1x256 (W main_arg28) shapeCasts_S256_S1x256 := by
  after_results_simp <;> rfl

theorem host7_v157 :
    StableHlo.after (hostOps7 (F := F)) W (Proc.devRef .tc main_v157) = shapeCast S1x256 (W main_arg29) shapeCasts_S256_S1x256 := by
  after_results_simp <;> rfl

theorem host7_v158 :
    StableHlo.after (hostOps7 (F := F)) W (Proc.devRef .tc main_v158) = shapeCast S50000x1 (W main_v33) shapeCasts_S50000_S50000x1 := by
  after_results_simp <;> rfl

theorem host8_v166 :
    StableHlo.after (hostOps8 (F := F)) W (Proc.devRef .tc main_v166) = onehot8 (F := F) (W main_arg9) := by
  after_results <;> rfl

theorem host9_v175 :
    StableHlo.after (hostOps9 (F := F)) W (Proc.devRef .tc main_v175)
      = headF (W main_v167_0) (W main_v167_1) (W main_arg30) (W main_arg31) := by
  after_results <;> rfl

theorem host9_v179 :
    StableHlo.after (hostOps9 (F := F)) W (Proc.devRef .tc main_v179) = lin128 (W main_v120) (W main_arg32) (W main_arg33) := by
  after_results <;> rfl

theorem host9_1_v180 :
    StableHlo.after (hostOps9_1 (F := F)) W (Proc.devRef .tc main_v180) = relu8x128 (W main_v179) := by
  after_results <;> rfl

theorem host9_2_v184 :
    StableHlo.after (hostOps9_2 (F := F)) W (Proc.devRef .tc main_v184) = lin64 (W main_v180) (W main_arg34) (W main_arg35) := by
  after_results <;> rfl

theorem host9_2_v188 :
    StableHlo.after (hostOps9_2 (F := F)) W (Proc.devRef .tc main_v188) = lin128 (W main_v175) (W main_arg36) (W main_arg37) := by
  after_results <;> rfl

theorem host9_3_v189 :
    StableHlo.after (hostOps9_3 (F := F)) W (Proc.devRef .tc main_v189) = relu8x128 (W main_v188) := by
  after_results <;> rfl

theorem host9_4_v193 :
    StableHlo.after (hostOps9_4 (F := F)) W (Proc.devRef .tc main_v193) = lin64 (W main_v189) (W main_arg38) (W main_arg39) := by
  after_results <;> rfl

theorem host9_4_v198 :
    StableHlo.after (hostOps9_4 (F := F)) W (Proc.devRef .tc main_v198)
      = outLin (W main_v120) (W main_v175) (W main_arg40) (W main_arg41) := by
  after_results <;> rfl

end Cert.KernelIdeal.Hand
-- ==== Proof.KI.KVals.lean ====
import proofs.«408530_j23158463660766_2_alg».proof.Proof.KI.Run
import proofs.«408530_j23158463660766_2_alg».proof.Proof.KI.HostValA
import proofs.«408530_j23158463660766_2_alg».proof.Proof.KI.HostValB
import proofs.«408530_j23158463660766_2_alg».proof.Proof.KI.HostValC

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ)

abbrev written : List (Ref sig .tc) :=
  hostOps0_W ++ hostOps0_1_W ++ hostOps0_2_W ++ hostOps0_3_W ++ hostOps0_4_W ++ [main_v84] ++ hostOps1_W
    ++ [main_v104] ++ hostOps2_W ++ [main_v112_0, main_v112_1]
    ++ hostOps3_W ++ [main_v134] ++ [main_v135] ++ hostOps5_W ++ [main_v140] ++ [main_v141]
    ++ hostOps7_W ++ [main_v159] ++ hostOps8_W ++ [main_v167_0, main_v167_1] ++ hostOps9_W
    ++ hostOps9_1_W ++ hostOps9_2_W ++ hostOps9_3_W

/-- At the boundaries where it is read, a buffer holds what it was launched with. -/
structure Kept (c : Dev nD) (r : Ref sig .tc) : Prop where
  w2 : W2 m c r = W0 m c r
  w4 : W4 m c r = W0 m c r
  w6 : W6 m c r = W0 m c r
  w8 : W8 m c r = W0 m c r
  w10 : W10 m c r = W0 m c r
  w11 : W11 m c r = W0 m c r
  w12 : W12 m c r = W0 m c r
  w13 : W13 m c r = W0 m c r
  w15 : W15 m c r = W0 m c r
  w16 : W16 m c r = W0 m c r
  w18 : W18 m c r = W0 m c r
  w20 : W20 m c r = W0 m c r
  w22 : W22 m c r = W0 m c r
  w24 : W24 m c r = W0 m c r

/-- A buffer that none of the first 24 items writes is kept: one step back per item. -/
theorem kept (c : Dev nD) (r : Ref sig .tc) : r ∉ written → Kept m c r := by
  simp only [written, List.mem_append, not_or, and_imp]
  intro h0 h1 h2 h3 h4 h5 h6 h7 h8 h9 h10 h11 h12 h13 h14 h15 h16 h17 h18 h19 h20 h21 h22 h23
  have w2 := (W2_keep m c r h1).trans (W1_keep m c r h0)
  have w4 := (W4_keep m c r h3).trans <| (W3_keep m c r h2).trans w2
  have w6 := (W6_keep m c r h5).trans <| (W5_keep m c r h4).trans w4
  have w8 := (W8_keep m c r h7).trans <| (W7_keep m c r h6).trans w6
  have w10 := (W10_keep m c r h9).trans <| (W9_keep m c r h8).trans w8
  have w11 := (W11_keep m c r h10).trans w10
  have w12 := (W12_keep m c r h11).trans w11
  have w13 := (W13_keep m c r h12).trans w12
  have w15 := (W15_keep m c r h14).trans <| (W14_keep m c r h13).trans w13
  have w16 := (W16_keep m c r h15).trans w15
  have w18 := (W18_keep m c r h17).trans <| (W17_keep m c r h16).trans w16
  have w20 := (W20_keep m c r h19).trans <| (W19_keep m c r h18).trans w18
  have w22 := (W22_keep m c r h21).trans <| (W21_keep m c r h20).trans w20
  exact ⟨w2, w4, w6, w8, w10, w11, w12, w13, w15, w16, w18, w20, w22, (W24_keep m c r h23).trans <| (W23_keep m c r h22).trans w22⟩

def kDisC (c : Dev nD) : FVec F S50000 .f32 := disOf (degC (W0 m c main_arg5) (W0 m c main_arg2))

def kNormC (c : Dev nD) : FVec F S1600000 .f32 :=
  normC (kDisC m c) (W0 m c main_arg4) (W0 m c main_arg5) (W0 m c main_arg2)

def kDisF (c : Dev nD) : FVec F S50000 .f32 := disOf (degF (W0 m c main_arg7) (W0 m c main_arg3))

def kNormF (c : Dev nD) : FVec F S250000 .f32 :=
  normF (kDisF m c) (W0 m c main_arg6) (W0 m c main_arg7) (W0 m c main_arg3)

def kAttn (c : Dev nD) : FVec F S50000x8 .f32 :=
  softmax8 (linIn (W0 m c main_arg0) (W0 m c main_arg10) (W0 m c main_arg11))

def kH0 (c : Dev nD) : FVec F S50000x16 .f32 := (dat0 (B5 m) c).arrAt 6 cfg0.N

def kH1 (c : Dev nD) : FVec F S50000x32 .f32 := (dat1 (B7 m) c).arrAt 6 cfg1.N

theorem W2_v8 (c : Dev nD) : W2 m c main_v8 = kDisC m c := by
  unfold kDisC W2 W1
  exact host0_01_v8 (W0 m c)

theorem W4_v8 (c : Dev nD) : W4 m c main_v8 = kDisC m c := by
  rw [W4_keep, W3_keep, W2_v8] <;> decide

theorem W3_v24 (c : Dev nD) : W3 m c main_v24 = kNormC m c := by
  unfold kNormC W3
  rw [host0_2_v24, W2_v8, (kept m c main_arg4 (by decide)).w2, (kept m c main_arg5 (by decide)).w2,
    (kept m c main_arg2 (by decide)).w2]

theorem W4_v24 (c : Dev nD) : W4 m c main_v24 = kNormC m c := by
  rw [W4_keep, W3_v24] <;> decide

theorem W4_v33 (c : Dev nD) : W4 m c main_v33 = kDisF m c := by
  unfold kDisF W4 W3
  rw [host0_3_v33, host0_2_v31, host0_2_v32, host0_2_cst_9, (kept m c main_arg7 (by decide)).w2,
    (kept m c main_arg3 (by decide)).w2]
  rfl

theorem W5_v49 (c : Dev nD) : W5 m c main_v49 = kNormF m c := by
  unfold kNormF W5
  rw [host0_4_v49, W4_v33, (kept m c main_arg6 (by decide)).w4, (kept m c main_arg7 (by decide)).w4,
    (kept m c main_arg3 (by decide)).w4]

theorem in0_0 (c : Dev nD) :
    B5 m c (Pipeline.arrRef spec0 0)
      = lin8x16 (aggC8 (kAttn m c) (W0 m c main_arg4) (W0 m c main_arg5) (kNormC m c)) (W0 m c main_arg12) := by
  refine (host0_4_v78 ..).trans ?_
  unfold kAttn
  rw [W4_v24, (kept m c main_arg0 (by decide)).w4, (kept m c main_arg10 (by decide)).w4,
    (kept m c main_arg11 (by decide)).w4, (kept m c main_arg4 (by decide)).w4, (kept m c main_arg5 (by decide)).w4,
    (kept m c main_arg12 (by decide)).w4]

theorem in0_1 (c : Dev nD) :
    B5 m c (Pipeline.arrRef spec0 1) = lin8x16 (kAttn m c) (W0 m c main_arg12) := by
  refine (host0_4_v79 ..).trans ?_
  unfold kAttn
  rw [(kept m c main_arg0 (by decide)).w4, (kept m c main_arg10 (by decide)).w4,
    (kept m c main_arg11 (by decide)).w4, (kept m c main_arg12 (by decide)).w4]

theorem in0_2 (c : Dev nD) :
    B5 m c (Pipeline.arrRef spec0 2) = shapeCast S50000x1 (kDisC m c) shapeCasts_S50000_S50000x1 := by
  refine (host0_4_v83 ..).trans ?_
  rw [W4_v8]

theorem in0_3 (c : Dev nD) :
    B5 m c (Pipeline.arrRef spec0 3) = shapeCast S1x16 (W0 m c main_arg13) shapeCasts_S16_S1x16 := by
  refine (host0_4_v80 ..).trans ?_
  rw [(kept m c main_arg13 (by decide)).w4]
theorem in0_4 (c : Dev nD) :
    B5 m c (Pipeline.arrRef spec0 4) = shapeCast S1x16 (W0 m c main_arg14) shapeCasts_S16_S1x16 := by
  refine (host0_4_v81 ..).trans ?_
  rw [(kept m c main_arg14 (by decide)).w4]
theorem in0_5 (c : Dev nD) :
    B5 m c (Pipeline.arrRef spec0 5) = shapeCast S1x16 (W0 m c main_arg15) shapeCasts_S16_S1x16 := by
  refine (host0_4_v82 ..).trans ?_
  rw [(kept m c main_arg15 (by decide)).w4]

theorem W6_v84 (c : Dev nD) : W6 m c main_v84 = kH0 m c := W6_arr m c 6

theorem W6_v8 (c : Dev nD) : W6 m c main_v8 = kDisC m c := by
  rw [W6_keep, W5_keep, W4_v8] <;> decide

theorem W6_v24 (c : Dev nD) : W6 m c main_v24 = kNormC m c := by
  rw [W6_keep, W5_keep, W4_v24] <;> decide

theorem in1_0 (c : Dev nD) :
    B7 m c (Pipeline.arrRef spec1 0)
      = lin16x32 (aggC16 (kH0 m c) (W0 m c main_arg4) (W0 m c main_arg5) (kNormC m c)) (W0 m c main_arg16) := by
  refine (host1_v98 ..).trans ?_
  rw [W6_v84, W6_v24, (kept m c main_arg4 (by decide)).w6, (kept m c main_arg5 (by decide)).w6,
    (kept m c main_arg16 (by decide)).w6]

theorem in1_1 (c : Dev nD) :
    B7 m c (Pipeline.arrRef spec1 1) = lin16x32 (kH0 m c) (W0 m c main_arg16) := by
  refine (host1_v99 ..).trans ?_
  rw [W6_v84, (kept m c main_arg16 (by decide)).w6]

theorem in1_2 (c : Dev nD) :
    B7 m c (Pipeline.arrRef spec1 2) = shapeCast S50000x1 (kDisC m c) shapeCasts_S50000_S50000x1 := by
  refine (host1_v103 ..).trans ?_
  rw [W6_v8]
theorem in1_3 (c : Dev nD) :
    B7 m c (Pipeline.arrRef spec1 3) = shapeCast S1x32 (W0 m c main_arg17) shapeCasts_S32_S1x32 := by
  refine (host1_v100 ..).trans ?_
  rw [(kept m c main_arg17 (by decide)).w6]
theorem in1_4 (c : Dev nD) :
    B7 m c (Pipeline.arrRef spec1 4) = shapeCast S1x32 (W0 m c main_arg18) shapeCasts_S32_S1x32 := by
  refine (host1_v101 ..).trans ?_
  rw [(kept m c main_arg18 (by decide)).w6]
theorem in1_5 (c : Dev nD) :
    B7 m c (Pipeline.arrRef spec1 5) = shapeCast S1x32 (W0 m c main_arg19) shapeCasts_S32_S1x32 := by
  refine (host1_v102 ..).trans ?_
  rw [(kept m c main_arg19 (by decide)).w6]

theorem W8_v104 (c : Dev nD) : W8 m c main_v104 = kH1 m c := W8_arr m c 6

theorem in2_0 (c : Dev nD) : B9 m c (Pipeline.arrRef spec2 0) = kH1 m c :=
  (W9_keep m c main_v104 (by decide)).trans (W8_v104 m c)

theorem in2_1 (c : Dev nD) : B9 m c (Pipeline.arrRef spec2 1) = onehot8 (F := F) (W0 m c main_arg8) := by
  refine (host2_v111 ..).trans ?_
  rw [(kept m c main_arg8 (by decide)).w8]

def kS2 (c : Dev nD) : FVec F S8x32 .f32 := (dat2 (B9 m) c).arrAt 2 cfg2.N
def kC2 (c : Dev nD) : FVec F S8x1 .f32 := (dat2 (B9 m) c).arrAt 3 cfg2.N

theorem W10_v112_0 (c : Dev nD) : W10 m c main_v112_0 = kS2 m c := W10_arr m c 2
theorem W10_v112_1 (c : Dev nD) : W10 m c main_v112_1 = kC2 m c := W10_arr m c 3

def kCg (c : Dev nD) : FVec F S8x128 .f32 := headC (kS2 m c) (kC2 m c) (W0 m c main_arg20) (W0 m c main_arg21)

theorem W11_v120 (c : Dev nD) : W11 m c main_v120 = kCg m c := by
  unfold kCg W11
  rw [host3_v120, W10_v112_0, W10_v112_1, (kept m c main_arg20 (by decide)).w10, (kept m c main_arg21 (by decide)).w10]

theorem W10_v49 (c : Dev nD) : W10 m c main_v49 = kNormF m c := by
  rw [W10_keep, W9_keep, W8_keep, W7_keep, W6_keep, W5_v49] <;> decide

theorem in3_0 (c : Dev nD) :
    B11 m c (Pipeline.arrRef spec3 0)
      = aggF256 (W0 m c main_arg1) (W0 m c main_arg6) (W0 m c main_arg7) (kNormF m c) := by
  refine (host3_v133 ..).trans ?_
  rw [W10_v49, (kept m c main_arg1 (by decide)).w10, (kept m c main_arg6 (by decide)).w10,
    (kept m c main_arg7 (by decide)).w10]

theorem in3_1 (c : Dev nD) : B11 m c (Pipeline.arrRef spec3 1) = W0 m c main_arg22 :=
  (kept m c main_arg22 (by decide)).w11

def kY3 (c : Dev nD) : FVec F S50000x512 .f32 := (dat3 (B11 m) c).arrAt 2 cfg3.N
theorem W12_v134 (c : Dev nD) : W12 m c main_v134 = kY3 m c := W12_arr m c 2

theorem in4_0 (c : Dev nD) : B12 m c (Pipeline.arrRef spec4 0) = W0 m c main_arg1 :=
  (kept m c main_arg1 (by decide)).w12
theorem in4_1 (c : Dev nD) : B12 m c (Pipeline.arrRef spec4 1) = W0 m c main_arg22 :=
  (kept m c main_arg22 (by decide)).w12

def kY4 (c : Dev nD) : FVec F S50000x512 .f32 := (dat4 (B12 m) c).arrAt 2 cfg4.N
theorem W13_v135 (c : Dev nD) : W13 m c main_v135 = kY4 m c := W13_arr m c 2
theorem W13_v134 (c : Dev nD) : W13 m c main_v134 = kY3 m c := by
  rw [W13_keep, W12_v134] <;> decide

theorem W13_v33 (c : Dev nD) : W13 m c main_v33 = kDisF m c := by
  rw [W13_keep, W12_keep, W11_keep, W10_keep, W9_keep, W8_keep, W7_keep, W6_keep, W5_keep, W4_v33] <;> decide

theorem in5_0 (c : Dev nD) : B14 m c (Pipeline.arrRef spec5 0) = kY3 m c :=
  (W14_keep m c main_v134 (by decide)).trans (W13_v134 m c)
theorem in5_1 (c : Dev nD) : B14 m c (Pipeline.arrRef spec5 1) = kY4 m c :=
  (W14_keep m c main_v135 (by decide)).trans (W13_v135 m c)
theorem in5_2 (c : Dev nD) :
    B14 m c (Pipeline.arrRef spec5 2) = shapeCast S50000x1 (kDisF m c) shapeCasts_S50000_S50000x1 := by
  refine (host5_v139 ..).trans ?_
  rw [W13_v33]
theorem in5_3 (c : Dev nD) :
    B14 m c (Pipeline.arrRef spec5 3) = shapeCast S1x512 (W0 m c main_arg23) shapeCasts_S512_S1x512 := by
  refine (host5_v136 ..).trans ?_
  rw [(kept m c main_arg23 (by decide)).w13]
theorem in5_4 (c : Dev nD) :
    B14 m c (Pipeline.arrRef spec5 4) = shapeCast S1x512 (W0 m c main_arg24) shapeCasts_S512_S1x512 := by
  refine (host5_v137 ..).trans ?_
  rw [(kept m c main_arg24 (by decide)).w13]
theorem in5_5 (c : Dev nD) :
    B14 m c (Pipeline.arrRef spec5 5) = shapeCast S1x512 (W0 m c main_arg25) shapeCasts_S512_S1x512 := by
  refine (host5_v138 ..).trans ?_
  rw [(kept m c main_arg25 (by decide)).w13]

def kH5 (c : Dev nD) : FVec F S50000x512 .f32 := (dat5 (B14 m) c).arrAt 6 cfg5.N
theorem W15_v140 (c : Dev nD) : W15 m c main_v140 = kH5 m c := W15_arr m c 6

theorem in6_0 (c : Dev nD) : B15 m c (Pipeline.arrRef spec6 0) = kH5 m c :=
  W15_v140 m c
theorem in6_1 (c : Dev nD) : B15 m c (Pipeline.arrRef spec6 1) = W0 m c main_arg26 :=
  (kept m c main_arg26 (by decide)).w15

def kY6 (c : Dev nD) : FVec F S50000x256 .f32 := (dat6 (B15 m) c).arrAt 2 cfg6.N
theorem W16_v141 (c : Dev nD) : W16 m c main_v141 = kY6 m c := W16_arr m c 2

theorem W16_v49 (c : Dev nD) : W16 m c main_v49 = kNormF m c := by
  rw [W16_keep, W15_keep, W14_keep, W13_keep, W12_keep, W11_keep, W10_v49] <;> decide

theorem W16_v33 (c : Dev nD) : W16 m c main_v33 = kDisF m c := by
  rw [W16_keep, W15_keep, W14_keep, W13_v33] <;> decide

theorem in7_0 (c : Dev nD) :
    B17 m c (Pipeline.arrRef spec7 0)
      = aggF256 (kY6 m c) (W0 m c main_arg6) (W0 m c main_arg7) (kNormF m c) := by
  refine (host7_v154 ..).trans ?_
  rw [W16_v141, W16_v49, (kept m c main_arg6 (by decide)).w16, (kept m c main_arg7 (by decide)).w16]
theorem in7_1 (c : Dev nD) : B17 m c (Pipeline.arrRef spec7 1) = kY6 m c :=
  (W17_keep m c main_v141 (by decide)).trans (W16_v141 m c)
theorem in7_2 (c : Dev nD) :
    B17 m c (Pipeline.arrRef spec7 2) = shapeCast S50000x1 (kDisF m c) shapeCasts_S50000_S50000x1 := by
  refine (host7_v158 ..).trans ?_
  rw [W16_v33]
theorem in7_3 (c : Dev nD) :
    B17 m c (Pipeline.arrRef spec7 3) = shapeCast S1x256 (W0 m c main_arg27) shapeCasts_S256_S1x256 := by
  refine (host7_v155 ..).trans ?_
  rw [(kept m c main_arg27 (by decide)).w16]
theorem in7_4 (c : Dev nD) :
    B17 m c (Pipeline.arrRef spec7 4) = shapeCast S1x256 (W0 m c main_arg28) shapeCasts_S256_S1x256 := by
  refine (host7_v156 ..).trans ?_
  rw [(kept m c main_arg28 (by decide)).w16]
theorem in7_5 (c : Dev nD) :
    B17 m c (Pipeline.arrRef spec7 5) = shapeCast S1x256 (W0 m c main_arg29) shapeCasts_S256_S1x256 := by
  refine (host7_v157 ..).trans ?_
  rw [(kept m c main_arg29 (by decide)).w16]

def kH7 (c : Dev nD) : FVec F S50000x256 .f32 := (dat7 (B17 m) c).arrAt 6 cfg7.N
theorem W18_v159 (c : Dev nD) : W18 m c main_v159 = kH7 m c := W18_arr m c 6

theorem in8_0 (c : Dev nD) : B19 m c (Pipeline.arrRef spec8 0) = kH7 m c :=
  (W19_keep m c main_v159 (by decide)).trans (W18_v159 m c)
theorem in8_1 (c : Dev nD) : B19 m c (Pipeline.arrRef spec8 1) = onehot8 (F := F) (W0 m c main_arg9) := by
  refine (host8_v166 ..).trans ?_
  rw [(kept m c main_arg9 (by decide)).w18]

def kS8 (c : Dev nD) : FVec F S8x256 .f32 := (dat8 (B19 m) c).arrAt 2 cfg8.N
def kC8 (c : Dev nD) : FVec F S8x1 .f32 := (dat8 (B19 m) c).arrAt 3 cfg8.N
theorem W20_v167_0 (c : Dev nD) : W20 m c main_v167_0 = kS8 m c := W20_arr m c 2
theorem W20_v167_1 (c : Dev nD) : W20 m c main_v167_1 = kC8 m c := W20_arr m c 3

theorem W20_v120 (c : Dev nD) : W20 m c main_v120 = kCg m c := by
  rw [W20_keep, W19_keep, W18_keep, W17_keep, W16_keep, W15_keep, W14_keep, W13_keep, W12_keep, W11_v120] <;> decide

def kFg (c : Dev nD) : FVec F S8x128 .f32 := headF (kS8 m c) (kC8 m c) (W0 m c main_arg30) (W0 m c main_arg31)

theorem W21_v175 (c : Dev nD) : W21 m c main_v175 = kFg m c := by
  unfold kFg W21
  rw [host9_v175, W20_v167_0, W20_v167_1, (kept m c main_arg30 (by decide)).w20, (kept m c main_arg31 (by decide)).w20]

theorem W21_v179 (c : Dev nD) :
    W21 m c main_v179 = lin128 (kCg m c) (W0 m c main_arg32) (W0 m c main_arg33) := by
  unfold W21
  rw [host9_v179, W20_v120, (kept m c main_arg32 (by decide)).w20, (kept m c main_arg33 (by decide)).w20]

theorem W22_v180 (c : Dev nD) :
    W22 m c main_v180 = relu8x128 (lin128 (kCg m c) (W0 m c main_arg32) (W0 m c main_arg33)) := by
  unfold W22
  rw [host9_1_v180, W21_v179]

theorem W23_v184 (c : Dev nD) :
    W23 m c main_v184
      = mlpHead (kCg m c) (W0 m c main_arg32) (W0 m c main_arg33) (W0 m c main_arg34) (W0 m c main_arg35) := by
  unfold mlpHead W23
  rw [host9_2_v184, W22_v180, (kept m c main_arg34 (by decide)).w22, (kept m c main_arg35 (by decide)).w22]

theorem W22_v175 (c : Dev nD) : W22 m c main_v175 = kFg m c := by
  rw [W22_keep, W21_v175] <;> decide

theorem W23_v188 (c : Dev nD) :
    W23 m c main_v188 = lin128 (kFg m c) (W0 m c main_arg36) (W0 m c main_arg37) := by
  unfold W23
  rw [host9_2_v188, W22_v175, (kept m c main_arg36 (by decide)).w22, (kept m c main_arg37 (by decide)).w22]

theorem W24_v189 (c : Dev nD) :
    W24 m c main_v189 = relu8x128 (lin128 (kFg m c) (W0 m c main_arg36) (W0 m c main_arg37)) := by
  unfold W24
  rw [host9_3_v189, W23_v188]

theorem W24_v120 (c : Dev nD) : W24 m c main_v120 = kCg m c := by
  rw [W24_keep, W23_keep, W22_keep, W21_keep, W20_v120] <;> decide

theorem W24_v175 (c : Dev nD) : W24 m c main_v175 = kFg m c := by
  rw [W24_keep, W23_keep, W22_v175] <;> decide

theorem res_v198 (c : Dev nD) :
    W25 m c (Proc.devRef .tc main_v198) = outLin (kCg m c) (kFg m c) (W0 m c main_arg40) (W0 m c main_arg41) := by
  unfold W25
  rw [host9_4_v198, W24_v120, W24_v175, (kept m c main_arg40 (by decide)).w24, (kept m c main_arg41 (by decide)).w24]

theorem res_v104 (c : Dev nD) : W25 m c (Proc.devRef .tc main_v104) = kH1 m c := by
  rw [W25_keep, W24_keep, W23_keep, W22_keep, W21_keep, W20_keep, W19_keep, W18_keep, W17_keep, W16_keep, W15_keep, W14_keep, W13_keep, W12_keep, W11_keep, W10_keep, W9_keep, W8_v104] <;> decide

theorem res_v159 (c : Dev nD) : W25 m c (Proc.devRef .tc main_v159) = kH7 m c := by
  rw [W25_keep, W24_keep, W23_keep, W22_keep, W21_keep, W20_keep, W19_keep, W18_v159] <;> decide

theorem res_v184 (c : Dev nD) :
    W25 m c (Proc.devRef .tc main_v184)
      = mlpHead (kCg m c) (W0 m c main_arg32) (W0 m c main_arg33) (W0 m c main_arg34) (W0 m c main_arg35) := by
  rw [W25_keep, W24_keep, W23_v184] <;> decide

theorem res_v193 (c : Dev nD) :
    W25 m c (Proc.devRef .tc main_v193)
      = mlpHead (kFg m c) (W0 m c main_arg36) (W0 m c main_arg37) (W0 m c main_arg38) (W0 m c main_arg39) := by
  unfold mlpHead W25
  rw [host9_4_v193, W24_v189, (kept m c main_arg38 (by decide)).w24, (kept m c main_arg39 (by decide)).w24]

def kH1' (c : Dev nD) : FVec F S50000x16 .f32 := lin8x16 (kAttn m c) (W0 m c main_arg12)

abbrev kX1 (c : Dev nD) : FVec F S50000x16 .f32 := kH0 m c

def kH2' (c : Dev nD) : FVec F S50000x32 .f32 := lin16x32 (kX1 m c) (W0 m c main_arg16)

end Cert.KernelIdeal.Hand

end
-- ==== Proof.Math.Spec.lean ====
import Idealize.ShloMosaic.PureOps.Ideal
import Mathlib.Algebra.BigOperators.Group.Finset.Basic

noncomputable section

namespace Cert.Math

open Idealize.ShloMosaic

def mm {N K J : ℕ} (x : Fin N → Fin K → EReal) (W : Fin K → Fin J → EReal) (n : Fin N) (j : Fin J) : EReal :=
  ∑ k, x n k * W k j

def segSum {E N D : ℕ} (dst : Fin E → Option (Fin N)) (u : Fin E → Fin D → EReal) (n : Fin N) (q : Fin D) : EReal :=
  ∑ e, if dst e = some n then u e q else 0

def segSum1 {E N : ℕ} (dst : Fin E → Option (Fin N)) (u : Fin E → EReal) (n : Fin N) : EReal :=
  ∑ e, if dst e = some n then u e else 0

def combine {N D : ℕ} (agg h : Fin N → Fin D → EReal) (dis : Fin N → EReal) (b : Fin D → EReal) (n : Fin N) (k : Fin D) : EReal :=
  agg n k + h n k * (dis n * dis n) + b k

def reluRow {N D : ℕ} (z : Fin N → Fin D → EReal) (n : Fin N) (k : Fin D) : EReal := max (z n k) 0

def rowMean {N D : ℕ} (dD : EReal) (r : Fin N → Fin D → EReal) (n : Fin N) : EReal := Ideal.div (∑ k, r n k) dD

def rowVar {N D : ℕ} (dD : EReal) (r : Fin N → Fin D → EReal) (n : Fin N) : EReal :=
  Ideal.div (∑ k, (r n k - rowMean dD r n) * (r n k - rowMean dD r n)) dD

def layerNorm {N D : ℕ} (dD eps : EReal) (r : Fin N → Fin D → EReal) (g beta : Fin D → EReal) (n : Fin N) (q : Fin D) : EReal :=
  (r n q - rowMean dD r n) * Ideal.rsqrt (rowVar dD r n + eps) * g q + beta q

def post {N D : ℕ} (dD eps : EReal) (agg h : Fin N → Fin D → EReal) (dis : Fin N → EReal) (b g beta : Fin D → EReal) :
    Fin N → Fin D → EReal :=
  layerNorm dD eps (reluRow (combine agg h dis b)) g beta

theorem post_apply {N D : ℕ} (dD eps : EReal) (agg h : Fin N → Fin D → EReal) (dis : Fin N → EReal) (b g beta : Fin D → EReal)
    (n : Fin N) (q : Fin D) :
    post dD eps agg h dis b g beta n q
      = (max (agg n q + h n q * (dis n * dis n) + b q) 0
          - Ideal.div (∑ k, max (agg n k + h n k * (dis n * dis n) + b k) 0) dD)
        * Ideal.rsqrt (Ideal.div (∑ k, (max (agg n k + h n k * (dis n * dis n) + b k) 0
              - Ideal.div (∑ k', max (agg n k' + h n k' * (dis n * dis n) + b k') 0) dD)
            * (max (agg n k + h n k * (dis n * dis n) + b k) 0
              - Ideal.div (∑ k', max (agg n k' + h n k' * (dis n * dis n) + b k') 0) dD)) dD + eps)
        * g q + beta q := rfl

def poolSum {M B D : ℕ} (oh : Fin M → Fin B → EReal) (x : Fin M → Fin D → EReal) (b : Fin B) (d : Fin D) : EReal :=
  ∑ n, oh n b * x n d

def poolCount {M B : ℕ} (oh : Fin M → Fin B → EReal) (b : Fin B) : EReal := ∑ n, oh n b * 1

end Cert.Math

end
-- ==== Proof.KI.ValPost.lean ====
import proofs.«408530_j23158463660766_2_alg».proof.Proof.Gen.KernelIdeal.Skeleton
import proofs.«408530_j23158463660766_2_alg».proof.Proof.Math.Spec
import Idealize.ShloMosaic.Lib.ValueLayout
import Idealize.ShloMosaic.PureOps.Ideal.Laws

noncomputable section

namespace Cert.KernelIdeal.Hand

open Idealize.ShloMosaic Idealize.ShloMosaic.ValueIdx
open Cert.KernelIdeal

section Layout
variable {α : Type}

theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem laneSum_apply {a b : ℕ} (src : FVec Ideal ⟨2, ![a, b]⟩ .f32) (h : Shape.Reduces ⟨2, ![a, b]⟩ [1] ⟨1, ![a]⟩)
    (hφ : FTy.f32 = FTy.f32 ∨ FTy.f32 = FTy.bf16) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext ax
  match ax with
  | ⟨0, _⟩ => rfl
  | ⟨1, _⟩ => rfl

theorem rsqrt_at {s : Shape} (x : FVec Ideal s .f32) (i : s.Idx) : rsqrt x i = Ideal.rsqrt (x i) := rfl

end Layout

theorem post0_apply (agg h : Vec Ideal S2000x16 .f32) (dis : Vec Ideal S2000x1 .f32) (b g beta : Vec Ideal S1x16 .f32)
    (p : Fin 2000) (q : Fin 16) :
    Gen.k0_pay1 (Gen.k0_pay2 agg h dis b g) (Gen.k0_pay3 beta) (ix2 p q)
      = Cert.Math.post (Ideal.ofBits .f32 0x41800000#32) (Ideal.ofBits .f32 0x3727C5AC#32)
          (fun n k => agg (ix2 n k)) (fun n k => h (ix2 n k)) (fun n => dis (ix2 n (0 : Fin 1)))
          (fun k => b (ix2 (0 : Fin 1) k)) (fun k => g (ix2 (0 : Fin 1) k)) (fun k => beta (ix2 (0 : Fin 1) k)) p q := by
  rw [Cert.Math.post_apply]
  unfold Gen.k0_pay1 Gen.k0_pay2 Gen.k0_pay3
  simp only [addf_apply, mulf_apply, subf_apply, divf_apply, maximumf_apply, broadcast_apply, rsqrt_at,
    shapeCast_self, broadcastTo_1b_ab_apply, broadcastTo_a1_ab_apply, shapeCast_a_a1_apply,
    Ideal.ofBits_def, Ideal.ofBits_zero_f32]
  rw [laneSum_apply, laneSum_apply]
  simp only [addf_apply, mulf_apply, subf_apply, divf_apply, maximumf_apply, broadcast_apply,
    broadcastTo_1b_ab_apply, broadcastTo_a1_ab_apply, shapeCast_a_a1_apply]
  rw [laneSum_apply]
  simp only [addf_apply, mulf_apply, maximumf_apply, broadcast_apply, broadcastTo_1b_ab_apply, broadcastTo_a1_ab_apply]

end Cert.KernelIdeal.Hand
-- ==== Proof.KI.PostRow.lean ====
import proofs.«408530_j23158463660766_2_alg».proof.Proof.Math.Spec

noncomputable section

namespace Cert.Math

theorem post_row_congr {N N' D : ℕ} (dD eps : EReal)
    (agg h : Fin N → Fin D → EReal) (dis : Fin N → EReal) (b g beta : Fin D → EReal)
    (agg' h' : Fin N' → Fin D → EReal) (dis' : Fin N' → EReal) (b' g' beta' : Fin D → EReal)
    (n : Fin N) (n' : Fin N') (q q' : Fin D)
    (ha : ∀ k, agg n k = agg' n' k) (hh : ∀ k, h n k = h' n' k) (hd : dis n = dis' n')
    (hb : ∀ k, b k = b' k) (hg : ∀ k, g k = g' k) (hbeta : ∀ k, beta k = beta' k) (hq : q = q') :
    post dD eps agg h dis b g beta n q = post dD eps agg' h' dis' b' g' beta' n' q' := by
  subst hq
  rw [post_apply, post_apply]
  simp only [ha, hh, hd, hb, hg, hbeta]

end Cert.Math
-- ==== Proof.KI.ArrPost0.lean ====
import proofs.«408530_j23158463660766_2_alg».proof.Proof.KI.Reg0
import proofs.«408530_j23158463660766_2_alg».proof.Proof.KI.ValPost
import proofs.«408530_j23158463660766_2_alg».proof.Proof.KI.PostRow
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx (ix2 eq_ix2)

variable (V : (c : Dev nD) → (b : Ref sig .tc) → Buf (Elt Ideal) ((c : Thread nD τ).loc b))

abbrev aggArr0 (c : Dev nD) : Vec Ideal S50000x16 .f32 := V c (Pipeline.arrRef spec0 0)
abbrev selfArr0 (c : Dev nD) : Vec Ideal S50000x16 .f32 := V c (Pipeline.arrRef spec0 1)
abbrev disArr0 (c : Dev nD) : Vec Ideal S50000x1 .f32 := V c (Pipeline.arrRef spec0 2)
abbrev biasArr0 (c : Dev nD) : Vec Ideal S1x16 .f32 := V c (Pipeline.arrRef spec0 3)
abbrev gainArr0 (c : Dev nD) : Vec Ideal S1x16 .f32 := V c (Pipeline.arrRef spec0 4)
abbrev shiftArr0 (c : Dev nD) : Vec Ideal S1x16 .f32 := V c (Pipeline.arrRef spec0 5)

def postArr0 (c : Dev nD) : Vec Ideal S50000x16 .f32 := fun i =>
  Cert.Math.post (Ideal.ofBits .f32 0x41800000#32) (Ideal.ofBits .f32 0x3727C5AC#32)
    (fun (n : Fin 50000) (k : Fin 16) => aggArr0 V c (ix2 n k)) (fun (n : Fin 50000) (k : Fin 16) => selfArr0 V c (ix2 n k))
    (fun (n : Fin 50000) => disArr0 V c (ix2 n (0 : Fin 1)))
    (fun (k : Fin 16) => biasArr0 V c (ix2 (0 : Fin 1) k)) (fun (k : Fin 16) => gainArr0 V c (ix2 (0 : Fin 1) k))
    (fun (k : Fin 16) => shiftArr0 V c (ix2 (0 : Fin 1) k)) (i 0) (i 1)

theorem postArr0_apply (c : Dev nD) (n : Fin 50000) (j : Fin 16) :
    postArr0 V c (ix2 n j) = Cert.Math.post (Ideal.ofBits .f32 0x41800000#32) (Ideal.ofBits .f32 0x3727C5AC#32)
      (fun (n : Fin 50000) (k : Fin 16) => aggArr0 V c (ix2 n k)) (fun (n : Fin 50000) (k : Fin 16) => selfArr0 V c (ix2 n k))
      (fun (n : Fin 50000) => disArr0 V c (ix2 n (0 : Fin 1)))
      (fun (k : Fin 16) => biasArr0 V c (ix2 (0 : Fin 1) k)) (fun (k : Fin 16) => gainArr0 V c (ix2 (0 : Fin 1) k))
      (fun (k : Fin 16) => shiftArr0 V c (ix2 (0 : Fin 1) k)) n j := rfl

theorem zeroOff0 : (![0, 0] : Fin 2 → Nat) = fun _ => 0 := funext fun a => by fin_cases a <;> rfl

theorem blockIdx0 : ∀ (t : Fin cfg0.N) (a : Fin 2),
    (win0_0.index t a = ![t.val, 0] a ∧ win0_1.index t a = ![t.val, 0] a ∧ win0_2.index t a = ![t.val, 0] a
      ∧ win0_6.index t a = ![t.val, 0] a)
    ∧ win0_3.index t a = ![0, 0] a ∧ win0_4.index t a = ![0, 0] a ∧ win0_5.index t a = ![0, 0] a :=
  (by decide +kernel : ∀ (t : Fin grid0.N) (a : Fin 2), _)

/-- By the library's formula for the place of a block entry, used on every axis. -/
theorem blk0 {α : Type} {G : Pipeline.Grid} (w : Pipeline.Window sig G) (f : w.shape.Idx → α) (t : Fin G.N)
    (y : (w.xblock (G.coords t)).Idx) (i : w.shape.Idx) (h : ∀ a, (i a : ℕ) = w.index t a * w.size a + y a) :
    f ((w.rect t).emb y) = f i :=
  congrArg f (funext fun a => Fin.ext ((w.rect_emb_val t y a).trans (h a).symm))

/-- What blk0 asks, for a matrix whose block column is 0: axis 0 is the hypothesis, axis 1 adds nothing. -/
theorem rowcol0 {ix sz iv yv : Fin 2 → ℕ} {m : ℕ} (hix : ∀ a, ix a = ![m, 0] a) (h0 : iv 0 = m * sz 0 + yv 0)
    (h1 : iv 1 = yv 1) : ∀ a, iv a = ix a * sz a + yv a := by
  intro a; rw [hix a]; revert a
  exact Fin.forall_fin_two.2 ⟨h0, by show iv 1 = 0 * sz 1 + yv 1; omega⟩

/-- The row formula reads one row, and row p of point t's blocks is row t · 2000 + p of the arrays. -/
theorem flushed0_eq (c : Dev nD) (t : Fin cfg0.N) :
    (dat0 V c).flushed 6 t = ((cfg0.win 6).blk t).view.read (Elt Ideal) (postArr0 V c) := by
  show (cfg0.win 6).cut (grid0.coords t) ((dat0 V c).after 6 t) = _
  rw [after0_6, out0_6, View.canon_unit_zero zeroOff0]
  simp only [View.ld_unit_zero (S := S2000x16) zeroOff0, View.ld_unit_zero (S := S2000x1) zeroOff0, View.ld_unit_zero (S := S1x16) zeroOff0]
  funext y
  obtain ⟨p, q, rfl⟩ : ∃ (p : Fin 2000) (q : Fin 16), y = ix2 p q := ⟨y 0, y 1, eq_ix2 y⟩
  have ht : t.val < 25 := t.isLt
  let n : Fin 50000 := ⟨t.val * 2000 + p.val, by omega⟩
  have e := blockIdx0 t
  exact ((post0_apply _ _ _ _ _ _ p q).trans (Cert.Math.post_row_congr _ _ _ _ _ _ _ _ _ _ _ _ _ _ p n q q
    (fun k => blk0 win0_0 (aggArr0 V c) t (ix2 p k) (ix2 n k) (rowcol0 (fun a => (e a).1.1) rfl rfl))
    (fun k => blk0 win0_1 (selfArr0 V c) t (ix2 p k) (ix2 n k) (rowcol0 (fun a => (e a).1.2.1) rfl rfl))
    (blk0 win0_2 (disArr0 V c) t (ix2 p 0) (ix2 n 0) (rowcol0 (fun a => (e a).1.2.2.1) rfl rfl))
    (fun k => blk0 win0_3 (biasArr0 V c) t (ix2 0 k) (ix2 0 k) (rowcol0 (fun a => (e a).2.1) rfl rfl))
    (fun k => blk0 win0_4 (gainArr0 V c) t (ix2 0 k) (ix2 0 k) (rowcol0 (fun a => (e a).2.2.1) rfl rfl))
    (fun k => blk0 win0_5 (shiftArr0 V c) t (ix2 0 k) (ix2 0 k) (rowcol0 (fun a => (e a).2.2.2) rfl rfl)) rfl)).trans
    (blk0 win0_6 (postArr0 V c) t (ix2 p q) (ix2 n q) (rowcol0 (fun a => (e a).1.2.2.2) rfl rfl)).symm

/-- Row r of the output is row r % 2000 of the block of point r / 2000. -/
theorem cover0 (i : S50000x16.Idx) : ∃ t : Fin cfg0.N, (cfg0.win 6).flush t = true ∧ i ∈ ((cfg0.win 6).blk t).view.set :=
  have ht : (i 0).val / 2000 < 25 := Nat.div_lt_of_lt_mul (i 0).isLt
  ⟨⟨_, ht⟩, flush0_6 _, Finset.mem_map.2 ⟨ix2 (⟨(i 0).val % 2000, Nat.mod_lt _ (by decide)⟩ : Fin 2000) (i 1 : Fin 16), Finset.mem_univ _,
    blk0 win0_6 id ⟨_, ht⟩ _ i (rowcol0 (fun a => (blockIdx0 _ a).1.2.2.2) (Nat.div_add_mod' _ _).symm rfl)⟩⟩

theorem arr0 (c : Dev nD) : (dat0 V c).arrAt 6 cfg0.N = postArr0 V c :=
  (dat0 V c).arrAt_eq_of_cover 6 (postArr0 V c) (fun t _ => flushed0_eq V c t) cover0

end Cert.KernelIdeal.Hand
-- ==== Proof.KI.ValPost1.lean ====
import proofs.«408530_j23158463660766_2_alg».proof.Proof.KI.ValPost

namespace Cert.KernelIdeal.Hand

open Idealize.ShloMosaic Idealize.ShloMosaic.ValueIdx
open Cert.KernelIdeal

theorem post1_apply (agg h : Vec Ideal S2000x32 .f32) (dis : Vec Ideal S2000x1 .f32) (b g beta : Vec Ideal S1x32 .f32)
    (p : Fin 2000) (q : Fin 32) :
    Gen.k1_pay1 (Gen.k1_pay2 agg h dis b g) (Gen.k1_pay3 beta) (ix2 p q)
      = Cert.Math.post (Ideal.ofBits .f32 0x42000000#32) (Ideal.ofBits .f32 0x3727C5AC#32)
          (fun n k => agg (ix2 n k)) (fun n k => h (ix2 n k)) (fun n => dis (ix2 n (0 : Fin 1)))
          (fun k => b (ix2 (0 : Fin 1) k)) (fun k => g (ix2 (0 : Fin 1) k)) (fun k => beta (ix2 (0 : Fin 1) k)) p q := by
  rw [Cert.Math.post_apply]
  unfold Gen.k1_pay1 Gen.k1_pay2 Gen.k1_pay3
  simp only [addf_apply, mulf_apply, subf_apply, divf_apply, maximumf_apply, broadcast_apply, rsqrt_at,
    shapeCast_self, broadcastTo_1b_ab_apply, broadcastTo_a1_ab_apply, shapeCast_a_a1_apply,
    Ideal.ofBits_def, Ideal.ofBits_zero_f32]
  rw [laneSum_apply, laneSum_apply]
  simp only [addf_apply, mulf_apply, subf_apply, divf_apply, maximumf_apply, broadcast_apply,
    broadcastTo_1b_ab_apply, broadcastTo_a1_ab_apply, shapeCast_a_a1_apply]
  rw [laneSum_apply]
  simp only [addf_apply, mulf_apply, maximumf_apply, broadcast_apply, broadcastTo_1b_ab_apply, broadcastTo_a1_ab_apply]

end Cert.KernelIdeal.Hand
-- ==== Proof.KI.ArrPost1.lean ====
import proofs.«408530_j23158463660766_2_alg».proof.Proof.KI.Reg1
import proofs.«408530_j23158463660766_2_alg».proof.Proof.KI.ValPost1
import proofs.«408530_j23158463660766_2_alg».proof.Proof.KI.PostRow
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx (ix2 eq_ix2)

variable (V : (c : Dev nD) → (b : Ref sig .tc) → Buf (Elt Ideal) ((c : Thread nD τ).loc b))

abbrev aggArr1 (c : Dev nD) : Vec Ideal S50000x32 .f32 := V c (Pipeline.arrRef spec1 0)
abbrev selfArr1 (c : Dev nD) : Vec Ideal S50000x32 .f32 := V c (Pipeline.arrRef spec1 1)
abbrev disArr1 (c : Dev nD) : Vec Ideal S50000x1 .f32 := V c (Pipeline.arrRef spec1 2)
abbrev biasArr1 (c : Dev nD) : Vec Ideal S1x32 .f32 := V c (Pipeline.arrRef spec1 3)
abbrev gainArr1 (c : Dev nD) : Vec Ideal S1x32 .f32 := V c (Pipeline.arrRef spec1 4)
abbrev shiftArr1 (c : Dev nD) : Vec Ideal S1x32 .f32 := V c (Pipeline.arrRef spec1 5)

def postArr1 (c : Dev nD) : Vec Ideal S50000x32 .f32 := fun i =>
  Cert.Math.post (Ideal.ofBits .f32 0x42000000#32) (Ideal.ofBits .f32 0x3727C5AC#32)
    (fun (n : Fin 50000) (k : Fin 32) => aggArr1 V c (ix2 n k)) (fun (n : Fin 50000) (k : Fin 32) => selfArr1 V c (ix2 n k))
    (fun (n : Fin 50000) => disArr1 V c (ix2 n (0 : Fin 1)))
    (fun (k : Fin 32) => biasArr1 V c (ix2 (0 : Fin 1) k)) (fun (k : Fin 32) => gainArr1 V c (ix2 (0 : Fin 1) k))
    (fun (k : Fin 32) => shiftArr1 V c (ix2 (0 : Fin 1) k)) (i 0) (i 1)

theorem postArr1_apply (c : Dev nD) (n : Fin 50000) (j : Fin 32) :
    postArr1 V c (ix2 n j) = Cert.Math.post (Ideal.ofBits .f32 0x42000000#32) (Ideal.ofBits .f32 0x3727C5AC#32)
      (fun (n : Fin 50000) (k : Fin 32) => aggArr1 V c (ix2 n k)) (fun (n : Fin 50000) (k : Fin 32) => selfArr1 V c (ix2 n k))
      (fun (n : Fin 50000) => disArr1 V c (ix2 n (0 : Fin 1)))
      (fun (k : Fin 32) => biasArr1 V c (ix2 (0 : Fin 1) k)) (fun (k : Fin 32) => gainArr1 V c (ix2 (0 : Fin 1) k))
      (fun (k : Fin 32) => shiftArr1 V c (ix2 (0 : Fin 1) k)) n j := rfl

theorem zeroOff1 : (![0, 0] : Fin 2 → Nat) = fun _ => 0 := funext fun a => by fin_cases a <;> rfl

theorem blockIdx1 : ∀ (t : Fin cfg1.N) (a : Fin 2),
    (win1_0.index t a = ![t.val, 0] a ∧ win1_1.index t a = ![t.val, 0] a ∧ win1_2.index t a = ![t.val, 0] a
      ∧ win1_6.index t a = ![t.val, 0] a)
    ∧ win1_3.index t a = ![0, 0] a ∧ win1_4.index t a = ![0, 0] a ∧ win1_5.index t a = ![0, 0] a :=
  (by decide +kernel : ∀ (t : Fin grid1.N) (a : Fin 2), _)

/-- By the library's formula for the place of a block entry, used on every axis. -/
theorem blk1 {α : Type} {G : Pipeline.Grid} (w : Pipeline.Window sig G) (f : w.shape.Idx → α) (t : Fin G.N)
    (y : (w.xblock (G.coords t)).Idx) (i : w.shape.Idx) (h : ∀ a, (i a : ℕ) = w.index t a * w.size a + y a) :
    f ((w.rect t).emb y) = f i :=
  congrArg f (funext fun a => Fin.ext ((w.rect_emb_val t y a).trans (h a).symm))

/-- What blk1 asks, for a matrix whose block column is 0: axis 0 is the hypothesis, axis 1 adds nothing. -/
theorem rowcol1 {ix sz iv yv : Fin 2 → ℕ} {m : ℕ} (hix : ∀ a, ix a = ![m, 0] a) (h0 : iv 0 = m * sz 0 + yv 0)
    (h1 : iv 1 = yv 1) : ∀ a, iv a = ix a * sz a + yv a := by
  intro a; rw [hix a]; revert a
  exact Fin.forall_fin_two.2 ⟨h0, by show iv 1 = 0 * sz 1 + yv 1; omega⟩

/-- The row formula reads one row, and row p of point t's blocks is row t · 2000 + p of the arrays. -/
theorem flushed1_eq (c : Dev nD) (t : Fin cfg1.N) :
    (dat1 V c).flushed 6 t = ((cfg1.win 6).blk t).view.read (Elt Ideal) (postArr1 V c) := by
  show (cfg1.win 6).cut (grid1.coords t) ((dat1 V c).after 6 t) = _
  rw [after1_6, out1_6, View.canon_unit_zero zeroOff1]
  simp only [View.ld_unit_zero (S := S2000x32) zeroOff1, View.ld_unit_zero (S := S2000x1) zeroOff1, View.ld_unit_zero (S := S1x32) zeroOff1]
  funext y
  obtain ⟨p, q, rfl⟩ : ∃ (p : Fin 2000) (q : Fin 32), y = ix2 p q := ⟨y 0, y 1, eq_ix2 y⟩
  have ht : t.val < 25 := t.isLt
  let n : Fin 50000 := ⟨t.val * 2000 + p.val, by omega⟩
  have e := blockIdx1 t
  exact ((post1_apply _ _ _ _ _ _ p q).trans (Cert.Math.post_row_congr _ _ _ _ _ _ _ _ _ _ _ _ _ _ p n q q
    (fun k => blk1 win1_0 (aggArr1 V c) t (ix2 p k) (ix2 n k) (rowcol1 (fun a => (e a).1.1) rfl rfl))
    (fun k => blk1 win1_1 (selfArr1 V c) t (ix2 p k) (ix2 n k) (rowcol1 (fun a => (e a).1.2.1) rfl rfl))
    (blk1 win1_2 (disArr1 V c) t (ix2 p 0) (ix2 n 0) (rowcol1 (fun a => (e a).1.2.2.1) rfl rfl))
    (fun k => blk1 win1_3 (biasArr1 V c) t (ix2 0 k) (ix2 0 k) (rowcol1 (fun a => (e a).2.1) rfl rfl))
    (fun k => blk1 win1_4 (gainArr1 V c) t (ix2 0 k) (ix2 0 k) (rowcol1 (fun a => (e a).2.2.1) rfl rfl))
    (fun k => blk1 win1_5 (shiftArr1 V c) t (ix2 0 k) (ix2 0 k) (rowcol1 (fun a => (e a).2.2.2) rfl rfl)) rfl)).trans
    (blk1 win1_6 (postArr1 V c) t (ix2 p q) (ix2 n q) (rowcol1 (fun a => (e a).1.2.2.2) rfl rfl)).symm

/-- Row r of the output is row r % 2000 of the block of point r / 2000. -/
theorem cover1 (i : S50000x32.Idx) : ∃ t : Fin cfg1.N, (cfg1.win 6).flush t = true ∧ i ∈ ((cfg1.win 6).blk t).view.set :=
  have ht : (i 0).val / 2000 < 25 := Nat.div_lt_of_lt_mul (i 0).isLt
  ⟨⟨_, ht⟩, flush1_6 _, Finset.mem_map.2 ⟨ix2 (⟨(i 0).val % 2000, Nat.mod_lt _ (by decide)⟩ : Fin 2000) (i 1 : Fin 32), Finset.mem_univ _,
    blk1 win1_6 id ⟨_, ht⟩ _ i (rowcol1 (fun a => (blockIdx1 _ a).1.2.2.2) (Nat.div_add_mod' _ _).symm rfl)⟩⟩

theorem arr1 (c : Dev nD) : (dat1 V c).arrAt 6 cfg1.N = postArr1 V c :=
  (dat1 V c).arrAt_eq_of_cover 6 (postArr1 V c) (fun t _ => flushed1_eq V c t) cover1

end Cert.KernelIdeal.Hand
-- ==== Proof.KI.ValPost5.lean ====
import proofs.«408530_j23158463660766_2_alg».proof.Proof.KI.ValPost

namespace Cert.KernelIdeal.Hand

open Idealize.ShloMosaic Idealize.ShloMosaic.ValueIdx
open Cert.KernelIdeal

theorem post5_apply (agg h : Vec Ideal S1000x512 .f32) (dis : Vec Ideal S1000x1 .f32) (b g beta : Vec Ideal S1x512 .f32)
    (p : Fin 1000) (q : Fin 512) :
    Gen.k5_pay1 (Gen.k5_pay2 agg h dis b g) (Gen.k5_pay3 beta) (ix2 p q)
      = Cert.Math.post (Ideal.ofBits .f32 0x44000000#32) (Ideal.ofBits .f32 0x3727C5AC#32)
          (fun n k => agg (ix2 n k)) (fun n k => h (ix2 n k)) (fun n => dis (ix2 n (0 : Fin 1)))
          (fun k => b (ix2 (0 : Fin 1) k)) (fun k => g (ix2 (0 : Fin 1) k)) (fun k => beta (ix2 (0 : Fin 1) k)) p q := by
  rw [Cert.Math.post_apply]
  unfold Gen.k5_pay1 Gen.k5_pay2 Gen.k5_pay3
  simp only [addf_apply, mulf_apply, subf_apply, divf_apply, maximumf_apply, broadcast_apply, rsqrt_at,
    shapeCast_self, broadcastTo_1b_ab_apply, broadcastTo_a1_ab_apply, shapeCast_a_a1_apply,
    Ideal.ofBits_def, Ideal.ofBits_zero_f32]
  rw [laneSum_apply, laneSum_apply]
  simp only [addf_apply, mulf_apply, subf_apply, divf_apply, maximumf_apply, broadcast_apply,
    broadcastTo_1b_ab_apply, broadcastTo_a1_ab_apply, shapeCast_a_a1_apply]
  rw [laneSum_apply]
  simp only [addf_apply, mulf_apply, maximumf_apply, broadcast_apply, broadcastTo_1b_ab_apply, broadcastTo_a1_ab_apply]

end Cert.KernelIdeal.Hand
-- ==== Proof.KI.ArrPost5.lean ====
import proofs.«408530_j23158463660766_2_alg».proof.Proof.KI.Reg5
import proofs.«408530_j23158463660766_2_alg».proof.Proof.KI.ValPost5
import proofs.«408530_j23158463660766_2_alg».proof.Proof.KI.PostRow
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx (ix2 eq_ix2)

variable (V : (c : Dev nD) → (b : Ref sig .tc) → Buf (Elt Ideal) ((c : Thread nD τ).loc b))

abbrev aggArr5 (c : Dev nD) : Vec Ideal S50000x512 .f32 := V c (Pipeline.arrRef spec5 0)
abbrev selfArr5 (c : Dev nD) : Vec Ideal S50000x512 .f32 := V c (Pipeline.arrRef spec5 1)
abbrev disArr5 (c : Dev nD) : Vec Ideal S50000x1 .f32 := V c (Pipeline.arrRef spec5 2)
abbrev biasArr5 (c : Dev nD) : Vec Ideal S1x512 .f32 := V c (Pipeline.arrRef spec5 3)
abbrev gainArr5 (c : Dev nD) : Vec Ideal S1x512 .f32 := V c (Pipeline.arrRef spec5 4)
abbrev shiftArr5 (c : Dev nD) : Vec Ideal S1x512 .f32 := V c (Pipeline.arrRef spec5 5)

def postArr5 (c : Dev nD) : Vec Ideal S50000x512 .f32 := fun i =>
  Cert.Math.post (Ideal.ofBits .f32 0x44000000#32) (Ideal.ofBits .f32 0x3727C5AC#32)
    (fun (n : Fin 50000) (k : Fin 512) => aggArr5 V c (ix2 n k)) (fun (n : Fin 50000) (k : Fin 512) => selfArr5 V c (ix2 n k))
    (fun (n : Fin 50000) => disArr5 V c (ix2 n (0 : Fin 1)))
    (fun (k : Fin 512) => biasArr5 V c (ix2 (0 : Fin 1) k)) (fun (k : Fin 512) => gainArr5 V c (ix2 (0 : Fin 1) k))
    (fun (k : Fin 512) => shiftArr5 V c (ix2 (0 : Fin 1) k)) (i 0) (i 1)

theorem postArr5_apply (c : Dev nD) (n : Fin 50000) (j : Fin 512) :
    postArr5 V c (ix2 n j) = Cert.Math.post (Ideal.ofBits .f32 0x44000000#32) (Ideal.ofBits .f32 0x3727C5AC#32)
      (fun (n : Fin 50000) (k : Fin 512) => aggArr5 V c (ix2 n k)) (fun (n : Fin 50000) (k : Fin 512) => selfArr5 V c (ix2 n k))
      (fun (n : Fin 50000) => disArr5 V c (ix2 n (0 : Fin 1)))
      (fun (k : Fin 512) => biasArr5 V c (ix2 (0 : Fin 1) k)) (fun (k : Fin 512) => gainArr5 V c (ix2 (0 : Fin 1) k))
      (fun (k : Fin 512) => shiftArr5 V c (ix2 (0 : Fin 1) k)) n j := rfl

theorem zeroOff5 : (![0, 0] : Fin 2 → Nat) = fun _ => 0 := funext fun a => by fin_cases a <;> rfl

theorem blockIdx5 : ∀ (t : Fin cfg5.N) (a : Fin 2),
    (win5_0.index t a = ![t.val, 0] a ∧ win5_1.index t a = ![t.val, 0] a ∧ win5_2.index t a = ![t.val, 0] a
      ∧ win5_6.index t a = ![t.val, 0] a)
    ∧ win5_3.index t a = ![0, 0] a ∧ win5_4.index t a = ![0, 0] a ∧ win5_5.index t a = ![0, 0] a :=
  (by decide +kernel : ∀ (t : Fin grid5.N) (a : Fin 2), _)

/-- By the library's formula for the place of a block entry, used on every axis. -/
theorem blk5 {α : Type} {G : Pipeline.Grid} (w : Pipeline.Window sig G) (f : w.shape.Idx → α) (t : Fin G.N)
    (y : (w.xblock (G.coords t)).Idx) (i : w.shape.Idx) (h : ∀ a, (i a : ℕ) = w.index t a * w.size a + y a) :
    f ((w.rect t).emb y) = f i :=
  congrArg f (funext fun a => Fin.ext ((w.rect_emb_val t y a).trans (h a).symm))

/-- What blk5 asks, for a matrix whose block column is 0: axis 0 is the hypothesis, axis 1 adds nothing. -/
theorem rowcol5 {ix sz iv yv : Fin 2 → ℕ} {m : ℕ} (hix : ∀ a, ix a = ![m, 0] a) (h0 : iv 0 = m * sz 0 + yv 0)
    (h1 : iv 1 = yv 1) : ∀ a, iv a = ix a * sz a + yv a := by
  intro a; rw [hix a]; revert a
  exact Fin.forall_fin_two.2 ⟨h0, by show iv 1 = 0 * sz 1 + yv 1; omega⟩

/-- The row formula reads one row, and row p of point t's blocks is row t · 1000 + p of the arrays. -/
theorem flushed5_eq (c : Dev nD) (t : Fin cfg5.N) :
    (dat5 V c).flushed 6 t = ((cfg5.win 6).blk t).view.read (Elt Ideal) (postArr5 V c) := by
  show (cfg5.win 6).cut (grid5.coords t) ((dat5 V c).after 6 t) = _
  rw [after5_6, out5_6, View.canon_unit_zero zeroOff5]
  simp only [View.ld_unit_zero (S := S1000x512) zeroOff5, View.ld_unit_zero (S := S1000x1) zeroOff5, View.ld_unit_zero (S := S1x512) zeroOff5]
  funext y
  obtain ⟨p, q, rfl⟩ : ∃ (p : Fin 1000) (q : Fin 512), y = ix2 p q := ⟨y 0, y 1, eq_ix2 y⟩
  have ht : t.val < 50 := t.isLt
  let n : Fin 50000 := ⟨t.val * 1000 + p.val, by omega⟩
  have e := blockIdx5 t
  exact ((post5_apply _ _ _ _ _ _ p q).trans (Cert.Math.post_row_congr _ _ _ _ _ _ _ _ _ _ _ _ _ _ p n q q
    (fun k => blk5 win5_0 (aggArr5 V c) t (ix2 p k) (ix2 n k) (rowcol5 (fun a => (e a).1.1) rfl rfl))
    (fun k => blk5 win5_1 (selfArr5 V c) t (ix2 p k) (ix2 n k) (rowcol5 (fun a => (e a).1.2.1) rfl rfl))
    (blk5 win5_2 (disArr5 V c) t (ix2 p 0) (ix2 n 0) (rowcol5 (fun a => (e a).1.2.2.1) rfl rfl))
    (fun k => blk5 win5_3 (biasArr5 V c) t (ix2 0 k) (ix2 0 k) (rowcol5 (fun a => (e a).2.1) rfl rfl))
    (fun k => blk5 win5_4 (gainArr5 V c) t (ix2 0 k) (ix2 0 k) (rowcol5 (fun a => (e a).2.2.1) rfl rfl))
    (fun k => blk5 win5_5 (shiftArr5 V c) t (ix2 0 k) (ix2 0 k) (rowcol5 (fun a => (e a).2.2.2) rfl rfl)) rfl)).trans
    (blk5 win5_6 (postArr5 V c) t (ix2 p q) (ix2 n q) (rowcol5 (fun a => (e a).1.2.2.2) rfl rfl)).symm

/-- Row r of the output is row r % 1000 of the block of point r / 1000. -/
theorem cover5 (i : S50000x512.Idx) : ∃ t : Fin cfg5.N, (cfg5.win 6).flush t = true ∧ i ∈ ((cfg5.win 6).blk t).view.set :=
  have ht : (i 0).val / 1000 < 50 := Nat.div_lt_of_lt_mul (i 0).isLt
  ⟨⟨_, ht⟩, flush5_6 _, Finset.mem_map.2 ⟨ix2 (⟨(i 0).val % 1000, Nat.mod_lt _ (by decide)⟩ : Fin 1000) (i 1 : Fin 512), Finset.mem_univ _,
    blk5 win5_6 id ⟨_, ht⟩ _ i (rowcol5 (fun a => (blockIdx5 _ a).1.2.2.2) (Nat.div_add_mod' _ _).symm rfl)⟩⟩

theorem arr5 (c : Dev nD) : (dat5 V c).arrAt 6 cfg5.N = postArr5 V c :=
  (dat5 V c).arrAt_eq_of_cover 6 (postArr5 V c) (fun t _ => flushed5_eq V c t) cover5

end Cert.KernelIdeal.Hand
-- ==== Proof.KI.ValPost7.lean ====
import proofs.«408530_j23158463660766_2_alg».proof.Proof.KI.ValPost

namespace Cert.KernelIdeal.Hand

open Idealize.ShloMosaic Idealize.ShloMosaic.ValueIdx
open Cert.KernelIdeal

theorem post7_apply (agg h : Vec Ideal S2000x256 .f32) (dis : Vec Ideal S2000x1 .f32) (b g beta : Vec Ideal S1x256 .f32)
    (p : Fin 2000) (q : Fin 256) :
    Gen.k7_pay1 (Gen.k7_pay2 agg h dis b g) (Gen.k7_pay3 beta) (ix2 p q)
      = Cert.Math.post (Ideal.ofBits .f32 0x43800000#32) (Ideal.ofBits .f32 0x3727C5AC#32)
          (fun n k => agg (ix2 n k)) (fun n k => h (ix2 n k)) (fun n => dis (ix2 n (0 : Fin 1)))
          (fun k => b (ix2 (0 : Fin 1) k)) (fun k => g (ix2 (0 : Fin 1) k)) (fun k => beta (ix2 (0 : Fin 1) k)) p q := by
  rw [Cert.Math.post_apply]
  unfold Gen.k7_pay1 Gen.k7_pay2 Gen.k7_pay3
  simp only [addf_apply, mulf_apply, subf_apply, divf_apply, maximumf_apply, broadcast_apply, rsqrt_at,
    shapeCast_self, broadcastTo_1b_ab_apply, broadcastTo_a1_ab_apply, shapeCast_a_a1_apply,
    Ideal.ofBits_def, Ideal.ofBits_zero_f32]
  rw [laneSum_apply, laneSum_apply]
  simp only [addf_apply, mulf_apply, subf_apply, divf_apply, maximumf_apply, broadcast_apply,
    broadcastTo_1b_ab_apply, broadcastTo_a1_ab_apply, shapeCast_a_a1_apply]
  rw [laneSum_apply]
  simp only [addf_apply, mulf_apply, maximumf_apply, broadcast_apply, broadcastTo_1b_ab_apply, broadcastTo_a1_ab_apply]

end Cert.KernelIdeal.Hand
-- ==== Proof.KI.ArrPost7.lean ====
import proofs.«408530_j23158463660766_2_alg».proof.Proof.KI.Reg7
import proofs.«408530_j23158463660766_2_alg».proof.Proof.KI.ValPost7
import proofs.«408530_j23158463660766_2_alg».proof.Proof.KI.PostRow
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx (ix2 eq_ix2)

variable (V : (c : Dev nD) → (b : Ref sig .tc) → Buf (Elt Ideal) ((c : Thread nD τ).loc b))

abbrev aggArr7 (c : Dev nD) : Vec Ideal S50000x256 .f32 := V c (Pipeline.arrRef spec7 0)
abbrev selfArr7 (c : Dev nD) : Vec Ideal S50000x256 .f32 := V c (Pipeline.arrRef spec7 1)
abbrev disArr7 (c : Dev nD) : Vec Ideal S50000x1 .f32 := V c (Pipeline.arrRef spec7 2)
abbrev biasArr7 (c : Dev nD) : Vec Ideal S1x256 .f32 := V c (Pipeline.arrRef spec7 3)
abbrev gainArr7 (c : Dev nD) : Vec Ideal S1x256 .f32 := V c (Pipeline.arrRef spec7 4)
abbrev shiftArr7 (c : Dev nD) : Vec Ideal S1x256 .f32 := V c (Pipeline.arrRef spec7 5)

def postArr7 (c : Dev nD) : Vec Ideal S50000x256 .f32 := fun i =>
  Cert.Math.post (Ideal.ofBits .f32 0x43800000#32) (Ideal.ofBits .f32 0x3727C5AC#32)
    (fun (n : Fin 50000) (k : Fin 256) => aggArr7 V c (ix2 n k)) (fun (n : Fin 50000) (k : Fin 256) => selfArr7 V c (ix2 n k))
    (fun (n : Fin 50000) => disArr7 V c (ix2 n (0 : Fin 1)))
    (fun (k : Fin 256) => biasArr7 V c (ix2 (0 : Fin 1) k)) (fun (k : Fin 256) => gainArr7 V c (ix2 (0 : Fin 1) k))
    (fun (k : Fin 256) => shiftArr7 V c (ix2 (0 : Fin 1) k)) (i 0) (i 1)

theorem postArr7_apply (c : Dev nD) (n : Fin 50000) (j : Fin 256) :
    postArr7 V c (ix2 n j) = Cert.Math.post (Ideal.ofBits .f32 0x43800000#32) (Ideal.ofBits .f32 0x3727C5AC#32)
      (fun (n : Fin 50000) (k : Fin 256) => aggArr7 V c (ix2 n k)) (fun (n : Fin 50000) (k : Fin 256) => selfArr7 V c (ix2 n k))
      (fun (n : Fin 50000) => disArr7 V c (ix2 n (0 : Fin 1)))
      (fun (k : Fin 256) => biasArr7 V c (ix2 (0 : Fin 1) k)) (fun (k : Fin 256) => gainArr7 V c (ix2 (0 : Fin 1) k))
      (fun (k : Fin 256) => shiftArr7 V c (ix2 (0 : Fin 1) k)) n j := rfl

theorem zeroOff7 : (![0, 0] : Fin 2 → Nat) = fun _ => 0 := funext fun a => by fin_cases a <;> rfl

theorem blockIdx7 : ∀ (t : Fin cfg7.N) (a : Fin 2),
    (win7_0.index t a = ![t.val, 0] a ∧ win7_1.index t a = ![t.val, 0] a ∧ win7_2.index t a = ![t.val, 0] a
      ∧ win7_6.index t a = ![t.val, 0] a)
    ∧ win7_3.index t a = ![0, 0] a ∧ win7_4.index t a = ![0, 0] a ∧ win7_5.index t a = ![0, 0] a :=
  (by decide +kernel : ∀ (t : Fin grid7.N) (a : Fin 2), _)

/-- By the library's formula for the place of a block entry, used on every axis. -/
theorem blk7 {α : Type} {G : Pipeline.Grid} (w : Pipeline.Window sig G) (f : w.shape.Idx → α) (t : Fin G.N)
    (y : (w.xblock (G.coords t)).Idx) (i : w.shape.Idx) (h : ∀ a, (i a : ℕ) = w.index t a * w.size a + y a) :
    f ((w.rect t).emb y) = f i :=
  congrArg f (funext fun a => Fin.ext ((w.rect_emb_val t y a).trans (h a).symm))

/-- What blk7 asks, for a matrix whose block column is 0: axis 0 is the hypothesis, axis 1 adds nothing. -/
theorem rowcol7 {ix sz iv yv : Fin 2 → ℕ} {m : ℕ} (hix : ∀ a, ix a = ![m, 0] a) (h0 : iv 0 = m * sz 0 + yv 0)
    (h1 : iv 1 = yv 1) : ∀ a, iv a = ix a * sz a + yv a := by
  intro a; rw [hix a]; revert a
  exact Fin.forall_fin_two.2 ⟨h0, by show iv 1 = 0 * sz 1 + yv 1; omega⟩

/-- The row formula reads one row, and row p of point t's blocks is row t · 2000 + p of the arrays. -/
theorem flushed7_eq (c : Dev nD) (t : Fin cfg7.N) :
    (dat7 V c).flushed 6 t = ((cfg7.win 6).blk t).view.read (Elt Ideal) (postArr7 V c) := by
  show (cfg7.win 6).cut (grid7.coords t) ((dat7 V c).after 6 t) = _
  rw [after7_6, out7_6, View.canon_unit_zero zeroOff7]
  simp only [View.ld_unit_zero (S := S2000x256) zeroOff7, View.ld_unit_zero (S := S2000x1) zeroOff7, View.ld_unit_zero (S := S1x256) zeroOff7]
  funext y
  obtain ⟨p, q, rfl⟩ : ∃ (p : Fin 2000) (q : Fin 256), y = ix2 p q := ⟨y 0, y 1, eq_ix2 y⟩
  have ht : t.val < 25 := t.isLt
  let n : Fin 50000 := ⟨t.val * 2000 + p.val, by omega⟩
  have e := blockIdx7 t
  exact ((post7_apply _ _ _ _ _ _ p q).trans (Cert.Math.post_row_congr _ _ _ _ _ _ _ _ _ _ _ _ _ _ p n q q
    (fun k => blk7 win7_0 (aggArr7 V c) t (ix2 p k) (ix2 n k) (rowcol7 (fun a => (e a).1.1) rfl rfl))
    (fun k => blk7 win7_1 (selfArr7 V c) t (ix2 p k) (ix2 n k) (rowcol7 (fun a => (e a).1.2.1) rfl rfl))
    (blk7 win7_2 (disArr7 V c) t (ix2 p 0) (ix2 n 0) (rowcol7 (fun a => (e a).1.2.2.1) rfl rfl))
    (fun k => blk7 win7_3 (biasArr7 V c) t (ix2 0 k) (ix2 0 k) (rowcol7 (fun a => (e a).2.1) rfl rfl))
    (fun k => blk7 win7_4 (gainArr7 V c) t (ix2 0 k) (ix2 0 k) (rowcol7 (fun a => (e a).2.2.1) rfl rfl))
    (fun k => blk7 win7_5 (shiftArr7 V c) t (ix2 0 k) (ix2 0 k) (rowcol7 (fun a => (e a).2.2.2) rfl rfl)) rfl)).trans
    (blk7 win7_6 (postArr7 V c) t (ix2 p q) (ix2 n q) (rowcol7 (fun a => (e a).1.2.2.2) rfl rfl)).symm

/-- Row r of the output is row r % 2000 of the block of point r / 2000. -/
theorem cover7 (i : S50000x256.Idx) : ∃ t : Fin cfg7.N, (cfg7.win 6).flush t = true ∧ i ∈ ((cfg7.win 6).blk t).view.set :=
  have ht : (i 0).val / 2000 < 25 := Nat.div_lt_of_lt_mul (i 0).isLt
  ⟨⟨_, ht⟩, flush7_6 _, Finset.mem_map.2 ⟨ix2 (⟨(i 0).val % 2000, Nat.mod_lt _ (by decide)⟩ : Fin 2000) (i 1 : Fin 256), Finset.mem_univ _,
    blk7 win7_6 id ⟨_, ht⟩ _ i (rowcol7 (fun a => (blockIdx7 _ a).1.2.2.2) (Nat.div_add_mod' _ _).symm rfl)⟩⟩

theorem arr7 (c : Dev nD) : (dat7 V c).arrAt 6 cfg7.N = postArr7 V c :=
  (dat7 V c).arrAt_eq_of_cover 6 (postArr7 V c) (fun t _ => flushed7_eq V c t) cover7

end Cert.KernelIdeal.Hand
-- ==== Proof.KI.ValMatmul.lean ====
import proofs.«408530_j23158463660766_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem

/-- A plain matrix product's contraction sum, re-indexed by its one contracted coordinate. -/
theorem sum_mm {M K N : ℕ} {R : Type} [AddCommMonoid R] (d : DotDims ⟨2, ![M, K]⟩ ⟨2, ![K, N]⟩ ⟨2, ![M, N]⟩)
    (hr : d.contr.rank = 1) (hs : d.contr.size ⟨0, by omega⟩ = K) (hl : d.lhsContracting = [1]) (hc : d.rhsContracting = [0])
    (hl0 : ∀ i q, (d.lhsIdx i q 0).val = (i 0).val) (hr1 : ∀ i q, (d.rhsIdx i q 1).val = (i 1).val)
    (f : (⟨2, ![M, K]⟩ : Shape).Idx → (⟨2, ![K, N]⟩ : Shape).Idx → R) (p : Fin M) (q : Fin N) :
    ∑ k : d.contr.Idx, f (d.lhsIdx (ValueIdx.ix2 p q) k) (d.rhsIdx (ValueIdx.ix2 p q) k)
      = ∑ k : Fin K, f (ValueIdx.ix2 p k) (ValueIdx.ix2 k q) := by
  rw [← Equiv.sum_comp (ValueIdx.contrEquiv1 d K hr hs).symm]
  refine Finset.sum_congr rfl fun k _ => ?_
  have hk := ValueIdx.contrEquiv1_symm_val d K hr hs k
  rw [show d.lhsIdx (ValueIdx.ix2 p q) ((ValueIdx.contrEquiv1 d K hr hs).symm k) = ValueIdx.ix2 p k from
      Shape.idx_ext₂ (hl0 _ _) ((d.lhsIdx_val_of_single hl _ _).trans hk),
    show d.rhsIdx (ValueIdx.ix2 p q) ((ValueIdx.contrEquiv1 d K hr hs).symm k) = ValueIdx.ix2 k q from
      Shape.idx_ext₂ ((d.rhsIdx_val_of_single hc _ _).trans hk) (hr1 _ _)]

theorem k3_pay1_apply (v0 : Vec Ideal S2000x256 .f32) (v3 : Vec Ideal S256x512 .f32) (p : Fin 2000) (q : Fin 512) :
    k3_pay1 (F := Ideal) v0 v3 (ValueIdx.ix2 p q) = ∑ k : Fin 256, v0 (ValueIdx.ix2 p k) * v3 (ValueIdx.ix2 k q) := by
  unfold k3_pay1
  simp only [matmul]
  rw [Ideal.matmul_constant_zero_apply]
  simp only [ValueIdx.truncf_apply, shapeCast_self]
  exact sum_mm dot_S2000x256_S256x512_S2000x512_1_0_0_1_n_n rfl rfl rfl rfl (fun _ _ => rfl) (fun _ _ => rfl) (fun a b => v0 a * v3 b) p q

theorem k4_pay1_apply (v0 : Vec Ideal S2000x256 .f32) (v2 : Vec Ideal S256x512 .f32) (p : Fin 2000) (q : Fin 512) :
    k4_pay1 (F := Ideal) v0 v2 (ValueIdx.ix2 p q) = ∑ k : Fin 256, v0 (ValueIdx.ix2 p k) * v2 (ValueIdx.ix2 k q) := by
  unfold k4_pay1
  simp only [matmul]
  rw [Ideal.matmul_constant_zero_apply]
  simp only [ValueIdx.truncf_apply]
  exact sum_mm dot_S2000x256_S256x512_S2000x512_1_0_0_1_n_n rfl rfl rfl rfl (fun _ _ => rfl) (fun _ _ => rfl) (fun a b => v0 a * v2 b) p q

theorem k6_pay1_apply (v0 : Vec Ideal S2000x512 .f32) (v3 : Vec Ideal S512x256 .f32) (p : Fin 2000) (q : Fin 256) :
    k6_pay1 (F := Ideal) v0 v3 (ValueIdx.ix2 p q) = ∑ k : Fin 512, v0 (ValueIdx.ix2 p k) * v3 (ValueIdx.ix2 k q) := by
  unfold k6_pay1
  simp only [matmul]
  rw [Ideal.matmul_constant_zero_apply]
  simp only [ValueIdx.truncf_apply, shapeCast_self]
  exact sum_mm dot_S2000x512_S512x256_S2000x256_1_0_0_1_n_n rfl rfl rfl rfl (fun _ _ => rfl) (fun _ _ => rfl) (fun a b => v0 a * v3 b) p q

end Cert.KernelIdeal.Hand
-- ==== Proof.KI.ArrMatmul4.lean ====
import proofs.«408530_j23158463660766_2_alg».proof.Proof.KI.Reg4
import proofs.«408530_j23158463660766_2_alg».proof.Proof.KI.ValMatmul
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx (ix2 eq_ix2)

variable (V : (c : Dev nD) → (b : Ref sig .tc) → Buf (Elt Ideal) ((c : Thread nD τ).loc b))

abbrev xarr4 (c : Dev nD) : Vec Ideal S50000x256 .f32 := V c (Pipeline.arrRef spec4 0)
abbrev warr4 (c : Dev nD) : Vec Ideal S256x512 .f32 := V c (Pipeline.arrRef spec4 1)

def prod4 (c : Dev nD) : Vec Ideal S50000x512 .f32 :=
  fun i => ∑ k : Fin 256, xarr4 V c (ix2 (i 0) k) * warr4 V c (ix2 k (i 1))

theorem zeroOff4 : (![0, 0] : Fin 2 → Nat) = fun _ => 0 := funext fun a => by fin_cases a <;> rfl

/-- The block indices the embeddings below are computed from. -/
theorem blockIdx4 : ∀ t : Fin cfg4.N, (win4_2.index t 0 = t.val ∧ win4_2.index t 1 = 0)
    ∧ (win4_0.index t 0 = t.val ∧ win4_0.index t 1 = 0) ∧ ∀ a, win4_1.index t a = 0 :=
  (by decide +kernel : ∀ t : Fin grid4.N, _)

def row4 (t : Fin 25) (p : Fin 2000) : Fin 50000 := ⟨t.val * 2000 + p.val, by omega⟩

/-- Row p of the block at point t is row t · 2000 + p of the array: the block index times the block's rows, plus p. -/
theorem xblock4_apply (c : Dev nD) (t : Fin cfg4.N) (p : Fin 2000) (k : Fin 256) :
    (iblk4 V c 0 t : Vec Ideal S2000x256 .f32) (ix2 p k) = xarr4 V c (ix2 (row4 t p) k) :=
  congrArg (xarr4 V c) (Shape.idx_ext₂
    ((win4_0.rect_emb_val t (ix2 p k) 0).trans (by rw [(blockIdx4 t).2.1.1]; rfl))
    (win4_0.rect_emb_val_of_index_zero t 1 (blockIdx4 t).2.1.2 (ix2 p k)))

theorem oemb4 (t : Fin cfg4.N) (p : Fin 2000) (q : Fin 512) :
    ((cfg4.win 2).blk t).view.emb (ix2 p q) = ix2 (row4 t p) q :=
  Shape.idx_ext₂ ((win4_2.rect_emb_val t (ix2 p q) 0).trans (by rw [(blockIdx4 t).1.1]; rfl))
    (win4_2.rect_emb_val_of_index_zero t 1 (blockIdx4 t).1.2 (ix2 p q))

/-- Block index zero on every axis: W's block is W. -/
theorem wblock4_apply (c : Dev nD) (t : Fin cfg4.N) (y : S256x512.Idx) :
    (iblk4 V c 1 t : Vec Ideal S256x512 .f32) y = warr4 V c y :=
  congrArg (warr4 V c) (funext fun a => Fin.ext (win4_1.rect_emb_val_of_index_zero t a ((blockIdx4 t).2.2 a) y))

/-- The block product read entry by entry, each factor read through its block. -/
theorem flushed4_eq (c : Dev nD) (t : Fin cfg4.N) :
    (dat4 V c).flushed 2 t = ((cfg4.win 2).blk t).view.read (Elt Ideal) (prod4 V c) := by
  show (cfg4.win 2).cut (grid4.coords t) ((dat4 V c).after 2 t) = _
  rw [after4_2]
  unfold out4_2
  rw [View.canon_unit_zero zeroOff4]
  simp only [View.ld_unit_zero (S := S2000x256) zeroOff4, View.ld_unit_zero (S := S256x512) zeroOff4]
  funext y
  obtain ⟨p, q, rfl⟩ : ∃ (p : Fin 2000) (q : Fin 512), y = ix2 p q := ⟨y 0, y 1, eq_ix2 y⟩
  show k4_pay1 (iblk4 V c 0 t) (iblk4 V c 1 t) (ix2 p q) = prod4 V c (((cfg4.win 2).blk t).view.emb (ix2 p q))
  rw [oemb4, k4_pay1_apply]
  exact Finset.sum_congr rfl fun k _ => congrArg₂ (· * ·) (xblock4_apply V c t p k) (wblock4_apply V c t (ix2 k q))

/-- Every row is row t · 2000 + p for some block t and offset p, so the blocks tile the output. -/
theorem cover4 (i : S50000x512.Idx) : ∃ t : Fin cfg4.N, (cfg4.win 2).flush t = true ∧ i ∈ ((cfg4.win 2).blk t).view.set := by
  have h : (i 0).val < 50000 := (i 0).isLt
  let t : Fin cfg4.N := ⟨(i 0).val / 2000, by show _ < 25; omega⟩
  have hi : ((cfg4.win 2).blk t).view.emb (ix2 ⟨(i 0).val % 2000, Nat.mod_lt _ (by decide)⟩ (i 1)) = i :=
    (oemb4 t _ _).trans (Shape.idx_ext₂ (Nat.div_add_mod' _ _) rfl)
  exact ⟨t, flush4_2 t, hi ▸ View.emb_mem_set _ _⟩

theorem arr4 (c : Dev nD) : (dat4 V c).arrAt 2 cfg4.N = prod4 V c :=
  (dat4 V c).arrAt_eq_of_cover 2 (prod4 V c) (fun t _ => flushed4_eq V c t) cover4

end Cert.KernelIdeal.Hand
-- ==== Proof.KI.ArrMatmul6.lean ====
import proofs.«408530_j23158463660766_2_alg».proof.Proof.KI.Reg6
import proofs.«408530_j23158463660766_2_alg».proof.Proof.KI.ValMatmul
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx (ix2 eq_ix2)

variable (V : (c : Dev nD) → (b : Ref sig .tc) → Buf (Elt Ideal) ((c : Thread nD τ).loc b))

abbrev xarr6 (c : Dev nD) : Vec Ideal S50000x512 .f32 := V c (Pipeline.arrRef spec6 0)
abbrev warr6 (c : Dev nD) : Vec Ideal S512x256 .f32 := V c (Pipeline.arrRef spec6 1)

def prod6 (c : Dev nD) : Vec Ideal S50000x256 .f32 :=
  fun i => ∑ k : Fin 512, xarr6 V c (ix2 (i 0) k) * warr6 V c (ix2 k (i 1))

theorem zeroOff6 : (![0, 0] : Fin 2 → Nat) = fun _ => 0 := funext fun a => by fin_cases a <;> rfl

/-- The block indices the embeddings below are computed from. -/
theorem blockIdx6 : ∀ t : Fin cfg6.N, (win6_2.index t 0 = t.val ∧ win6_2.index t 1 = 0)
    ∧ (win6_0.index t 0 = t.val ∧ win6_0.index t 1 = 0) ∧ ∀ a, win6_1.index t a = 0 :=
  (by decide +kernel : ∀ t : Fin grid6.N, _)

def row6 (t : Fin 25) (p : Fin 2000) : Fin 50000 := ⟨t.val * 2000 + p.val, by omega⟩

/-- Row p of the block at point t is row t · 2000 + p of the array: the block index times the block's rows, plus p. -/
theorem xblock6_apply (c : Dev nD) (t : Fin cfg6.N) (p : Fin 2000) (k : Fin 512) :
    (iblk6 V c 0 t : Vec Ideal S2000x512 .f32) (ix2 p k) = xarr6 V c (ix2 (row6 t p) k) :=
  congrArg (xarr6 V c) (Shape.idx_ext₂
    ((win6_0.rect_emb_val t (ix2 p k) 0).trans (by rw [(blockIdx6 t).2.1.1]; rfl))
    (win6_0.rect_emb_val_of_index_zero t 1 (blockIdx6 t).2.1.2 (ix2 p k)))

theorem oemb6 (t : Fin cfg6.N) (p : Fin 2000) (q : Fin 256) :
    ((cfg6.win 2).blk t).view.emb (ix2 p q) = ix2 (row6 t p) q :=
  Shape.idx_ext₂ ((win6_2.rect_emb_val t (ix2 p q) 0).trans (by rw [(blockIdx6 t).1.1]; rfl))
    (win6_2.rect_emb_val_of_index_zero t 1 (blockIdx6 t).1.2 (ix2 p q))

/-- Block index zero on every axis: W's block is W. -/
theorem wblock6_apply (c : Dev nD) (t : Fin cfg6.N) (y : S512x256.Idx) :
    (iblk6 V c 1 t : Vec Ideal S512x256 .f32) y = warr6 V c y :=
  congrArg (warr6 V c) (funext fun a => Fin.ext (win6_1.rect_emb_val_of_index_zero t a ((blockIdx6 t).2.2 a) y))

/-- The block product read entry by entry, each factor read through its block. -/
theorem flushed6_eq (c : Dev nD) (t : Fin cfg6.N) :
    (dat6 V c).flushed 2 t = ((cfg6.win 2).blk t).view.read (Elt Ideal) (prod6 V c) := by
  show (cfg6.win 2).cut (grid6.coords t) ((dat6 V c).after 2 t) = _
  rw [after6_2]
  unfold out6_2
  rw [View.canon_unit_zero zeroOff6]
  simp only [View.ld_unit_zero (S := S2000x512) zeroOff6, View.ld_unit_zero (S := S512x256) zeroOff6]
  funext y
  obtain ⟨p, q, rfl⟩ : ∃ (p : Fin 2000) (q : Fin 256), y = ix2 p q := ⟨y 0, y 1, eq_ix2 y⟩
  show k6_pay1 (iblk6 V c 0 t) (iblk6 V c 1 t) (ix2 p q) = prod6 V c (((cfg6.win 2).blk t).view.emb (ix2 p q))
  rw [oemb6, k6_pay1_apply]
  exact Finset.sum_congr rfl fun k _ => congrArg₂ (· * ·) (xblock6_apply V c t p k) (wblock6_apply V c t (ix2 k q))

/-- Every row is row t · 2000 + p for some block t and offset p, so the blocks tile the output. -/
theorem cover6 (i : S50000x256.Idx) : ∃ t : Fin cfg6.N, (cfg6.win 2).flush t = true ∧ i ∈ ((cfg6.win 2).blk t).view.set := by
  have h : (i 0).val < 50000 := (i 0).isLt
  let t : Fin cfg6.N := ⟨(i 0).val / 2000, by show _ < 25; omega⟩
  have hi : ((cfg6.win 2).blk t).view.emb (ix2 ⟨(i 0).val % 2000, Nat.mod_lt _ (by decide)⟩ (i 1)) = i :=
    (oemb6 t _ _).trans (Shape.idx_ext₂ (Nat.div_add_mod' _ _) rfl)
  exact ⟨t, flush6_2 t, hi ▸ View.emb_mem_set _ _⟩

theorem arr6 (c : Dev nD) : (dat6 V c).arrAt 2 cfg6.N = prod6 V c :=
  (dat6 V c).arrAt_eq_of_cover 2 (prod6 V c) (fun t _ => flushed6_eq V c t) cover6

end Cert.KernelIdeal.Hand
-- ==== Proof.Math.Finite.lean ====
import Idealize.ShloMosaic.PureOps.Ideal.Laws
import Mathlib.Data.EReal.Operations

noncomputable section

open scoped BigOperators
open Idealize.ShloMosaic

namespace Cert.Math

def IsReal (x : EReal) : Prop := ∃ r : ℝ, x = (r : EReal)

theorem isReal_coe (r : ℝ) : IsReal (r : EReal) := ⟨r, rfl⟩

theorem isReal_zero : IsReal 0 := ⟨0, EReal.coe_zero.symm⟩
theorem isReal_one : IsReal 1 := ⟨1, EReal.coe_one.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.relu {x : EReal} (hx : IsReal x) : IsReal (Max.max x 0) := by
  rcases max_choice x 0 with h | h <;> rw [h] <;> [exact hx; exact isReal_zero]

@[norm_cast] theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i ∈ s, IsReal (f i)) :
    IsReal (∑ i ∈ s, f i) :=
  Finset.sum_induction f IsReal (fun _ _ => IsReal.add) isReal_zero h

theorem IsReal.sum_univ {ι : Type*} [Fintype ι] (f : ι → EReal) (h : ∀ i, IsReal (f i)) :
    IsReal (∑ i, f i) := IsReal.sum _ f fun i _ => h i

theorem IsReal.div_coe {x : EReal} (hx : IsReal x) {c : ℝ} (hc : c ≠ 0) : IsReal (Ideal.div x (c : EReal)) := by
  rw [Ideal.div_coe hc]; exact hx.mul (isReal_coe _)

theorem IsReal.div {x y : EReal} (hx : IsReal x) (hy : IsReal y) (h0 : y ≠ 0) : IsReal (Ideal.div x y) := by
  obtain ⟨c, rfl⟩ := hy
  exact hx.div_coe (by rintro rfl; exact h0 EReal.coe_zero)

def IsPos (x : EReal) : Prop := ∃ r : ℝ, 0 < r ∧ x = (r : EReal)

theorem IsPos.isReal {x : EReal} (h : IsPos x) : IsReal x := by
  obtain ⟨r, _, rfl⟩ := h; exact ⟨r, rfl⟩

theorem IsReal.isPos {x : EReal} (hx : IsReal x) (h : 0 < x) : IsPos x := by
  obtain ⟨r, rfl⟩ := hx; exact ⟨r, EReal.coe_pos.1 h, rfl⟩

theorem IsPos.add {x y : EReal} (hx : IsPos x) (hy : IsPos y) : IsPos (x + y) := by
  obtain ⟨a, ha, rfl⟩ := hx; obtain ⟨b, hb, rfl⟩ := hy
  exact ⟨a + b, add_pos ha hb, (EReal.coe_add a b).symm⟩

theorem IsPos.mul {x y : EReal} (hx : IsPos x) (hy : IsPos y) : IsPos (x * y) := by
  obtain ⟨a, ha, rfl⟩ := hx; obtain ⟨b, hb, rfl⟩ := hy
  exact ⟨a * b, mul_pos ha hb, (EReal.coe_mul a b).symm⟩

theorem IsPos.nonneg_add {x y : EReal} (hx : IsReal x) (h0 : 0 ≤ x) (hy : IsPos y) : IsPos (x + y) := by
  obtain ⟨a, rfl⟩ := hx; obtain ⟨b, hb, rfl⟩ := hy
  exact ⟨a + b, add_pos_of_nonneg_of_pos (EReal.coe_nonneg.1 h0) hb, (EReal.coe_add a b).symm⟩

theorem IsReal.mul_self_nonneg {x : EReal} (hx : IsReal x) : 0 ≤ x * x := by
  obtain ⟨a, rfl⟩ := hx
  rw [← EReal.coe_mul]; exact EReal.coe_nonneg.2 (_root_.mul_self_nonneg a)

theorem IsPos.sum {ι : Type*} (s : Finset ι) (hs : s.Nonempty) (f : ι → EReal) (h : ∀ i ∈ s, IsPos (f i)) :
    IsPos (∑ i ∈ s, f i) :=
  Finset.sum_induction_nonempty f IsPos (fun _ _ => IsPos.add) hs h

theorem IsReal.exp {x : EReal} (hx : IsReal x) : IsPos (Ideal.exp x) := by
  obtain ⟨a, rfl⟩ := hx
  exact ⟨Real.exp a, Real.exp_pos a, Ideal.exp_coe a⟩

theorem IsPos.rsqrt {x : EReal} (hx : IsPos x) : IsPos (Ideal.rsqrt x) := by
  obtain ⟨a, ha, rfl⟩ := hx
  refine ⟨(Real.sqrt a)⁻¹, inv_pos.2 (Real.sqrt_pos.2 ha), ?_⟩
  rw [Ideal.rsqrt_coe, if_neg (not_lt.2 ha.le), if_neg ha.ne']

theorem IsReal.div_pos {x y : EReal} (hx : IsReal x) (hy : IsPos y) : IsReal (Ideal.div x y) :=
  hx.div hy.isReal (by obtain ⟨r, hr, rfl⟩ := hy; exact (EReal.coe_pos.2 hr).ne')

theorem IsPos.div {x y : EReal} (hx : IsPos x) (hy : IsPos y) : IsPos (Ideal.div x y) := by
  obtain ⟨a, ha, rfl⟩ := hx; obtain ⟨b, hb, rfl⟩ := hy
  rw [Ideal.div_coe hb.ne', ← EReal.coe_mul]
  exact ⟨a * (1 / b), mul_pos ha (one_div_pos.2 hb), rfl⟩

theorem select_cmpf_ogt_zero {φ : FTy} (d a b : Ideal φ) :
    Scalar.select (FloatOps.cmpf (F := Ideal) .ogt d (0 : EReal)) a b = if (0 : EReal) < d then a else b := by
  rw [Ideal.cmpf_def]; by_cases h : (0 : EReal) < d <;> simp [Scalar.select, Ideal.cmp, h]

theorem ofBits_f32_one : Ideal.ofBits .f32 0x3F800000#32 = ((1 : ℝ) : EReal) := by
  simp [Ideal.ofBits, Ideal.ieee, -EReal.coe_mul]; norm_num

theorem isPos_ofBits_f32_16 : IsPos (Ideal.ofBits .f32 0x41800000#32) :=
  ⟨16, by norm_num, by simp [Ideal.ofBits, Ideal.ieee, -EReal.coe_mul]; norm_num⟩
theorem isPos_ofBits_f32_eps : IsPos (Ideal.ofBits .f32 0x3727C5AC#32) :=
  ⟨10995116 * 2 ^ (-40 : ℤ), by positivity, by simp [Ideal.ofBits, Ideal.ieee, -EReal.coe_mul]⟩

end Cert.Math

end
-- ==== Proof.Math.AggFirst.lean ====
import proofs.«408530_j23158463660766_2_alg».proof.Proof.Math.Finite

noncomputable section

open scoped BigOperators

namespace Cert.Math

variable {E K : Type*} [Fintype K]

theorem aggFirst_sum (S : Finset E) (a : E → K → EReal) (c : E → EReal) (W : K → EReal)
    (ha : ∀ e k, IsReal (a e k)) (hc : ∀ e, IsReal (c e)) (hW : ∀ k, IsReal (W k)) :
    ∑ e ∈ S, (∑ k, a e k * W k) * c e = ∑ k, (∑ e ∈ S, a e k * c e) * W k := by
  choose a' ha' using ha
  choose c' hc' using hc
  choose W' hW' using hW
  obtain rfl : a = fun e k => ((a' e k : ℝ) : EReal) := funext fun e => funext fun k => ha' e k
  obtain rfl : c = fun e => ((c' e : ℝ) : EReal) := funext hc'
  obtain rfl : W = fun k => ((W' k : ℝ) : EReal) := funext hW'
  have hreal : ∑ e ∈ S, (∑ k, a' e k * W' k) * c' e = ∑ k, (∑ e ∈ S, a' e k * c' e) * W' k := by
    simp only [Finset.sum_mul]
    rw [Finset.sum_comm]
    exact Finset.sum_congr rfl fun k _ => Finset.sum_congr rfl fun e _ => by ring
  beta_reduce
  exact_mod_cast hreal

theorem aggFirst {nE nN nK nJ : ℕ} (r : Fin nE → Option (Fin nN)) (s : Fin nE → Fin nN)
    (x : Fin nN → Fin nK → EReal) (nrm : Fin nE → EReal) (W : Fin nK → Fin nJ → EReal)
    (hx : ∀ n k, IsReal (x n k)) (hn : ∀ e, IsReal (nrm e)) (hW : ∀ k j, IsReal (W k j)) (n : Fin nN) (j : Fin nJ) :
    (∑ e, if r e = some n then (∑ k, x (s e) k * W k j) * nrm e else 0)
      = ∑ k, (∑ e, if r e = some n then x (s e) k * nrm e else 0) * W k j := by
  simp only [← Finset.sum_filter]
  exact aggFirst_sum _ (fun e k => x (s e) k) nrm (fun k => W k j) (fun e k => hx (s e) k) hn fun k => hW k j

end Cert.Math

end
-- ==== Proof.Math.Net.lean ====
import proofs.«408530_j23158463660766_2_alg».proof.Proof.Math.Spec
import proofs.«408530_j23158463660766_2_alg».proof.Proof.Math.Finite
import proofs.«408530_j23158463660766_2_alg».proof.Proof.Math.AggFirst
import Mathlib.Algebra.Order.BigOperators.Group.Finset
import Mathlib.Data.Fintype.BigOperators
import Mathlib.Logic.Equiv.Fin.Basic

noncomputable section

namespace Cert.Math

open Idealize.ShloMosaic

structure Edges (E N : ℕ) where
  src : Fin E → Fin N
  dst : Fin E → Option (Fin N)

variable {E N K J : ℕ}

def msgs (G : Edges E N) (x : Fin N → Fin K → EReal) (nrm : Fin E → EReal) (e : Fin E) (k : Fin K) : EReal :=
  x (G.src e) k * nrm e

def aggThenMap (G : Edges E N) (x : Fin N → Fin K → EReal) (nrm : Fin E → EReal) (W : Fin K → Fin J → EReal) :
    Fin N → Fin J → EReal :=
  mm (segSum G.dst (msgs G x nrm)) W

def mapThenAgg (G : Edges E N) (x : Fin N → Fin K → EReal) (nrm : Fin E → EReal) (W : Fin K → Fin J → EReal) :
    Fin N → Fin J → EReal :=
  segSum G.dst (msgs G (mm x W) nrm)

theorem aggThenMap_eq_mapThenAgg (G : Edges E N) (x : Fin N → Fin K → EReal) (nrm : Fin E → EReal) (W : Fin K → Fin J → EReal)
    (hx : ∀ n k, IsReal (x n k)) (hn : ∀ e, IsReal (nrm e)) (hW : ∀ k j, IsReal (W k j)) :
    aggThenMap G x nrm W = mapThenAgg G x nrm W := by
  funext n j
  exact (aggFirst G.dst G.src x nrm W hx hn hW n j).symm

theorem isReal_mm (x : Fin N → Fin K → EReal) (W : Fin K → Fin J → EReal)
    (hx : ∀ n k, IsReal (x n k)) (hW : ∀ k j, IsReal (W k j)) (n : Fin N) (j : Fin J) : IsReal (mm x W n j) :=
  IsReal.sum_univ _ fun k => (hx n k).mul (hW k j)

theorem isReal_segSum {D : ℕ} (dst : Fin E → Option (Fin N)) (u : Fin E → Fin D → EReal) (hu : ∀ e q, IsReal (u e q))
    (n : Fin N) (q : Fin D) : IsReal (segSum dst u n q) :=
  IsReal.sum_univ _ fun e => by split <;> [exact hu e q; exact isReal_zero]

theorem isReal_segSum1 (dst : Fin E → Option (Fin N)) (u : Fin E → EReal) (hu : ∀ e, IsReal (u e)) (n : Fin N) :
    IsReal (segSum1 dst u n) :=
  IsReal.sum_univ _ fun e => by split <;> [exact hu e; exact isReal_zero]

theorem isReal_post {D : ℕ} (dD eps : EReal) (hD : IsPos dD) (heps : IsPos eps)
    (agg h : Fin N → Fin D → EReal) (dis : Fin N → EReal) (b g beta : Fin D → EReal)
    (hagg : ∀ n k, IsReal (agg n k)) (hh : ∀ n k, IsReal (h n k)) (hdis : ∀ n, IsReal (dis n))
    (hb : ∀ k, IsReal (b k)) (hg : ∀ k, IsReal (g k)) (hbeta : ∀ k, IsReal (beta k)) (n : Fin N) (q : Fin D) :
    IsReal (post dD eps agg h dis b g beta n q) := by
  have hr : ∀ k, IsReal (reluRow (combine agg h dis b) n k) := fun k =>
    (((hagg n k).add ((hh n k).mul ((hdis n).mul (hdis n)))).add (hb k)).relu
  unfold post
  generalize reluRow (combine agg h dis b) = r at hr ⊢
  have hmu : IsReal (rowMean dD r n) := (IsReal.sum_univ _ hr).div_pos hD
  have hd := fun k => (hr k).sub hmu
  have hsq : IsReal (∑ k, (r n k - rowMean dD r n) * (r n k - rowMean dD r n)) := IsReal.sum_univ _ fun k => (hd k).mul (hd k)
  have hsq0 : 0 ≤ ∑ k, (r n k - rowMean dD r n) * (r n k - rowMean dD r n) := Finset.sum_nonneg fun k _ => (hd k).mul_self_nonneg
  have hv : IsReal (rowVar dD r n) := hsq.div_pos hD
  have hv0 : 0 ≤ rowVar dD r n := by
    unfold rowVar
    obtain ⟨s, hs⟩ := hsq
    obtain ⟨c, hc, rfl⟩ := hD
    rw [hs] at hsq0 ⊢
    rw [Ideal.div_coe hc.ne', ← EReal.coe_mul]
    exact EReal.coe_nonneg.2 (mul_nonneg (EReal.coe_nonneg.1 hsq0) (one_div_pos.2 hc).le)
  exact (((hd q).mul (IsPos.nonneg_add hv hv0 heps).rsqrt.isReal).mul (hg q)).add (hbeta q)

theorem isReal_dis (deg : EReal) (hdeg : IsReal deg) : IsReal (if 0 < deg then Ideal.rsqrt deg else 0) := by
  split
  · next hpos => exact (hdeg.isPos hpos).rsqrt.isReal
  · exact isReal_zero

theorem isReal_softmax {H : ℕ} (z : Fin N → Fin (H + 1) → EReal) (hz : ∀ n k, IsReal (z n k)) (mx : Fin N → EReal)
    (hmx : ∀ n, IsReal (mx n)) (n : Fin N) (k : Fin (H + 1)) :
    IsReal (Ideal.div (Ideal.exp (z n k - mx n)) (∑ k', Ideal.exp (z n k' - mx n))) := by
  refine IsReal.div_pos ((hz n k).sub (hmx n)).exp.isReal ?_
  exact IsPos.sum _ Finset.univ_nonempty _ fun k' _ => ((hz n k').sub (hmx n)).exp

def oneHot {M B : ℕ} (grp : Fin M → Option (Fin B)) (n : Fin M) (b : Fin B) : EReal := if grp n = some b then 1 else 0

theorem poolSum_oneHot {M B D : ℕ} (grp : Fin M → Option (Fin B)) (x : Fin M → Fin D → EReal) (b : Fin B) (d : Fin D) :
    poolSum (oneHot grp) x b d = segSum grp x b d := by
  simp only [poolSum, segSum, oneHot, ite_mul, one_mul, zero_mul]

theorem poolCount_oneHot {M B : ℕ} (grp : Fin M → Option (Fin B)) (b : Fin B) :
    poolCount (oneHot grp) b = segSum1 grp (fun _ => 1) b := by
  unfold poolCount segSum1 oneHot
  exact Finset.sum_congr rfl fun n _ => mul_one _

end Cert.Math

end
-- ==== Proof.Math.ScatterRow.lean ====
import Idealize.ShloMosaic.Lib.ValueIdxRank1
import Idealize.ShloMosaic.Lib.StableHlo.Predicate

noncomputable section

open scoped BigOperators
open Idealize.ShloMosaic Idealize.ShloMosaic.ValueIdx

namespace Cert.Math

variable {N D E w : ℕ}

def lands (idx : IVec ⟨2, ![E, 1]⟩ w) (e : Fin E) : Option (Fin N) :=
  if h : 0 ≤ (idx (ix2 e (0 : Fin 1))).toInt ∧ (idx (ix2 e (0 : Fin 1))).toInt < (N : ℤ) then
    some ⟨(idx (ix2 e (0 : Fin 1))).toInt.toNat, by omega⟩
  else none

def clampIdx (hN : 0 < N) (idx : IVec ⟨2, ![E, 1]⟩ w) (e : Fin E) : Fin N :=
  ⟨min (idx (ix2 e (0 : Fin 1))).toInt.toNat (N - 1), by omega⟩

theorem lands_eq_some_iff (idx : IVec ⟨2, ![E, 1]⟩ w) (e : Fin E) (n : Fin N) :
    lands idx e = some n ↔
      0 ≤ (idx (ix2 e (0 : Fin 1))).toInt ∧ (idx (ix2 e (0 : Fin 1))).toInt < (N : ℤ) ∧
        (idx (ix2 e (0 : Fin 1))).toInt.toNat = n.val := by
  unfold lands
  split
  · next h =>
    rw [Option.some.injEq, Fin.ext_iff]
    exact ⟨fun h' => ⟨h.1, h.2, h'⟩, fun h' => h'.2.2⟩
  · next h => exact ⟨fun h' => (by cases h'), fun h' => absurd ⟨h'.1, h'.2.1⟩ h⟩

theorem lands_eq_some_iff_eq_ofNat (hw : 2 * N ≤ 2 ^ w) (idx : IVec ⟨2, ![E, 1]⟩ w) (e : Fin E) (n : Fin N) :
    lands idx e = some n ↔ idx (ix2 e (0 : Fin 1)) = BitVec.ofNat w n.val := by
  rw [lands_eq_some_iff]
  generalize idx (ix2 e (0 : Fin 1)) = v
  have hn := n.isLt
  have hmod : n.val % 2 ^ w = n.val := Nat.mod_eq_of_lt (by omega)
  constructor
  · rintro ⟨h0, h1, h2⟩
    have hc := BitVec.toInt_eq_toNat_cond v
    have hv := v.isLt
    apply BitVec.eq_of_toNat_eq
    rw [BitVec.toNat_ofNat, hmod]
    split at hc <;> omega
  · rintro rfl
    have hc := BitVec.toInt_eq_toNat_cond (BitVec.ofNat w n.val)
    rw [BitVec.toNat_ofNat, hmod, if_pos (by omega)] at hc
    rw [hc]
    omega

/-- An update lands on `k` exactly when its start plus its window coordinate is `k` on every axis. -/
theorem resultIdx?_eq_some_iff {s si u : Shape} (d : ScatterDims s si u) (j : u.Idx) (idx : IVec si w) (k : s.Idx) :
    d.resultIdx? j idx = some k ↔ ∀ a, d.start j idx a + (d.window j a : ℤ) = (k a).val := by
  unfold ScatterDims.resultIdx?
  split
  · next h =>
    rw [Option.some.injEq, funext_iff]
    exact forall_congr' fun a => Fin.ext_iff.trans (by have := h a; dsimp only; omega)
  · next h =>
    exact ⟨fun h' => (by cases h'), fun h' => (h fun a => by have := h' a; have := (k a).isLt; omega).elim⟩

section RowScatter

variable (d : ScatterDims ⟨2, ![N, D]⟩ ⟨2, ![E, 1]⟩ ⟨2, ![E, D]⟩) (h1 : d.updateWindowDims = [1])
  (h2 : d.insertedWindowDims = [0]) (h3 : d.scatterDimsToOperandDims = [0]) (h4 : d.indexVectorDim = 1)
include h1 h2 h3 h4

theorem start_row0 (idx : IVec ⟨2, ![E, 1]⟩ w) (e : Fin E) (q : Fin D) :
    d.start (ix2 e q) idx 0 = (idx (ix2 e (0 : Fin 1))).toInt := by
  obtain ⟨uw, iw, sd, iv, wf⟩ := d
  dsimp only at h1 h2 h3 h4
  subst h1 h2 h3 h4
  unfold ScatterDims.start
  rw [dif_pos (List.mem_singleton.mpr rfl)]
  congr 2
  funext b
  refine Fin.ext ?_
  match b with
  | ⟨0, _⟩ => rfl
  | ⟨1, _⟩ => rfl

theorem start_row1 (idx : IVec ⟨2, ![E, 1]⟩ w) (j : (⟨2, ![E, D]⟩ : Shape).Idx) :
    d.start j idx 1 = 0 := by
  unfold ScatterDims.start
  rw [dif_neg]
  rw [h3]
  show ¬ ((1 : Fin 2) ∈ [(0 : Fin 2)])
  decide

theorem window_row0 (j : (⟨2, ![E, D]⟩ : Shape).Idx) :
    d.window j 0 = 0 := by
  unfold ScatterDims.window
  rw [dif_neg]
  show ¬ ((0 : Fin 2) ∈ Shape.kept ⟨2, ![N, D]⟩ d.insertedWindowDims)
  rw [h2]
  show ¬ ((0 : Fin 2) ∈ (List.finRange 2).filter (fun a => a ∉ [(0 : Fin 2)]))
  decide

theorem window_row1 (e : Fin E) (q : Fin D) :
    d.window (ix2 e q) 1 = q.val := by
  obtain ⟨uw, iw, sd, iv, wf⟩ := d
  dsimp only at h1 h2
  subst h1 h2
  unfold ScatterDims.window
  rw [dif_pos]
  · rfl
  · show (1 : Fin 2) ∈ (List.finRange 2).filter (fun a => a ∉ [(0 : Fin 2)])
    decide

theorem resultIdx?_row_eq_some_iff (idx : IVec ⟨2, ![E, 1]⟩ w) (e : Fin E) (q q' : Fin D) (n : Fin N) :
    d.resultIdx? (ix2 e q) idx = some (ix2 n q') ↔ q = q' ∧ lands idx e = some n := by
  rw [resultIdx?_eq_some_iff, Fin.forall_fin_two, start_row0 d h1 h2 h3 h4, start_row1 d h1 h2 h3 h4,
    window_row0 d h1 h2 h3 h4, window_row1 d h1 h2 h3 h4, lands_eq_some_iff, Fin.ext_iff]
  show (_ = (n.val : ℤ) ∧ _ = (q'.val : ℤ)) ↔ _
  have := n.isLt
  omega

theorem hostScatterAdd_row (x : (⟨2, ![N, D]⟩ : Shape).Idx → EReal) (idx : IVec ⟨2, ![E, 1]⟩ w) (upd : (⟨2, ![E, D]⟩ : Shape).Idx → EReal) (n : Fin N) (q : Fin D) :
    Ideal.hostScatterAdd d x idx upd (ix2 n q)
      = x (ix2 n q) + ∑ e : Fin E, if lands idx e = some n then upd (ix2 e q) else 0 := by
  unfold Ideal.hostScatterAdd
  congr 1
  rw [Finset.sum_filter, sum_idx2]
  refine Finset.sum_congr rfl fun e _ => ?_
  by_cases hl : lands idx e = some n
  · rw [if_pos hl]
    rw [Finset.sum_eq_single q]
    · rw [if_pos ((resultIdx?_row_eq_some_iff d h1 h2 h3 h4 idx e q q n).2 ⟨rfl, hl⟩)]
    · intro q' _ hq
      rw [if_neg fun h => hq ((resultIdx?_row_eq_some_iff d h1 h2 h3 h4 idx e q' q n).1 h).1]
    · intro h; exact absurd (Finset.mem_univ q) h
  · rw [if_neg hl]
    refine Finset.sum_eq_zero fun q' _ => ?_
    rw [if_neg fun h => hl ((resultIdx?_row_eq_some_iff d h1 h2 h3 h4 idx e q' q n).1 h).2]

end RowScatter

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

section FlatScatter

variable (d : ScatterDims ⟨1, ![N]⟩ ⟨2, ![E, 1]⟩ ⟨1, ![E]⟩) (h1 : d.updateWindowDims = [])
  (h2 : d.insertedWindowDims = [0]) (h3 : d.scatterDimsToOperandDims = [0]) (h4 : d.indexVectorDim = 1)
include h1 h2 h3 h4

theorem start_flat (idx : IVec ⟨2, ![E, 1]⟩ w) (e : Fin E) :
    d.start (ix1 e) idx 0 = (idx (ix2 e (0 : Fin 1))).toInt := by
  obtain ⟨uw, iw, sd, iv, wf⟩ := d
  dsimp only at h1 h2 h3 h4
  subst h1 h2 h3 h4
  unfold ScatterDims.start
  rw [dif_pos (List.mem_singleton.mpr rfl)]
  congr 2
  funext b
  refine Fin.ext ?_
  match b with
  | ⟨0, _⟩ => rfl
  | ⟨1, _⟩ => rfl

theorem window_flat (j : (⟨1, ![E]⟩ : Shape).Idx) :
    d.window j 0 = 0 := by
  unfold ScatterDims.window
  rw [dif_neg]
  show ¬ ((0 : Fin 1) ∈ Shape.kept ⟨1, ![N]⟩ d.insertedWindowDims)
  rw [h2]
  show ¬ ((0 : Fin 1) ∈ (List.finRange 1).filter (fun a => a ∉ [(0 : Fin 1)]))
  decide

theorem resultIdx?_flat_eq_some_iff (idx : IVec ⟨2, ![E, 1]⟩ w) (e : Fin E) (n : Fin N) :
    d.resultIdx? (ix1 e) idx = some (ix1 n) ↔ lands idx e = some n := by
  rw [resultIdx?_eq_some_iff, Fin.forall_fin_one, start_flat d h1 h2 h3 h4, window_flat d h1 h2 h3 h4, lands_eq_some_iff]
  show _ = (n.val : ℤ) ↔ _
  have := n.isLt
  omega

theorem hostScatterAdd_flat (x : (⟨1, ![N]⟩ : Shape).Idx → EReal) (idx : IVec ⟨2, ![E, 1]⟩ w) (upd : (⟨1, ![E]⟩ : Shape).Idx → EReal) (n : Fin N) :
    Ideal.hostScatterAdd d x idx upd (ix1 n)
      = x (ix1 n) + ∑ e : Fin E, if lands idx e = some n then upd (ix1 e) else 0 := by
  unfold Ideal.hostScatterAdd
  congr 1
  rw [Finset.sum_filter, sum_idx1]
  refine Finset.sum_congr rfl fun e _ => ?_
  by_cases hl : lands idx e = some n
  · rw [if_pos hl, if_pos ((resultIdx?_flat_eq_some_iff d h1 h2 h3 h4 idx e n).2 hl)]
  · rw [if_neg hl, if_neg fun h => hl ((resultIdx?_flat_eq_some_iff d h1 h2 h3 h4 idx e n).1 h)]

end FlatScatter

section RowGather

variable (d : GatherDims ⟨2, ![N, D]⟩ ⟨2, ![E, 1]⟩ ⟨2, ![E, D]⟩) {α : Type} (g1 : d.offsetDims = [1])
  (g2 : d.collapsedSliceDims = [0]) (g3 : d.operandBatchingDims = []) (g4 : d.startIndicesBatchingDims = [])
  (g5 : d.startIndexMap = [0]) (g6 : d.indexVectorDim = 1) (g7 : d.sliceSizes = ![1, D])
include g1 g2 g3 g4 g5 g6 g7

theorem gstart_row0 (idx : IVec ⟨2, ![E, 1]⟩ w) (e : Fin E) (q : Fin D) :
    d.start (ix2 e q) idx 0 = min (idx (ix2 e (0 : Fin 1))).toInt.toNat (N - 1) := by
  obtain ⟨od, cd, ob, sb, sm, iv, ss, wf⟩ := d
  dsimp only at g1 g2 g3 g4 g5 g6 g7
  subst g1 g2 g3 g4 g5 g6 g7
  unfold GatherDims.start
  rw [dif_pos (List.mem_singleton.mpr rfl)]
  refine congrArg₂ min (congrArg (fun j => (idx j).toInt.toNat) ?_) rfl
  funext b
  refine Fin.ext ?_
  match b with
  | ⟨0, _⟩ => rfl
  | ⟨1, _⟩ => rfl

theorem gstart_row1 (idx : IVec ⟨2, ![E, 1]⟩ w) (j : (⟨2, ![E, D]⟩ : Shape).Idx) :
    d.start j idx 1 = 0 := by
  unfold GatherDims.start
  rw [dif_neg]
  rw [g5]
  show ¬ ((1 : Fin 2) ∈ [(0 : Fin 2)])
  decide

theorem goff_row0 (j : (⟨2, ![E, D]⟩ : Shape).Idx) : d.offCoord j 0 = 0 :=
  d.offCoord_eq_zero j 0 fun h => ((d.mem_sKept 0).1 h).1 (by rw [g2]; exact List.mem_singleton.mpr rfl)

theorem goff_row1 (e : Fin E) (q : Fin D) : d.offCoord (ix2 e q) 1 = q.val := by
  obtain ⟨od, cd, ob, sb, sm, iv, ss, wf⟩ := d
  dsimp only at g1 g2 g3
  subst g1 g2 g3
  unfold GatherDims.offCoord
  rw [dif_pos]
  · rfl
  · show (1 : Fin 2) ∈ (List.finRange 2).filter (fun a => a ∉ ([(0 : Fin 2)] ++ []))
    decide

theorem gbatch_row (j : (⟨2, ![E, D]⟩ : Shape).Idx) (a : Fin 2) :
    d.batchCoord j a = 0 :=
  d.batchCoord_eq_zero j a (by rw [g3]; exact List.not_mem_nil)

theorem gather_row (hN : 0 < N) (x : (⟨2, ![N, D]⟩ : Shape).Idx → α) (idx : IVec ⟨2, ![E, 1]⟩ w) (e : Fin E) (q : Fin D) :
    Host.gather d x idx (ix2 e q) = x (ix2 (clampIdx hN idx e) q) := by
  unfold Host.gather
  congr 1
  funext a
  refine Fin.ext ?_
  match a with
  | ⟨0, _⟩ =>
    show d.start (ix2 e q) idx 0 + d.batchCoord (ix2 e q) 0 + d.offCoord (ix2 e q) 0 = (clampIdx hN idx e).val
    rw [gstart_row0 d g1 g2 g3 g4 g5 g6 g7, gbatch_row d g1 g2 g3 g4 g5 g6 g7, goff_row0 d g1 g2 g3 g4 g5 g6 g7]
    rfl
  | ⟨1, _⟩ =>
    show d.start (ix2 e q) idx 1 + d.batchCoord (ix2 e q) 1 + d.offCoord (ix2 e q) 1 = q.val
    rw [gstart_row1 d g1 g2 g3 g4 g5 g6 g7, gbatch_row d g1 g2 g3 g4 g5 g6 g7, goff_row1 d g1 g2 g3 g4 g5 g6 g7]
    omega

end RowGather

section FlatGather

variable (d : GatherDims ⟨1, ![N]⟩ ⟨2, ![E, 1]⟩ ⟨1, ![E]⟩)

theorem gather_flat {α : Type} (g1 : d.offsetDims = []) (g2 : d.collapsedSliceDims = [0])
    (g3 : d.operandBatchingDims = []) (g4 : d.startIndicesBatchingDims = []) (g5 : d.startIndexMap = [0])
    (g6 : d.indexVectorDim = 1) (g7 : d.sliceSizes = ![1]) (hN : 0 < N)
    (x : (⟨1, ![N]⟩ : Shape).Idx → α) (idx : IVec ⟨2, ![E, 1]⟩ w) (e : Fin E) :
    Host.gather d x idx (ix1 e) = x (ix1 (clampIdx hN idx e)) := by
  have hx : ix2 e (0 : Fin 1) = StableHlo.Predicate.ixP e := by funext b; match b with | ⟨0, _⟩ => rfl | ⟨1, _⟩ => rfl
  rw [Shape.Idx.eq_ofFin (ix1 e), Shape.Idx.eq_ofFin (ix1 (clampIdx hN idx e))]
  unfold clampIdx
  simp only [hx]
  exact StableHlo.Predicate.gather_take d g2 g3 g5 g6 x idx e hN

end FlatGather

end Cert.Math

end
-- ==== Proof.KI.UnitsAtA.lean ====
import proofs.«408530_j23158463660766_2_alg».proof.Proof.KI.HostValA
import proofs.«408530_j23158463660766_2_alg».proof.Proof.Math.Finite
import proofs.«408530_j23158463660766_2_alg».proof.Proof.Math.Net
import proofs.«408530_j23158463660766_2_alg».proof.Proof.Math.ScatterRow
import Idealize.ShloMosaic.Lib.Pipeline.Value

noncomputable section

namespace Cert.KernelIdeal.Hand

open Idealize.ShloMosaic Idealize.ShloMosaic.ValueIdx
open Cert.KernelIdeal Cert.KernelIdeal.Gen
open Cert.Math (IsReal lands clampIdx segSum1)

theorem bcastCol_apply {α : Type} {n : ℕ} (h : (⟨1, ![n]⟩ : Shape).BroadcastsInDim ⟨2, ![n, 1]⟩ ![0])
    (v : (⟨1, ![n]⟩ : Shape).Idx → α) (e : Fin n) :
    broadcastInDim ⟨2, ![n, 1]⟩ ![0] h v (ix2 e (0 : Fin 1)) = v (ix1 e) := by
  refine broadcastInDim_apply _ h v _ (ix1 e) fun a => ?_
  match a with
  | ⟨0, _⟩ =>
    show e.val = if n = 1 then 0 else e.val
    split
    · have := e.isLt; omega
    · rfl

theorem zeroN_apply (i : S50000.Idx) : (zeroN : FVec Ideal S50000 .f32) i = 0 := Ideal.ofBits_zero_f32

theorem oneN_apply (i : S50000.Idx) : (oneN : FVec Ideal S50000 .f32) i = 1 := by
  show Ideal.ofBits .f32 0x3F800000#32 = 1
  rw [Cert.Math.ofBits_f32_one, EReal.coe_one]

-- A degree is one plus a sum of real weights over the edges that land on the node.
theorem isReal_degree {N E : ℕ} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (z o : FVec Ideal ⟨1, ![N]⟩ .f32) (hz : ∀ i, z i = 0) (ho : ∀ i, o i = 1)
    (idx : IVec ⟨2, ![E, 1]⟩ 32) (ew : FVec Ideal ⟨1, ![E]⟩ .f32) (hew : ∀ e, IsReal (ew (ix1 e)))
    (i : (⟨1, ![N]⟩ : Shape).Idx) : IsReal (addf (Host.scatterAdd d z idx ew) o i) := by
  obtain ⟨n, rfl⟩ : ∃ n : Fin N, i = ix1 n := ⟨i 0, eq_ix1 i⟩
  show IsReal (Ideal.hostScatterAdd d z idx ew (ix1 n) + o (ix1 n))
  rw [Cert.Math.hostScatterAdd_flat d h1 h2 h3 h4, hz, ho, zero_add]
  exact (Cert.Math.isReal_segSum1 _ _ hew _).add Cert.Math.isReal_one

theorem isReal_degC (dst : IVec S1600000 32) (ew : FVec Ideal S1600000 .f32) (hew : ∀ e, IsReal (ew (ix1 e)))
    (i : S50000.Idx) : IsReal (degC dst ew i) :=
  isReal_degree scatter_S50000_S1600000x1_S1600000_n_0_0_1 rfl rfl rfl rfl zeroN oneN zeroN_apply oneN_apply _ ew hew i

theorem isReal_degF (dst : IVec S250000 32) (ew : FVec Ideal S250000 .f32) (hew : ∀ e, IsReal (ew (ix1 e)))
    (i : S50000.Idx) : IsReal (degF dst ew i) :=
  isReal_degree scatter_S50000_S250000x1_S250000_n_0_0_1 rfl rfl rfl rfl zeroN oneN zeroN_apply oneN_apply _ ew hew i

theorem isReal_disOf (deg : FVec Ideal S50000 .f32) (i : S50000.Idx) (hdeg : IsReal (deg i)) : IsReal (disOf deg i) := by
  show IsReal (Scalar.select (FloatOps.cmpf (F := Ideal) .ogt (deg i) (zeroN i)) (Ideal.rsqrt (deg i))
      (Ideal.ofBits .f32 0x00000000#32))
  rw [zeroN_apply, Ideal.ofBits_zero_f32, Cert.Math.select_cmpf_ogt_zero (φ := .f32)]
  exact Cert.Math.isReal_dis _ hdeg

theorem pos50000 : 0 < 50000 := by decide

-- An edge norm is a product of three reals: the two gathered node factors and the edge weight.
theorem isReal_edgeNorm {N E : ℕ} (d : GatherDims ⟨1, ![N]⟩ ⟨2, ![E, 1]⟩ ⟨1, ![E]⟩)
    (g1 : d.offsetDims = []) (g2 : d.collapsedSliceDims = [0]) (g3 : d.operandBatchingDims = [])
    (g4 : d.startIndicesBatchingDims = []) (g5 : d.startIndexMap = [0]) (g6 : d.indexVectorDim = 1)
    (g7 : d.sliceSizes = ![1]) (hN : 0 < N)
    (dis : FVec Ideal ⟨1, ![N]⟩ .f32) (cs cd : IVec ⟨2, ![E, 1]⟩ 32) (ew : FVec Ideal ⟨1, ![E]⟩ .f32)
    (hdis : ∀ n, IsReal (dis (ix1 n))) (hew : ∀ e, IsReal (ew (ix1 e))) (i : (⟨1, ![E]⟩ : Shape).Idx) :
    IsReal (mulf (mulf (Host.gather d dis cs) ew) (Host.gather d dis cd) i) := by
  obtain ⟨e, rfl⟩ : ∃ e : Fin E, i = ix1 e := ⟨i 0, eq_ix1 i⟩
  show IsReal (Host.gather d dis cs (ix1 e) * ew (ix1 e) * Host.gather d dis cd (ix1 e))
  rw [Cert.Math.gather_flat d g1 g2 g3 g4 g5 g6 g7 hN, Cert.Math.gather_flat d g1 g2 g3 g4 g5 g6 g7 hN]
  exact ((hdis _).mul (hew _)).mul (hdis _)

theorem isReal_normC (dis : FVec Ideal S50000 .f32) (src dst : IVec S1600000 32) (ew : FVec Ideal S1600000 .f32)
    (hdis : ∀ n, IsReal (dis (ix1 n))) (hew : ∀ e, IsReal (ew (ix1 e))) (i : S1600000.Idx) :
    IsReal (normC dis src dst ew i) :=
  isReal_edgeNorm gather_S50000_S1600000x1_S1600000_n_0_n_n_0_1_1 rfl rfl rfl rfl rfl rfl rfl pos50000 dis _ _ ew hdis hew i

theorem isReal_normF (dis : FVec Ideal S50000 .f32) (src dst : IVec S250000 32) (ew : FVec Ideal S250000 .f32)
    (hdis : ∀ n, IsReal (dis (ix1 n))) (hew : ∀ e, IsReal (ew (ix1 e))) (i : S250000.Idx) :
    IsReal (normF dis src dst ew i) :=
  isReal_edgeNorm gather_S50000_S250000x1_S250000_n_0_n_n_0_1_1 rfl rfl rfl rfl rfl rfl rfl pos50000 dis _ _ ew hdis hew i

end Cert.KernelIdeal.Hand

end
-- ==== Proof.Ref.Units.lean ====
import proofs.«408530_j23158463660766_2_alg».proof.ReferenceIdeal
import proofs.«408530_j23158463660766_2_alg».proof.Proof.Gen.ReferenceIdeal
import proofs.«408530_j23158463660766_2_alg».proof.Proof.KI.HostValA

noncomputable section

namespace Cert.ReferenceIdeal.Hand

open Idealize.ShloMosaic
open Cert.ReferenceIdeal Cert.ReferenceIdeal.Gen
open Cert.KernelIdeal.Hand (colC colF)

variable {F : FTy → Type} [FloatOps F]

def rowsR16 (y : FVec F S50000x16 .f32) (src : IVec S1600000 32) (nrm : FVec F S1600000 .f32) : FVec F S1600000x16 .f32 :=
  mulf (Host.gather gather_S50000x16_S1600000x1_S1600000x16_1_0_n_n_0_1_116 y (colC src))
    (broadcastInDim S1600000x16 ![0, 1] bcast_S1600000x1_S1600000x16_0_1
      (broadcastInDim S1600000x1 ![0] bcast_S1600000_S1600000x1_0 nrm))

def scatR16 (dst : IVec S1600000 32) (upd : FVec F S1600000x16 .f32) : FVec F S50000x16 .f32 :=
  Host.scatterAdd scatter_S50000x16_S1600000x1_S1600000x16_1_0_0_1
    (broadcastInDim S50000x16 ![] bcast_S_S50000x16 (constant S_ .f32 0x00000000#32))
    (broadcastInDim S1600000x1 ![0] bcast_S1600000_S1600000x1_0 dst) upd

def aggR16 (y : FVec F S50000x16 .f32) (src dst : IVec S1600000 32) (nrm : FVec F S1600000 .f32) : FVec F S50000x16 .f32 :=
  scatR16 dst (rowsR16 y src nrm)

def rowsR32 (y : FVec F S50000x32 .f32) (src : IVec S1600000 32) (nrm : FVec F S1600000 .f32) : FVec F S1600000x32 .f32 :=
  mulf (Host.gather gather_S50000x32_S1600000x1_S1600000x32_1_0_n_n_0_1_132 y (colC src))
    (broadcastInDim S1600000x32 ![0, 1] bcast_S1600000x1_S1600000x32_0_1
      (broadcastInDim S1600000x1 ![0] bcast_S1600000_S1600000x1_0 nrm))

def scatR32 (dst : IVec S1600000 32) (upd : FVec F S1600000x32 .f32) : FVec F S50000x32 .f32 :=
  Host.scatterAdd scatter_S50000x32_S1600000x1_S1600000x32_1_0_0_1
    (broadcastInDim S50000x32 ![] bcast_S_S50000x32 (constant S_ .f32 0x00000000#32))
    (broadcastInDim S1600000x1 ![0] bcast_S1600000_S1600000x1_0 dst) upd

def aggR32 (y : FVec F S50000x32 .f32) (src dst : IVec S1600000 32) (nrm : FVec F S1600000 .f32) : FVec F S50000x32 .f32 :=
  scatR32 dst (rowsR32 y src nrm)

def rowsR512 (y : FVec F S50000x512 .f32) (src : IVec S250000 32) (nrm : FVec F S250000 .f32) : FVec F S250000x512 .f32 :=
  mulf (Host.gather gather_S50000x512_S250000x1_S250000x512_1_0_n_n_0_1_1512 y (colF src))
    (broadcastInDim S250000x512 ![0, 1] bcast_S250000x1_S250000x512_0_1
      (broadcastInDim S250000x1 ![0] bcast_S250000_S250000x1_0 nrm))

def scatR512 (dst : IVec S250000 32) (upd : FVec F S250000x512 .f32) : FVec F S50000x512 .f32 :=
  Host.scatterAdd scatter_S50000x512_S250000x1_S250000x512_1_0_0_1
    (broadcastInDim S50000x512 ![] bcast_S_S50000x512 (constant S_ .f32 0x00000000#32))
    (broadcastInDim S250000x1 ![0] bcast_S250000_S250000x1_0 dst) upd

def aggR512 (y : FVec F S50000x512 .f32) (src dst : IVec S250000 32) (nrm : FVec F S250000 .f32) : FVec F S50000x512 .f32 :=
  scatR512 dst (rowsR512 y src nrm)

def rowsR256 (y : FVec F S50000x256 .f32) (src : IVec S250000 32) (nrm : FVec F S250000 .f32) : FVec F S250000x256 .f32 :=
  mulf (Host.gather gather_S50000x256_S250000x1_S250000x256_1_0_n_n_0_1_1256 y (colF src))
    (broadcastInDim S250000x256 ![0, 1] bcast_S250000x1_S250000x256_0_1
      (broadcastInDim S250000x1 ![0] bcast_S250000_S250000x1_0 nrm))

def scatR256 (dst : IVec S250000 32) (upd : FVec F S250000x256 .f32) : FVec F S50000x256 .f32 :=
  Host.scatterAdd scatter_S50000x256_S250000x1_S250000x256_1_0_0_1
    (broadcastInDim S50000x256 ![] bcast_S_S50000x256 (constant S_ .f32 0x00000000#32))
    (broadcastInDim S250000x1 ![0] bcast_S250000_S250000x1_0 dst) upd

def aggR256 (y : FVec F S50000x256 .f32) (src dst : IVec S250000 32) (nrm : FVec F S250000 .f32) : FVec F S50000x256 .f32 :=
  scatR256 dst (rowsR256 y src nrm)

def poolSumR32 (batch : IVec S50000 32) (x : FVec F S50000x32 .f32) : FVec F S8x32 .f32 :=
  Host.scatterAdd scatter_S8x32_S50000x1_S50000x32_1_0_0_1
    (broadcastInDim S8x32 ![] bcast_S_S8x32 (constant S_ .f32 0x00000000#32))
    (broadcastInDim S50000x1 ![0] bcast_S50000_S50000x1_0 batch) x

def poolSumR256 (batch : IVec S50000 32) (x : FVec F S50000x256 .f32) : FVec F S8x256 .f32 :=
  Host.scatterAdd scatter_S8x256_S50000x1_S50000x256_1_0_0_1
    (broadcastInDim S8x256 ![] bcast_S_S8x256 (constant S_ .f32 0x00000000#32))
    (broadcastInDim S50000x1 ![0] bcast_S50000_S50000x1_0 batch) x

def poolCntR (batch : IVec S50000 32) : FVec F S8 .f32 :=
  Host.scatterAdd scatter_S8_S50000x1_S50000_n_0_0_1
    (broadcastInDim S8 ![] bcast_S_S8 (constant S_ .f32 0x00000000#32))
    (broadcastInDim S50000x1 ![0] bcast_S50000_S50000x1_0 batch)
    (broadcastInDim S50000 ![] bcast_S_S50000 (constant S_ .f32 0x3F800000#32))

end Cert.ReferenceIdeal.Hand

end
-- ==== Proof.Ref.UnitsAt.lean ====
import proofs.«408530_j23158463660766_2_alg».proof.Proof.Ref.Units
import proofs.«408530_j23158463660766_2_alg».proof.Proof.Math.Net
import proofs.«408530_j23158463660766_2_alg».proof.Proof.Math.ScatterRow
import proofs.«408530_j23158463660766_2_alg».proof.Proof.KI.UnitsAtA
import Idealize.ShloMosaic.Lib.ValueIdx
import Idealize.ShloMosaic.Lib.Pipeline.Value
import Idealize.ShloMosaic.PureOps.Ideal.Laws

noncomputable section

namespace Cert.ReferenceIdeal.Hand

open Idealize.ShloMosaic Idealize.ShloMosaic.ValueIdx
open Cert.ReferenceIdeal Cert.ReferenceIdeal.Gen
open Cert.KernelIdeal.Hand (colC colF bcastCol_apply)
open Cert.Math (lands clampIdx segSum segSum1 msgs Edges)

theorem spread_apply {α : Type} {E D : ℕ} (h : (⟨2, ![E, 1]⟩ : Shape).BroadcastsInDim ⟨2, ![E, D]⟩ ![0, 1])
    (c : (⟨2, ![E, 1]⟩ : Shape).Idx → α) (e : Fin E) (q : Fin D) :
    broadcastInDim ⟨2, ![E, D]⟩ ![0, 1] h c (ix2 e q) = c (ix2 e (0 : Fin 1)) := by
  refine broadcastInDim_apply _ h c _ (ix2 e (0 : Fin 1)) fun a => ?_
  match a with
  | ⟨0, _⟩ =>
    show e.val = if E = 1 then 0 else e.val
    split
    · have := e.isLt; omega
    · rfl
  | ⟨1, _⟩ => rfl

theorem zeros_apply {s : Shape} (h : (⟨0, ![]⟩ : Shape).BroadcastsInDim s ![]) (i : s.Idx) :
    broadcastInDim s ![] h (constant (F := Ideal) ⟨0, ![]⟩ .f32 0x00000000#32) i = 0 :=
  Ideal.ofBits_zero_f32

theorem ones_apply {s : Shape} (h : (⟨0, ![]⟩ : Shape).BroadcastsInDim s ![]) (i : s.Idx) :
    broadcastInDim s ![] h (constant (F := Ideal) ⟨0, ![]⟩ .f32 0x3F800000#32) i = 1 := by
  show Ideal.ofBits .f32 0x3F800000#32 = 1
  rw [Cert.Math.ofBits_f32_one, EReal.coe_one]

section General

variable {N D E : ℕ}

theorem scat_apply (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1) (z : FVec Ideal ⟨2, ![N, D]⟩ .f32) (hz : ∀ i, z i = 0)
    (cd : IVec ⟨2, ![E, 1]⟩ 32) (upd : FVec Ideal ⟨2, ![E, D]⟩ .f32) (n : Fin N) (q : Fin D) :
    Host.scatterAdd d z cd upd (ix2 n q) = segSum (lands cd) (fun e q => upd (ix2 e q)) n q := by
  show Ideal.hostScatterAdd d z cd upd (ix2 n q) = _
  rw [Cert.Math.hostScatterAdd_row d h1 h2 h3 h4, hz, zero_add]
  rfl

theorem count_apply (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (z : FVec Ideal ⟨1, ![N]⟩ .f32) (hz : ∀ i, z i = 0)
    (cd : IVec ⟨2, ![E, 1]⟩ 32) (o : FVec Ideal ⟨1, ![E]⟩ .f32) (ho : ∀ i, o i = 1) (n : Fin N) :
    Host.scatterAdd d z cd o (ix1 n) = segSum1 (lands cd) (fun _ => 1) n := by
  show Ideal.hostScatterAdd d z cd o (ix1 n) = _
  rw [Cert.Math.hostScatterAdd_flat d h1 h2 h3 h4, hz, zero_add]
  show segSum1 (lands cd) (fun e => o (ix1 e)) n = _
  unfold Cert.Math.segSum1
  refine Finset.sum_congr rfl fun e _ => ?_
  beta_reduce
  rw [ho]

theorem agg_apply (dg : GatherDims ⟨2, ![N, D]⟩ ⟨2, ![E, 1]⟩ ⟨2, ![E, D]⟩)
    (g1 : dg.offsetDims = [1]) (g2 : dg.collapsedSliceDims = [0]) (g3 : dg.operandBatchingDims = [])
    (g4 : dg.startIndicesBatchingDims = []) (g5 : dg.startIndexMap = [0]) (g6 : dg.indexVectorDim = 1)
    (g7 : dg.sliceSizes = ![1, D]) (hN : 0 < N)
    (ds : ScatterDims ⟨2, ![N, D]⟩ ⟨2, ![E, 1]⟩ ⟨2, ![E, D]⟩)
    (h1 : ds.updateWindowDims = [1]) (h2 : ds.insertedWindowDims = [0]) (h3 : ds.scatterDimsToOperandDims = [0])
    (h4 : ds.indexVectorDim = 1)
    (b0 : (⟨0, ![]⟩ : Shape).BroadcastsInDim ⟨2, ![N, D]⟩ ![])
    (b1 : (⟨1, ![E]⟩ : Shape).BroadcastsInDim ⟨2, ![E, 1]⟩ ![0])
    (b2 : (⟨2, ![E, 1]⟩ : Shape).BroadcastsInDim ⟨2, ![E, D]⟩ ![0, 1])
    (y : FVec Ideal ⟨2, ![N, D]⟩ .f32) (cs cd : IVec ⟨2, ![E, 1]⟩ 32) (nrm : FVec Ideal ⟨1, ![E]⟩ .f32)
    (n : Fin N) (q : Fin D) :
    Host.scatterAdd ds (broadcastInDim ⟨2, ![N, D]⟩ ![] b0 (constant (F := Ideal) ⟨0, ![]⟩ .f32 0x00000000#32)) cd
        (mulf (Host.gather dg y cs)
          (broadcastInDim ⟨2, ![E, D]⟩ ![0, 1] b2 (broadcastInDim ⟨2, ![E, 1]⟩ ![0] b1 nrm))) (ix2 n q)
      = segSum (lands cd)
          (msgs (⟨clampIdx hN cs, lands cd⟩ : Edges E N) (fun n j => y (ix2 n j)) (fun e => nrm (ix1 e))) n q := by
  rw [scat_apply ds h1 h2 h3 h4 _ (zeros_apply b0)]
  refine congrArg (fun u => segSum (lands cd) u n q) (funext fun e => funext fun q' => ?_)
  show Host.gather dg y cs (ix2 e q') * broadcastInDim ⟨2, ![E, D]⟩ ![0, 1] b2 (broadcastInDim ⟨2, ![E, 1]⟩ ![0] b1 nrm) (ix2 e q')
    = y (ix2 (clampIdx hN cs e) q') * nrm (ix1 e)
  rw [Cert.Math.gather_row dg g1 g2 g3 g4 g5 g6 g7 hN, spread_apply, bcastCol_apply]

end General

theorem nodes_pos : 0 < 50000 := by decide

theorem aggR16_apply (y : FVec Ideal S50000x16 .f32) (src dst : IVec S1600000 32) (nrm : FVec Ideal S1600000 .f32)
    (n : Fin 50000) (j : Fin 16) :
    aggR16 y src dst nrm (ix2 n j)
      = segSum (lands (broadcastInDim S1600000x1 ![0] bcast_S1600000_S1600000x1_0 dst))
          (msgs (⟨clampIdx nodes_pos (colC src), lands (broadcastInDim S1600000x1 ![0] bcast_S1600000_S1600000x1_0 dst)⟩ :
              Edges 1600000 50000) (fun n j => y (ix2 n j)) (fun e => nrm (ix1 e))) n j :=
  agg_apply gather_S50000x16_S1600000x1_S1600000x16_1_0_n_n_0_1_116 rfl rfl rfl rfl rfl rfl rfl nodes_pos
    scatter_S50000x16_S1600000x1_S1600000x16_1_0_0_1 rfl rfl rfl rfl _ _ _ y (colC src) _ nrm n j

theorem aggR32_apply (y : FVec Ideal S50000x32 .f32) (src dst : IVec S1600000 32) (nrm : FVec Ideal S1600000 .f32)
    (n : Fin 50000) (j : Fin 32) :
    aggR32 y src dst nrm (ix2 n j)
      = segSum (lands (broadcastInDim S1600000x1 ![0] bcast_S1600000_S1600000x1_0 dst))
          (msgs (⟨clampIdx nodes_pos (colC src), lands (broadcastInDim S1600000x1 ![0] bcast_S1600000_S1600000x1_0 dst)⟩ :
              Edges 1600000 50000) (fun n j => y (ix2 n j)) (fun e => nrm (ix1 e))) n j :=
  agg_apply gather_S50000x32_S1600000x1_S1600000x32_1_0_n_n_0_1_132 rfl rfl rfl rfl rfl rfl rfl nodes_pos
    scatter_S50000x32_S1600000x1_S1600000x32_1_0_0_1 rfl rfl rfl rfl _ _ _ y (colC src) _ nrm n j

theorem aggR512_apply (y : FVec Ideal S50000x512 .f32) (src dst : IVec S250000 32) (nrm : FVec Ideal S250000 .f32)
    (n : Fin 50000) (j : Fin 512) :
    aggR512 y src dst nrm (ix2 n j)
      = segSum (lands (broadcastInDim S250000x1 ![0] bcast_S250000_S250000x1_0 dst))
          (msgs (⟨clampIdx nodes_pos (colF src), lands (broadcastInDim S250000x1 ![0] bcast_S250000_S250000x1_0 dst)⟩ :
              Edges 250000 50000) (fun n j => y (ix2 n j)) (fun e => nrm (ix1 e))) n j :=
  agg_apply gather_S50000x512_S250000x1_S250000x512_1_0_n_n_0_1_1512 rfl rfl rfl rfl rfl rfl rfl nodes_pos
    scatter_S50000x512_S250000x1_S250000x512_1_0_0_1 rfl rfl rfl rfl _ _ _ y (colF src) _ nrm n j

theorem aggR256_apply (y : FVec Ideal S50000x256 .f32) (src dst : IVec S250000 32) (nrm : FVec Ideal S250000 .f32)
    (n : Fin 50000) (j : Fin 256) :
    aggR256 y src dst nrm (ix2 n j)
      = segSum (lands (broadcastInDim S250000x1 ![0] bcast_S250000_S250000x1_0 dst))
          (msgs (⟨clampIdx nodes_pos (colF src), lands (broadcastInDim S250000x1 ![0] bcast_S250000_S250000x1_0 dst)⟩ :
              Edges 250000 50000) (fun n j => y (ix2 n j)) (fun e => nrm (ix1 e))) n j :=
  agg_apply gather_S50000x256_S250000x1_S250000x256_1_0_n_n_0_1_1256 rfl rfl rfl rfl rfl rfl rfl nodes_pos
    scatter_S50000x256_S250000x1_S250000x256_1_0_0_1 rfl rfl rfl rfl _ _ _ y (colF src) _ nrm n j

theorem poolSumR32_apply (batch : IVec S50000 32) (x : FVec Ideal S50000x32 .f32) (b : Fin 8) (d : Fin 32) :
    poolSumR32 batch x (ix2 b d)
      = segSum (lands (broadcastInDim S50000x1 ![0] bcast_S50000_S50000x1_0 batch)) (fun n d => x (ix2 n d)) b d :=
  scat_apply scatter_S8x32_S50000x1_S50000x32_1_0_0_1 rfl rfl rfl rfl _ (zeros_apply _) _ x b d

theorem poolSumR256_apply (batch : IVec S50000 32) (x : FVec Ideal S50000x256 .f32) (b : Fin 8) (d : Fin 256) :
    poolSumR256 batch x (ix2 b d)
      = segSum (lands (broadcastInDim S50000x1 ![0] bcast_S50000_S50000x1_0 batch)) (fun n d => x (ix2 n d)) b d :=
  scat_apply scatter_S8x256_S50000x1_S50000x256_1_0_0_1 rfl rfl rfl rfl _ (zeros_apply _) _ x b d

theorem poolCntR_apply (batch : IVec S50000 32) (b : Fin 8) :
    (poolCntR batch : FVec Ideal S8 .f32) (ix1 b)
      = segSum1 (lands (broadcastInDim S50000x1 ![0] bcast_S50000_S50000x1_0 batch)) (fun _ => 1) b :=
  count_apply scatter_S8_S50000x1_S50000_n_0_0_1 rfl rfl rfl rfl _ (zeros_apply _) _ _ (ones_apply _) b

end Cert.ReferenceIdeal.Hand

end
-- ==== Proof.KI.UnitsAtB.lean ====
import proofs.«408530_j23158463660766_2_alg».proof.Proof.KI.HostValB
import proofs.«408530_j23158463660766_2_alg».proof.Proof.KI.HostValC
import proofs.«408530_j23158463660766_2_alg».proof.Proof.KI.UnitsAtA
import proofs.«408530_j23158463660766_2_alg».proof.Proof.Math.Finite
import proofs.«408530_j23158463660766_2_alg».proof.Proof.Math.Net
import proofs.«408530_j23158463660766_2_alg».proof.Proof.Math.ScatterRow
import proofs.«408530_j23158463660766_2_alg».proof.Proof.Ref.UnitsAt
import Idealize.ShloMosaic.Lib.ValueIdx
import Idealize.ShloMosaic.Lib.Pipeline.Value
import Idealize.ShloMosaic.PureOps.Reduce
import Idealize.ShloMosaic.PureOps.Ideal.Laws

noncomputable section

namespace Cert.KernelIdeal.Hand

open Idealize.ShloMosaic Idealize.ShloMosaic.ValueIdx
open Cert.KernelIdeal Cert.KernelIdeal.Gen
open Cert.Math (IsReal lands clampIdx segSum segSum1 mm msgs aggThenMap Edges)
open Cert.ReferenceIdeal.Hand (spread_apply agg_apply)

section PlainDot

variable {N K J : ℕ} (wf : DotDims.WF ⟨2, ![N, K]⟩ ⟨2, ![K, J]⟩ ⟨2, ![N, J]⟩ [1] [0] [0] [1] [] [])

abbrev plainD : DotDims ⟨2, ![N, K]⟩ ⟨2, ![K, J]⟩ ⟨2, ![N, J]⟩ := ⟨[1], [0], [0], [1], [], [], wf⟩

/-- The contraction index set is Fin K, and at its k-th element the two operand indices are (n, k) and (k, j). -/
theorem dotGeneral_mm (prec : Option ContractPrecision) (x : FVec Ideal ⟨2, ![N, K]⟩ .f32)
    (Wt : FVec Ideal ⟨2, ![K, J]⟩ .f32) (n : Fin N) (j : Fin J) :
    Host.dotGeneral (plainD wf) prec x Wt (ix2 n j) = mm (fun n k => x (ix2 n k)) (fun k j => Wt (ix2 k j)) n j := by
  show FloatOps.dotGeneral (plainD wf) prec .single x Wt (ix2 n j) = ∑ k : Fin K, x (ix2 n k) * Wt (ix2 k j)
  rw [Ideal.dotGeneral_apply, ← Equiv.sum_comp (contrEquiv1 (plainD wf) K rfl rfl).symm]
  refine Finset.sum_congr rfl fun k _ => ?_
  have hk := contrEquiv1_symm_val (plainD wf) K rfl rfl k
  have el : (plainD wf).lhsIdx (ix2 n j) ((contrEquiv1 (plainD wf) K rfl rfl).symm k) = ix2 n k :=
    funext fun a => Fin.ext (by
      match a with
      | ⟨0, _⟩ =>
        show ((plainD wf).lhsIdx (ix2 n j) _ 0).val = n.val
        unfold DotDims.lhsIdx
        rw [dif_neg (show ¬(0 : Fin (⟨2, ![N, K]⟩ : Shape).rank) ∈ (plainD wf).lhsBatch from List.not_mem_nil),
          dif_pos (show (0 : Fin (⟨2, ![N, K]⟩ : Shape).rank) ∈ (plainD wf).lhsNonContracting from List.mem_singleton.mpr rfl)]
        rfl
      | ⟨1, _⟩ => exact ((plainD wf).lhsIdx_val_of_single rfl _ _).trans hk)
  have er : (plainD wf).rhsIdx (ix2 n j) ((contrEquiv1 (plainD wf) K rfl rfl).symm k) = ix2 k j :=
    funext fun a => Fin.ext (by
      match a with
      | ⟨0, _⟩ => exact ((plainD wf).rhsIdx_val_of_single rfl _ _).trans hk
      | ⟨1, _⟩ =>
        show ((plainD wf).rhsIdx (ix2 n j) _ 1).val = j.val
        unfold DotDims.rhsIdx
        rw [dif_neg (show ¬(1 : Fin (⟨2, ![K, J]⟩ : Shape).rank) ∈ (plainD wf).rhsBatch from List.not_mem_nil),
          dif_pos (show (1 : Fin (⟨2, ![K, J]⟩ : Shape).rank) ∈ (plainD wf).rhsNonContracting from List.mem_singleton.mpr rfl)]
        rfl)
  rw [el, er]

end PlainDot

theorem bcastAlong_apply {α : Type} {E D : ℕ} (h : (⟨2, ![E, 1]⟩ : Shape).BroadcastsInDim ⟨2, ![E, D]⟩ ![0, 1])
    (v : (⟨2, ![E, 1]⟩ : Shape).Idx → α) (e : Fin E) (k : Fin D) :
    broadcastInDim ⟨2, ![E, D]⟩ ![0, 1] h v (ix2 e k) = v (ix2 e (0 : Fin 1)) :=
  spread_apply h v e k

abbrev edgesC (src dst : IVec S1600000 32) : Edges 1600000 50000 :=
  ⟨clampIdx pos50000 (colC src), lands (broadcastInDim S1600000x1 ![0] bcast_S1600000_S1600000x1_0 dst)⟩

abbrev edgesF (src dst : IVec S250000 32) : Edges 250000 50000 :=
  ⟨clampIdx pos50000 (colF src), lands (broadcastInDim S250000x1 ![0] bcast_S250000_S250000x1_0 dst)⟩

theorem lin8x16_apply (x : FVec Ideal S50000x8 .f32) (Wt : FVec Ideal S8x16 .f32) (n : Fin 50000) (j : Fin 16) :
    lin8x16 x Wt (ix2 n j) = mm (fun n k => x (ix2 n k)) (fun k j => Wt (ix2 k j)) n j :=
  dotGeneral_mm dot_S50000x8_S8x16_S50000x16_1_0_0_1_n_n_wf none x Wt n j

theorem lin16x32_apply (x : FVec Ideal S50000x16 .f32) (Wt : FVec Ideal S16x32 .f32) (n : Fin 50000) (j : Fin 32) :
    lin16x32 x Wt (ix2 n j) = mm (fun n k => x (ix2 n k)) (fun k j => Wt (ix2 k j)) n j :=
  dotGeneral_mm dot_S50000x16_S16x32_S50000x32_1_0_0_1_n_n_wf none x Wt n j

theorem aggF256_apply (a : FVec Ideal S50000x256 .f32) (src dst : IVec S250000 32) (nrm : FVec Ideal S250000 .f32)
    (n : Fin 50000) (k : Fin 256) :
    aggF256 a src dst nrm (ix2 n k)
      = segSum (edgesF src dst).dst (msgs (edgesF src dst) (fun n k => a (ix2 n k)) (fun e => nrm (ix1 e))) n k :=
  agg_apply gather_S50000x256_S250000x1_S250000x256_1_0_n_n_0_1_1256 rfl rfl rfl rfl rfl rfl rfl pos50000
    scatter_S50000x256_S250000x1_S250000x256_1_0_0_1 rfl rfl rfl rfl _ _ _ a (colF src) _ nrm n k

theorem lin8x16_aggC8_apply (a : FVec Ideal S50000x8 .f32) (src dst : IVec S1600000 32) (nrm : FVec Ideal S1600000 .f32)
    (Wt : FVec Ideal S8x16 .f32) (n : Fin 50000) (j : Fin 16) :
    lin8x16 (aggC8 a src dst nrm) Wt (ix2 n j)
      = aggThenMap (edgesC src dst) (fun n k => a (ix2 n k)) (fun e => nrm (ix1 e)) (fun k j => Wt (ix2 k j)) n j := by
  rw [lin8x16_apply]
  exact congrArg (fun u => mm u _ n j) (funext fun n' => funext fun k =>
    agg_apply gather_S50000x8_S1600000x1_S1600000x8_1_0_n_n_0_1_18 rfl rfl rfl rfl rfl rfl rfl pos50000
      scatter_S50000x8_S1600000x1_S1600000x8_1_0_0_1 rfl rfl rfl rfl _ _ _ a (colC src) _ nrm n' k)

theorem lin16x32_aggC16_apply (a : FVec Ideal S50000x16 .f32) (src dst : IVec S1600000 32) (nrm : FVec Ideal S1600000 .f32)
    (Wt : FVec Ideal S16x32 .f32) (n : Fin 50000) (j : Fin 32) :
    lin16x32 (aggC16 a src dst nrm) Wt (ix2 n j)
      = aggThenMap (edgesC src dst) (fun n k => a (ix2 n k)) (fun e => nrm (ix1 e)) (fun k j => Wt (ix2 k j)) n j := by
  rw [lin16x32_apply]
  exact congrArg (fun u => mm u _ n j) (funext fun n' => funext fun k =>
    agg_apply gather_S50000x16_S1600000x1_S1600000x16_1_0_n_n_0_1_116 rfl rfl rfl rfl rfl rfl rfl pos50000
      scatter_S50000x16_S1600000x1_S1600000x16_1_0_0_1 rfl rfl rfl rfl _ _ _ a (colC src) _ nrm n' k)

end Cert.KernelIdeal.Hand

end
-- ==== Proof.Ref.UnitsB.lean ====
import proofs.«408530_j23158463660766_2_alg».proof.Proof.Gen.ReferenceIdeal
import proofs.«408530_j23158463660766_2_alg».proof.Proof.KI.HostValA
import proofs.«408530_j23158463660766_2_alg».proof.Proof.KI.HostValC
import proofs.«408530_j23158463660766_2_alg».proof.Proof.Ref.Units

noncomputable section

namespace Cert.ReferenceIdeal.Hand

open Idealize.ShloMosaic
open Cert.ReferenceIdeal Cert.ReferenceIdeal.Gen
open Cert.KernelIdeal.Hand (colC colF normF bias8x128 lin128)

variable {F : FTy → Type} [FloatOps F]

def lin256x512 (x : FVec F S50000x256 .f32) (Wt : FVec F S256x512 .f32) : FVec F S50000x512 .f32 :=
  Host.dotGeneral dot_S50000x256_S256x512_S50000x512_1_0_0_1_n_n none x Wt

def lin512x256 (x : FVec F S50000x512 .f32) (Wt : FVec F S512x256 .f32) : FVec F S50000x256 .f32 :=
  Host.dotGeneral dot_S50000x512_S512x256_S50000x256_1_0_0_1_n_n none x Wt

def cntCol (c : FVec F S8 .f32) : FVec F S8x1 .f32 :=
  broadcastInDim S8x1 ![0] bcast_S8_S8x1_0
    (maximumf c (broadcastInDim S8 ![] bcast_S_S8 (constant S_ .f32 0x3F800000#32)))

def poolMeanR32 (s : FVec F S8x32 .f32) (c : FVec F S8 .f32) : FVec F S8x32 .f32 :=
  Host.divf s (broadcastInDim S8x32 ![0, 1] bcast_S8x1_S8x32_0_1 (cntCol c))

def poolMeanR256 (s : FVec F S8x256 .f32) (c : FVec F S8 .f32) : FVec F S8x256 .f32 :=
  Host.divf s (broadcastInDim S8x256 ![0, 1] bcast_S8x1_S8x256_0_1 (cntCol c))

def headCR (s : FVec F S8x32 .f32) (c : FVec F S8 .f32) (Wt : FVec F S32x128 .f32) (b : FVec F S128 .f32) : FVec F S8x128 .f32 :=
  addf (Host.dotGeneral dot_S8x32_S32x128_S8x128_1_0_0_1_n_n none (poolMeanR32 s c) Wt) (bias8x128 b)

def headFR (s : FVec F S8x256 .f32) (c : FVec F S8 .f32) (Wt : FVec F S256x128 .f32) (b : FVec F S128 .f32) : FVec F S8x128 .f32 :=
  addf (Host.dotGeneral dot_S8x256_S256x128_S8x128_1_0_0_1_n_n none (poolMeanR256 s c) Wt) (bias8x128 b)

def rowsAtR16 (y : FVec F S50000x16 .f32) (col : IVec S1600000x1 32) (nrm : FVec F S1600000 .f32) : FVec F S1600000x16 .f32 :=
  mulf (Host.gather gather_S50000x16_S1600000x1_S1600000x16_1_0_n_n_0_1_116 y col)
    (broadcastInDim S1600000x16 ![0, 1] bcast_S1600000x1_S1600000x16_0_1
      (broadcastInDim S1600000x1 ![0] bcast_S1600000_S1600000x1_0 nrm))

def zeroIdxF : IVec S250000 32 :=
  broadcastInDim S250000 ![] bcast_S_S250000 (constantI S_ 32 0#32)

def colAtF (z a : IVec S250000 32) : IVec S250000x1 32 :=
  broadcastInDim S250000x1 ![0] bcast_S250000_S250000x1_0
    (select (cmpi .slt a z) (addi a (broadcastInDim S250000 ![] bcast_S_S250000 (constantI S_ 32 50000#32))) a)

def normSrcF (dis : FVec F S50000 .f32) (src : IVec S250000 32) (ew : FVec F S250000 .f32) : FVec F S250000 .f32 :=
  mulf (Host.gather gather_S50000_S250000x1_S250000_n_0_n_n_0_1_1 dis (colF src)) ew

def normAtF (half : FVec F S250000 .f32) (dis : FVec F S50000 .f32) (col : IVec S250000x1 32) : FVec F S250000 .f32 :=
  mulf half (Host.gather gather_S50000_S250000x1_S250000_n_0_n_n_0_1_1 dis col)

theorem normF_eq (dis : FVec F S50000 .f32) (src dst : IVec S250000 32) (ew : FVec F S250000 .f32) :
    normF dis src dst ew = normAtF (normSrcF dis src ew) dis (colAtF zeroIdxF dst) := rfl

def dot128 (x : FVec F S8x128 .f32) (Wt : FVec F S128x128 .f32) : FVec F S8x128 .f32 :=
  Host.dotGeneral dot_S8x128_S128x128_S8x128_1_0_0_1_n_n none x Wt

end Cert.ReferenceIdeal.Hand

end
-- ==== Proof.Ref.PostUnits.lean ====
import proofs.«408530_j23158463660766_2_alg».proof.ReferenceIdeal
import proofs.«408530_j23158463660766_2_alg».proof.Proof.Gen.ReferenceIdeal

noncomputable section

namespace Cert.ReferenceIdeal.Hand

open Idealize.ShloMosaic
open Cert.ReferenceIdeal Cert.ReferenceIdeal.Gen

variable {F : FTy → Type} [FloatOps F]

def combineR16 (agg h : FVec F S50000x16 .f32) (dis : FVec F S50000 .f32) (b : FVec F S16 .f32) : FVec F S50000x16 .f32 :=
  addf
    (addf agg
      (mulf h
        (broadcastInDim S50000x16 ![0, 1] bcast_S50000x1_S50000x16_0_1
          (broadcastInDim S50000x1 ![0] bcast_S50000_S50000x1_0 (mulf dis dis)))))
    (broadcastInDim S50000x16 ![0, 1] bcast_S1x16_S50000x16_0_1 (broadcastInDim S1x16 ![1] bcast_S16_S1x16_1 b))

def reluR16 (z : FVec F S50000x16 .f32) : FVec F S50000x16 .f32 :=
  maximumf z (broadcastInDim S50000x16 ![] bcast_S_S50000x16 (constant S_ .f32 0x00000000#32))

def meanColR16 (r : FVec F S50000x16 .f32) : FVec F S50000x1 .f32 :=
  Host.divf
    (broadcastInDim S50000x1 ![0] bcast_S50000_S50000x1_0
      (Host.reduceAdd r (constant S_ .f32 0x00000000#32) reducesTo_S50000x16_S50000_d1 h_S_))
    (broadcastInDim S50000x1 ![] bcast_S_S50000x1 (constant S_ .f32 0x41800000#32))

def varColR16 (r : FVec F S50000x16 .f32) (mu : FVec F S50000x1 .f32) : FVec F S50000x1 .f32 :=
  Host.divf
    (broadcastInDim S50000x1 ![0] bcast_S50000_S50000x1_0
      (Host.reduceAdd
        (mulf (subf r (broadcastInDim S50000x16 ![0, 1] bcast_S50000x1_S50000x16_0_1 mu))
          (subf r (broadcastInDim S50000x16 ![0, 1] bcast_S50000x1_S50000x16_0_1 mu)))
        (constant S_ .f32 0x00000000#32) reducesTo_S50000x16_S50000_d1 h_S_))
    (broadcastInDim S50000x1 ![] bcast_S_S50000x1 (constant S_ .f32 0x41800000#32))

def scaleR16 (r : FVec F S50000x16 .f32) (mu v : FVec F S50000x1 .f32) (g : FVec F S16 .f32) : FVec F S50000x16 .f32 :=
  mulf
    (mulf (subf r (broadcastInDim S50000x16 ![0, 1] bcast_S50000x1_S50000x16_0_1 mu))
      (broadcastInDim S50000x16 ![0, 1] bcast_S50000x1_S50000x16_0_1
        (Host.rsqrt (addf v (broadcastInDim S50000x1 ![] bcast_S_S50000x1 (constant S_ .f32 0x3727C5AC#32))))))
    (broadcastInDim S50000x16 ![0, 1] bcast_S1x16_S50000x16_0_1 (broadcastInDim S1x16 ![1] bcast_S16_S1x16_1 g))

def asRowR16 (beta : FVec F S16 .f32) : FVec F S1x16 .f32 := broadcastInDim S1x16 ![1] bcast_S16_S1x16_1 beta

def shiftRowR16 (y : FVec F S50000x16 .f32) (row : FVec F S1x16 .f32) : FVec F S50000x16 .f32 :=
  addf y (broadcastInDim S50000x16 ![0, 1] bcast_S1x16_S50000x16_0_1 row)

def finishR16 (r : FVec F S50000x16 .f32) (mu v : FVec F S50000x1 .f32) (g beta : FVec F S16 .f32) : FVec F S50000x16 .f32 :=
  shiftRowR16 (scaleR16 r mu v g) (asRowR16 beta)

def normOfCombineR16 (z : FVec F S50000x16 .f32) (g beta : FVec F S16 .f32) : FVec F S50000x16 .f32 :=
  finishR16 (reluR16 z) (meanColR16 (reluR16 z)) (varColR16 (reluR16 z) (meanColR16 (reluR16 z))) g beta

def postR16 (agg h : FVec F S50000x16 .f32) (dis : FVec F S50000 .f32) (b g beta : FVec F S16 .f32) : FVec F S50000x16 .f32 :=
  normOfCombineR16 (combineR16 agg h dis b) g beta

def combineR32 (agg h : FVec F S50000x32 .f32) (dis : FVec F S50000 .f32) (b : FVec F S32 .f32) : FVec F S50000x32 .f32 :=
  addf
    (addf agg
      (mulf h
        (broadcastInDim S50000x32 ![0, 1] bcast_S50000x1_S50000x32_0_1
          (broadcastInDim S50000x1 ![0] bcast_S50000_S50000x1_0 (mulf dis dis)))))
    (broadcastInDim S50000x32 ![0, 1] bcast_S1x32_S50000x32_0_1 (broadcastInDim S1x32 ![1] bcast_S32_S1x32_1 b))

def reluR32 (z : FVec F S50000x32 .f32) : FVec F S50000x32 .f32 :=
  maximumf z (broadcastInDim S50000x32 ![] bcast_S_S50000x32 (constant S_ .f32 0x00000000#32))

def reluCombineR32 (agg h : FVec F S50000x32 .f32) (dis : FVec F S50000 .f32) (b : FVec F S32 .f32) : FVec F S50000x32 .f32 :=
  reluR32 (combineR32 agg h dis b)

def meanColR32 (r : FVec F S50000x32 .f32) : FVec F S50000x1 .f32 :=
  Host.divf
    (broadcastInDim S50000x1 ![0] bcast_S50000_S50000x1_0
      (Host.reduceAdd r (constant S_ .f32 0x00000000#32) reducesTo_S50000x32_S50000_d1 h_S_))
    (broadcastInDim S50000x1 ![] bcast_S_S50000x1 (constant S_ .f32 0x42000000#32))

def varColR32 (r : FVec F S50000x32 .f32) (mu : FVec F S50000x1 .f32) : FVec F S50000x1 .f32 :=
  Host.divf
    (broadcastInDim S50000x1 ![0] bcast_S50000_S50000x1_0
      (Host.reduceAdd
        (mulf (subf r (broadcastInDim S50000x32 ![0, 1] bcast_S50000x1_S50000x32_0_1 mu))
          (subf r (broadcastInDim S50000x32 ![0, 1] bcast_S50000x1_S50000x32_0_1 mu)))
        (constant S_ .f32 0x00000000#32) reducesTo_S50000x32_S50000_d1 h_S_))
    (broadcastInDim S50000x1 ![] bcast_S_S50000x1 (constant S_ .f32 0x42000000#32))

def scaleR32 (r : FVec F S50000x32 .f32) (mu v : FVec F S50000x1 .f32) (g : FVec F S32 .f32) : FVec F S50000x32 .f32 :=
  mulf
    (mulf (subf r (broadcastInDim S50000x32 ![0, 1] bcast_S50000x1_S50000x32_0_1 mu))
      (broadcastInDim S50000x32 ![0, 1] bcast_S50000x1_S50000x32_0_1
        (Host.rsqrt (addf v (broadcastInDim S50000x1 ![] bcast_S_S50000x1 (constant S_ .f32 0x3727C5AC#32))))))
    (broadcastInDim S50000x32 ![0, 1] bcast_S1x32_S50000x32_0_1 (broadcastInDim S1x32 ![1] bcast_S32_S1x32_1 g))

def asRowR32 (beta : FVec F S32 .f32) : FVec F S1x32 .f32 := broadcastInDim S1x32 ![1] bcast_S32_S1x32_1 beta

def shiftRowR32 (y : FVec F S50000x32 .f32) (row : FVec F S1x32 .f32) : FVec F S50000x32 .f32 :=
  addf y (broadcastInDim S50000x32 ![0, 1] bcast_S1x32_S50000x32_0_1 row)

def finishR32 (r : FVec F S50000x32 .f32) (mu v : FVec F S50000x1 .f32) (g beta : FVec F S32 .f32) : FVec F S50000x32 .f32 :=
  shiftRowR32 (scaleR32 r mu v g) (asRowR32 beta)

def normOfCombineR32 (z : FVec F S50000x32 .f32) (g beta : FVec F S32 .f32) : FVec F S50000x32 .f32 :=
  finishR32 (reluR32 z) (meanColR32 (reluR32 z)) (varColR32 (reluR32 z) (meanColR32 (reluR32 z))) g beta

def postR32 (agg h : FVec F S50000x32 .f32) (dis : FVec F S50000 .f32) (b g beta : FVec F S32 .f32) : FVec F S50000x32 .f32 :=
  normOfCombineR32 (combineR32 agg h dis b) g beta

def combineR512 (agg h : FVec F S50000x512 .f32) (dis : FVec F S50000 .f32) (b : FVec F S512 .f32) : FVec F S50000x512 .f32 :=
  addf
    (addf agg
      (mulf h
        (broadcastInDim S50000x512 ![0, 1] bcast_S50000x1_S50000x512_0_1
          (broadcastInDim S50000x1 ![0] bcast_S50000_S50000x1_0 (mulf dis dis)))))
    (broadcastInDim S50000x512 ![0, 1] bcast_S1x512_S50000x512_0_1 (broadcastInDim S1x512 ![1] bcast_S512_S1x512_1 b))

def reluR512 (z : FVec F S50000x512 .f32) : FVec F S50000x512 .f32 :=
  maximumf z (broadcastInDim S50000x512 ![] bcast_S_S50000x512 (constant S_ .f32 0x00000000#32))

def reluCombineR512 (agg h : FVec F S50000x512 .f32) (dis : FVec F S50000 .f32) (b : FVec F S512 .f32) : FVec F S50000x512 .f32 :=
  reluR512 (combineR512 agg h dis b)

def meanColR512 (r : FVec F S50000x512 .f32) : FVec F S50000x1 .f32 :=
  Host.divf
    (broadcastInDim S50000x1 ![0] bcast_S50000_S50000x1_0
      (Host.reduceAdd r (constant S_ .f32 0x00000000#32) reducesTo_S50000x512_S50000_d1 h_S_))
    (broadcastInDim S50000x1 ![] bcast_S_S50000x1 (constant S_ .f32 0x44000000#32))

def varColR512 (r : FVec F S50000x512 .f32) (mu : FVec F S50000x1 .f32) : FVec F S50000x1 .f32 :=
  Host.divf
    (broadcastInDim S50000x1 ![0] bcast_S50000_S50000x1_0
      (Host.reduceAdd
        (mulf (subf r (broadcastInDim S50000x512 ![0, 1] bcast_S50000x1_S50000x512_0_1 mu))
          (subf r (broadcastInDim S50000x512 ![0, 1] bcast_S50000x1_S50000x512_0_1 mu)))
        (constant S_ .f32 0x00000000#32) reducesTo_S50000x512_S50000_d1 h_S_))
    (broadcastInDim S50000x1 ![] bcast_S_S50000x1 (constant S_ .f32 0x44000000#32))

def scaleR512 (r : FVec F S50000x512 .f32) (mu v : FVec F S50000x1 .f32) (g : FVec F S512 .f32) : FVec F S50000x512 .f32 :=
  mulf
    (mulf (subf r (broadcastInDim S50000x512 ![0, 1] bcast_S50000x1_S50000x512_0_1 mu))
      (broadcastInDim S50000x512 ![0, 1] bcast_S50000x1_S50000x512_0_1
        (Host.rsqrt (addf v (broadcastInDim S50000x1 ![] bcast_S_S50000x1 (constant S_ .f32 0x3727C5AC#32))))))
    (broadcastInDim S50000x512 ![0, 1] bcast_S1x512_S50000x512_0_1 (broadcastInDim S1x512 ![1] bcast_S512_S1x512_1 g))

def asRowR512 (beta : FVec F S512 .f32) : FVec F S1x512 .f32 := broadcastInDim S1x512 ![1] bcast_S512_S1x512_1 beta

def shiftRowR512 (y : FVec F S50000x512 .f32) (row : FVec F S1x512 .f32) : FVec F S50000x512 .f32 :=
  addf y (broadcastInDim S50000x512 ![0, 1] bcast_S1x512_S50000x512_0_1 row)

def finishR512 (r : FVec F S50000x512 .f32) (mu v : FVec F S50000x1 .f32) (g beta : FVec F S512 .f32) : FVec F S50000x512 .f32 :=
  shiftRowR512 (scaleR512 r mu v g) (asRowR512 beta)

def preShiftR512 (agg h : FVec F S50000x512 .f32) (dis : FVec F S50000 .f32) (b g : FVec F S512 .f32) : FVec F S50000x512 .f32 :=
  scaleR512 (reluCombineR512 agg h dis b) (meanColR512 (reluCombineR512 agg h dis b))
    (varColR512 (reluCombineR512 agg h dis b) (meanColR512 (reluCombineR512 agg h dis b))) g

def normOfCombineR512 (z : FVec F S50000x512 .f32) (g beta : FVec F S512 .f32) : FVec F S50000x512 .f32 :=
  finishR512 (reluR512 z) (meanColR512 (reluR512 z)) (varColR512 (reluR512 z) (meanColR512 (reluR512 z))) g beta

def postR512 (agg h : FVec F S50000x512 .f32) (dis : FVec F S50000 .f32) (b g beta : FVec F S512 .f32) : FVec F S50000x512 .f32 :=
  normOfCombineR512 (combineR512 agg h dis b) g beta

def combineR256 (agg h : FVec F S50000x256 .f32) (dis : FVec F S50000 .f32) (b : FVec F S256 .f32) : FVec F S50000x256 .f32 :=
  addf
    (addf agg
      (mulf h
        (broadcastInDim S50000x256 ![0, 1] bcast_S50000x1_S50000x256_0_1
          (broadcastInDim S50000x1 ![0] bcast_S50000_S50000x1_0 (mulf dis dis)))))
    (broadcastInDim S50000x256 ![0, 1] bcast_S1x256_S50000x256_0_1 (broadcastInDim S1x256 ![1] bcast_S256_S1x256_1 b))

def reluR256 (z : FVec F S50000x256 .f32) : FVec F S50000x256 .f32 :=
  maximumf z (broadcastInDim S50000x256 ![] bcast_S_S50000x256 (constant S_ .f32 0x00000000#32))

def meanColR256 (r : FVec F S50000x256 .f32) : FVec F S50000x1 .f32 :=
  Host.divf
    (broadcastInDim S50000x1 ![0] bcast_S50000_S50000x1_0
      (Host.reduceAdd r (constant S_ .f32 0x00000000#32) reducesTo_S50000x256_S50000_d1 h_S_))
    (broadcastInDim S50000x1 ![] bcast_S_S50000x1 (constant S_ .f32 0x43800000#32))

def varColR256 (r : FVec F S50000x256 .f32) (mu : FVec F S50000x1 .f32) : FVec F S50000x1 .f32 :=
  Host.divf
    (broadcastInDim S50000x1 ![0] bcast_S50000_S50000x1_0
      (Host.reduceAdd
        (mulf (subf r (broadcastInDim S50000x256 ![0, 1] bcast_S50000x1_S50000x256_0_1 mu))
          (subf r (broadcastInDim S50000x256 ![0, 1] bcast_S50000x1_S50000x256_0_1 mu)))
        (constant S_ .f32 0x00000000#32) reducesTo_S50000x256_S50000_d1 h_S_))
    (broadcastInDim S50000x1 ![] bcast_S_S50000x1 (constant S_ .f32 0x43800000#32))

def scaleR256 (r : FVec F S50000x256 .f32) (mu v : FVec F S50000x1 .f32) (g : FVec F S256 .f32) : FVec F S50000x256 .f32 :=
  mulf
    (mulf (subf r (broadcastInDim S50000x256 ![0, 1] bcast_S50000x1_S50000x256_0_1 mu))
      (broadcastInDim S50000x256 ![0, 1] bcast_S50000x1_S50000x256_0_1
        (Host.rsqrt (addf v (broadcastInDim S50000x1 ![] bcast_S_S50000x1 (constant S_ .f32 0x3727C5AC#32))))))
    (broadcastInDim S50000x256 ![0, 1] bcast_S1x256_S50000x256_0_1 (broadcastInDim S1x256 ![1] bcast_S256_S1x256_1 g))

def asRowR256 (beta : FVec F S256 .f32) : FVec F S1x256 .f32 := broadcastInDim S1x256 ![1] bcast_S256_S1x256_1 beta

def shiftRowR256 (y : FVec F S50000x256 .f32) (row : FVec F S1x256 .f32) : FVec F S50000x256 .f32 :=
  addf y (broadcastInDim S50000x256 ![0, 1] bcast_S1x256_S50000x256_0_1 row)

def finishR256 (r : FVec F S50000x256 .f32) (mu v : FVec F S50000x1 .f32) (g beta : FVec F S256 .f32) : FVec F S50000x256 .f32 :=
  shiftRowR256 (scaleR256 r mu v g) (asRowR256 beta)

def normOfCombineR256 (z : FVec F S50000x256 .f32) (g beta : FVec F S256 .f32) : FVec F S50000x256 .f32 :=
  finishR256 (reluR256 z) (meanColR256 (reluR256 z)) (varColR256 (reluR256 z) (meanColR256 (reluR256 z))) g beta

def postR256 (agg h : FVec F S50000x256 .f32) (dis : FVec F S50000 .f32) (b g beta : FVec F S256 .f32) : FVec F S50000x256 .f32 :=
  normOfCombineR256 (combineR256 agg h dis b) g beta

end Cert.ReferenceIdeal.Hand

end
-- ==== Proof.Ref.PostAt.lean ====
import proofs.«408530_j23158463660766_2_alg».proof.Proof.Ref.PostUnits
import proofs.«408530_j23158463660766_2_alg».proof.Proof.Math.Spec
import Idealize.ShloMosaic.Lib.ValueIdx
import Idealize.ShloMosaic.Lib.Pipeline.Value
import Idealize.ShloMosaic.PureOps.Ideal.Laws

noncomputable section

namespace Cert.ReferenceIdeal.Hand

open Idealize.ShloMosaic Idealize.ShloMosaic.ValueIdx
open Cert.ReferenceIdeal Cert.ReferenceIdeal.Gen

section broadcasts

variable {α : Type} {N D : ℕ}

private theorem spreadCol_at (hb : (⟨2, ![N, 1]⟩ : Shape).BroadcastsInDim ⟨2, ![N, D]⟩ (![0, 1] : Fin 2 → Fin 2))
    (c : (⟨2, ![N, 1]⟩ : Shape).Idx → α) (n : Fin N) (q : Fin D) :
    broadcastInDim ⟨2, ![N, D]⟩ ![0, 1] hb c (ix2 n q) = c (ix2 n (0 : Fin 1)) :=
  broadcastInDim_apply _ hb c (ix2 n q) (ix2 n (0 : Fin 1)) (fun a => match a with
    | ⟨0, _⟩ => by show n.val = if N = 1 then 0 else n.val; have := n.isLt; split <;> omega
    | ⟨1, _⟩ => by show 0 = if (1 : ℕ) = 1 then 0 else q.val; rw [if_pos rfl])

private theorem downRow_at (hb : (⟨2, ![1, D]⟩ : Shape).BroadcastsInDim ⟨2, ![N, D]⟩ (![0, 1] : Fin 2 → Fin 2))
    (r : (⟨2, ![1, D]⟩ : Shape).Idx → α) (n : Fin N) (q : Fin D) :
    broadcastInDim ⟨2, ![N, D]⟩ ![0, 1] hb r (ix2 n q) = r (ix2 (0 : Fin 1) q) :=
  broadcastInDim_apply _ hb r (ix2 n q) (ix2 (0 : Fin 1) q) (fun a => match a with
    | ⟨0, _⟩ => by show 0 = if (1 : ℕ) = 1 then 0 else n.val; rw [if_pos rfl]
    | ⟨1, _⟩ => by show q.val = if D = 1 then 0 else q.val; have := q.isLt; split <;> omega)

private theorem colOfVec_at (hb : (⟨1, ![N]⟩ : Shape).BroadcastsInDim ⟨2, ![N, 1]⟩ (![0] : Fin 1 → Fin 2))
    (v : (⟨1, ![N]⟩ : Shape).Idx → α) (n : Fin N) :
    broadcastInDim ⟨2, ![N, 1]⟩ ![0] hb v (ix2 n (0 : Fin 1)) = v (ix1 n) :=
  broadcastInDim_apply _ hb v (ix2 n (0 : Fin 1)) (ix1 n) (fun a => match a with
    | ⟨0, _⟩ => by show n.val = if N = 1 then 0 else n.val; have := n.isLt; split <;> omega)

private theorem rowOfVec_at (hb : (⟨1, ![D]⟩ : Shape).BroadcastsInDim ⟨2, ![1, D]⟩ (![1] : Fin 1 → Fin 2))
    (v : (⟨1, ![D]⟩ : Shape).Idx → α) (q : Fin D) :
    broadcastInDim ⟨2, ![1, D]⟩ ![1] hb v (ix2 (0 : Fin 1) q) = v (ix1 q) :=
  broadcastInDim_apply _ hb v (ix2 (0 : Fin 1) q) (ix1 q) (fun a => match a with
    | ⟨0, _⟩ => by show q.val = if D = 1 then 0 else q.val; have := q.isLt; split <;> omega)

end broadcasts

private theorem fill_at {t : Shape} (hb : S_.BroadcastsInDim t (![] : Fin 0 → Fin t.rank)) (w : BitVec 32) (j : t.Idx) :
    broadcastInDim t ![] hb (constant (F := Ideal) S_ .f32 w) j = Ideal.ofBits .f32 w := rfl

private theorem hostDivf_at {s : Shape} (a b : FVec Ideal s .f32) (i : s.Idx) : Host.divf a b i = Ideal.div (a i) (b i) := rfl

private theorem hostRsqrt_at {s : Shape} (a : FVec Ideal s .f32) (i : s.Idx) : Host.rsqrt a i = Ideal.rsqrt (a i) := rfl

/-- The reduction's inserted index at row n and summand k is (n, k). -/
private theorem rowSum_at {N D : ℕ} (hr : (⟨2, ![N, D]⟩ : Shape).ReducesTo [1] ⟨1, ![N]⟩)
    (hd : (⟨2, ![N, D]⟩ : Shape).Reduces [1] ⟨1, ![N]⟩) (r : FVec Ideal ⟨2, ![N, D]⟩ .f32) (n : Fin N) :
    Host.reduceAdd r (constant (F := Ideal) S_ .f32 0x00000000#32) hr h_S_ (ix1 n) = ∑ k : Fin D, r (ix2 n k) := by
  simp only [Host.reduceAdd, Ideal.hostReduceAdd_def]
  rw [Ideal.hostReduceAdd_single hr hd, constant_apply, Ideal.ofBits_zero_f32, zero_add]
  exact Finset.sum_congr rfl fun k _ =>
    congrArg r (funext fun a => Fin.ext (by match a with | ⟨0, _⟩ => rfl | ⟨1, _⟩ => rfl))

theorem postR16_apply (agg h : FVec Ideal S50000x16 .f32) (dis : FVec Ideal S50000 .f32) (b g beta : FVec Ideal S16 .f32)
    (n : Fin 50000) (q : Fin 16) :
    postR16 agg h dis b g beta (ix2 n q)
      = Cert.Math.post (Ideal.ofBits .f32 0x41800000#32) (Ideal.ofBits .f32 0x3727C5AC#32)
          (fun n k => agg (ix2 n k)) (fun n k => h (ix2 n k)) (fun n => dis (ix1 n)) (fun k => b (ix1 k))
          (fun k => g (ix1 k)) (fun k => beta (ix1 k)) n q := by
  rw [Cert.Math.post_apply]
  unfold postR16 normOfCombineR16 finishR16 shiftRowR16 asRowR16 scaleR16 varColR16 meanColR16 reluR16 combineR16
  simp only [addf_apply, mulf_apply, subf_apply, maximumf_apply, spreadCol_at bcast_S50000x1_S50000x16_0_1,
    downRow_at bcast_S1x16_S50000x16_0_1, colOfVec_at bcast_S50000_S50000x1_0, rowOfVec_at bcast_S16_S1x16_1,
    fill_at bcast_S_S50000x16, fill_at bcast_S_S50000x1, hostDivf_at, hostRsqrt_at,
    rowSum_at _ (by decide : S50000x16.Reduces [1] S50000), Ideal.ofBits_zero_f32]

theorem postR32_apply (agg h : FVec Ideal S50000x32 .f32) (dis : FVec Ideal S50000 .f32) (b g beta : FVec Ideal S32 .f32)
    (n : Fin 50000) (q : Fin 32) :
    postR32 agg h dis b g beta (ix2 n q)
      = Cert.Math.post (Ideal.ofBits .f32 0x42000000#32) (Ideal.ofBits .f32 0x3727C5AC#32)
          (fun n k => agg (ix2 n k)) (fun n k => h (ix2 n k)) (fun n => dis (ix1 n)) (fun k => b (ix1 k))
          (fun k => g (ix1 k)) (fun k => beta (ix1 k)) n q := by
  rw [Cert.Math.post_apply]
  unfold postR32 normOfCombineR32 finishR32 shiftRowR32 asRowR32 scaleR32 varColR32 meanColR32 reluR32 combineR32
  simp only [addf_apply, mulf_apply, subf_apply, maximumf_apply, spreadCol_at bcast_S50000x1_S50000x32_0_1,
    downRow_at bcast_S1x32_S50000x32_0_1, colOfVec_at bcast_S50000_S50000x1_0, rowOfVec_at bcast_S32_S1x32_1,
    fill_at bcast_S_S50000x32, fill_at bcast_S_S50000x1, hostDivf_at, hostRsqrt_at,
    rowSum_at _ (by decide : S50000x32.Reduces [1] S50000), Ideal.ofBits_zero_f32]

theorem postR512_apply (agg h : FVec Ideal S50000x512 .f32) (dis : FVec Ideal S50000 .f32) (b g beta : FVec Ideal S512 .f32)
    (n : Fin 50000) (q : Fin 512) :
    postR512 agg h dis b g beta (ix2 n q)
      = Cert.Math.post (Ideal.ofBits .f32 0x44000000#32) (Ideal.ofBits .f32 0x3727C5AC#32)
          (fun n k => agg (ix2 n k)) (fun n k => h (ix2 n k)) (fun n => dis (ix1 n)) (fun k => b (ix1 k))
          (fun k => g (ix1 k)) (fun k => beta (ix1 k)) n q := by
  rw [Cert.Math.post_apply]
  unfold postR512 normOfCombineR512 finishR512 shiftRowR512 asRowR512 scaleR512 varColR512 meanColR512 reluR512 combineR512
  simp only [addf_apply, mulf_apply, subf_apply, maximumf_apply, spreadCol_at bcast_S50000x1_S50000x512_0_1,
    downRow_at bcast_S1x512_S50000x512_0_1, colOfVec_at bcast_S50000_S50000x1_0, rowOfVec_at bcast_S512_S1x512_1,
    fill_at bcast_S_S50000x512, fill_at bcast_S_S50000x1, hostDivf_at, hostRsqrt_at,
    rowSum_at _ (by decide : S50000x512.Reduces [1] S50000), Ideal.ofBits_zero_f32]

theorem postR256_apply (agg h : FVec Ideal S50000x256 .f32) (dis : FVec Ideal S50000 .f32) (b g beta : FVec Ideal S256 .f32)
    (n : Fin 50000) (q : Fin 256) :
    postR256 agg h dis b g beta (ix2 n q)
      = Cert.Math.post (Ideal.ofBits .f32 0x43800000#32) (Ideal.ofBits .f32 0x3727C5AC#32)
          (fun n k => agg (ix2 n k)) (fun n k => h (ix2 n k)) (fun n => dis (ix1 n)) (fun k => b (ix1 k))
          (fun k => g (ix1 k)) (fun k => beta (ix1 k)) n q := by
  rw [Cert.Math.post_apply]
  unfold postR256 normOfCombineR256 finishR256 shiftRowR256 asRowR256 scaleR256 varColR256 meanColR256 reluR256 combineR256
  simp only [addf_apply, mulf_apply, subf_apply, maximumf_apply, spreadCol_at bcast_S50000x1_S50000x256_0_1,
    downRow_at bcast_S1x256_S50000x256_0_1, colOfVec_at bcast_S50000_S50000x1_0, rowOfVec_at bcast_S256_S1x256_1,
    fill_at bcast_S_S50000x256, fill_at bcast_S_S50000x1, hostDivf_at, hostRsqrt_at,
    rowSum_at _ (by decide : S50000x256.Reduces [1] S50000), Ideal.ofBits_zero_f32]

end Cert.ReferenceIdeal.Hand
-- ==== Proof.Ref.AggOrders.lean ====
import proofs.«408530_j23158463660766_2_alg».proof.Proof.Ref.UnitsAt
import proofs.«408530_j23158463660766_2_alg».proof.Proof.KI.UnitsAtB
import proofs.«408530_j23158463660766_2_alg».proof.Proof.Math.Net

noncomputable section

namespace Cert.ReferenceIdeal.Hand

open Idealize.ShloMosaic Idealize.ShloMosaic.ValueIdx
open Cert.ReferenceIdeal Cert.ReferenceIdeal.Gen
open Cert.KernelIdeal.Hand (colC colF lin8x16 aggC8 lin16x32 aggC16 aggF256 edgesC edgesF)
open Cert.Math (IsReal mm segSum msgs aggThenMap mapThenAgg)

-- Both sides are the same edge sum: aggregating then mapping equals mapping then aggregating on real inputs.
theorem lin8x16_aggC8_eq_aggR16 (a : FVec Ideal S50000x8 .f32) (src dst : IVec S1600000 32) (nrm : FVec Ideal S1600000 .f32)
    (Wt : FVec Ideal S8x16 .f32) (ha : ∀ i, IsReal (a i)) (hn : ∀ i, IsReal (nrm i)) (hW : ∀ i, IsReal (Wt i)) :
    lin8x16 (aggC8 a src dst nrm) Wt = aggR16 (lin8x16 a Wt) src dst nrm := by
  funext i
  obtain ⟨n, j, rfl⟩ : ∃ (n : Fin 50000) (j : Fin 16), i = ix2 n j := ⟨i 0, i 1, eq_ix2 i⟩
  rw [Cert.KernelIdeal.Hand.lin8x16_aggC8_apply, aggR16_apply,
    Cert.Math.aggThenMap_eq_mapThenAgg _ _ _ _ (fun n k => ha _) (fun e => hn _) (fun k j => hW _)]
  exact congrArg (fun u => segSum (edgesC src dst).dst (msgs (edgesC src dst) u fun e => nrm (ix1 e)) n j)
    (funext fun n => funext fun j => (Cert.KernelIdeal.Hand.lin8x16_apply a Wt n j).symm)

theorem lin16x32_aggC16_eq_aggR32 (a : FVec Ideal S50000x16 .f32) (src dst : IVec S1600000 32) (nrm : FVec Ideal S1600000 .f32)
    (Wt : FVec Ideal S16x32 .f32) (ha : ∀ i, IsReal (a i)) (hn : ∀ i, IsReal (nrm i)) (hW : ∀ i, IsReal (Wt i)) :
    lin16x32 (aggC16 a src dst nrm) Wt = aggR32 (lin16x32 a Wt) src dst nrm := by
  funext i
  obtain ⟨n, j, rfl⟩ : ∃ (n : Fin 50000) (j : Fin 32), i = ix2 n j := ⟨i 0, i 1, eq_ix2 i⟩
  rw [Cert.KernelIdeal.Hand.lin16x32_aggC16_apply, aggR32_apply,
    Cert.Math.aggThenMap_eq_mapThenAgg _ _ _ _ (fun n k => ha _) (fun e => hn _) (fun k j => hW _)]
  exact congrArg (fun u => segSum (edgesC src dst).dst (msgs (edgesC src dst) u fun e => nrm (ix1 e)) n j)
    (funext fun n => funext fun j => (Cert.KernelIdeal.Hand.lin16x32_apply a Wt n j).symm)

theorem mm_aggF256_eq_aggR512 (x : FVec Ideal S50000x256 .f32) (src dst : IVec S250000 32) (nrm : FVec Ideal S250000 .f32)
    (Wt : FVec Ideal S256x512 .f32) (hx : ∀ i, IsReal (x i)) (hn : ∀ i, IsReal (nrm i)) (hW : ∀ i, IsReal (Wt i))
    (n : Fin 50000) (j : Fin 512) :
    (∑ k : Fin 256, aggF256 x src dst nrm (ix2 n k) * Wt (ix2 k j))
      = aggR512 (fun i => ∑ k : Fin 256, x (ix2 (i 0) k) * Wt (ix2 k (i 1))) src dst nrm (ix2 n j) := by
  rw [aggR512_apply]
  exact (congrArg (fun u => mm u (fun k j => Wt (ix2 k j)) n j)
      (funext fun n' => funext fun k => Cert.KernelIdeal.Hand.aggF256_apply x src dst nrm n' k)).trans
    (congrFun (congrFun (Cert.Math.aggThenMap_eq_mapThenAgg (edgesF src dst) (fun n k => x (ix2 n k)) (fun e => nrm (ix1 e))
      (fun k j => Wt (ix2 k j)) (fun n k => hx _) (fun e => hn _) (fun k j => hW _)) n) j)

end Cert.ReferenceIdeal.Hand

end
-- ==== Proof.Ref.UnitsReal.lean ====
import proofs.«408530_j23158463660766_2_alg».proof.Proof.Ref.UnitsAt
import proofs.«408530_j23158463660766_2_alg».proof.Proof.Math.Finite
import proofs.«408530_j23158463660766_2_alg».proof.Proof.Math.Net

noncomputable section

namespace Cert.ReferenceIdeal.Hand

open Idealize.ShloMosaic Idealize.ShloMosaic.ValueIdx
open Cert.ReferenceIdeal Cert.ReferenceIdeal.Gen
open Cert.Math (IsReal)

theorem isReal_aggR16 (y : FVec Ideal S50000x16 .f32) (src dst : IVec S1600000 32) (nrm : FVec Ideal S1600000 .f32)
    (hy : ∀ i, IsReal (y i)) (hn : ∀ i, IsReal (nrm i)) (i : S50000x16.Idx) : IsReal (aggR16 y src dst nrm i) := by
  obtain ⟨n, j, rfl⟩ : ∃ (n : Fin 50000) (j : Fin 16), i = ix2 n j := ⟨i 0, i 1, eq_ix2 i⟩
  rw [aggR16_apply]
  exact Cert.Math.isReal_segSum _ _ (fun e q => (hy _).mul (hn _)) n j

theorem isReal_aggR32 (y : FVec Ideal S50000x32 .f32) (src dst : IVec S1600000 32) (nrm : FVec Ideal S1600000 .f32)
    (hy : ∀ i, IsReal (y i)) (hn : ∀ i, IsReal (nrm i)) (i : S50000x32.Idx) : IsReal (aggR32 y src dst nrm i) := by
  obtain ⟨n, j, rfl⟩ : ∃ (n : Fin 50000) (j : Fin 32), i = ix2 n j := ⟨i 0, i 1, eq_ix2 i⟩
  rw [aggR32_apply]
  exact Cert.Math.isReal_segSum _ _ (fun e q => (hy _).mul (hn _)) n j

theorem isReal_aggR512 (y : FVec Ideal S50000x512 .f32) (src dst : IVec S250000 32) (nrm : FVec Ideal S250000 .f32)
    (hy : ∀ i, IsReal (y i)) (hn : ∀ i, IsReal (nrm i)) (i : S50000x512.Idx) : IsReal (aggR512 y src dst nrm i) := by
  obtain ⟨n, j, rfl⟩ : ∃ (n : Fin 50000) (j : Fin 512), i = ix2 n j := ⟨i 0, i 1, eq_ix2 i⟩
  rw [aggR512_apply]
  exact Cert.Math.isReal_segSum _ _ (fun e q => (hy _).mul (hn _)) n j

theorem isReal_aggR256 (y : FVec Ideal S50000x256 .f32) (src dst : IVec S250000 32) (nrm : FVec Ideal S250000 .f32)
    (hy : ∀ i, IsReal (y i)) (hn : ∀ i, IsReal (nrm i)) (i : S50000x256.Idx) : IsReal (aggR256 y src dst nrm i) := by
  obtain ⟨n, j, rfl⟩ : ∃ (n : Fin 50000) (j : Fin 256), i = ix2 n j := ⟨i 0, i 1, eq_ix2 i⟩
  rw [aggR256_apply]
  exact Cert.Math.isReal_segSum _ _ (fun e q => (hy _).mul (hn _)) n j

end Cert.ReferenceIdeal.Hand

end
-- ==== Proof.KI.Layers.lean ====
import proofs.«408530_j23158463660766_2_alg».proof.Proof.KI.ArrPost0
import proofs.«408530_j23158463660766_2_alg».proof.Proof.KI.ArrPost1
import proofs.«408530_j23158463660766_2_alg».proof.Proof.KI.ArrPost5
import proofs.«408530_j23158463660766_2_alg».proof.Proof.KI.ArrPost7
import proofs.«408530_j23158463660766_2_alg».proof.Proof.KI.ArrMatmul4
import proofs.«408530_j23158463660766_2_alg».proof.Proof.KI.ArrMatmul6
import proofs.«408530_j23158463660766_2_alg».proof.Proof.KI.HostValB
import proofs.«408530_j23158463660766_2_alg».proof.Proof.KI.HostValC
import proofs.«408530_j23158463660766_2_alg».proof.Proof.KI.UnitsAtB
import proofs.«408530_j23158463660766_2_alg».proof.Proof.Ref.Units
import proofs.«408530_j23158463660766_2_alg».proof.Proof.Ref.UnitsAt
import proofs.«408530_j23158463660766_2_alg».proof.Proof.Ref.UnitsB
import proofs.«408530_j23158463660766_2_alg».proof.Proof.Ref.PostUnits
import proofs.«408530_j23158463660766_2_alg».proof.Proof.Ref.PostAt
import proofs.«408530_j23158463660766_2_alg».proof.Proof.Ref.AggOrders
import proofs.«408530_j23158463660766_2_alg».proof.Proof.Ref.UnitsReal
import proofs.«408530_j23158463660766_2_alg».proof.Proof.Math.Net
import Idealize.ShloMosaic.Lib.ValueLayout
import Idealize.ShloMosaic.Lib.ValueIdx
import Idealize.ShloMosaic.Lib.Pipeline.Value

noncomputable section

namespace Cert.Bridge

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx (ix1 ix2 eq_ix1 eq_ix2 shapeCast_a_1a_apply)
open Cert.ReferenceIdeal.Hand (aggR16 aggR32 aggR512 aggR256 postR16 postR32 postR512 postR256 postR16_apply postR32_apply postR512_apply
  postR256_apply lin256x512 lin512x256 lin8x16_aggC8_eq_aggR16 lin16x32_aggC16_eq_aggR32 mm_aggF256_eq_aggR512
  isReal_aggR16 isReal_aggR32 isReal_aggR512 isReal_aggR256)
open Cert.Math (IsReal)

variable (V : (c : Dev nD) → (b : Ref sig .tc) → Buf (Elt Ideal) ((c : Thread nD τ).loc b))

/-- A plain product as a function of the index: its entry at every pair of coordinates. -/
theorem dotGeneral_eq {N K J : ℕ} (wf : DotDims.WF ⟨2, ![N, K]⟩ ⟨2, ![K, J]⟩ ⟨2, ![N, J]⟩ [1] [0] [0] [1] [] [])
    (x : FVec Ideal ⟨2, ![N, K]⟩ .f32) (Wt : FVec Ideal ⟨2, ![K, J]⟩ .f32) :
    Host.dotGeneral (plainD wf) none x Wt = fun i => ∑ k : Fin K, x (ix2 (i 0) k) * Wt (ix2 k (i 1)) :=
  funext fun i => (congrArg (Host.dotGeneral (plainD wf) none x Wt) (eq_ix2 i)).trans (dotGeneral_mm wf none x Wt (i 0) (i 1))

theorem layerC1 (c : Dev nD) (a : FVec Ideal S50000x8 .f32) (src dst : IVec S1600000 32) (nrm : FVec Ideal S1600000 .f32)
    (dis : FVec Ideal S50000 .f32) (Wt : FVec Ideal S8x16 .f32) (b g beta : FVec Ideal S16 .f32)
    (h0 : aggArr0 V c = lin8x16 (aggC8 a src dst nrm) Wt) (h1 : selfArr0 V c = lin8x16 a Wt)
    (h2 : disArr0 V c = shapeCast S50000x1 dis shapeCasts_S50000_S50000x1)
    (h3 : biasArr0 V c = shapeCast S1x16 b shapeCasts_S16_S1x16)
    (h4 : gainArr0 V c = shapeCast S1x16 g shapeCasts_S16_S1x16)
    (h5 : shiftArr0 V c = shapeCast S1x16 beta shapeCasts_S16_S1x16)
    (ha : ∀ i, IsReal (a i)) (hn : ∀ i, IsReal (nrm i)) (hW : ∀ i, IsReal (Wt i)) :
    (dat0 V c).arrAt 6 cfg0.N = postR16 (aggR16 (lin8x16 a Wt) src dst nrm) (lin8x16 a Wt) dis b g beta := by
  rw [arr0 V c]
  refine funext fun (i : S50000x16.Idx) => ?_
  obtain ⟨n, q, rfl⟩ : ∃ (n : Fin 50000) (q : Fin 16), i = ix2 n q := ⟨i 0, i 1, eq_ix2 i⟩
  rw [postArr0_apply, postR16_apply, h0, h1, h2, h3, h4, h5, lin8x16_aggC8_eq_aggR16 a src dst nrm Wt ha hn hW]
  simp only [shapeCast_a_a1_apply, shapeCast_a_1a_apply]

theorem isReal_lin8x16 (a : FVec Ideal S50000x8 .f32) (Wt : FVec Ideal S8x16 .f32) (ha : ∀ i, IsReal (a i)) (hW : ∀ i, IsReal (Wt i))
    (i : S50000x16.Idx) : IsReal (lin8x16 a Wt i) := by
  obtain ⟨n, q, rfl⟩ : ∃ (n : Fin 50000) (q : Fin 16), i = ix2 n q := ⟨i 0, i 1, eq_ix2 i⟩
  rw [lin8x16_apply]
  exact Cert.Math.isReal_mm _ _ (fun n k => ha _) (fun k j => hW _) n q

theorem layerC1_real (a : FVec Ideal S50000x8 .f32) (src dst : IVec S1600000 32) (nrm : FVec Ideal S1600000 .f32)
    (dis : FVec Ideal S50000 .f32) (Wt : FVec Ideal S8x16 .f32) (b g beta : FVec Ideal S16 .f32)
    (ha : ∀ i, IsReal (a i)) (hn : ∀ i, IsReal (nrm i)) (hW : ∀ i, IsReal (Wt i)) (hdis : ∀ i, IsReal (dis i))
    (hb : ∀ i, IsReal (b i)) (hg : ∀ i, IsReal (g i)) (hbeta : ∀ i, IsReal (beta i)) (i : S50000x16.Idx) :
    IsReal (postR16 (aggR16 (lin8x16 a Wt) src dst nrm) (lin8x16 a Wt) dis b g beta i) := by
  obtain ⟨n, q, rfl⟩ : ∃ (n : Fin 50000) (q : Fin 16), i = ix2 n q := ⟨i 0, i 1, eq_ix2 i⟩
  rw [postR16_apply]
  exact Cert.Math.isReal_post _ _ Cert.Math.isPos_ofBits_f32_16 Cert.Math.isPos_ofBits_f32_eps _ _ _ _ _ _
    (fun n k => isReal_aggR16 _ src dst nrm (isReal_lin8x16 a Wt ha hW) hn _) (fun n k => isReal_lin8x16 a Wt ha hW _) (fun n => hdis _) (fun k => hb _) (fun k => hg _)
    (fun k => hbeta _) n q

theorem layerC2 (c : Dev nD) (a : FVec Ideal S50000x16 .f32) (src dst : IVec S1600000 32) (nrm : FVec Ideal S1600000 .f32)
    (dis : FVec Ideal S50000 .f32) (Wt : FVec Ideal S16x32 .f32) (b g beta : FVec Ideal S32 .f32)
    (h0 : aggArr1 V c = lin16x32 (aggC16 a src dst nrm) Wt) (h1 : selfArr1 V c = lin16x32 a Wt)
    (h2 : disArr1 V c = shapeCast S50000x1 dis shapeCasts_S50000_S50000x1)
    (h3 : biasArr1 V c = shapeCast S1x32 b shapeCasts_S32_S1x32)
    (h4 : gainArr1 V c = shapeCast S1x32 g shapeCasts_S32_S1x32)
    (h5 : shiftArr1 V c = shapeCast S1x32 beta shapeCasts_S32_S1x32)
    (ha : ∀ i, IsReal (a i)) (hn : ∀ i, IsReal (nrm i)) (hW : ∀ i, IsReal (Wt i)) :
    (dat1 V c).arrAt 6 cfg1.N = postR32 (aggR32 (lin16x32 a Wt) src dst nrm) (lin16x32 a Wt) dis b g beta := by
  rw [arr1 V c]
  refine funext fun (i : S50000x32.Idx) => ?_
  obtain ⟨n, q, rfl⟩ : ∃ (n : Fin 50000) (q : Fin 32), i = ix2 n q := ⟨i 0, i 1, eq_ix2 i⟩
  rw [postArr1_apply, postR32_apply, h0, h1, h2, h3, h4, h5, lin16x32_aggC16_eq_aggR32 a src dst nrm Wt ha hn hW]
  simp only [shapeCast_a_a1_apply, shapeCast_a_1a_apply]

theorem isReal_lin16x32 (a : FVec Ideal S50000x16 .f32) (Wt : FVec Ideal S16x32 .f32) (ha : ∀ i, IsReal (a i)) (hW : ∀ i, IsReal (Wt i))
    (i : S50000x32.Idx) : IsReal (lin16x32 a Wt i) := by
  obtain ⟨n, q, rfl⟩ : ∃ (n : Fin 50000) (q : Fin 32), i = ix2 n q := ⟨i 0, i 1, eq_ix2 i⟩
  rw [lin16x32_apply]
  exact Cert.Math.isReal_mm _ _ (fun n k => ha _) (fun k j => hW _) n q

theorem layerF1 (c : Dev nD) (x : FVec Ideal S50000x256 .f32) (src dst : IVec S250000 32) (nrm : FVec Ideal S250000 .f32)
    (dis : FVec Ideal S50000 .f32) (Wt : FVec Ideal S256x512 .f32) (b g beta : FVec Ideal S512 .f32)
    (h0 : aggArr5 V c = fun i => ∑ k : Fin 256, (aggF256 x src dst nrm) (ix2 (i 0) k) * Wt (ix2 k (i 1)))
    (h1 : selfArr5 V c = fun i => ∑ k : Fin 256, x (ix2 (i 0) k) * Wt (ix2 k (i 1)))
    (h2 : disArr5 V c = shapeCast S50000x1 dis shapeCasts_S50000_S50000x1)
    (h3 : biasArr5 V c = shapeCast S1x512 b shapeCasts_S512_S1x512)
    (h4 : gainArr5 V c = shapeCast S1x512 g shapeCasts_S512_S1x512)
    (h5 : shiftArr5 V c = shapeCast S1x512 beta shapeCasts_S512_S1x512)
    (hx : ∀ i, IsReal (x i)) (hn : ∀ i, IsReal (nrm i)) (hW : ∀ i, IsReal (Wt i)) :
    (dat5 V c).arrAt 6 cfg5.N = postR512 (aggR512 (lin256x512 x Wt) src dst nrm) (lin256x512 x Wt) dis b g beta := by
  rw [arr5 V c]
  refine funext fun (i : S50000x512.Idx) => ?_
  obtain ⟨n, q, rfl⟩ : ∃ (n : Fin 50000) (q : Fin 512), i = ix2 n q := ⟨i 0, i 1, eq_ix2 i⟩
  rw [postArr5_apply, postR512_apply, h0, h1, h2, h3, h4, h5, show lin256x512 x Wt = _ from dotGeneral_eq Cert.ReferenceIdeal.Gen.dot_S50000x256_S256x512_S50000x512_1_0_0_1_n_n_wf x Wt]
  simp only [shapeCast_a_a1_apply, shapeCast_a_1a_apply, mm_aggF256_eq_aggR512 x src dst nrm Wt hx hn hW]

theorem linF2 (c : Dev nD) : prod6 V c = lin512x256 (F := Ideal) (xarr6 V c) (warr6 V c) :=
  (dotGeneral_eq Cert.ReferenceIdeal.Gen.dot_S50000x512_S512x256_S50000x256_1_0_0_1_n_n_wf (xarr6 V c) (warr6 V c)).symm

theorem layerF2 (c : Dev nD) (y : FVec Ideal S50000x256 .f32) (src dst : IVec S250000 32) (nrm : FVec Ideal S250000 .f32)
    (dis : FVec Ideal S50000 .f32) (b g beta : FVec Ideal S256 .f32)
    (h0 : aggArr7 V c = aggF256 y src dst nrm) (h1 : selfArr7 V c = y)
    (h2 : disArr7 V c = shapeCast S50000x1 dis shapeCasts_S50000_S50000x1)
    (h3 : biasArr7 V c = shapeCast S1x256 b shapeCasts_S256_S1x256)
    (h4 : gainArr7 V c = shapeCast S1x256 g shapeCasts_S256_S1x256)
    (h5 : shiftArr7 V c = shapeCast S1x256 beta shapeCasts_S256_S1x256) :
    (dat7 V c).arrAt 6 cfg7.N = postR256 (aggR256 y src dst nrm) y dis b g beta := by
  rw [arr7 V c]
  refine funext fun (i : S50000x256.Idx) => ?_
  obtain ⟨n, q, rfl⟩ : ∃ (n : Fin 50000) (q : Fin 256), i = ix2 n q := ⟨i 0, i 1, eq_ix2 i⟩
  rw [postArr7_apply, postR256_apply, h0, h1, h2, h3, h4, h5, show aggF256 y src dst nrm = aggR256 y src dst nrm from rfl]
  simp only [shapeCast_a_a1_apply, shapeCast_a_1a_apply]

end Cert.Bridge

end
-- ==== Proof.KI.ArrMatmul3.lean ====
import proofs.«408530_j23158463660766_2_alg».proof.Proof.KI.Reg3
import proofs.«408530_j23158463660766_2_alg».proof.Proof.KI.ValMatmul
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx (ix2 eq_ix2)

variable (V : (c : Dev nD) → (b : Ref sig .tc) → Buf (Elt Ideal) ((c : Thread nD τ).loc b))

abbrev xarr3 (c : Dev nD) : Vec Ideal S50000x256 .f32 := V c (Pipeline.arrRef spec3 0)
abbrev warr3 (c : Dev nD) : Vec Ideal S256x512 .f32 := V c (Pipeline.arrRef spec3 1)

def prod3 (c : Dev nD) : Vec Ideal S50000x512 .f32 :=
  fun i => ∑ k : Fin 256, xarr3 V c (ix2 (i 0) k) * warr3 V c (ix2 k (i 1))

theorem zeroOff3 : (![0, 0] : Fin 2 → Nat) = fun _ => 0 := funext fun a => by fin_cases a <;> rfl

/-- The block indices the embeddings below are computed from. -/
theorem blockIdx3 : ∀ t : Fin cfg3.N, (win3_2.index t 0 = t.val ∧ win3_2.index t 1 = 0)
    ∧ (win3_0.index t 0 = t.val ∧ win3_0.index t 1 = 0) ∧ ∀ a, win3_1.index t a = 0 :=
  (by decide +kernel : ∀ t : Fin grid3.N, _)

def row3 (t : Fin 25) (p : Fin 2000) : Fin 50000 := ⟨t.val * 2000 + p.val, by omega⟩

/-- Row p of the block at point t is row t · 2000 + p of the array: the block index times the block's rows, plus p. -/
theorem xblock3_apply (c : Dev nD) (t : Fin cfg3.N) (p : Fin 2000) (k : Fin 256) :
    (iblk3 V c 0 t : Vec Ideal S2000x256 .f32) (ix2 p k) = xarr3 V c (ix2 (row3 t p) k) :=
  congrArg (xarr3 V c) (Shape.idx_ext₂
    ((win3_0.rect_emb_val t (ix2 p k) 0).trans (by rw [(blockIdx3 t).2.1.1]; rfl))
    (win3_0.rect_emb_val_of_index_zero t 1 (blockIdx3 t).2.1.2 (ix2 p k)))

theorem oemb3 (t : Fin cfg3.N) (p : Fin 2000) (q : Fin 512) :
    ((cfg3.win 2).blk t).view.emb (ix2 p q) = ix2 (row3 t p) q :=
  Shape.idx_ext₂ ((win3_2.rect_emb_val t (ix2 p q) 0).trans (by rw [(blockIdx3 t).1.1]; rfl))
    (win3_2.rect_emb_val_of_index_zero t 1 (blockIdx3 t).1.2 (ix2 p q))

/-- Block index zero on every axis: W's block is W. -/
theorem wblock3_apply (c : Dev nD) (t : Fin cfg3.N) (y : S256x512.Idx) :
    (iblk3 V c 1 t : Vec Ideal S256x512 .f32) y = warr3 V c y :=
  congrArg (warr3 V c) (funext fun a => Fin.ext (win3_1.rect_emb_val_of_index_zero t a ((blockIdx3 t).2.2 a) y))

/-- The block product read entry by entry, each factor read through its block. -/
theorem flushed3_eq (c : Dev nD) (t : Fin cfg3.N) :
    (dat3 V c).flushed 2 t = ((cfg3.win 2).blk t).view.read (Elt Ideal) (prod3 V c) := by
  show (cfg3.win 2).cut (grid3.coords t) ((dat3 V c).after 2 t) = _
  rw [after3_2]
  unfold out3_2
  rw [View.canon_unit_zero zeroOff3]
  simp only [View.ld_unit_zero (S := S2000x256) zeroOff3, View.ld_unit_zero (S := S256x512) zeroOff3]
  funext y
  obtain ⟨p, q, rfl⟩ : ∃ (p : Fin 2000) (q : Fin 512), y = ix2 p q := ⟨y 0, y 1, eq_ix2 y⟩
  show k3_pay1 (iblk3 V c 0 t) (iblk3 V c 1 t) (ix2 p q) = prod3 V c (((cfg3.win 2).blk t).view.emb (ix2 p q))
  rw [oemb3, k3_pay1_apply]
  exact Finset.sum_congr rfl fun k _ => congrArg₂ (· * ·) (xblock3_apply V c t p k) (wblock3_apply V c t (ix2 k q))

/-- Every row is row t · 2000 + p for some block t and offset p, so the blocks tile the output. -/
theorem cover3 (i : S50000x512.Idx) : ∃ t : Fin cfg3.N, (cfg3.win 2).flush t = true ∧ i ∈ ((cfg3.win 2).blk t).view.set := by
  have h : (i 0).val < 50000 := (i 0).isLt
  let t : Fin cfg3.N := ⟨(i 0).val / 2000, by show _ < 25; omega⟩
  have hi : ((cfg3.win 2).blk t).view.emb (ix2 ⟨(i 0).val % 2000, Nat.mod_lt _ (by decide)⟩ (i 1)) = i :=
    (oemb3 t _ _).trans (Shape.idx_ext₂ (Nat.div_add_mod' _ _) rfl)
  exact ⟨t, flush3_2 t, hi ▸ View.emb_mem_set _ _⟩

theorem arr3 (c : Dev nD) : (dat3 V c).arrAt 2 cfg3.N = prod3 V c :=
  (dat3 V c).arrAt_eq_of_cover 2 (prod3 V c) (fun t _ => flushed3_eq V c t) cover3

end Cert.KernelIdeal.Hand
-- ==== Proof.KI.ValPool2.lean ====
import proofs.«408530_j23158463660766_2_alg».proof.Proof.Gen.KernelIdeal.Skeleton
import proofs.«408530_j23158463660766_2_alg».proof.Proof.Math.Spec
import Idealize.ShloMosaic.Lib.Pipeline.Value
import Idealize.ShloMosaic.Lib.ValueIdx
import Idealize.ShloMosaic.Lib.IdealHost
import Idealize.ShloMosaic.PureOps.Ideal.Laws
import Mathlib.Algebra.BigOperators.Fin
import Mathlib.Data.Fintype.BigOperators
import Mathlib.Logic.Equiv.Fin.Basic

noncomputable section

namespace Cert.KernelIdeal.Hand

open Cert.KernelIdeal Cert.KernelIdeal.Gen Idealize.ShloMosaic Idealize.ShloMosaic.TcCoe Idealize.SL.Sem

theorem running_sum {M : Type} [AddCommMonoid M] {N : ℕ} (g : Fin N → M) (s : ℕ → M)
    (h0 : ∀ h : 0 < N, s 0 = g ⟨0, h⟩)
    (hs : ∀ n (h : n + 1 < N), s (n + 1) = s n + g ⟨n + 1, h⟩) :
    ∀ n (h : n < N), s n = ∑ t : Fin (n + 1), g ⟨t.val, lt_of_lt_of_le t.isLt h⟩ := by
  intro n
  induction n with
  | zero => intro h; rw [h0 h, Fin.sum_univ_one]; rfl
  | succ n ih =>
    intro h
    rw [Fin.sum_univ_castSucc, hs n h, ih (Nat.lt_of_succ_lt h)]
    rfl

theorem sum_row_tiles {M : Type} [AddCommMonoid M] {T m K : ℕ} (hK : T * m = K) (f : Fin K → M)
    (row : Fin T → Fin m → Fin K) (hrow : ∀ t r, (row t r).val = m * t.val + r.val) :
    ∑ t : Fin T, ∑ r : Fin m, f (row t r) = ∑ n : Fin K, f n := by
  subst hK
  rw [← (finProdFinEquiv (m := T) (n := m)).sum_comp f, Fintype.sum_prod_type]
  refine Finset.sum_congr rfl fun t _ => Finset.sum_congr rfl fun r _ => congrArg f (Fin.ext ?_)
  rw [hrow, finProdFinEquiv_apply_val]
  exact Nat.add_comm _ _

/-- A value that starts at the first tile's sum and gains one tile's sum a point is, at the last point, the sum over all rows. -/
theorem tiles_value {M : Type} [AddCommMonoid M] (v : ℕ → M) (g : Fin 25 → Fin 2000 → M) (f : Fin 50000 → M)
    (row : Fin 25 → Fin 2000 → Fin 50000) (hrow : ∀ t r, (row t r).val = 2000 * t.val + r.val) (hg : ∀ t r, g t r = f (row t r))
    (h0 : v 0 = ∑ r, g 0 r) (hs : ∀ n (h : n + 1 < 25), v (n + 1) = v n + ∑ r, g ⟨n + 1, h⟩ r) : v 24 = ∑ n, f n := by
  rw [running_sum (fun t => ∑ r, g t r) v (fun _ => h0) hs 24 (by decide)]
  simp only [hg]
  exact sum_row_tiles (by decide : 25 * 2000 = 50000) f row hrow

/-- Contracting a `2000 × 8` table with a `2000 × N` block over the rows: the contraction index is the row. -/
theorem sum_pool {N : ℕ} {R : Type} [AddCommMonoid R]
    (w : DotDims.WF ⟨2, ![2000, 8]⟩ ⟨2, ![2000, N]⟩ ⟨2, ![8, N]⟩ [0] [0] [1] [1] [] [])
    (f : (⟨2, ![2000, 8]⟩ : Shape).Idx → (⟨2, ![2000, N]⟩ : Shape).Idx → R) (b : Fin 8) (d : Fin N) :
    let D : DotDims ⟨2, ![2000, 8]⟩ ⟨2, ![2000, N]⟩ ⟨2, ![8, N]⟩ := ⟨[0], [0], [1], [1], [], [], w⟩
    ∑ k : D.contr.Idx, f (D.lhsIdx (ValueIdx.ix2 b d) k) (D.rhsIdx (ValueIdx.ix2 b d) k) = ∑ r : Fin 2000, f (ValueIdx.ix2 r b) (ValueIdx.ix2 r d) := by
  intro D
  rw [← Equiv.sum_comp (ValueIdx.contrEquiv1 D 2000 rfl rfl).symm]
  refine Finset.sum_congr rfl fun k _ => ?_
  have hk := ValueIdx.contrEquiv1_symm_val D 2000 rfl rfl k
  have el : D.lhsIdx (ValueIdx.ix2 b d) ((ValueIdx.contrEquiv1 D 2000 rfl rfl).symm k) = ValueIdx.ix2 k b := funext fun a => Fin.ext (by
    match a with
    | ⟨0, _⟩ => exact (D.lhsIdx_val_of_single rfl _ _).trans hk
    | ⟨1, _⟩ =>
      show (D.lhsIdx _ _ 1).val = _
      unfold DotDims.lhsIdx
      rw [dif_neg (show ¬(1 : Fin 2) ∈ D.lhsBatch from List.not_mem_nil), dif_pos (show (1 : Fin 2) ∈ D.lhsNonContracting from List.mem_singleton.mpr rfl)]
      rfl)
  have er : D.rhsIdx (ValueIdx.ix2 b d) ((ValueIdx.contrEquiv1 D 2000 rfl rfl).symm k) = ValueIdx.ix2 k d := funext fun a => Fin.ext (by
    match a with
    | ⟨0, _⟩ => exact (D.rhsIdx_val_of_single rfl _ _).trans hk
    | ⟨1, _⟩ =>
      show (D.rhsIdx _ _ 1).val = _
      unfold DotDims.rhsIdx
      rw [dif_neg (show ¬(1 : Fin 2) ∈ D.rhsBatch from List.not_mem_nil), dif_pos (show (1 : Fin 2) ∈ D.rhsNonContracting from List.mem_singleton.mpr rfl)]
      rfl)
  rw [el, er]

/-- The pooling payload at an index: the accumulator plus the block's column summed over the rows the table marks. -/
theorem pool_pay {N : ℕ} (D : DotDims ⟨2, ![2000, 8]⟩ ⟨2, ![2000, N]⟩ ⟨2, ![8, N]⟩) (w) (hD : D = ⟨[0], [0], [1], [1], [], [], w⟩)
    (x : FVec Ideal ⟨2, ![2000, N]⟩ .f32) (oh : FVec Ideal S2000x8 .f32) (acc : FVec Ideal ⟨2, ![8, N]⟩ .f32) (b : Fin 8) (d : Fin N) :
    addf acc (matmul D (some .fp32) oh x (constant _ .f32 0x00000000#32)) (ValueIdx.ix2 b d)
      = acc (ValueIdx.ix2 b d) + ∑ r : Fin 2000, oh (ValueIdx.ix2 r b) * x (ValueIdx.ix2 r d) := by
  subst hD
  simp only [matmul]
  rw [ValueIdx.addf_apply, Ideal.matmul_constant_zero_apply]
  exact congrArg (acc (ValueIdx.ix2 b d) + ·) (sum_pool w (fun a c => oh a * x c) b d)

/-- The same against a column of ones: the count. -/
theorem pool_pay1 (D : DotDims S2000x8 S2000x1 S8x1) (w) (hD : D = ⟨[0], [0], [1], [1], [], [], w⟩)
    (oh : FVec Ideal S2000x8 .f32) (acc : FVec Ideal S8x1 .f32) (b : Fin 8) :
    addf acc (matmul D (some .fp32) oh (broadcast S2000x1 (Scalar.ofBits (F := Ideal) .f32 0x3F800000#32)) (constant _ .f32 0x00000000#32)) (ValueIdx.ix2 b 0)
      = acc (ValueIdx.ix2 b 0) + ∑ r : Fin 2000, oh (ValueIdx.ix2 r b) * 1 :=
  (pool_pay D w hD _ oh acc b 0).trans (congrArg (acc (ValueIdx.ix2 b 0) + ·) (Finset.sum_congr rfl fun r _ =>
    congrArg (oh (ValueIdx.ix2 r b) * ·) Ideal.ofBits_one_f32))

theorem splat_zero (S : Shape) (h : S.ShapeCasts S) (j : S.Idx) :
    shapeCast S (broadcast S (Scalar.ofBits (F := Ideal) .f32 0x00000000#32)) h j = 0 := by
  rw [shapeCast_self]; exact Ideal.ofBits_zero_f32

theorem k2_pay4_apply (x : Vec Ideal S2000x32 .f32) (oh : Vec Ideal S2000x8 .f32) (acc : Vec Ideal S8x32 .f32) (b : Fin 8) (d : Fin 32) :
    k2_pay4 (F := Ideal) x oh acc (ValueIdx.ix2 b d) = acc (ValueIdx.ix2 b d) + ∑ r : Fin 2000, oh (ValueIdx.ix2 r b) * x (ValueIdx.ix2 r d) := by
  unfold k2_pay4 k2_pay3; simp only [shapeCast_self]; exact pool_pay _ _ rfl x oh acc b d

theorem k8_pay4_apply (x : Vec Ideal S2000x256 .f32) (oh : Vec Ideal S2000x8 .f32) (acc : Vec Ideal S8x256 .f32) (b : Fin 8) (d : Fin 256) :
    k8_pay4 (F := Ideal) x oh acc (ValueIdx.ix2 b d) = acc (ValueIdx.ix2 b d) + ∑ r : Fin 2000, oh (ValueIdx.ix2 r b) * x (ValueIdx.ix2 r d) := by
  unfold k8_pay4 k8_pay3; simp only [shapeCast_self]; exact pool_pay _ _ rfl x oh acc b d

theorem k2_pay5_apply (oh : Vec Ideal S2000x8 .f32) (acc : Vec Ideal S8x1 .f32) (b : Fin 8) :
    k2_pay5 (F := Ideal) oh acc (ValueIdx.ix2 b 0) = acc (ValueIdx.ix2 b 0) + ∑ r : Fin 2000, oh (ValueIdx.ix2 r b) * 1 := by
  unfold k2_pay5 k2_pay3; simp only [shapeCast_self]; exact pool_pay1 _ _ rfl oh acc b

theorem k8_pay5_apply (oh : Vec Ideal S2000x8 .f32) (acc : Vec Ideal S8x1 .f32) (b : Fin 8) :
    k8_pay5 (F := Ideal) oh acc (ValueIdx.ix2 b 0) = acc (ValueIdx.ix2 b 0) + ∑ r : Fin 2000, oh (ValueIdx.ix2 r b) * 1 := by
  unfold k8_pay5 k8_pay3; simp only [shapeCast_self]; exact pool_pay1 _ _ rfl oh acc b

theorem pool2_sum_value (x : Vec Ideal S50000x32 .f32) (oh : Vec Ideal S50000x8 .f32)
    (row : Fin 25 → Fin 2000 → Fin 50000) (hrow : ∀ t r, (row t r).val = 2000 * t.val + r.val)
    (X : Fin 25 → Vec Ideal S2000x32 .f32) (OH : Fin 25 → Vec Ideal S2000x8 .f32)
    (hX : ∀ t r d, X t (ValueIdx.ix2 r d) = x (ValueIdx.ix2 (row t r) d))
    (hOH : ∀ t r b, OH t (ValueIdx.ix2 r b) = oh (ValueIdx.ix2 (row t r) b))
    (S : ℕ → Vec Ideal S8x32 .f32)
    (h0 : S 0 = k2_pay4 (F := Ideal) (X 0) (OH 0) (k2_pay1 (F := Ideal)))
    (hs : ∀ n (h : n + 1 < 25), S (n + 1) = k2_pay4 (F := Ideal) (X ⟨n + 1, h⟩) (OH ⟨n + 1, h⟩) (S n))
    (b : Fin 8) (d : Fin 32) :
    S 24 (ValueIdx.ix2 b d) = Cert.Math.poolSum (fun n b => oh (ValueIdx.ix2 n b)) (fun n d => x (ValueIdx.ix2 n d)) b d :=
  tiles_value (fun n => S n (ValueIdx.ix2 b d)) (fun t r => OH t (ValueIdx.ix2 r b) * X t (ValueIdx.ix2 r d)) (fun n => oh (ValueIdx.ix2 n b) * x (ValueIdx.ix2 n d)) row hrow
    (fun t r => by rw [hX, hOH])
    (by show S 0 _ = _; rw [h0, k2_pay4_apply, show k2_pay1 (F := Ideal) _ = 0 from splat_zero _ _ _, zero_add])
    (fun n h => by show S (n + 1) _ = _; rw [hs n h, k2_pay4_apply])

theorem pool2_count_value (oh : Vec Ideal S50000x8 .f32)
    (row : Fin 25 → Fin 2000 → Fin 50000) (hrow : ∀ t r, (row t r).val = 2000 * t.val + r.val)
    (OH : Fin 25 → Vec Ideal S2000x8 .f32)
    (hOH : ∀ t r b, OH t (ValueIdx.ix2 r b) = oh (ValueIdx.ix2 (row t r) b))
    (C : ℕ → Vec Ideal S8x1 .f32)
    (h0 : C 0 = k2_pay5 (F := Ideal) (OH 0) (k2_pay2 (F := Ideal)))
    (hs : ∀ n (h : n + 1 < 25), C (n + 1) = k2_pay5 (F := Ideal) (OH ⟨n + 1, h⟩) (C n))
    (b : Fin 8) :
    C 24 (ValueIdx.ix2 b 0) = Cert.Math.poolCount (fun n b => oh (ValueIdx.ix2 n b)) b :=
  tiles_value (fun n => C n (ValueIdx.ix2 b 0)) (fun t r => OH t (ValueIdx.ix2 r b) * 1) (fun n => oh (ValueIdx.ix2 n b) * 1) row hrow
    (fun t r => by rw [hOH])
    (by show C 0 _ = _; rw [h0, k2_pay5_apply, show k2_pay2 (F := Ideal) _ = 0 from splat_zero _ _ _, zero_add])
    (fun n h => by show C (n + 1) _ = _; rw [hs n h, k2_pay5_apply])

theorem pool8_sum_value (x : Vec Ideal S50000x256 .f32) (oh : Vec Ideal S50000x8 .f32)
    (row : Fin 25 → Fin 2000 → Fin 50000) (hrow : ∀ t r, (row t r).val = 2000 * t.val + r.val)
    (X : Fin 25 → Vec Ideal S2000x256 .f32) (OH : Fin 25 → Vec Ideal S2000x8 .f32)
    (hX : ∀ t r d, X t (ValueIdx.ix2 r d) = x (ValueIdx.ix2 (row t r) d))
    (hOH : ∀ t r b, OH t (ValueIdx.ix2 r b) = oh (ValueIdx.ix2 (row t r) b))
    (S : ℕ → Vec Ideal S8x256 .f32)
    (h0 : S 0 = k8_pay4 (F := Ideal) (X 0) (OH 0) (k8_pay1 (F := Ideal)))
    (hs : ∀ n (h : n + 1 < 25), S (n + 1) = k8_pay4 (F := Ideal) (X ⟨n + 1, h⟩) (OH ⟨n + 1, h⟩) (S n))
    (b : Fin 8) (d : Fin 256) :
    S 24 (ValueIdx.ix2 b d) = Cert.Math.poolSum (fun n b => oh (ValueIdx.ix2 n b)) (fun n d => x (ValueIdx.ix2 n d)) b d :=
  tiles_value (fun n => S n (ValueIdx.ix2 b d)) (fun t r => OH t (ValueIdx.ix2 r b) * X t (ValueIdx.ix2 r d)) (fun n => oh (ValueIdx.ix2 n b) * x (ValueIdx.ix2 n d)) row hrow
    (fun t r => by rw [hX, hOH])
    (by show S 0 _ = _; rw [h0, k8_pay4_apply, show k8_pay1 (F := Ideal) _ = 0 from splat_zero _ _ _, zero_add])
    (fun n h => by show S (n + 1) _ = _; rw [hs n h, k8_pay4_apply])

theorem pool8_count_value (oh : Vec Ideal S50000x8 .f32)
    (row : Fin 25 → Fin 2000 → Fin 50000) (hrow : ∀ t r, (row t r).val = 2000 * t.val + r.val)
    (OH : Fin 25 → Vec Ideal S2000x8 .f32)
    (hOH : ∀ t r b, OH t (ValueIdx.ix2 r b) = oh (ValueIdx.ix2 (row t r) b))
    (C : ℕ → Vec Ideal S8x1 .f32)
    (h0 : C 0 = k8_pay5 (F := Ideal) (OH 0) (k8_pay2 (F := Ideal)))
    (hs : ∀ n (h : n + 1 < 25), C (n + 1) = k8_pay5 (F := Ideal) (OH ⟨n + 1, h⟩) (C n))
    (b : Fin 8) :
    C 24 (ValueIdx.ix2 b 0) = Cert.Math.poolCount (fun n b => oh (ValueIdx.ix2 n b)) b :=
  tiles_value (fun n => C n (ValueIdx.ix2 b 0)) (fun t r => OH t (ValueIdx.ix2 r b) * 1) (fun n => oh (ValueIdx.ix2 n b) * 1) row hrow
    (fun t r => by rw [hOH])
    (by show C 0 _ = _; rw [h0, k8_pay5_apply, show k8_pay2 (F := Ideal) _ = 0 from splat_zero _ _ _, zero_add])
    (fun n h => by show C (n + 1) _ = _; rw [hs n h, k8_pay5_apply])

end Cert.KernelIdeal.Hand
-- ==== Proof.KI.ArrPool2.lean ====
import proofs.«408530_j23158463660766_2_alg».proof.Proof.KI.Reg2
import proofs.«408530_j23158463660766_2_alg».proof.Proof.KI.ValPool2
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx (ix2 eq_ix2)

variable (V : (c : Dev nD) → (b : Ref sig .tc) → Buf (Elt Ideal) ((c : Thread nD τ).loc b))

abbrev xarr2 (c : Dev nD) : Vec Ideal S50000x32 .f32 := V c (Pipeline.arrRef spec2 0)
abbrev oharr2 (c : Dev nD) : Vec Ideal S50000x8 .f32 := V c (Pipeline.arrRef spec2 1)

def sums2 (c : Dev nD) : Vec Ideal S8x32 .f32 :=
  fun i => Cert.Math.poolSum (fun n b => oharr2 V c (ix2 n b)) (fun n d => xarr2 V c (ix2 n d)) (i 0) (i 1)
def counts2 (c : Dev nD) : Vec Ideal S8x1 .f32 :=
  fun i => Cert.Math.poolCount (fun n b => oharr2 V c (ix2 n b)) (i 0)

theorem sums2_apply (c : Dev nD) (b : Fin 8) (d : Fin 32) :
    sums2 V c (ix2 b d) = Cert.Math.poolSum (fun n b => oharr2 V c (ix2 n b)) (fun n d => xarr2 V c (ix2 n d)) b d := rfl
theorem counts2_apply (c : Dev nD) (b : Fin 8) (z : Fin 1) :
    counts2 V c (ix2 b z) = Cert.Math.poolCount (fun n b => oharr2 V c (ix2 n b)) b := rfl

/-- The block indices the embeddings below are computed from. -/
theorem blockIdx2 : ∀ t : Fin cfg2.N, (win2_0.index t 0 = t.val ∧ win2_0.index t 1 = 0)
    ∧ (win2_1.index t 0 = t.val ∧ win2_1.index t 1 = 0) ∧ (∀ a, win2_2.index t a = 0) ∧ ∀ a, win2_3.index t a = 0 :=
  (by decide +kernel : ∀ t : Fin grid2.N, _)

def row2 (t : Fin 25) (r : Fin 2000) : Fin 50000 := ⟨2000 * t.val + r.val, by omega⟩

theorem row2_val (t : Fin 25) (r : Fin 2000) : t.val * 2000 + r.val = (row2 t r).val :=
  congrArg (· + r.val) (Nat.mul_comm t.val 2000)

/-- Row r of the block at point t is row 2000 · t + r of the array: the block index times the block's rows, plus r. -/
theorem xblock2_apply (c : Dev nD) (t : Fin cfg2.N) (r : Fin 2000) (d : Fin 32) :
    (iblk2 V c 0 t : Vec Ideal S2000x32 .f32) (ix2 r d) = xarr2 V c (ix2 (row2 t r) d) :=
  congrArg (xarr2 V c) (Shape.idx_ext₂
    ((win2_0.rect_emb_val t (ix2 r d) 0).trans (by rw [(blockIdx2 t).1.1]; exact row2_val t r))
    (win2_0.rect_emb_val_of_index_zero t 1 (blockIdx2 t).1.2 (ix2 r d)))

theorem ohblock2_apply (c : Dev nD) (t : Fin cfg2.N) (r : Fin 2000) (b : Fin 8) :
    (iblk2 V c 1 t : Vec Ideal S2000x8 .f32) (ix2 r b) = oharr2 V c (ix2 (row2 t r) b) :=
  congrArg (oharr2 V c) (Shape.idx_ext₂
    ((win2_1.rect_emb_val t (ix2 r b) 0).trans (by rw [(blockIdx2 t).2.1.1]; exact row2_val t r))
    (win2_1.rect_emb_val_of_index_zero t 1 (blockIdx2 t).2.1.2 (ix2 r b)))

/-- Both accumulators as one total sequence, so that the solved recursion applies. -/
def accSeq2 (c : Dev nD) (n : ℕ) : Vec Ideal S8x32 .f32 × Vec Ideal S8x1 .f32 :=
  if h : n < cfg2.N then acc2 V c n h else acc2 V c 0 (by decide)

/-- The recursion solved at the last tile, the tiles' rows being the arrays' rows. -/
theorem acc2_last (c : Dev nD) (n : ℕ) (h : n < cfg2.N) (hn : n = 24) :
    (acc2 V c n h).1 = sums2 V c ∧ (acc2 V c n h).2 = counts2 V c := by
  subst hn
  have e : ∀ n (hn : n < cfg2.N), accSeq2 V c n = acc2 V c n hn := fun n hn => dif_pos hn
  rw [← e 24 h]
  constructor <;> funext y
  · obtain ⟨b, d, rfl⟩ : ∃ (b : Fin 8) (d : Fin 32), y = ix2 b d := ⟨y 0, y 1, eq_ix2 y⟩
    exact pool2_sum_value _ _ row2 (fun _ _ => rfl) (fun t => iblk2 V c 0 t) (fun t => iblk2 V c 1 t)
      (xblock2_apply V c) (ohblock2_apply V c) (fun n => (accSeq2 V c n).1) (by rw [e 0 (by decide)]; rfl)
      (fun n hn => by rw [e _ hn, e n (Nat.lt_of_succ_lt hn)]; rfl) b d
  · obtain ⟨b, z, rfl⟩ : ∃ (b : Fin 8) (z : Fin 1), y = ix2 b z := ⟨y 0, y 1, eq_ix2 y⟩
    obtain rfl : z = 0 := Subsingleton.elim _ _
    exact pool2_count_value _ row2 (fun _ _ => rfl) (fun t => iblk2 V c 1 t) (ohblock2_apply V c)
      (fun n => (accSeq2 V c n).2) (by rw [e 0 (by decide)]; rfl)
      (fun n hn => by rw [e _ hn, e n (Nat.lt_of_succ_lt hn)]; rfl) b

/-- Block index zero on every axis: the block's entries sit at their own coordinates, -/
theorem semb2 (t : Fin cfg2.N) (y : S8x32.Idx) : ((cfg2.win 2).blk t).view.emb y = y :=
  funext fun a => Fin.ext (win2_2.rect_emb_val_of_index_zero t a ((blockIdx2 t).2.2.1 a) y)
theorem cemb2 (t : Fin cfg2.N) (y : S8x1.Idx) : ((cfg2.win 3).blk t).view.emb y = y :=
  funext fun a => Fin.ext (win2_3.rect_emb_val_of_index_zero t a ((blockIdx2 t).2.2.2 a) y)

/-- so the last point's block holds every index of the array -/
theorem cover2_s (i : S8x32.Idx) : ∃ t : Fin cfg2.N, (cfg2.win 2).flush t = true ∧ i ∈ ((cfg2.win 2).blk t).view.set :=
  ⟨⟨24, by decide⟩, (flush2_2 _).mpr rfl, semb2 _ i ▸ View.emb_mem_set _ i⟩
theorem cover2_c (i : S8x1.Idx) : ∃ t : Fin cfg2.N, (cfg2.win 3).flush t = true ∧ i ∈ ((cfg2.win 3).blk t).view.set :=
  ⟨⟨24, by decide⟩, (flush2_3 _).mpr rfl, cemb2 _ i ▸ View.emb_mem_set _ i⟩

/-- and cutting contents to the block is reading them through it. -/
theorem block2 (t : Fin cfg2.N) :
    (∀ A : Vec Ideal S8x32 .f32, (cfg2.win 2).cut (grid2.coords t) A = ((cfg2.win 2).blk t).view.read (Elt Ideal) A)
    ∧ ∀ A : Vec Ideal S8x1 .f32, (cfg2.win 3).cut (grid2.coords t) A = ((cfg2.win 3).blk t).view.read (Elt Ideal) A :=
  ⟨fun A => funext fun y => (congrArg A (semb2 t y)).symm, fun A => funext fun y => (congrArg A (cemb2 t y)).symm⟩

theorem flushed2 (c : Dev nD) (t : Fin cfg2.N) (ht : t.val % 25 = 24) :
    (dat2 V c).flushed 2 t = ((cfg2.win 2).blk t).view.read (Elt Ideal) (sums2 V c)
    ∧ (dat2 V c).flushed 3 t = ((cfg2.win 3).blk t).view.read (Elt Ideal) (counts2 V c) := by
  have h := acc2_last V c _ t.isLt (by have : t.val < 25 := t.isLt; omega)
  exact ⟨(congrArg ((cfg2.win 2).cut (grid2.coords t)) ((after2_2 V c t).trans h.1)).trans ((block2 t).1 _),
    (congrArg ((cfg2.win 3).cut (grid2.coords t)) ((after2_3 V c t).trans h.2)).trans ((block2 t).2 _)⟩

theorem arr2_s (c : Dev nD) : (dat2 V c).arrAt 2 cfg2.N = sums2 V c :=
  (dat2 V c).arrAt_eq_of_cover 2 (sums2 V c) (fun t hf => (flushed2 V c t ((flush2_2 t).mp hf)).1) cover2_s

theorem arr2_c (c : Dev nD) : (dat2 V c).arrAt 3 cfg2.N = counts2 V c :=
  (dat2 V c).arrAt_eq_of_cover 3 (counts2 V c) (fun t hf => (flushed2 V c t ((flush2_3 t).mp hf)).2) cover2_c

end Cert.KernelIdeal.Hand
-- ==== Proof.KI.ArrPool8.lean ====
import proofs.«408530_j23158463660766_2_alg».proof.Proof.KI.Reg8
import proofs.«408530_j23158463660766_2_alg».proof.Proof.KI.ValPool2
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx (ix2 eq_ix2)

variable (V : (c : Dev nD) → (b : Ref sig .tc) → Buf (Elt Ideal) ((c : Thread nD τ).loc b))

abbrev xarr8 (c : Dev nD) : Vec Ideal S50000x256 .f32 := V c (Pipeline.arrRef spec8 0)
abbrev oharr8 (c : Dev nD) : Vec Ideal S50000x8 .f32 := V c (Pipeline.arrRef spec8 1)

def sums8 (c : Dev nD) : Vec Ideal S8x256 .f32 :=
  fun i => Cert.Math.poolSum (fun n b => oharr8 V c (ix2 n b)) (fun n d => xarr8 V c (ix2 n d)) (i 0) (i 1)
def counts8 (c : Dev nD) : Vec Ideal S8x1 .f32 :=
  fun i => Cert.Math.poolCount (fun n b => oharr8 V c (ix2 n b)) (i 0)

theorem sums8_apply (c : Dev nD) (b : Fin 8) (d : Fin 256) :
    sums8 V c (ix2 b d) = Cert.Math.poolSum (fun n b => oharr8 V c (ix2 n b)) (fun n d => xarr8 V c (ix2 n d)) b d := rfl
theorem counts8_apply (c : Dev nD) (b : Fin 8) (z : Fin 1) :
    counts8 V c (ix2 b z) = Cert.Math.poolCount (fun n b => oharr8 V c (ix2 n b)) b := rfl

/-- The block indices the embeddings below are computed from. -/
theorem blockIdx8 : ∀ t : Fin cfg8.N, (win8_0.index t 0 = t.val ∧ win8_0.index t 1 = 0)
    ∧ (win8_1.index t 0 = t.val ∧ win8_1.index t 1 = 0) ∧ (∀ a, win8_2.index t a = 0) ∧ ∀ a, win8_3.index t a = 0 :=
  (by decide +kernel : ∀ t : Fin grid8.N, _)

def row8 (t : Fin 25) (r : Fin 2000) : Fin 50000 := ⟨2000 * t.val + r.val, by omega⟩

theorem row8_val (t : Fin 25) (r : Fin 2000) : t.val * 2000 + r.val = (row8 t r).val :=
  congrArg (· + r.val) (Nat.mul_comm t.val 2000)

/-- Row r of the block at point t is row 2000 · t + r of the array: the block index times the block's rows, plus r. -/
theorem xblock8_apply (c : Dev nD) (t : Fin cfg8.N) (r : Fin 2000) (d : Fin 256) :
    (iblk8 V c 0 t : Vec Ideal S2000x256 .f32) (ix2 r d) = xarr8 V c (ix2 (row8 t r) d) :=
  congrArg (xarr8 V c) (Shape.idx_ext₂
    ((win8_0.rect_emb_val t (ix2 r d) 0).trans (by rw [(blockIdx8 t).1.1]; exact row8_val t r))
    (win8_0.rect_emb_val_of_index_zero t 1 (blockIdx8 t).1.2 (ix2 r d)))

theorem ohblock8_apply (c : Dev nD) (t : Fin cfg8.N) (r : Fin 2000) (b : Fin 8) :
    (iblk8 V c 1 t : Vec Ideal S2000x8 .f32) (ix2 r b) = oharr8 V c (ix2 (row8 t r) b) :=
  congrArg (oharr8 V c) (Shape.idx_ext₂
    ((win8_1.rect_emb_val t (ix2 r b) 0).trans (by rw [(blockIdx8 t).2.1.1]; exact row8_val t r))
    (win8_1.rect_emb_val_of_index_zero t 1 (blockIdx8 t).2.1.2 (ix2 r b)))

/-- Both accumulators as one total sequence, so that the solved recursion applies. -/
def accSeq8 (c : Dev nD) (n : ℕ) : Vec Ideal S8x256 .f32 × Vec Ideal S8x1 .f32 :=
  if h : n < cfg8.N then acc8 V c n h else acc8 V c 0 (by decide)

/-- The recursion solved at the last tile, the tiles' rows being the arrays' rows. -/
theorem acc8_last (c : Dev nD) (n : ℕ) (h : n < cfg8.N) (hn : n = 24) :
    (acc8 V c n h).1 = sums8 V c ∧ (acc8 V c n h).2 = counts8 V c := by
  subst hn
  have e : ∀ n (hn : n < cfg8.N), accSeq8 V c n = acc8 V c n hn := fun n hn => dif_pos hn
  rw [← e 24 h]
  constructor <;> funext y
  · obtain ⟨b, d, rfl⟩ : ∃ (b : Fin 8) (d : Fin 256), y = ix2 b d := ⟨y 0, y 1, eq_ix2 y⟩
    exact pool8_sum_value _ _ row8 (fun _ _ => rfl) (fun t => iblk8 V c 0 t) (fun t => iblk8 V c 1 t)
      (xblock8_apply V c) (ohblock8_apply V c) (fun n => (accSeq8 V c n).1) (by rw [e 0 (by decide)]; rfl)
      (fun n hn => by rw [e _ hn, e n (Nat.lt_of_succ_lt hn)]; rfl) b d
  · obtain ⟨b, z, rfl⟩ : ∃ (b : Fin 8) (z : Fin 1), y = ix2 b z := ⟨y 0, y 1, eq_ix2 y⟩
    obtain rfl : z = 0 := Subsingleton.elim _ _
    exact pool8_count_value _ row8 (fun _ _ => rfl) (fun t => iblk8 V c 1 t) (ohblock8_apply V c)
      (fun n => (accSeq8 V c n).2) (by rw [e 0 (by decide)]; rfl)
      (fun n hn => by rw [e _ hn, e n (Nat.lt_of_succ_lt hn)]; rfl) b

/-- Block index zero on every axis: the block's entries sit at their own coordinates, -/
theorem semb8 (t : Fin cfg8.N) (y : S8x256.Idx) : ((cfg8.win 2).blk t).view.emb y = y :=
  funext fun a => Fin.ext (win8_2.rect_emb_val_of_index_zero t a ((blockIdx8 t).2.2.1 a) y)
theorem cemb8 (t : Fin cfg8.N) (y : S8x1.Idx) : ((cfg8.win 3).blk t).view.emb y = y :=
  funext fun a => Fin.ext (win8_3.rect_emb_val_of_index_zero t a ((blockIdx8 t).2.2.2 a) y)

/-- so the last point's block holds every index of the array -/
theorem cover8_s (i : S8x256.Idx) : ∃ t : Fin cfg8.N, (cfg8.win 2).flush t = true ∧ i ∈ ((cfg8.win 2).blk t).view.set :=
  ⟨⟨24, by decide⟩, (flush8_2 _).mpr rfl, semb8 _ i ▸ View.emb_mem_set _ i⟩
theorem cover8_c (i : S8x1.Idx) : ∃ t : Fin cfg8.N, (cfg8.win 3).flush t = true ∧ i ∈ ((cfg8.win 3).blk t).view.set :=
  ⟨⟨24, by decide⟩, (flush8_3 _).mpr rfl, cemb8 _ i ▸ View.emb_mem_set _ i⟩

/-- and cutting contents to the block is reading them through it. -/
theorem block8 (t : Fin cfg8.N) :
    (∀ A : Vec Ideal S8x256 .f32, (cfg8.win 2).cut (grid8.coords t) A = ((cfg8.win 2).blk t).view.read (Elt Ideal) A)
    ∧ ∀ A : Vec Ideal S8x1 .f32, (cfg8.win 3).cut (grid8.coords t) A = ((cfg8.win 3).blk t).view.read (Elt Ideal) A :=
  ⟨fun A => funext fun y => (congrArg A (semb8 t y)).symm, fun A => funext fun y => (congrArg A (cemb8 t y)).symm⟩

theorem flushed8 (c : Dev nD) (t : Fin cfg8.N) (ht : t.val % 25 = 24) :
    (dat8 V c).flushed 2 t = ((cfg8.win 2).blk t).view.read (Elt Ideal) (sums8 V c)
    ∧ (dat8 V c).flushed 3 t = ((cfg8.win 3).blk t).view.read (Elt Ideal) (counts8 V c) := by
  have h := acc8_last V c _ t.isLt (by have : t.val < 25 := t.isLt; omega)
  exact ⟨(congrArg ((cfg8.win 2).cut (grid8.coords t)) ((after8_2 V c t).trans h.1)).trans ((block8 t).1 _),
    (congrArg ((cfg8.win 3).cut (grid8.coords t)) ((after8_3 V c t).trans h.2)).trans ((block8 t).2 _)⟩

theorem arr8_s (c : Dev nD) : (dat8 V c).arrAt 2 cfg8.N = sums8 V c :=
  (dat8 V c).arrAt_eq_of_cover 2 (sums8 V c) (fun t hf => (flushed8 V c t ((flush8_2 t).mp hf)).1) cover8_s

theorem arr8_c (c : Dev nD) : (dat8 V c).arrAt 3 cfg8.N = counts8 V c :=
  (dat8 V c).arrAt_eq_of_cover 3 (counts8 V c) (fun t hf => (flushed8 V c t ((flush8_3 t).mp hf)).2) cover8_c

end Cert.KernelIdeal.Hand
-- ==== Proof.Math.OneHot.lean ====
import Idealize.ShloMosaic.PureOps.Ideal
import Mathlib.Logic.Equiv.Fin.Basic

noncomputable section

open scoped BigOperators
open Idealize.ShloMosaic

namespace Cert.Math

theorem uitofp_cmpi_eq {φ : FTy} {w : ℕ} (a b : BitVec w) :
    FloatOps.uitofp (F := Ideal) φ (IntOp.cmpi .eq a b) = if a = b then (1 : EReal) else 0 := by
  show (((IntOp.cmpi .eq a b).toNat : ℝ) : EReal) = _
  by_cases h : a = b
  · simp [IntOp.cmpi, h]
  · simp [IntOp.cmpi, h, beq_eq_false_iff_ne.mpr h]

end Cert.Math

end
-- ==== Proof.KI.PoolOneHot.lean ====
import proofs.«408530_j23158463660766_2_alg».proof.Proof.KI.HostValC
import proofs.«408530_j23158463660766_2_alg».proof.Proof.KI.UnitsAtA
import proofs.«408530_j23158463660766_2_alg».proof.Proof.KI.ValPost
import proofs.«408530_j23158463660766_2_alg».proof.Proof.Ref.Units
import proofs.«408530_j23158463660766_2_alg».proof.Proof.Math.Net
import proofs.«408530_j23158463660766_2_alg».proof.Proof.Math.OneHot
import proofs.«408530_j23158463660766_2_alg».proof.Proof.Math.ScatterRow
import Idealize.ShloMosaic.Lib.ValueLayout

noncomputable section

namespace Cert.Bridge

open Idealize.ShloMosaic Idealize.ShloMosaic.ValueIdx
open Cert.Math (lands oneHot)

section Column
open Cert.ReferenceIdeal Cert.ReferenceIdeal.Gen

abbrev batchCol (batch : IVec S50000 32) : IVec S50000x1 32 :=
  broadcastInDim S50000x1 ![0] bcast_S50000_S50000x1_0 batch

end Column

open Cert.KernelIdeal Cert.KernelIdeal.Gen Cert.KernelIdeal.Hand

/-- Entry (n, b) compares row n's batch word with bucket b's number, and that is whether row n lands in bucket b. -/
theorem onehot8_tab (batch : IVec S50000 32) :
    (fun (n : Fin 50000) (b : Fin 8) => onehot8 (F := Ideal) batch (ix2 n b)) = oneHot (lands (batchCol batch)) := by
  funext n b
  have h := Cert.Math.lands_eq_some_iff_eq_ofNat (N := 8) (w := 32) (by norm_num) (batchCol batch) n b
  rw [show batchCol batch (ix2 n (0 : Fin 1)) = batch (ix1 n) from bcastCol_apply _ batch n] at h
  unfold onehot8 uitofp cmpi oneHot
  rw [broadcastInDim_apply ![0, 1] _ _ (ix2 n b) (ix2 n (0 : Fin 1)) (fun ax => match ax with | ⟨0, _⟩ => rfl | ⟨1, _⟩ => rfl),
    broadcastInDim_apply ![0, 1] _ _ (ix2 n b) (ix2 (0 : Fin 1) b) (fun ax => match ax with | ⟨0, _⟩ => rfl | ⟨1, _⟩ => rfl),
    shapeCast_a_a1_apply, shapeCast_a_1a_apply, Cert.Math.uitofp_cmpi_eq]
  exact if_congr h.symm rfl rfl

end Cert.Bridge
-- ==== Proof.KI.PoolBridge.lean ====
import proofs.«408530_j23158463660766_2_alg».proof.Proof.KI.ArrPool2
import proofs.«408530_j23158463660766_2_alg».proof.Proof.KI.ArrPool8
import proofs.«408530_j23158463660766_2_alg».proof.Proof.KI.PoolOneHot
import proofs.«408530_j23158463660766_2_alg».proof.Proof.Ref.UnitsAt
import proofs.«408530_j23158463660766_2_alg».proof.Proof.Math.Net

namespace Cert.Bridge

open Idealize.ShloMosaic Idealize.ShloMosaic.TcCoe Idealize.SL.Sem Idealize.ShloMosaic.ValueIdx
open Cert.KernelIdeal Cert.KernelIdeal.Gen Cert.KernelIdeal.Hand Cert.ReferenceIdeal.Hand
open Cert.Math (lands oneHot)

variable (V : (c : Dev nD) → (b : Ref sig .tc) → Buf (Elt Ideal) ((c : Thread nD τ).loc b))

/-- Pooling against the one-hot table of the batch column is the segment sum over it. -/
theorem poolC (c : Dev nD) (batch : IVec S50000 32) (x : FVec Ideal S50000x32 .f32)
    (h1 : oharr2 V c = onehot8 (F := Ideal) batch) (h0 : xarr2 V c = x) :
    (dat2 V c).arrAt 2 cfg2.N = poolSumR32 (F := Ideal) batch x
      ∧ ∀ b : Fin 8, (dat2 V c).arrAt 3 cfg2.N (ix2 b (0 : Fin 1)) = poolCntR (F := Ideal) batch (ix1 b) := by
  refine ⟨?_, fun b => ?_⟩
  · rw [arr2_s]
    funext i
    obtain ⟨b, d, rfl⟩ : ∃ (b : Fin 8) (d : Fin 32), i = ix2 b d := ⟨i 0, i 1, eq_ix2 i⟩
    rw [sums2_apply, poolSumR32_apply, ← Cert.Math.poolSum_oneHot, h1, h0, onehot8_tab]
  · rw [arr2_c, counts2_apply, poolCntR_apply, ← Cert.Math.poolCount_oneHot, h1, onehot8_tab]

theorem poolF (c : Dev nD) (batch : IVec S50000 32) (x : FVec Ideal S50000x256 .f32)
    (h1 : oharr8 V c = onehot8 (F := Ideal) batch) (h0 : xarr8 V c = x) :
    (dat8 V c).arrAt 2 cfg8.N = poolSumR256 (F := Ideal) batch x
      ∧ ∀ b : Fin 8, (dat8 V c).arrAt 3 cfg8.N (ix2 b (0 : Fin 1)) = poolCntR (F := Ideal) batch (ix1 b) := by
  refine ⟨?_, fun b => ?_⟩
  · rw [arr8_s]
    funext i
    obtain ⟨b, d, rfl⟩ : ∃ (b : Fin 8) (d : Fin 256), i = ix2 b d := ⟨i 0, i 1, eq_ix2 i⟩
    rw [sums8_apply, poolSumR256_apply, ← Cert.Math.poolSum_oneHot, h1, h0, onehot8_tab]
  · rw [arr8_c, counts8_apply, poolCntR_apply, ← Cert.Math.poolCount_oneHot, h1, onehot8_tab]

end Cert.Bridge
-- ==== Proof.KI.PoolMean.lean ====
import proofs.«408530_j23158463660766_2_alg».proof.Proof.KI.HostValC
import proofs.«408530_j23158463660766_2_alg».proof.Proof.KI.UnitsAtA
import proofs.«408530_j23158463660766_2_alg».proof.Proof.Ref.UnitsB

namespace Cert.Bridge

open Idealize.ShloMosaic Idealize.ShloMosaic.ValueIdx
open Cert.KernelIdeal Cert.KernelIdeal.Hand Cert.ReferenceIdeal.Hand

variable {F : FTy → Type} [FloatOps F]

/-- Both clamp each count below by one; the reference's column is its vector laid along a unit axis. -/
theorem cnt1_eq_cntCol (c : FVec F S8x1 .f32) (c' : FVec F S8 .f32)
    (hc : ∀ b : Fin 8, c (ix2 b (0 : Fin 1)) = c' (ix1 b)) : cnt1 c = cntCol c' := by
  funext i
  obtain ⟨b, z, rfl⟩ : ∃ (b : Fin 8) (z : Fin 1), i = ix2 b z := ⟨i 0, i 1, eq_ix2 i⟩
  obtain rfl : z = 0 := Subsingleton.elim _ _
  unfold cnt1 cntCol
  rw [bcastCol_apply]
  show FloatOps.maximumf (c (ix2 b (0 : Fin 1))) _ = FloatOps.maximumf (c' (ix1 b)) _
  rw [hc b]
  rfl

theorem headC_eq (s : FVec F S8x32 .f32) (c : FVec F S8x1 .f32) (c' : FVec F S8 .f32) (Wt : FVec F S32x128 .f32)
    (b : FVec F S128 .f32) (hc : ∀ g : Fin 8, c (ix2 g (0 : Fin 1)) = c' (ix1 g)) : headC s c Wt b = headCR s c' Wt b := by
  unfold headC headCR poolMean32 poolMeanR32
  rw [cnt1_eq_cntCol c c' hc]
  rfl

theorem headF_eq (s : FVec F S8x256 .f32) (c : FVec F S8x1 .f32) (c' : FVec F S8 .f32) (Wt : FVec F S256x128 .f32)
    (b : FVec F S128 .f32) (hc : ∀ g : Fin 8, c (ix2 g (0 : Fin 1)) = c' (ix1 g)) : headF s c Wt b = headFR s c' Wt b := by
  unfold headF headFR poolMean256 poolMeanR256
  rw [cnt1_eq_cntCol c c' hc]
  rfl

end Cert.Bridge
-- ==== Proof.KI.PreReal.lean ====
import proofs.«408530_j23158463660766_2_alg».proof.Defs
import Idealize.ShloMosaic.Lib.ReduceAll
import Idealize.ShloMosaic.Lib.ValueIdx
import Idealize.ShloMosaic.PureOps.Ideal.Laws
import Mathlib.Data.EReal.Operations

noncomputable section

open Idealize.ShloMosaic Idealize.SL.Sem

namespace Cert.KernelIdeal.Hand

private theorem ofBits_f32_inf : Ideal.ofBits .f32 0x7F800000#32 = (⊤ : EReal) := by
  simp [Ideal.ofBits, Ideal.ieee]

private theorem real_of_abs_lt_top (x : EReal) (h : max x (-x) < (⊤ : EReal)) : ∃ r : ℝ, x = (r : EReal) := by
  induction x using EReal.rec with
  | bot => simp at h
  | coe r => exact ⟨r, rfl⟩
  | top => simp at h

private theorem real_of_isfinite_word (x : Ideal .f32)
    (h : FloatOps.cmpf (F := Ideal) .olt (FloatOps.hostAbsf (F := Ideal) x) (Ideal.ofBits .f32 0x7F800000#32) = 1#1) :
    ∃ r : ℝ, x = (r : EReal) := by
  rw [Ideal.cmpf_def, Ideal.hostAbsf_def, Ideal.absf_def, ofBits_f32_inf] at h
  refine real_of_abs_lt_top x ?_
  by_contra hn
  simp [Ideal.cmp, hn] at h

theorem real_of_all_isfinite {S : Shape} {axes : List (Fin S.rank)}
    (hb : Cert.Pre_finite_inputs.S_.BroadcastsInDim S (![] : Fin 0 → Fin S.rank))
    (hr : S.ReducesTo axes Cert.Pre_finite_inputs.S_) (h0 : 0 < Cert.Pre_finite_inputs.S_.numel)
    (x : FVec Ideal S .f32)
    (h : Host.reduce IntOp.andi
          (cmpf .olt (Host.absf x)
            (broadcastInDim S ![] hb (constant (F := Ideal) Cert.Pre_finite_inputs.S_ .f32 0x7F800000#32)))
          (constantI Cert.Pre_finite_inputs.S_ 1 1#1) hr h0 ValueIdx.ix0 = 1#1)
    (i : S.Idx) : ∃ r : ℝ, x i = (r : EReal) :=
  haveI : Subsingleton Cert.Pre_finite_inputs.S_.Idx := ⟨fun a b => funext fun d => d.elim0⟩
  real_of_isfinite_word (x i) (Host.reduce_andi_all _ _ hr h0 ValueIdx.ix0 h i)

variable [Cert.Pre_finite_inputs.Facts]

structure RealArgs (m : (ℓ : Loc nD τ sig) → Buf (Elt Ideal) ℓ) (c : Dev nD) : Prop where
  arg0 : ∀ i, ∃ r : ℝ, m ((c.tc : Thread nD τ).loc main_arg0) i = (r : EReal)
  arg1 : ∀ i, ∃ r : ℝ, m ((c.tc : Thread nD τ).loc main_arg1) i = (r : EReal)
  arg2 : ∀ i, ∃ r : ℝ, m ((c.tc : Thread nD τ).loc main_arg2) i = (r : EReal)
  arg3 : ∀ i, ∃ r : ℝ, m ((c.tc : Thread nD τ).loc main_arg3) i = (r : EReal)
  arg10 : ∀ i, ∃ r : ℝ, m ((c.tc : Thread nD τ).loc main_arg10) i = (r : EReal)
  arg11 : ∀ i, ∃ r : ℝ, m ((c.tc : Thread nD τ).loc main_arg11) i = (r : EReal)
  arg12 : ∀ i, ∃ r : ℝ, m ((c.tc : Thread nD τ).loc main_arg12) i = (r : EReal)
  arg13 : ∀ i, ∃ r : ℝ, m ((c.tc : Thread nD τ).loc main_arg13) i = (r : EReal)
  arg14 : ∀ i, ∃ r : ℝ, m ((c.tc : Thread nD τ).loc main_arg14) i = (r : EReal)
  arg15 : ∀ i, ∃ r : ℝ, m ((c.tc : Thread nD τ).loc main_arg15) i = (r : EReal)
  arg16 : ∀ i, ∃ r : ℝ, m ((c.tc : Thread nD τ).loc main_arg16) i = (r : EReal)
  arg22 : ∀ i, ∃ r : ℝ, m ((c.tc : Thread nD τ).loc main_arg22) i = (r : EReal)

-- The precondition is a conjunction of finiteness tests, one per float argument; each makes its argument real.
theorem realArgs (m : (ℓ : Loc nD τ sig) → Buf (Elt Ideal) ℓ) (h : Cert.Pre_KernelIdeal m) (c : Dev nD) :
    RealArgs m c := by
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7, Cert.Pre_finite_inputs.fn_part8,
    Cert.Pre_finite_inputs.fn_part9, Cert.Pre_finite_inputs.fn_part10] at e
  simp only [andi, IntOp.andi_eq_one, and_assoc] at e
  obtain ⟨e0, e1, e2, e3, e10, e11, e12, e13, e14, e15, e16, -, -, -, -, -, e22, -⟩ := e
  exact ⟨real_of_all_isfinite _ _ _ _ e0, real_of_all_isfinite _ _ _ _ e1, real_of_all_isfinite _ _ _ _ e2,
    real_of_all_isfinite _ _ _ _ e3, real_of_all_isfinite _ _ _ _ e10, real_of_all_isfinite _ _ _ _ e11,
    real_of_all_isfinite _ _ _ _ e12, real_of_all_isfinite _ _ _ _ e13, real_of_all_isfinite _ _ _ _ e14,
    real_of_all_isfinite _ _ _ _ e15, real_of_all_isfinite _ _ _ _ e16, real_of_all_isfinite _ _ _ _ e22⟩

variable (m : (ℓ : Loc nD τ sig) → Buf (Elt Ideal) ℓ) (h : Cert.Pre_KernelIdeal m) (c : Dev nD)
include h

theorem real_arg0 (i) : ∃ r : ℝ, m ((c.tc : Thread nD τ).loc main_arg0) i = (r : EReal) := (realArgs m h c).arg0 i
theorem real_arg1 (i) : ∃ r : ℝ, m ((c.tc : Thread nD τ).loc main_arg1) i = (r : EReal) := (realArgs m h c).arg1 i
theorem real_arg2 (i) : ∃ r : ℝ, m ((c.tc : Thread nD τ).loc main_arg2) i = (r : EReal) := (realArgs m h c).arg2 i
theorem real_arg3 (i) : ∃ r : ℝ, m ((c.tc : Thread nD τ).loc main_arg3) i = (r : EReal) := (realArgs m h c).arg3 i
theorem real_arg10 (i) : ∃ r : ℝ, m ((c.tc : Thread nD τ).loc main_arg10) i = (r : EReal) := (realArgs m h c).arg10 i
theorem real_arg11 (i) : ∃ r : ℝ, m ((c.tc : Thread nD τ).loc main_arg11) i = (r : EReal) := (realArgs m h c).arg11 i
theorem real_arg12 (i) : ∃ r : ℝ, m ((c.tc : Thread nD τ).loc main_arg12) i = (r : EReal) := (realArgs m h c).arg12 i
theorem real_arg13 (i) : ∃ r : ℝ, m ((c.tc : Thread nD τ).loc main_arg13) i = (r : EReal) := (realArgs m h c).arg13 i
theorem real_arg14 (i) : ∃ r : ℝ, m ((c.tc : Thread nD τ).loc main_arg14) i = (r : EReal) := (realArgs m h c).arg14 i
theorem real_arg15 (i) : ∃ r : ℝ, m ((c.tc : Thread nD τ).loc main_arg15) i = (r : EReal) := (realArgs m h c).arg15 i
theorem real_arg16 (i) : ∃ r : ℝ, m ((c.tc : Thread nD τ).loc main_arg16) i = (r : EReal) := (realArgs m h c).arg16 i
theorem real_arg22 (i) : ∃ r : ℝ, m ((c.tc : Thread nD τ).loc main_arg22) i = (r : EReal) := (realArgs m h c).arg22 i

end Cert.KernelIdeal.Hand

end
-- ==== Proof.KI.Reals.lean ====
import proofs.«408530_j23158463660766_2_alg».proof.Proof.KI.UnitsAtA
import proofs.«408530_j23158463660766_2_alg».proof.Proof.KI.PreReal
import proofs.«408530_j23158463660766_2_alg».proof.Proof.Math.Finite

noncomputable section

namespace Cert.KernelIdeal.Hand

open Idealize.ShloMosaic Idealize.ShloMosaic.ValueIdx Idealize.SL.Sem
open Cert.KernelIdeal Cert.KernelIdeal.Gen
open Cert.Math (IsReal)

variable [Cert.Pre_finite_inputs.Facts]
variable (m : (ℓ : Loc nD τ sig) → Buf (Elt Ideal) ℓ) (h : Cert.Pre_KernelIdeal m) (c : Dev nD)
include h

theorem disC_real (i : S50000.Idx) :
    IsReal (disOf (F := Ideal) (degC (F := Ideal) (m ((c.tc : Thread nD τ).loc main_arg5)) (m ((c.tc : Thread nD τ).loc main_arg2))) i) :=
  isReal_disOf _ i (isReal_degC _ _ (fun e => real_arg2 m h c (ix1 e)) i)

theorem normC_real (i : S1600000.Idx) :
    IsReal (normC (F := Ideal) (disOf (F := Ideal) (degC (F := Ideal) (m ((c.tc : Thread nD τ).loc main_arg5)) (m ((c.tc : Thread nD τ).loc main_arg2))))
      (m ((c.tc : Thread nD τ).loc main_arg4)) (m ((c.tc : Thread nD τ).loc main_arg5)) (m ((c.tc : Thread nD τ).loc main_arg2)) i) :=
  isReal_normC _ _ _ _ (fun n => disC_real m h c (ix1 n)) (fun e => real_arg2 m h c (ix1 e)) i

theorem normF_real (i : S250000.Idx) :
    IsReal (normF (F := Ideal) (disOf (F := Ideal) (degF (F := Ideal) (m ((c.tc : Thread nD τ).loc main_arg7)) (m ((c.tc : Thread nD τ).loc main_arg3))))
      (m ((c.tc : Thread nD τ).loc main_arg6)) (m ((c.tc : Thread nD τ).loc main_arg7)) (m ((c.tc : Thread nD τ).loc main_arg3)) i) :=
  isReal_normF _ _ _ _ (fun n => isReal_disOf _ _ (isReal_degF _ _ (fun e => real_arg3 m h c (ix1 e)) _)) (fun e => real_arg3 m h c (ix1 e)) i

theorem arg1_real (i) : IsReal (m ((c.tc : Thread nD τ).loc main_arg1) i) := real_arg1 m h c i
theorem arg12_real (i) : IsReal (m ((c.tc : Thread nD τ).loc main_arg12) i) := real_arg12 m h c i
theorem arg13_real (i) : IsReal (m ((c.tc : Thread nD τ).loc main_arg13) i) := real_arg13 m h c i
theorem arg14_real (i) : IsReal (m ((c.tc : Thread nD τ).loc main_arg14) i) := real_arg14 m h c i
theorem arg15_real (i) : IsReal (m ((c.tc : Thread nD τ).loc main_arg15) i) := real_arg15 m h c i
theorem arg16_real (i) : IsReal (m ((c.tc : Thread nD τ).loc main_arg16) i) := real_arg16 m h c i
theorem arg22_real (i) : IsReal (m ((c.tc : Thread nD τ).loc main_arg22) i) := real_arg22 m h c i

end Cert.KernelIdeal.Hand
-- ==== Proof.KI.UnitsAtC.lean ====
import proofs.«408530_j23158463660766_2_alg».proof.Proof.KI.HostValB
import proofs.«408530_j23158463660766_2_alg».proof.Proof.KI.UnitsAtA
import proofs.«408530_j23158463660766_2_alg».proof.Proof.KI.UnitsAtB
import Mathlib.Data.Finset.Lattice.Fold

noncomputable section

namespace Cert.KernelIdeal.Hand

open Idealize.ShloMosaic Idealize.ShloMosaic.ValueIdx
open Cert.KernelIdeal Cert.KernelIdeal.Gen
open Cert.Math (IsReal IsPos mm)

-- The source coordinate of a broadcast axis: the target's own unless the source axis has size one.
theorem bcastAx {b : ℕ} (q : Fin b) : q.val = if b = 1 then 0 else q.val := by
  split
  · have := q.isLt; omega
  · rfl

theorem bcastRow2_apply {α : Type} {a b : ℕ} (h₁ : (⟨1, ![b]⟩ : Shape).BroadcastsInDim ⟨2, ![1, b]⟩ ![1])
    (h₂ : (⟨2, ![1, b]⟩ : Shape).BroadcastsInDim ⟨2, ![a, b]⟩ ![0, 1]) (v : (⟨1, ![b]⟩ : Shape).Idx → α)
    (p : Fin a) (q : Fin b) :
    broadcastInDim ⟨2, ![a, b]⟩ ![0, 1] h₂ (broadcastInDim ⟨2, ![1, b]⟩ ![1] h₁ v) (ix2 p q) = v (ix1 q) := by
  refine (broadcastInDim_apply _ h₂ _ _ (ix2 (0 : Fin 1) q) fun ax => ?_).trans
    (broadcastInDim_apply _ h₁ v _ (ix1 q) fun ax => ?_)
  · match ax with
    | ⟨0, _⟩ => rfl
    | ⟨1, _⟩ => exact bcastAx q
  · match ax with
    | ⟨0, _⟩ => exact bcastAx q

theorem ofBits_f32_neginf : Ideal.ofBits .f32 0xFF800000#32 = ⊥ := by simp [Ideal.ofBits, Ideal.ieee]

theorem liftRow_eq {a b : ℕ} (h : (⟨2, ![a, b]⟩ : Shape).Reduces [1] ⟨1, ![a]⟩) (p : Fin a) (k : Fin b) :
    h.lift (ix1 p) k = ix2 p k := by
  funext ax
  match ax with
  | ⟨0, _⟩ => rfl
  | ⟨1, _⟩ => rfl

theorem red8 : S50000x8.Reduces [1] S50000 :=
  ⟨reducesTo_S50000x8_S50000_d1.1, Nat.one_pos, reducesTo_S50000x8_S50000_d1.2⟩

theorem rowSum8_apply (e : FVec Ideal S50000x8 .f32) (n : Fin 50000) : rowSum8 e (ix1 n) = ∑ k : Fin 8, e (ix2 n k) := by
  show Ideal.hostReduceAdd reducesTo_S50000x8_S50000_d1 e (Ideal.ofBits .f32 0x00000000#32) (ix1 n) = _
  rw [Ideal.hostReduceAdd_single _ red8, Ideal.ofBits_zero_f32, zero_add]
  exact Finset.sum_congr rfl fun k _ => congrArg e (liftRow_eq red8 n k)

theorem rowMax8_apply (z : FVec Ideal S50000x8 .f32) (n : Fin 50000) :
    rowMax8 z (ix1 n) = Finset.univ.sup fun k : Fin 8 => z (ix2 n k) := by
  show max (Ideal.ofBits .f32 0xFF800000#32)
      (Host.reduce FloatOps.maximumf z (constant (F := Ideal) S_ .f32 0xFF800000#32) reducesTo_S50000x8_S50000_d1 h_S_ (ix1 n)) = _
  rw [Host.reduce_eq_fold_single FloatOps.maximumf z _ _ red8 h_S_ (ix1 n),
    show (z ∘ red8.lift (ix1 n)) = fun k : Fin 8 => z (ix2 n k) from funext fun k => congrArg z (liftRow_eq red8 n k)]
  show max _ (Finset.fold _ (Ideal.ofBits .f32 0xFF800000#32) _ _) = _
  rw [ofBits_f32_neginf, max_bot_left]
  rfl

theorem isReal_linIn (x : FVec Ideal S50000x3 .f32) (Wt : FVec Ideal S3x8 .f32) (b : FVec Ideal S8 .f32)
    (hx : ∀ n k, IsReal (x (ix2 n k))) (hW : ∀ k j, IsReal (Wt (ix2 k j))) (hb : ∀ j, IsReal (b (ix1 j)))
    (n : Fin 50000) (j : Fin 8) : IsReal (linIn x Wt b (ix2 n j)) := by
  rw [show linIn x Wt b (ix2 n j) = mm (fun n k => x (ix2 n k)) (fun k j => Wt (ix2 k j)) n j + b (ix1 j) from
    congrArg₂ (· + ·) (dotGeneral_mm dot_S50000x3_S3x8_S50000x8_1_0_0_1_n_n_wf none x Wt n j) (bcastRow2_apply _ _ b n j)]
  exact (Cert.Math.isReal_mm _ _ hx hW n j).add (hb j)

theorem colsN8_apply (v : FVec Ideal S50000 .f32) (n : Fin 50000) (k : Fin 8) : colsN8 v (ix2 n k) = v (ix1 n) := by
  unfold colsN8
  rw [bcastAlong_apply, bcastCol_apply]

-- A maximum over a nonempty finite family of reals is one of them.
theorem isReal_rowMax8 (z : FVec Ideal S50000x8 .f32) (n : Fin 50000) (hz : ∀ k, IsReal (z (ix2 n k))) :
    IsReal (rowMax8 z (ix1 n)) := by
  obtain ⟨k, _, hk⟩ := Finset.exists_mem_eq_sup Finset.univ Finset.univ_nonempty fun k : Fin 8 => z (ix2 n k)
  rw [rowMax8_apply, hk]; exact hz k

theorem expShift8_apply (z : FVec Ideal S50000x8 .f32) (n : Fin 50000) (k : Fin 8) :
    expShift8 z (ix2 n k) = Ideal.exp (z (ix2 n k) - rowMax8 z (ix1 n)) := by
  show Ideal.exp (z (ix2 n k) - colsN8 (rowMax8 z) (ix2 n k)) = _
  rw [colsN8_apply]

theorem softmax8_apply (z : FVec Ideal S50000x8 .f32) (n : Fin 50000) (k : Fin 8) :
    softmax8 z (ix2 n k)
      = Ideal.div (Ideal.exp (z (ix2 n k) - rowMax8 z (ix1 n)))
          (∑ k' : Fin 8, Ideal.exp (z (ix2 n k') - rowMax8 z (ix1 n))) := by
  unfold softmax8 Host.divf
  show Ideal.div (expShift8 z (ix2 n k)) (colsN8 (rowSum8 (expShift8 z)) (ix2 n k)) = _
  rw [colsN8_apply, rowSum8_apply,
    expShift8_apply]
  exact congrArg (Ideal.div _) (Finset.sum_congr rfl fun k' _ => expShift8_apply z n k')

theorem isReal_softmax8 (z : FVec Ideal S50000x8 .f32) (hz : ∀ n k, IsReal (z (ix2 n k))) (n : Fin 50000) (k : Fin 8) :
    IsReal (softmax8 z (ix2 n k)) := by
  rw [softmax8_apply]
  exact Cert.Math.isReal_softmax (H := 7) (fun n k => z (ix2 n k)) hz (fun n => rowMax8 z (ix1 n))
    (fun n => isReal_rowMax8 z n (hz n)) n k

end Cert.KernelIdeal.Hand

end
-- ==== Proof.KI.RealsB.lean ====
import proofs.«408530_j23158463660766_2_alg».proof.Proof.KI.UnitsAtB
import proofs.«408530_j23158463660766_2_alg».proof.Proof.KI.UnitsAtC
import proofs.«408530_j23158463660766_2_alg».proof.Proof.KI.PreReal
import proofs.«408530_j23158463660766_2_alg».proof.Proof.Math.Finite
import proofs.«408530_j23158463660766_2_alg».proof.Proof.Math.Net

noncomputable section

namespace Cert.KernelIdeal.Hand

open Idealize.ShloMosaic Idealize.ShloMosaic.ValueIdx Idealize.SL.Sem
open Cert.KernelIdeal Cert.KernelIdeal.Gen
open Cert.Math (IsReal)

theorem isReal_lin8x16 (x : FVec Ideal S50000x8 .f32) (Wt : FVec Ideal S8x16 .f32)
    (hx : ∀ n k, IsReal (x (ix2 n k))) (hW : ∀ k j, IsReal (Wt (ix2 k j))) (i : S50000x16.Idx) :
    IsReal (lin8x16 x Wt i) := by
  obtain ⟨n, j, rfl⟩ : ∃ (n : Fin 50000) (j : Fin 16), i = ix2 n j := ⟨i 0, i 1, eq_ix2 i⟩
  rw [lin8x16_apply]
  exact Cert.Math.isReal_mm _ _ hx hW n j

theorem isReal_lin16x32 (x : FVec Ideal S50000x16 .f32) (Wt : FVec Ideal S16x32 .f32)
    (hx : ∀ n k, IsReal (x (ix2 n k))) (hW : ∀ k j, IsReal (Wt (ix2 k j))) (i : S50000x32.Idx) :
    IsReal (lin16x32 x Wt i) := by
  obtain ⟨n, j, rfl⟩ : ∃ (n : Fin 50000) (j : Fin 32), i = ix2 n j := ⟨i 0, i 1, eq_ix2 i⟩
  rw [lin16x32_apply]
  exact Cert.Math.isReal_mm _ _ hx hW n j

variable [Cert.Pre_finite_inputs.Facts]
variable (m : (ℓ : Loc nD τ sig) → Buf (Elt Ideal) ℓ) (h : Cert.Pre_KernelIdeal m) (c : Dev nD)
include h

theorem attn_real (i : S50000x8.Idx) :
    IsReal (softmax8 (F := Ideal) (linIn (F := Ideal) (m ((c.tc : Thread nD τ).loc main_arg0)) (m ((c.tc : Thread nD τ).loc main_arg10))
      (m ((c.tc : Thread nD τ).loc main_arg11))) i) := by
  obtain ⟨n, k, rfl⟩ : ∃ (n : Fin 50000) (k : Fin 8), i = ix2 n k := ⟨i 0, i 1, eq_ix2 i⟩
  exact isReal_softmax8 _ (isReal_linIn _ _ _ (fun _ _ => real_arg0 m h c _) (fun _ _ => real_arg10 m h c _) fun _ => real_arg11 m h c _) n k

end Cert.KernelIdeal.Hand
-- ==== Proof.KI.RealsK.lean ====
import proofs.«408530_j23158463660766_2_alg».proof.Proof.KI.Reals
import proofs.«408530_j23158463660766_2_alg».proof.Proof.KI.RealsB
import proofs.«408530_j23158463660766_2_alg».proof.Proof.KI.KVals

noncomputable section

namespace Cert.KernelIdeal.Hand

open Idealize.ShloMosaic Idealize.ShloMosaic.ValueIdx Idealize.SL.Sem
open Cert.KernelIdeal Cert.KernelIdeal.Gen
open Cert.Math (IsReal)

variable [Cert.Pre_finite_inputs.Facts]
variable (m : (ℓ : Loc nD τ sig) → Buf (Elt Ideal) ℓ) (h : Cert.Pre_KernelIdeal m) (c : Dev nD)
include h

theorem kDisC_real (i : S50000.Idx) : IsReal (kDisC (F := Ideal) m c i) := disC_real m h c i

theorem kNormC_real (i : S1600000.Idx) : IsReal (kNormC (F := Ideal) m c i) := normC_real m h c i

theorem kNormF_real (i : S250000.Idx) : IsReal (kNormF (F := Ideal) m c i) := normF_real m h c i

theorem kAttn_real (i : S50000x8.Idx) : IsReal (kAttn (F := Ideal) m c i) := attn_real m h c i

end Cert.KernelIdeal.Hand
-- ==== Proof.Ref.RVals.lean ====
import proofs.«408530_j23158463660766_2_alg».proof.Proof.KI.HostValA
import proofs.«408530_j23158463660766_2_alg».proof.Proof.KI.HostValB
import proofs.«408530_j23158463660766_2_alg».proof.Proof.KI.HostValC
import proofs.«408530_j23158463660766_2_alg».proof.Proof.Ref.Units
import proofs.«408530_j23158463660766_2_alg».proof.Proof.Ref.PostUnits
import proofs.«408530_j23158463660766_2_alg».proof.Proof.Ref.UnitsB

noncomputable section

namespace Cert.ReferenceIdeal.Hand

open Cert.ReferenceIdeal Cert.ReferenceIdeal.Gen Idealize.ShloMosaic Idealize.ShloMosaic.TcCoe Idealize.ShloMosaic.StableHlo
open Cert.KernelIdeal.Hand (degC degF disOf normC normF linIn softmax8 lin8x16 lin16x32 mlpHead outLin)

variable {F : FTy → Type} [FloatOps F] (V : Valuation τ sig (Elt F))

def rDisC : FVec F S50000 .f32 := disOf (degC (V main_arg5) (V main_arg2))

def rNormC : FVec F S1600000 .f32 := normC (rDisC V) (V main_arg4) (V main_arg5) (V main_arg2)

def rH1 : FVec F S50000x16 .f32 := lin8x16 (softmax8 (linIn (V main_arg0) (V main_arg10) (V main_arg11))) (V main_arg12)

def rX1 : FVec F S50000x16 .f32 :=
  postR16 (aggR16 (rH1 V) (V main_arg4) (V main_arg5) (rNormC V)) (rH1 V) (rDisC V) (V main_arg13) (V main_arg14) (V main_arg15)

def rH2 : FVec F S50000x32 .f32 := lin16x32 (rX1 V) (V main_arg16)

def rCn : FVec F S50000x32 .f32 :=
  postR32 (aggR32 (rH2 V) (V main_arg4) (V main_arg5) (rNormC V)) (rH2 V) (rDisC V) (V main_arg17) (V main_arg18) (V main_arg19)

def rCg : FVec F S8x128 .f32 := headCR (poolSumR32 (V main_arg8) (rCn V)) (poolCntR (V main_arg8)) (V main_arg20) (V main_arg21)

def rDisF : FVec F S50000 .f32 := disOf (degF (V main_arg7) (V main_arg3))
def rNormF : FVec F S250000 .f32 := normF (rDisF V) (V main_arg6) (V main_arg7) (V main_arg3)

def rG1 : FVec F S50000x512 .f32 := lin256x512 (V main_arg1) (V main_arg22)
def rY1 : FVec F S50000x512 .f32 :=
  postR512 (aggR512 (rG1 V) (V main_arg6) (V main_arg7) (rNormF V)) (rG1 V) (rDisF V) (V main_arg23) (V main_arg24) (V main_arg25)

def rG2 : FVec F S50000x256 .f32 := lin512x256 (rY1 V) (V main_arg26)
def rFn : FVec F S50000x256 .f32 :=
  postR256 (aggR256 (rG2 V) (V main_arg6) (V main_arg7) (rNormF V)) (rG2 V) (rDisF V) (V main_arg27) (V main_arg28) (V main_arg29)

def rFg : FVec F S8x128 .f32 := headFR (poolSumR256 (V main_arg9) (rFn V)) (poolCntR (V main_arg9)) (V main_arg30) (V main_arg31)

def rCproj : FVec F S8x64 .f32 := mlpHead (rCg V) (V main_arg32) (V main_arg33) (V main_arg34) (V main_arg35)
def rFproj : FVec F S8x64 .f32 := mlpHead (rFg V) (V main_arg36) (V main_arg37) (V main_arg38) (V main_arg39)
def rOut : FVec F S8x4 .f32 := outLin (rCg V) (rFg V) (V main_arg40) (V main_arg41)

end Cert.ReferenceIdeal.Hand

end
-- ==== Proof.Alg.lean ====
import proofs.«408530_j23158463660766_2_alg».proof.Proof.KI.KVals
import proofs.«408530_j23158463660766_2_alg».proof.Proof.KI.Layers
import proofs.«408530_j23158463660766_2_alg».proof.Proof.KI.ArrMatmul3
import proofs.«408530_j23158463660766_2_alg».proof.Proof.KI.ArrMatmul4
import proofs.«408530_j23158463660766_2_alg».proof.Proof.KI.ArrMatmul6
import proofs.«408530_j23158463660766_2_alg».proof.Proof.KI.PoolBridge
import proofs.«408530_j23158463660766_2_alg».proof.Proof.KI.PoolMean
import proofs.«408530_j23158463660766_2_alg».proof.Proof.KI.Reals
import proofs.«408530_j23158463660766_2_alg».proof.Proof.KI.RealsK
import proofs.«408530_j23158463660766_2_alg».proof.Proof.Ref.RVals

noncomputable section

namespace Cert.Bridge

open Idealize.ShloMosaic Idealize.ShloMosaic.TcCoe Idealize.SL.Sem Idealize.ShloMosaic.ValueIdx
open Cert.KernelIdeal Cert.KernelIdeal.Gen Cert.KernelIdeal.Hand
open Cert.ReferenceIdeal.Hand (rDisC rNormC rH1 rX1 rH2 rCn rCg rDisF rNormF rG1 rY1 rG2 rFn rFg rCproj rFproj rOut
  postR16 postR32 postR512 postR256 aggR16 aggR32 aggR512 aggR256 lin256x512 lin512x256 headCR headFR
  poolSumR32 poolSumR256 poolCntR)
open Cert.Math (IsReal)

variable [Cert.Pre_finite_inputs.Facts]
variable (m : (ℓ : Loc nD τ sig) → Buf (Elt Ideal) ℓ) (hpre : Cert.Pre_KernelIdeal m) (c : Dev nD)

abbrev featX : FVec Ideal S50000x256 .f32 := W0 m c main_arg1
abbrev featW1 : FVec Ideal S256x512 .f32 := W0 m c main_arg22

include hpre in

theorem kH0_closed :
    kH0 m c = postR16 (aggR16 (kH1' m c) (W0 m c main_arg4) (W0 m c main_arg5) (kNormC m c)) (kH1' m c) (kDisC m c)
      (W0 m c main_arg13) (W0 m c main_arg14) (W0 m c main_arg15) := by
  unfold kH0 kH1'
  exact layerC1 (B5 m) c (kAttn m c) (W0 m c main_arg4) (W0 m c main_arg5) (kNormC m c) (kDisC m c) (W0 m c main_arg12) (W0 m c main_arg13) (W0 m c main_arg14) (W0 m c main_arg15)
    (in0_0 m c) (in0_1 m c) (in0_2 m c) (in0_3 m c) (in0_4 m c) (in0_5 m c)
    (kAttn_real m hpre c) (kNormC_real m hpre c) (arg12_real m hpre c)

include hpre in
theorem kH0_real (i : S50000x16.Idx) : IsReal (kH0 m c i) := by
  rw [kH0_closed m hpre c]; unfold kH1'
  exact layerC1_real (kAttn m c) (W0 m c main_arg4) (W0 m c main_arg5) (kNormC m c) (kDisC m c) (W0 m c main_arg12) (W0 m c main_arg13) (W0 m c main_arg14) (W0 m c main_arg15)
    (kAttn_real m hpre c) (kNormC_real m hpre c) (arg12_real m hpre c) (kDisC_real m hpre c)
    (arg13_real m hpre c) (arg14_real m hpre c) (arg15_real m hpre c) i

theorem kY3_closed :
    kY3 m c = fun i => ∑ k : Fin 256, aggF256 (featX m c) (W0 m c main_arg6) (W0 m c main_arg7) (kNormF m c) (ix2 (i 0) k) * featW1 m c (ix2 k (i 1)) := by
  have hx : xarr3 (B11 m) c = aggF256 (featX m c) (W0 m c main_arg6) (W0 m c main_arg7) (kNormF m c) := in3_0 m c
  have hw : warr3 (B11 m) c = featW1 m c := in3_1 m c
  unfold kY3
  rw [arr3 (B11 m) c]
  unfold prod3
  rw [hx, hw]

theorem kY4_closed :
    kY4 m c = fun i => ∑ k : Fin 256, featX m c (ix2 (i 0) k) * featW1 m c (ix2 k (i 1)) := by
  have hx : xarr4 (B12 m) c = featX m c := in4_0 m c
  have hw : warr4 (B12 m) c = featW1 m c := in4_1 m c
  unfold kY4
  rw [arr4 (B12 m) c]
  unfold prod4
  rw [hx, hw]

structure Agree (V : Valuation Cert.ReferenceIdeal.τ Cert.ReferenceIdeal.sig (Elt Ideal)) : Prop where
  a0 : @Eq (FVec Ideal S50000x3 .f32) (V Cert.ReferenceIdeal.main_arg0) (W0 m c main_arg0)
  a1 : @Eq (FVec Ideal S50000x256 .f32) (V Cert.ReferenceIdeal.main_arg1) (W0 m c main_arg1)
  a2 : @Eq (FVec Ideal S1600000 .f32) (V Cert.ReferenceIdeal.main_arg2) (W0 m c main_arg2)
  a3 : @Eq (FVec Ideal S250000 .f32) (V Cert.ReferenceIdeal.main_arg3) (W0 m c main_arg3)
  a4 : @Eq (IVec S1600000 32) (V Cert.ReferenceIdeal.main_arg4) (W0 m c main_arg4)
  a5 : @Eq (IVec S1600000 32) (V Cert.ReferenceIdeal.main_arg5) (W0 m c main_arg5)
  a6 : @Eq (IVec S250000 32) (V Cert.ReferenceIdeal.main_arg6) (W0 m c main_arg6)
  a7 : @Eq (IVec S250000 32) (V Cert.ReferenceIdeal.main_arg7) (W0 m c main_arg7)
  a8 : @Eq (IVec S50000 32) (V Cert.ReferenceIdeal.main_arg8) (W0 m c main_arg8)
  a9 : @Eq (IVec S50000 32) (V Cert.ReferenceIdeal.main_arg9) (W0 m c main_arg9)
  a10 : @Eq (FVec Ideal S3x8 .f32) (V Cert.ReferenceIdeal.main_arg10) (W0 m c main_arg10)
  a11 : @Eq (FVec Ideal S8 .f32) (V Cert.ReferenceIdeal.main_arg11) (W0 m c main_arg11)
  a12 : @Eq (FVec Ideal S8x16 .f32) (V Cert.ReferenceIdeal.main_arg12) (W0 m c main_arg12)
  a13 : @Eq (FVec Ideal S16 .f32) (V Cert.ReferenceIdeal.main_arg13) (W0 m c main_arg13)
  a14 : @Eq (FVec Ideal S16 .f32) (V Cert.ReferenceIdeal.main_arg14) (W0 m c main_arg14)
  a15 : @Eq (FVec Ideal S16 .f32) (V Cert.ReferenceIdeal.main_arg15) (W0 m c main_arg15)
  a16 : @Eq (FVec Ideal S16x32 .f32) (V Cert.ReferenceIdeal.main_arg16) (W0 m c main_arg16)
  a17 : @Eq (FVec Ideal S32 .f32) (V Cert.ReferenceIdeal.main_arg17) (W0 m c main_arg17)
  a18 : @Eq (FVec Ideal S32 .f32) (V Cert.ReferenceIdeal.main_arg18) (W0 m c main_arg18)
  a19 : @Eq (FVec Ideal S32 .f32) (V Cert.ReferenceIdeal.main_arg19) (W0 m c main_arg19)
  a20 : @Eq (FVec Ideal S32x128 .f32) (V Cert.ReferenceIdeal.main_arg20) (W0 m c main_arg20)
  a21 : @Eq (FVec Ideal S128 .f32) (V Cert.ReferenceIdeal.main_arg21) (W0 m c main_arg21)
  a22 : @Eq (FVec Ideal S256x512 .f32) (V Cert.ReferenceIdeal.main_arg22) (W0 m c main_arg22)
  a23 : @Eq (FVec Ideal S512 .f32) (V Cert.ReferenceIdeal.main_arg23) (W0 m c main_arg23)
  a24 : @Eq (FVec Ideal S512 .f32) (V Cert.ReferenceIdeal.main_arg24) (W0 m c main_arg24)
  a25 : @Eq (FVec Ideal S512 .f32) (V Cert.ReferenceIdeal.main_arg25) (W0 m c main_arg25)
  a26 : @Eq (FVec Ideal S512x256 .f32) (V Cert.ReferenceIdeal.main_arg26) (W0 m c main_arg26)
  a27 : @Eq (FVec Ideal S256 .f32) (V Cert.ReferenceIdeal.main_arg27) (W0 m c main_arg27)
  a28 : @Eq (FVec Ideal S256 .f32) (V Cert.ReferenceIdeal.main_arg28) (W0 m c main_arg28)
  a29 : @Eq (FVec Ideal S256 .f32) (V Cert.ReferenceIdeal.main_arg29) (W0 m c main_arg29)
  a30 : @Eq (FVec Ideal S256x128 .f32) (V Cert.ReferenceIdeal.main_arg30) (W0 m c main_arg30)
  a31 : @Eq (FVec Ideal S128 .f32) (V Cert.ReferenceIdeal.main_arg31) (W0 m c main_arg31)
  a32 : @Eq (FVec Ideal S128x128 .f32) (V Cert.ReferenceIdeal.main_arg32) (W0 m c main_arg32)
  a33 : @Eq (FVec Ideal S128 .f32) (V Cert.ReferenceIdeal.main_arg33) (W0 m c main_arg33)
  a34 : @Eq (FVec Ideal S128x64 .f32) (V Cert.ReferenceIdeal.main_arg34) (W0 m c main_arg34)
  a35 : @Eq (FVec Ideal S64 .f32) (V Cert.ReferenceIdeal.main_arg35) (W0 m c main_arg35)
  a36 : @Eq (FVec Ideal S128x128 .f32) (V Cert.ReferenceIdeal.main_arg36) (W0 m c main_arg36)
  a37 : @Eq (FVec Ideal S128 .f32) (V Cert.ReferenceIdeal.main_arg37) (W0 m c main_arg37)
  a38 : @Eq (FVec Ideal S128x64 .f32) (V Cert.ReferenceIdeal.main_arg38) (W0 m c main_arg38)
  a39 : @Eq (FVec Ideal S64 .f32) (V Cert.ReferenceIdeal.main_arg39) (W0 m c main_arg39)
  a40 : @Eq (FVec Ideal S256x4 .f32) (V Cert.ReferenceIdeal.main_arg40) (W0 m c main_arg40)
  a41 : @Eq (FVec Ideal S4 .f32) (V Cert.ReferenceIdeal.main_arg41) (W0 m c main_arg41)

variable {m c}
variable {V : Valuation Cert.ReferenceIdeal.τ Cert.ReferenceIdeal.sig (Elt Ideal)} (hV : Agree m c V)
include hV

theorem rDisC_eq : rDisC V = kDisC m c := by unfold rDisC kDisC; rw [hV.a5, hV.a2]
theorem rNormC_eq : rNormC V = kNormC m c := by unfold rNormC kNormC; rw [rDisC_eq hV, hV.a4, hV.a5, hV.a2]
theorem rDisF_eq : rDisF V = kDisF m c := by unfold rDisF kDisF; rw [hV.a7, hV.a3]
theorem rNormF_eq : rNormF V = kNormF m c := by unfold rNormF kNormF; rw [rDisF_eq hV, hV.a6, hV.a7, hV.a3]
theorem rH1_eq : rH1 V = kH1' m c := by unfold rH1 kH1' kAttn; rw [hV.a0, hV.a10, hV.a11, hV.a12]

include hpre in
theorem rX1_eq : rX1 V = kH0 m c := by
  rw [kH0_closed m hpre c]; unfold rX1
  rw [rH1_eq hV, rNormC_eq hV, rDisC_eq hV, hV.a4, hV.a5, hV.a13, hV.a14, hV.a15]

include hpre in
theorem rH2_eq : rH2 V = kH2' m c := by unfold rH2 kH2'; rw [rX1_eq hpre hV, hV.a16]

include hpre in
theorem rCn_eq : rCn V = kH1 m c := by
  unfold rCn
  rw [rH2_eq hpre hV, rNormC_eq hV, rDisC_eq hV, hV.a4, hV.a5, hV.a17, hV.a18, hV.a19]
  unfold kH1 kH2'
  exact (layerC2 (B7 m) c (kH0 m c) (W0 m c main_arg4) (W0 m c main_arg5) (kNormC m c) (kDisC m c) (W0 m c main_arg16) (W0 m c main_arg17) (W0 m c main_arg18) (W0 m c main_arg19)
    (in1_0 m c) (in1_1 m c) (in1_2 m c) (in1_3 m c) (in1_4 m c) (in1_5 m c)
    (kH0_real m hpre c) (kNormC_real m hpre c) (arg16_real m hpre c)).symm

include hpre in
theorem rCg_eq : rCg V = kCg m c := by
  obtain ⟨hs, hc⟩ := poolC (B9 m) c (W0 m c main_arg8) (kH1 m c) (in2_1 m c) (in2_0 m c)
  unfold rCg kCg kS2 kC2
  rw [rCn_eq hpre hV, hV.a8, hV.a20, hV.a21, hs]
  exact (headC_eq _ _ _ _ _ hc).symm

theorem rG1_eq : rG1 V = lin256x512 (featX m c) (featW1 m c) := by unfold rG1; rw [hV.a1, hV.a22]

include hpre in
theorem rY1_eq : rY1 V = kH5 m c := by
  unfold rY1
  rw [rG1_eq hV, rNormF_eq hV, rDisF_eq hV, hV.a6, hV.a7, hV.a23, hV.a24, hV.a25]
  unfold kH5
  exact (layerF1 (B14 m) c (featX m c) (W0 m c main_arg6) (W0 m c main_arg7) (kNormF m c) (kDisF m c) (featW1 m c) (W0 m c main_arg23) (W0 m c main_arg24) (W0 m c main_arg25)
    ((in5_0 m c).trans (kY3_closed m c)) ((in5_1 m c).trans (kY4_closed m c)) (in5_2 m c) (in5_3 m c) (in5_4 m c) (in5_5 m c)
    (arg1_real m hpre c) (kNormF_real m hpre c) (arg22_real m hpre c)).symm

include hpre in
theorem rG2_eq : rG2 V = kY6 m c := by
  have hx : xarr6 (B15 m) c = kH5 m c := in6_0 m c
  have hw : warr6 (B15 m) c = W0 m c main_arg26 := in6_1 m c
  unfold rG2 kY6
  rw [rY1_eq hpre hV, hV.a26, arr6 (B15 m) c, linF2 (B15 m) c, hx, hw]

include hpre in
theorem rFn_eq : rFn V = kH7 m c := by
  unfold rFn
  rw [rG2_eq hpre hV, rNormF_eq hV, rDisF_eq hV, hV.a6, hV.a7, hV.a27, hV.a28, hV.a29]
  unfold kH7
  exact (layerF2 (B17 m) c (kY6 m c) (W0 m c main_arg6) (W0 m c main_arg7) (kNormF m c) (kDisF m c) (W0 m c main_arg27) (W0 m c main_arg28) (W0 m c main_arg29)
    (in7_0 m c) (in7_1 m c) (in7_2 m c) (in7_3 m c) (in7_4 m c) (in7_5 m c)).symm

include hpre in
theorem rFg_eq : rFg V = kFg m c := by
  obtain ⟨hs, hc⟩ := poolF (B19 m) c (W0 m c main_arg9) (kH7 m c) (in8_1 m c) (in8_0 m c)
  unfold rFg kFg kS8 kC8
  rw [rFn_eq hpre hV, hV.a9, hV.a30, hV.a31, hs]
  exact (headF_eq _ _ _ _ _ hc).symm

include hpre in
theorem rCproj_eq : rCproj V = mlpHead (kCg m c) (W0 m c main_arg32) (W0 m c main_arg33) (W0 m c main_arg34) (W0 m c main_arg35) := by
  unfold rCproj; rw [rCg_eq hpre hV, hV.a32, hV.a33, hV.a34, hV.a35]

include hpre in
theorem rFproj_eq : rFproj V = mlpHead (kFg m c) (W0 m c main_arg36) (W0 m c main_arg37) (W0 m c main_arg38) (W0 m c main_arg39) := by
  unfold rFproj; rw [rFg_eq hpre hV, hV.a36, hV.a37, hV.a38, hV.a39]

include hpre in
theorem rOut_eq : rOut V = outLin (kCg m c) (kFg m c) (W0 m c main_arg40) (W0 m c main_arg41) := by
  unfold rOut; rw [rCg_eq hpre hV, rFg_eq hpre hV, hV.a40, hV.a41]

end Cert.Bridge

end
-- ==== Proof.Ref.Vals0.lean ====
import proofs.«408530_j23158463660766_2_alg».proof.Proof.Ref.Ops0
import proofs.«408530_j23158463660766_2_alg».proof.Proof.KI.HostValA
import proofs.«408530_j23158463660766_2_alg».proof.Proof.KI.HostValB

set_option maxRecDepth 1948

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.KernelIdeal.Hand (degC disOf colC normC linIn softmax8 lin8x16)

variable {F : FTy → Type} [FloatOps F]

theorem ref0_v15 (W : Valuation τ sig (Elt F)) :
    StableHlo.after (ops0 (F := F)) W (Proc.devRef .tc main_v15)
      = lin8x16 (softmax8 (linIn (W main_arg0) (W main_arg10) (W main_arg11))) (W main_arg12) := by
  after_results_simp <;> rfl

theorem ref0_v24 (W : Valuation τ sig (Elt F)) :
    StableHlo.after (ops0 (F := F)) W (Proc.devRef .tc main_v24) = disOf (degC (W main_arg5) (W main_arg2)) := by
  after_results_simp <;> rfl

theorem ref0_v40 (W : Valuation τ sig (Elt F)) :
    StableHlo.after (ops0 (F := F)) W (Proc.devRef .tc main_v40)
      = normC (disOf (degC (W main_arg5) (W main_arg2))) (W main_arg4) (W main_arg5) (W main_arg2) := by
  after_results_simp <;> rfl

theorem ref0_v46 (W : Valuation τ sig (Elt F)) :
    StableHlo.after (ops0 (F := F)) W (Proc.devRef .tc main_v46) = colC (W main_arg4) := by
  after_results_simp <;> rfl

end Cert.ReferenceIdeal.Hand

end
-- ==== Proof.Ref.Vals1.lean ====
import proofs.«408530_j23158463660766_2_alg».proof.Proof.Ref.Ops1
import proofs.«408530_j23158463660766_2_alg».proof.Proof.KI.HostValA
import proofs.«408530_j23158463660766_2_alg».proof.Proof.KI.HostValC
import proofs.«408530_j23158463660766_2_alg».proof.Proof.Ref.Units
import proofs.«408530_j23158463660766_2_alg».proof.Proof.Ref.UnitsB
import proofs.«408530_j23158463660766_2_alg».proof.Proof.Ref.PostUnits

set_option maxRecDepth 1948

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.KernelIdeal.Hand (degC disOf lin16x32)

variable {F : FTy → Type} [FloatOps F]

theorem ref1_v87 (W : Valuation τ sig (Elt F)) :
    StableHlo.after (ops1 (F := F)) W (Proc.devRef .tc main_v87)
      = lin16x32
          (postR16 (scatR16 (W main_arg5) (rowsAtR16 (W main_v15) (W main_v46) (W main_v40)))
            (W main_v15) (W main_v24) (W main_arg13) (W main_arg14) (W main_arg15))
          (W main_arg16) := by
  after_results_simp <;> rfl

theorem ref1_v96 (W : Valuation τ sig (Elt F)) :
    StableHlo.after (ops1 (F := F)) W (Proc.devRef .tc main_v96) = disOf (degC (W main_arg5) (W main_arg2)) := by
  after_results_simp <;> rfl

end Cert.ReferenceIdeal.Hand

end
-- ==== Proof.Ref.Vals2.lean ====
import proofs.«408530_j23158463660766_2_alg».proof.Proof.Ref.Ops2
import proofs.«408530_j23158463660766_2_alg».proof.Proof.KI.HostValA
import proofs.«408530_j23158463660766_2_alg».proof.Proof.Ref.Units
import proofs.«408530_j23158463660766_2_alg».proof.Proof.Ref.PostUnits

set_option maxRecDepth 1948

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.KernelIdeal.Hand (normC)

variable {F : FTy → Type} [FloatOps F]

def relu2 (W : Valuation τ sig (Elt F)) : FVec F S50000x32 .f32 :=
  reluCombineR32
    (aggR32 (W main_v87) (W main_arg4) (W main_arg5) (normC (W main_v96) (W main_arg4) (W main_arg5) (W main_arg2)))
    (W main_v87) (W main_v96) (W main_arg17)

theorem ref2_v134 (W : Valuation τ sig (Elt F)) :
    StableHlo.after (ops2 (F := F)) W (Proc.devRef .tc main_v134) = relu2 W := by
  after_results_simp <;> rfl

theorem ref2_v138 (W : Valuation τ sig (Elt F)) :
    StableHlo.after (ops2 (F := F)) W (Proc.devRef .tc main_v138) = meanColR32 (relu2 W) := by
  after_results_simp <;> rfl

theorem ref2_v145 (W : Valuation τ sig (Elt F)) :
    StableHlo.after (ops2 (F := F)) W (Proc.devRef .tc main_v145) = varColR32 (relu2 W) (meanColR32 (relu2 W)) := by
  after_results_simp <;> rfl

end Cert.ReferenceIdeal.Hand

end
-- ==== Proof.Ref.Vals3.lean ====
import proofs.«408530_j23158463660766_2_alg».proof.Proof.Ref.Ops3
import proofs.«408530_j23158463660766_2_alg».proof.Proof.KI.HostValA
import proofs.«408530_j23158463660766_2_alg».proof.Proof.Ref.Units
import proofs.«408530_j23158463660766_2_alg».proof.Proof.Ref.UnitsB
import proofs.«408530_j23158463660766_2_alg».proof.Proof.Ref.PostUnits

set_option maxRecDepth 1948

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.KernelIdeal.Hand (degF disOf)

variable {F : FTy → Type} [FloatOps F]

theorem ref3_v158 (W : Valuation τ sig (Elt F)) :
    StableHlo.after (ops3 (F := F)) W (Proc.devRef .tc main_v158)
      = finishR32 (W main_v134) (W main_v138) (W main_v145) (W main_arg18) (W main_arg19) := by
  after_results_simp <;> rfl

theorem ref3_v174 (W : Valuation τ sig (Elt F)) :
    StableHlo.after (ops3 (F := F)) W (Proc.devRef .tc main_v174)
      = headCR
          (poolSumR32 (W main_arg8) (finishR32 (W main_v134) (W main_v138) (W main_v145) (W main_arg18) (W main_arg19)))
          (poolCntR (W main_arg8)) (W main_arg20) (W main_arg21) := by
  after_results_simp <;> rfl

theorem ref3_v175 (W : Valuation τ sig (Elt F)) :
    StableHlo.after (ops3 (F := F)) W (Proc.devRef .tc main_v175) = lin256x512 (W main_arg1) (W main_arg22) := by
  after_results_simp <;> rfl

theorem ref3_v184 (W : Valuation τ sig (Elt F)) :
    StableHlo.after (ops3 (F := F)) W (Proc.devRef .tc main_v184) = disOf (degF (W main_arg7) (W main_arg3)) := by
  after_results_simp <;> rfl

theorem ref3_v192 (W : Valuation τ sig (Elt F)) :
    StableHlo.after (ops3 (F := F)) W (Proc.devRef .tc main_v192)
      = normSrcF (disOf (degF (W main_arg7) (W main_arg3))) (W main_arg6) (W main_arg3) := by
  after_results_simp <;> rfl

theorem ref3_v193 (W : Valuation τ sig (Elt F)) :
    StableHlo.after (ops3 (F := F)) W (Proc.devRef .tc main_v193) = zeroIdxF := by
  after_results_simp <;> rfl

end Cert.ReferenceIdeal.Hand

end
-- ==== Proof.Ref.ValsHead.lean ====
import proofs.«408530_j23158463660766_2_alg».proof.Proof.Ref.Args
import proofs.«408530_j23158463660766_2_alg».proof.Proof.Ref.RVals
import proofs.«408530_j23158463660766_2_alg».proof.Proof.Ref.Vals0
import proofs.«408530_j23158463660766_2_alg».proof.Proof.Ref.Vals1
import proofs.«408530_j23158463660766_2_alg».proof.Proof.Ref.Vals2
import proofs.«408530_j23158463660766_2_alg».proof.Proof.Ref.Vals3

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.KernelIdeal.Hand (degC degF disOf colC normC linIn softmax8 lin8x16 lin16x32)

variable {F : FTy → Type} [FloatOps F]

def rR2 (V : Valuation τ sig (Elt F)) : FVec F S50000x32 .f32 :=
  reluCombineR32 (aggR32 (rH2 V) (V main_arg4) (V main_arg5) (rNormC V)) (rH2 V) (rDisC V) (V main_arg17)

set_option maxRecDepth 8192 in
set_option maxHeartbeats 2000000 in
theorem head_results (V0 : Valuation τ sig (Elt F)) :
    ArgsAt V0 (after ops3 (after ops2 (after ops1 (after ops0 V0))))
    ∧ after ops3 (after ops2 (after ops1 (after ops0 V0))) (Proc.devRef .tc main_v175) = rG1 V0
    ∧ after ops3 (after ops2 (after ops1 (after ops0 V0))) (Proc.devRef .tc main_v184) = rDisF V0
    ∧ after ops3 (after ops2 (after ops1 (after ops0 V0))) (Proc.devRef .tc main_v192) = normSrcF (rDisF V0) (V0 main_arg6) (V0 main_arg3)
    ∧ after ops3 (after ops2 (after ops1 (after ops0 V0))) (Proc.devRef .tc main_v193) = zeroIdxF
    ∧ after ops3 (after ops2 (after ops1 (after ops0 V0))) (Proc.devRef .tc main_v174) = rCg V0
    ∧ after ops3 (after ops2 (after ops1 (after ops0 V0))) (Proc.devRef .tc main_v158) = rCn V0 := by

  have s15 : after ops0 V0 main_v15 = rH1 V0 := (ref0_v15 V0).trans rfl
  have s24 : after ops0 V0 main_v24 = rDisC V0 := (ref0_v24 V0).trans rfl
  have s40 : after ops0 V0 main_v40 = rNormC V0 := (ref0_v40 V0).trans rfl
  have s46 : after ops0 V0 main_v46 = colC (V0 main_arg4) := ref0_v46 V0
  have A1 := (ArgsAt.refl V0).after ops0 ops0_writes (by decide)

  have s87 : after ops1 (after ops0 V0) main_v87 = rH2 V0 := by
    rw [ref1_v87, s15, s24, s40, s46, A1 main_arg5 (by decide), A1 main_arg13 (by decide), A1 main_arg14 (by decide),
      A1 main_arg15 (by decide), A1 main_arg16 (by decide)]
    exact rfl
  have s96 : after ops1 (after ops0 V0) main_v96 = rDisC V0 := by
    rw [ref1_v96, A1 main_arg5 (by decide), A1 main_arg2 (by decide)]
    exact rfl
  have A2 := A1.after ops1 ops1_writes (by decide)

  have r2 : relu2 (after ops1 (after ops0 V0)) = rR2 V0 := by
    unfold relu2
    rw [s87, s96, A2 main_arg4 (by decide), A2 main_arg5 (by decide), A2 main_arg2 (by decide), A2 main_arg17 (by decide)]
    exact rfl
  have A3 := A2.after ops2 ops2_writes (by decide)

  refine ⟨A3.after ops3 ops3_writes (by decide), ?_, ?_, ?_, ref3_v193 _, ?_, ?_⟩
  · rw [ref3_v175, A3 main_arg1 (by decide), A3 main_arg22 (by decide)]
    exact rfl
  · rw [ref3_v184, A3 main_arg7 (by decide), A3 main_arg3 (by decide)]
    exact rfl
  · rw [ref3_v192, A3 main_arg7 (by decide), A3 main_arg3 (by decide), A3 main_arg6 (by decide)]
    exact rfl
  · rw [ref3_v174, ref2_v134, ref2_v138, ref2_v145, r2, A3 main_arg8 (by decide), A3 main_arg18 (by decide),
      A3 main_arg19 (by decide), A3 main_arg20 (by decide), A3 main_arg21 (by decide)]
    exact rfl
  · rw [ref3_v158, ref2_v134, ref2_v138, ref2_v145, r2, A3 main_arg18 (by decide), A3 main_arg19 (by decide)]
    exact rfl

end Cert.ReferenceIdeal.Hand

end
-- ==== Proof.Ref.Vals4.lean ====
import proofs.«408530_j23158463660766_2_alg».proof.Proof.Ref.Ops4
import proofs.«408530_j23158463660766_2_alg».proof.Proof.KI.HostValA
import proofs.«408530_j23158463660766_2_alg».proof.Proof.Ref.Units
import proofs.«408530_j23158463660766_2_alg».proof.Proof.Ref.PostUnits
import proofs.«408530_j23158463660766_2_alg».proof.Proof.Ref.UnitsB

set_option maxRecDepth 1948

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.KernelIdeal.Hand (colF)

variable {F : FTy → Type} [FloatOps F]

theorem ref4_v244 (W : Valuation τ sig (Elt F)) :
    StableHlo.after (ops4 (F := F)) W (Proc.devRef .tc main_v244) = asRowR512 (W main_arg25) := by
  after_results_simp <;> rfl

set_option maxHeartbeats 4000000 in

theorem ref4_v243 (W : Valuation τ sig (Elt F)) :
    StableHlo.after (ops4 (F := F)) W (Proc.devRef .tc main_v243)
      = preShiftR512
          (aggR512 (W main_v175) (W main_arg6) (W main_arg7)
            (normAtF (W main_v192) (W main_v184) (colAtF (W main_v193) (W main_arg7))))
          (W main_v175) (W main_v184) (W main_arg23) (W main_arg24) := by
  after_results_simp <;> rfl

end Cert.ReferenceIdeal.Hand

end
-- ==== Proof.Ref.Vals5.lean ====
import proofs.«408530_j23158463660766_2_alg».proof.Proof.Ref.Ops5
import proofs.«408530_j23158463660766_2_alg».proof.Proof.KI.HostValA
import proofs.«408530_j23158463660766_2_alg».proof.Proof.Ref.Units
import proofs.«408530_j23158463660766_2_alg».proof.Proof.Ref.PostUnits
import proofs.«408530_j23158463660766_2_alg».proof.Proof.Ref.UnitsB

set_option maxRecDepth 1948

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.KernelIdeal.Hand (degF disOf colF normF)

variable {F : FTy → Type} [FloatOps F]

set_option maxHeartbeats 4000000 in

theorem ref5_v293 (W : Valuation τ sig (Elt F)) :
    StableHlo.after (ops5 (F := F)) W (Proc.devRef .tc main_v293)
      = combineR256
          (aggR256 (lin512x256 (shiftRowR512 (W main_v243) (W main_v244)) (W main_arg26)) (W main_arg6) (W main_arg7)
            (normF (disOf (degF (W main_arg7) (W main_arg3))) (W main_arg6) (W main_arg7) (W main_arg3)))
          (lin512x256 (shiftRowR512 (W main_v243) (W main_v244)) (W main_arg26))
          (disOf (degF (W main_arg7) (W main_arg3))) (W main_arg27) := by
  after_results_simp <;> rfl

end Cert.ReferenceIdeal.Hand

end
-- ==== Proof.Ref.Vals6.lean ====
import proofs.«408530_j23158463660766_2_alg».proof.Proof.Ref.Ops6
import proofs.«408530_j23158463660766_2_alg».proof.Proof.KI.HostValC
import proofs.«408530_j23158463660766_2_alg».proof.Proof.Ref.Units
import proofs.«408530_j23158463660766_2_alg».proof.Proof.Ref.PostUnits
import proofs.«408530_j23158463660766_2_alg».proof.Proof.Ref.UnitsB

set_option maxRecDepth 1948

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.KernelIdeal.Hand (lin128 lin64 relu8x128 mlpHead)

variable {F : FTy → Type} [FloatOps F]

set_option maxHeartbeats 4000000 in

theorem ref6_v318 (W : Valuation τ sig (Elt F)) :
    StableHlo.after (ops6 (F := F)) W (Proc.devRef .tc main_v318)
      = normOfCombineR256 (W main_v293) (W main_arg28) (W main_arg29) := by
  after_results_simp <;> rfl

set_option maxHeartbeats 4000000 in

theorem ref6_v334 (W : Valuation τ sig (Elt F)) :
    StableHlo.after (ops6 (F := F)) W (Proc.devRef .tc main_v334)
      = headFR (poolSumR256 (W main_arg9) (normOfCombineR256 (W main_v293) (W main_arg28) (W main_arg29)))
          (poolCntR (W main_arg9)) (W main_arg30) (W main_arg31) := by
  after_results_simp <;> rfl

set_option maxHeartbeats 4000000 in

theorem ref6_v344 (W : Valuation τ sig (Elt F)) :
    StableHlo.after (ops6 (F := F)) W (Proc.devRef .tc main_v344)
      = dot128
          (headFR (poolSumR256 (W main_arg9) (normOfCombineR256 (W main_v293) (W main_arg28) (W main_arg29)))
            (poolCntR (W main_arg9)) (W main_arg30) (W main_arg31))
          (W main_arg36) := by
  after_results_simp <;> rfl

theorem ref6_v343 (W : Valuation τ sig (Elt F)) :
    StableHlo.after (ops6 (F := F)) W (Proc.devRef .tc main_v343)
      = mlpHead (W main_v174) (W main_arg32) (W main_arg33) (W main_arg34) (W main_arg35) := by
  after_results_simp <;> rfl

end Cert.ReferenceIdeal.Hand

end
-- ==== Proof.Ref.Vals7.lean ====
import proofs.«408530_j23158463660766_2_alg».proof.Proof.Ref.Ops7
import proofs.«408530_j23158463660766_2_alg».proof.Proof.KI.HostValC

set_option maxRecDepth 1948

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.KernelIdeal.Hand (bias8x128 lin64 relu8x128 outLin)

variable {F : FTy → Type} [FloatOps F]

theorem ref7_v352 (W : Valuation τ sig (Elt F)) :
    StableHlo.after (ops7 (F := F)) W (Proc.devRef .tc main_v352)
      = lin64 (relu8x128 (addf (W main_v344) (bias8x128 (W main_arg37)))) (W main_arg38) (W main_arg39) := by
  after_results_simp <;> rfl

theorem ref7_v357 (W : Valuation τ sig (Elt F)) :
    StableHlo.after (ops7 (F := F)) W (Proc.devRef .tc main_v357)
      = outLin (W main_v174) (W main_v334) (W main_arg40) (W main_arg41) := by
  after_results_simp <;> rfl

end Cert.ReferenceIdeal.Hand

end
-- ==== Proof.Ref.ValsTail.lean ====
import proofs.«408530_j23158463660766_2_alg».proof.Proof.Ref.Args
import proofs.«408530_j23158463660766_2_alg».proof.Proof.Ref.RVals
import proofs.«408530_j23158463660766_2_alg».proof.Proof.Ref.Vals4
import proofs.«408530_j23158463660766_2_alg».proof.Proof.Ref.Vals5
import proofs.«408530_j23158463660766_2_alg».proof.Proof.Ref.Vals6
import proofs.«408530_j23158463660766_2_alg».proof.Proof.Ref.Vals7

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.KernelIdeal.Hand (degF disOf normF lin128 lin64 relu8x128 mlpHead outLin bias8x128)

variable {F : FTy → Type} [FloatOps F]

set_option maxRecDepth 8192 in
set_option maxHeartbeats 2000000 in
theorem tail_results {V0 W : Valuation τ sig (Elt F)} (hA : ArgsAt V0 W)
    (h175 : W (Proc.devRef .tc main_v175) = rG1 V0)
    (h184 : W (Proc.devRef .tc main_v184) = rDisF V0)
    (h192 : W (Proc.devRef .tc main_v192) = normSrcF (rDisF V0) (V0 main_arg6) (V0 main_arg3))
    (h193 : W (Proc.devRef .tc main_v193) = zeroIdxF)
    (h174 : W (Proc.devRef .tc main_v174) = rCg V0)
    (h158 : W (Proc.devRef .tc main_v158) = rCn V0) :
    after ops7 (after ops6 (after ops5 (after ops4 W))) (Proc.devRef .tc main_v357) = rOut V0
    ∧ after ops7 (after ops6 (after ops5 (after ops4 W))) (Proc.devRef .tc main_v158) = rCn V0
    ∧ after ops7 (after ops6 (after ops5 (after ops4 W))) (Proc.devRef .tc main_v318) = rFn V0
    ∧ after ops7 (after ops6 (after ops5 (after ops4 W))) (Proc.devRef .tc main_v343) = rCproj V0
    ∧ after ops7 (after ops6 (after ops5 (after ops4 W))) (Proc.devRef .tc main_v352) = rFproj V0 := by

  have s243 : after ops4 W main_v243
      = preShiftR512 (aggR512 (rG1 V0) (V0 main_arg6) (V0 main_arg7) (rNormF V0)) (rG1 V0) (rDisF V0) (V0 main_arg23) (V0 main_arg24) := by
    rw [ref4_v243, h175, h184, h192, h193, hA main_arg6 (by decide), hA main_arg7 (by decide), hA main_arg23 (by decide), hA main_arg24 (by decide), ← normF_eq]
    rfl
  have s244 : after ops4 W main_v244 = asRowR512 (V0 main_arg25) := by
    rw [ref4_v244, hA main_arg25 (by decide)]
  have s174_4 := kept_stage ops4_writes (r := main_v174) (by decide) h174
  have s158_4 := kept_stage ops4_writes (r := main_v158) (by decide) h158
  have A5 := hA.after ops4 ops4_writes (by decide)

  have s293 : after ops5 (after ops4 W) main_v293
      = combineR256 (aggR256 (rG2 V0) (V0 main_arg6) (V0 main_arg7) (rNormF V0)) (rG2 V0) (rDisF V0) (V0 main_arg27) := by
    rw [ref5_v293, s243, s244, A5 main_arg3 (by decide), A5 main_arg6 (by decide), A5 main_arg7 (by decide), A5 main_arg26 (by decide), A5 main_arg27 (by decide)]
    rfl
  have s174_5 := kept_stage ops5_writes (r := main_v174) (by decide) s174_4
  have s158_5 := kept_stage ops5_writes (r := main_v158) (by decide) s158_4
  have A6 := A5.after ops5 ops5_writes (by decide)

  have s318 : after ops6 (after ops5 (after ops4 W)) main_v318 = rFn V0 := by
    rw [ref6_v318, s293, A6 main_arg28 (by decide), A6 main_arg29 (by decide)]
    rfl
  have s334 : after ops6 (after ops5 (after ops4 W)) main_v334 = rFg V0 := by
    rw [ref6_v334, s293, A6 main_arg9 (by decide), A6 main_arg28 (by decide), A6 main_arg29 (by decide), A6 main_arg30 (by decide), A6 main_arg31 (by decide)]
    rfl
  have s344 : after ops6 (after ops5 (after ops4 W)) main_v344 = dot128 (rFg V0) (V0 main_arg36) := by
    rw [ref6_v344, s293, A6 main_arg9 (by decide), A6 main_arg28 (by decide), A6 main_arg29 (by decide), A6 main_arg30 (by decide), A6 main_arg31 (by decide), A6 main_arg36 (by decide)]
    rfl
  have s343 : after ops6 (after ops5 (after ops4 W)) main_v343 = rCproj V0 := by
    rw [ref6_v343, s174_5, A6 main_arg32 (by decide), A6 main_arg33 (by decide), A6 main_arg34 (by decide), A6 main_arg35 (by decide)]
    rfl
  have s174_6 := kept_stage ops6_writes (r := main_v174) (by decide) s174_5
  have s158_6 := kept_stage ops6_writes (r := main_v158) (by decide) s158_5
  have A7 := A6.after ops6 ops6_writes (by decide)

  refine ⟨?_, kept_stage ops7_writes (r := main_v158) (by decide) s158_6,
    kept_stage ops7_writes (r := main_v318) (by decide) s318,
    kept_stage ops7_writes (r := main_v343) (by decide) s343, ?_⟩
  · rw [ref7_v357, s174_6, s334, A7 main_arg40 (by decide), A7 main_arg41 (by decide)]
    rfl
  · rw [ref7_v352, s344, A7 main_arg37 (by decide), A7 main_arg38 (by decide), A7 main_arg39 (by decide)]
    rfl

end Cert.ReferenceIdeal.Hand

end
-- ==== Proof.Ref.ValsAll.lean ====
import proofs.«408530_j23158463660766_2_alg».proof.Proof.Ref.Run
import proofs.«408530_j23158463660766_2_alg».proof.Proof.Ref.ValsHead
import proofs.«408530_j23158463660766_2_alg».proof.Proof.Ref.ValsTail

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem vals_all (V : Valuation τ sig (Elt F)) :
    after ops V (Proc.devRef .tc main_v357) = rOut V
    ∧ after ops V (Proc.devRef .tc main_v158) = rCn V
    ∧ after ops V (Proc.devRef .tc main_v318) = rFn V
    ∧ after ops V (Proc.devRef .tc main_v343) = rCproj V
    ∧ after ops V (Proc.devRef .tc main_v352) = rFproj V := by
  rw [after_ops]
  obtain ⟨hA, h175, h184, h192, h193, h174, h158⟩ := head_results V
  exact tail_results hA h175 h184 h192 h193 h174 h158

theorem val_out (V : Valuation τ sig (Elt F)) : after ops V (Proc.devRef .tc main_v357) = rOut V := (vals_all V).1
theorem val_cn (V : Valuation τ sig (Elt F)) : after ops V (Proc.devRef .tc main_v158) = rCn V := (vals_all V).2.1
theorem val_fn (V : Valuation τ sig (Elt F)) : after ops V (Proc.devRef .tc main_v318) = rFn V := (vals_all V).2.2.1
theorem val_cproj (V : Valuation τ sig (Elt F)) : after ops V (Proc.devRef .tc main_v343) = rCproj V := (vals_all V).2.2.2.1
theorem val_fproj (V : Valuation τ sig (Elt F)) : after ops V (Proc.devRef .tc main_v352) = rFproj V := (vals_all V).2.2.2.2

theorem run_results (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v357) = rOut (launchContents m c)
      ∧ r.2.mem ((c.tc : Thread nD τ).loc main_v158) = rCn (launchContents m c)
      ∧ r.2.mem ((c.tc : Thread nD τ).loc main_v318) = rFn (launchContents m c)
      ∧ r.2.mem ((c.tc : Thread nD τ).loc main_v343) = rCproj (launchContents m c)
      ∧ r.2.mem ((c.tc : Thread nD τ).loc main_v352) = rFproj (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41) :=
  (θ_run defs _ _).mono
    (fun s h c =>
      ⟨(h c main_v357).trans (val_out _), (h c main_v158).trans (val_cn _), (h c main_v318).trans (val_fn _), (h c main_v343).trans (val_cproj _), (h c main_v352).trans (val_fproj _),
       (List.forall_iff_forall_mem (l := argRefs)
           (p := fun b => s.2.mem ((c.tc : Thread nD τ).loc b) = m ((c.tc : Thread nD τ).loc b))).mpr
         fun b hb => (h c b).trans (args_kept b hb _)⟩)
    (run m ρ)

end Cert.ReferenceIdeal.Hand

end
-- ==== Proof.Algebraic.lean ====
import proofs.«408530_j23158463660766_2_alg».proof.Proof.Alg
import proofs.«408530_j23158463660766_2_alg».proof.Proof.Ref.ValsAll
import proofs.«408530_j23158463660766_2_alg».proof.Proof.Gen.Pre_finite_inputs

noncomputable section

namespace Cert.Proof

open Idealize.ShloMosaic Idealize.ShloMosaic.TcCoe Idealize.SL.Sem Idealize.ShloMosaic.StableHlo
open Cert.KernelIdeal Cert.KernelIdeal.Gen Cert.KernelIdeal.Hand
open Cert.Bridge

theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m g m' g' hpre hagree
  haveI := Cert.Pre_finite_inputs.Gen.facts
  refine ⟨fun c => W25 (F := Ideal) m c (Proc.devRef .tc main_v198), fun c => W25 (F := Ideal) m c (Proc.devRef .tc main_v104),
    fun c => W25 (F := Ideal) m c (Proc.devRef .tc main_v159), fun c => W25 (F := Ideal) m c (Proc.devRef .tc main_v184),
    fun c => W25 (F := Ideal) m c (Proc.devRef .tc main_v193), ?_, ?_⟩
  · exact (θ_run _ _ _).mono (fun r h c => ⟨(h c).2.1, (h c).2.2.1, (h c).2.2.2.1, (h c).2.2.2.2.1, (h c).2.2.2.2.2, (h c).1⟩)
      (Cert.KernelIdeal.Hand.run (F := Ideal) m g)
  · refine (θ_run _ _ _).mono (fun r h c => ?_) (Cert.ReferenceIdeal.Hand.run_results (F := Ideal) m' g')
    obtain ⟨a0, a1, a2, a3, a4, a5, a6, a7, a8, a9, a10, a11, a12, a13, a14, a15, a16, a17, a18, a19, a20, a21, a22, a23,
      a24, a25, a26, a27, a28, a29, a30, a31, a32, a33, a34, a35, a36, a37, a38, a39, a40, a41⟩ := hagree c
    have hV : Agree m c (launchContents m' c) :=
      ⟨a0, a1, a2, a3, a4, a5, a6, a7, a8, a9, a10, a11, a12, a13, a14, a15, a16, a17, a18, a19, a20, a21, a22, a23,
        a24, a25, a26, a27, a28, a29, a30, a31, a32, a33, a34, a35, a36, a37, a38, a39, a40, a41⟩
    obtain ⟨h0, h1, h2, h3, h4, hargs⟩ := h c
    refine ⟨h0.trans ?_, h1.trans ?_, h2.trans ?_, h3.trans ?_, h4.trans ?_, hargs⟩
    · exact (rOut_eq hpre hV).trans (res_v198 (F := Ideal) m c).symm
    · exact (rCn_eq hpre hV).trans (res_v104 (F := Ideal) m c).symm
    · exact (rFn_eq hpre hV).trans (res_v159 (F := Ideal) m c).symm
    · exact (rCproj_eq hpre hV).trans (res_v184 (F := Ideal) m c).symm
    · exact (rFproj_eq hpre hV).trans (res_v193 (F := Ideal) m c).symm

end Cert.Proof

end
-- ==== Proof.lean ====
/-
  Two graph-convolution branches of two layers each (a linear map, a normalised neighbourhood sum with self-loops, a bias,
  a rectifier, a row normalisation), a mean over each graph and small dense heads. Each program ends, faults nowhere and
  leaves its arguments as launched. At the ideal level the five results agree: on real entries a neighbourhood sum taken
  before a linear map is the one taken after it (distributivity and an exchange of two finite sums), and a product with a
  0/1 membership table summed over row tiles is the sum over each graph; everything else is the same operations.
-/
import proofs.«408530_j23158463660766_2_alg».proof.Defs
import proofs.«408530_j23158463660766_2_alg».proof.Proof.Gen.Kernel
import proofs.«408530_j23158463660766_2_alg».proof.Proof.Gen.KernelIdeal
import proofs.«408530_j23158463660766_2_alg».proof.Proof.Gen.ReferenceIdeal
import proofs.«408530_j23158463660766_2_alg».proof.Proof.Gen.Pre_finite_inputs
import proofs.«408530_j23158463660766_2_alg».proof.Proof.K.FrameK
import proofs.«408530_j23158463660766_2_alg».proof.Proof.KI.FrameKI
import proofs.«408530_j23158463660766_2_alg».proof.Proof.Ref.Frame
import proofs.«408530_j23158463660766_2_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    frame_p, frame_pi, Cert.ReferenceIdeal.Hand.frame, trivial, algebraic⟩

end Cert.Proof

end
